-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v11_0)) (v4 : (c : Dev Cert.KernelIdeal.nD) → Buf (Elt Ideal) ((c.tc : Thread Cert.KernelIdeal.nD Cert.KernelIdeal.τ).loc Cert.KernelIdeal.main_v11_1)) (v5 : (c : Dev Cert.KernelIdeal.nD) → Buf (Elt Ideal) ((c.tc : Thread Cert.KernelIdeal.nD Cert.KernelIdeal.τ).loc Cert.KernelIdeal.main_v10_1)) (v6 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v11_0) = v3 c
          ∧ r.2.mem ((c.tc : Thread Cert.KernelIdeal.nD Cert.KernelIdeal.τ).loc Cert.KernelIdeal.main_v11_1) = v4 c
          ∧ r.2.mem ((c.tc : Thread Cert.KernelIdeal.nD Cert.KernelIdeal.τ).loc Cert.KernelIdeal.main_v10_1) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v190) = v3 c
          ∧ r.2.mem ((c.tc : Thread Cert.ReferenceIdeal.nD Cert.ReferenceIdeal.τ).loc Cert.ReferenceIdeal.main_v209) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v211) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x256 : Shape := ⟨2, ![128, 256]⟩
abbrev S256x512 : Shape := ⟨2, ![256, 512]⟩
abbrev S512 : Shape := ⟨1, ![512]⟩
abbrev S256x1 : Shape := ⟨2, ![256, 1]⟩
abbrev S128x1 : Shape := ⟨2, ![128, 1]⟩
abbrev S16x1 : Shape := ⟨2, ![16, 1]⟩
abbrev S10x16 : Shape := ⟨2, ![10, 16]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S256x1 : S_.BroadcastsInDim S256x1 (![] : Fin 0 → Fin S256x1.rank)
  reducesTo_S256x1_S_d0_1 : S256x1.ReducesTo [0, 1] S_
  bcast_S_S128x1 : S_.BroadcastsInDim S128x1 (![] : Fin 0 → Fin S128x1.rank)
  reducesTo_S128x1_S_d0_1 : S128x1.ReducesTo [0, 1] S_
  bcast_S_S16x1 : S_.BroadcastsInDim S16x1 (![] : Fin 0 → Fin S16x1.rank)
  reducesTo_S16x1_S_d0_1 : S16x1.ReducesTo [0, 1] S_
  bcast_S_S10x16 : S_.BroadcastsInDim S10x16 (![] : Fin 0 → Fin S10x16.rank)
  reducesTo_S10x16_S_d0_1 : S10x16.ReducesTo [0, 1] S_

variable [Facts]

def fn_part6 {F : FTy → Type} [FloatOps F] (main_arg21 : FVec F S16x1 .f32) (main_arg22 : FVec F S16x1 .f32) (main_arg23 : FVec F S10x16 .f32) (main_v98 : IVec S_ 1) (main_v101 : IVec S128x16 1) (main_c_39 : IVec S_ 1) : IVec S_ 1 :=
  let main_v102 : IVec S_ 1 := (fun x v => Host.reduce IntOp.andi x v reducesTo_S128x16_S_d0_1 h_S_) main_v101 main_c_39
  let main_v103 : IVec S_ 1 := andi main_v98 main_v102
  let main_v104 : FVec F S16x1 .f32 := Host.absf main_arg21
  let main_cst_40 : FVec F S_ .f32 := constant S_ .f32 0x7F800000#32
  let main_v105 : FVec F S16x1 .f32 := broadcastInDim S16x1 ![] bcast_S_S16x1 main_cst_40
  let main_v106 : IVec S16x1 1 := cmpf .olt main_v104 main_v105
  let main_c_41 : IVec S_ 1 := constantI S_ 1 1#1
  let main_v107 : IVec S_ 1 := (fun x v => Host.reduce IntOp.andi x v reducesTo_S16x1_S_d0_1 h_S_) main_v106 main_c_41
  let main_v108 : IVec S_ 1 := andi main_v103 main_v107
  let main_v109 : FVec F S16x1 .f32 := Host.absf main_arg22
  let main_cst_42 : FVec F S_ .f32 := constant S_ .f32 0x7F800000#32
  let main_v110 : FVec F S16x1 .f32 := broadcastInDim S16x1 ![] bcast_S_S16x1 main_cst_42
  let main_v111 : IVec S16x1 1 := cmpf .olt main_v109 main_v110
  let main_c_43 : IVec S_ 1 := constantI S_ 1 1#1
  let main_v112 : IVec S_ 1 := (fun x v => Host.reduce IntOp.andi x v reducesTo_S16x1_S_d0_1 h_S_) main_v111 main_c_43
  let main_v113 : IVec S_ 1 := andi main_v108 main_v112
  let main_v114 : FVec F S10x16 .f32 := Host.absf main_arg23
  let main_cst_44 : FVec F S_ .f32 := constant S_ .f32 0x7F800000#32
  let main_v115 : FVec F S10x16 .f32 := broadcastInDim S10x16 ![] bcast_S_S10x16 main_cst_44
  let main_v116 : IVec S10x16 1 := cmpf .olt main_v114 main_v115
  let main_c_45 : IVec S_ 1 := constantI S_ 1 1#1
  let main_v117 : IVec S_ 1 := (fun x v => Host.reduce IntOp.andi x v reducesTo_S10x16_S_d0_1 h_S_) main_v116 main_c_45
  let main_v118 : IVec S_ 1 := andi main_v113 main_v117
  main_v118

def fn_part5 {F : FTy → Type} [FloatOps F] (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S128x1 .f32 := Host.absf main_arg19
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S128x16 .f32 := Host.absf main_arg20
  let main_cst_38 : FVec F S_ .f32 := constant S_ .f32 0x7F800000#32
  let main_v100 : FVec F S128x16 .f32 := broadcastInDim S128x16 ![] bcast_S_S128x16 main_cst_38
  let main_v101 : IVec S128x16 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S512x256 .f32) (main_arg15 : FVec F S256x1 .f32) (main_arg16 : FVec F S256x1 .f32) (main_arg17 : FVec F S256x128 .f32) (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) (main_v63 : IVec S_ 1) (main_v67 : IVec S_ 1) : IVec S_ 1 :=
  let main_v68 : IVec S_ 1 := andi main_v63 main_v67
  let main_v69 : FVec F S512x256 .f32 := Host.absf main_arg14
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256x1 .f32 := Host.absf main_arg15
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256 .f32) (main_arg12 : FVec F S256x512 .f32) (main_arg13 : FVec F S512 .f32) (main_arg14 : FVec F S512x256 .f32) (main_arg15 : FVec F S256x1 .f32) (main_arg16 : FVec F S256x1 .f32) (main_arg17 : FVec F S256x128 .f32) (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S16 .f32) (main_arg8 : FVec F S16x128 .f32) (main_arg9 : FVec F S128 .f32) (main_arg10 : FVec F S128x256 .f32) (main_arg11 : FVec F S256 .f32) (main_arg12 : FVec F S256x512 .f32) (main_arg13 : FVec F S512 .f32) (main_arg14 : FVec F S512x256 .f32) (main_arg15 : FVec F S256x1 .f32) (main_arg16 : FVec F S256x1 .f32) (main_arg17 : FVec F S256x128 .f32) (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x128 .f32 := Host.absf main_arg8
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S256x128 .f32) (main_arg5 : FVec F S128 .f32) (main_arg6 : FVec F S128x16 .f32) (main_arg7 : FVec F S16 .f32) (main_arg8 : FVec F S16x128 .f32) (main_arg9 : FVec F S128 .f32) (main_arg10 : FVec F S128x256 .f32) (main_arg11 : FVec F S256 .f32) (main_arg12 : FVec F S256x512 .f32) (main_arg13 : FVec F S512 .f32) (main_arg14 : FVec F S512x256 .f32) (main_arg15 : FVec F S256x1 .f32) (main_arg16 : FVec F S256x1 .f32) (main_arg17 : FVec F S256x128 .f32) (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S4096x512 .f32) (main_arg1 : FVec F S4096x4096 .f32) (main_arg2 : FVec F S512x256 .f32) (main_arg3 : FVec F S256 .f32) (main_arg4 : FVec F S256x128 .f32) (main_arg5 : FVec F S128 .f32) (main_arg6 : FVec F S128x16 .f32) (main_arg7 : FVec F S16 .f32) (main_arg8 : FVec F S16x128 .f32) (main_arg9 : FVec F S128 .f32) (main_arg10 : FVec F S128x256 .f32) (main_arg11 : FVec F S256 .f32) (main_arg12 : FVec F S256x512 .f32) (main_arg13 : FVec F S512 .f32) (main_arg14 : FVec F S512x256 .f32) (main_arg15 : FVec F S256x1 .f32) (main_arg16 : FVec F S256x1 .f32) (main_arg17 : FVec F S256x128 .f32) (main_arg18 : FVec F S128x1 .f32) (main_arg19 : FVec F S128x1 .f32) (main_arg20 : FVec F S128x16 .f32) (main_arg21 : FVec F S16x1 .f32) (main_arg22 : FVec F S16x1 .f32) (main_arg23 : FVec F S10x16 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x256 : Shape := ⟨2, ![128, 256]⟩
abbrev S256x512 : Shape := ⟨2, ![256, 512]⟩
abbrev S512 : Shape := ⟨1, ![512]⟩
abbrev S256x1 : Shape := ⟨2, ![256, 1]⟩
abbrev S128x1 : Shape := ⟨2, ![128, 1]⟩
abbrev S16x1 : Shape := ⟨2, ![16, 1]⟩
abbrev S10x16 : Shape := ⟨2, ![10, 16]⟩
abbrev S1x256 : Shape := ⟨2, ![1, 256]⟩
abbrev S1x128 : Shape := ⟨2, ![1, 128]⟩
abbrev S1x16 : Shape := ⟨2, ![1, 16]⟩
abbrev S1x512 : Shape := ⟨2, ![1, 512]⟩
abbrev S4096x16 : Shape := ⟨2, ![4096, 16]⟩
abbrev S4096x256 : Shape := ⟨2, ![4096, 256]⟩
abbrev S4096x128 : Shape := ⟨2, ![4096, 128]⟩
abbrev S256x4096 : Shape := ⟨2, ![256, 4096]⟩
abbrev S256x256 : Shape := ⟨2, ![256, 256]⟩
abbrev S4096x1 : Shape := ⟨2, ![4096, 1]⟩
abbrev S1x4096 : Shape := ⟨2, ![1, 4096]⟩
abbrev S1x1 : Shape := ⟨2, ![1, 1]⟩
abbrev S256x16 : Shape := ⟨2, ![256, 16]⟩
abbrev S1x256x4096 : Shape := ⟨3, ![1, 256, 4096]⟩
abbrev S1 : Shape := ⟨1, ![1]⟩
abbrev S1x1x1 : Shape := ⟨3, ![1, 1, 1]⟩
abbrev S4096x10 : Shape := ⟨2, ![4096, 10]⟩
abbrev S4096 : Shape := ⟨1, ![4096]⟩
abbrev S10 : Shape := ⟨1, ![10]⟩
abbrev S10x1 : Shape := ⟨2, ![10, 1]⟩
abbrev S1x10 : Shape := ⟨2, ![1, 10]⟩
abbrev S_ : Shape := ⟨0, ![]⟩

abbrev nBuf : Space → Nat
  | .hbm => 50
  | .vmem => 82
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S16x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x512, .f32⟩
  | .hbm, ⟨13, _⟩ => ⟨S512, .f32⟩
  | .hbm, ⟨14, _⟩ => ⟨S512x256, .f32⟩
  | .hbm, ⟨15, _⟩ => ⟨S256x1, .f32⟩
  | .hbm, ⟨16, _⟩ => ⟨S256x1, .f32⟩
  | .hbm, ⟨17, _⟩ => ⟨S256x128, .f32⟩
  | .hbm, ⟨18, _⟩ => ⟨S128x1, .f32⟩
  | .hbm, ⟨19, _⟩ => ⟨S128x1, .f32⟩
  | .hbm, ⟨20, _⟩ => ⟨S128x16, .f32⟩
  | .hbm, ⟨21, _⟩ => ⟨S16x1, .f32⟩
  | .hbm, ⟨22, _⟩ => ⟨S16x1, .f32⟩
  | .hbm, ⟨23, _⟩ => ⟨S10x16, .f32⟩
  | .hbm, ⟨24, _⟩ => ⟨S1x256, .f32⟩
  | .hbm, ⟨25, _⟩ => ⟨S1x128, .f32⟩
  | .hbm, ⟨26, _⟩ => ⟨S1x16, .f32⟩
  | .hbm, ⟨27, _⟩ => ⟨S1x128, .f32⟩
  | .hbm, ⟨28, _⟩ => ⟨S1x256, .f32⟩
  | .hbm, ⟨29, _⟩ => ⟨S1x512, .f32⟩
  | .hbm, ⟨30, _⟩ => ⟨S4096x512, .f32⟩
  | .hbm, ⟨31, _⟩ => ⟨S4096x16, .f32⟩
  | .hbm, ⟨32, _⟩ => ⟨S4096x256, .f32⟩
  | .hbm, ⟨33, _⟩ => ⟨S4096x128, .f32⟩
  | .hbm, ⟨34, _⟩ => ⟨S4096x256, .f32⟩
  | .hbm, ⟨35, _⟩ => ⟨S4096x256, .f32⟩
  | .hbm, ⟨36, _⟩ => ⟨S4096x128, .f32⟩
  | .hbm, ⟨37, _⟩ => ⟨S4096x128, .f32⟩
  | .hbm, ⟨38, _⟩ => ⟨S4096x16, .f32⟩
  | .hbm, ⟨39, _⟩ => ⟨S1x1, .f32⟩
  | .hbm, ⟨40, _⟩ => ⟨S4096x16, .f32⟩
  | .hbm, ⟨41, _⟩ => ⟨S4096x16, .f32⟩
  | .hbm, ⟨42, _⟩ => ⟨S1x1, .f32⟩
  | .hbm, ⟨43, _⟩ => ⟨S4096x4096, .f32⟩
  | .hbm, ⟨44, _⟩ => ⟨S4096x16, .f32⟩
  | .hbm, ⟨45, _⟩ => ⟨S1x1, .f32⟩
  | .hbm, ⟨46, _⟩ => ⟨S4096x10, .f32⟩
  | .hbm, ⟨47, _⟩ => ⟨S4096x10, .f32⟩
  | .hbm, ⟨48, _⟩ => ⟨S1x1, .f32⟩
  | .hbm, ⟨49, _⟩ => ⟨S_, .f32⟩
  | .local _ .vmem, ⟨0, _⟩ => ⟨S4096x512, .f32⟩
  | .local _ .vmem, ⟨1, _⟩ => ⟨S512x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S128x16, .f32⟩
  | .local _ .vmem, ⟨6, _⟩ => ⟨S1x16, .f32⟩
  | .local _ .vmem, ⟨7, _⟩ => ⟨S16x128, .f32⟩
  | .local _ .vmem, ⟨8, _⟩ => ⟨S1x128, .f32⟩
  | .local _ .vmem, ⟨9, _⟩ => ⟨S128x256, .f32⟩
  | .local _ .vmem, ⟨10, _⟩ => ⟨S1x256, .f32⟩
  | .local _ .vmem, ⟨11, _⟩ => ⟨S256x512, .f32⟩
  | .local _ .vmem, ⟨12, _⟩ => ⟨S1x512, .f32⟩
  | .local _ .vmem, ⟨13, _⟩ => ⟨S512x256, .f32⟩
  | .local _ .vmem, ⟨14, _⟩ => ⟨S4096x512, .f32⟩
  | .local _ .vmem, ⟨15, _⟩ => ⟨S4096x16, .f32⟩
  | .local _ .vmem, ⟨16, _⟩ => ⟨S4096x256, .f32⟩
  | .local _ .vmem, ⟨17, _⟩ => ⟨S4096x128, .f32⟩
  | .local _ .vmem, ⟨18, _⟩ => ⟨S4096x256, .f32⟩
  | .local _ .vmem, ⟨19, _⟩ => ⟨S256x4096, .f32⟩
  | .local _ .vmem, ⟨20, _⟩ => ⟨S256x4096, .f32⟩
  | .local _ .vmem, ⟨21, _⟩ => ⟨S4096x256, .f32⟩
  | .local _ .vmem, ⟨22, _⟩ => ⟨S256x1, .f32⟩
  | .local _ .vmem, ⟨23, _⟩ => ⟨S256x1, .f32⟩
  | .local _ .vmem, ⟨24, _⟩ => ⟨S256x256, .f32⟩
  | .local _ .vmem, ⟨25, _⟩ => ⟨S256x256, .f32⟩
  | .local _ .vmem, ⟨26, _⟩ => ⟨S256x128, .f32⟩
  | .local _ .vmem, ⟨27, _⟩ => ⟨S256x256, .f32⟩
  | .local _ .vmem, ⟨28, _⟩ => ⟨S256x256, .f32⟩
  | .local _ .vmem, ⟨29, _⟩ => ⟨S256x128, .f32⟩
  | .local _ .vmem, ⟨30, _⟩ => ⟨S256x128, .f32⟩
  | .local _ .vmem, ⟨31, _⟩ => ⟨S256x4096, .f32⟩
  | .local _ .vmem, ⟨32, _⟩ => ⟨S256x4096, .f32⟩
  | .local _ .vmem, ⟨33, _⟩ => ⟨S256x256, .f32⟩
  | .local _ .vmem, ⟨34, _⟩ => ⟨S256x256, .f32⟩
  | .local _ .vmem, ⟨35, _⟩ => ⟨S4096x256, .f32⟩
  | .local _ .vmem, ⟨36, _⟩ => ⟨S4096x128, .f32⟩
  | .local _ .vmem, ⟨37, _⟩ => ⟨S128x1, .f32⟩
  | .local _ .vmem, ⟨38, _⟩ => ⟨S128x1, .f32⟩
  | .local _ .vmem, ⟨39, _⟩ => ⟨S256x128, .f32⟩
  | .local _ .vmem, ⟨40, _⟩ => ⟨S256x128, .f32⟩
  | .local _ .vmem, ⟨41, _⟩ => ⟨S128x16, .f32⟩
  | .local _ .vmem, ⟨42, _⟩ => ⟨S256x128, .f32⟩
  | .local _ .vmem, ⟨43, _⟩ => ⟨S256x128, .f32⟩
  | .local _ .vmem, ⟨44, _⟩ => ⟨S256x16, .f32⟩
  | .local _ .vmem, ⟨45, _⟩ => ⟨S256x16, .f32⟩
  | .local _ .vmem, ⟨46, _⟩ => ⟨S1x1, .f32⟩
  | .local _ .vmem, ⟨47, _⟩ => ⟨S256x4096, .f32⟩
  | .local _ .vmem, ⟨48, _⟩ => ⟨S256x4096, .f32⟩
  | .local _ .vmem, ⟨49, _⟩ => ⟨S256x128, .f32⟩
  | .local _ .vmem, ⟨50, _⟩ => ⟨S256x128, .f32⟩
  | .local _ .vmem, ⟨51, _⟩ => ⟨S4096x128, .f32⟩
  | .local _ .vmem, ⟨52, _⟩ => ⟨S4096x16, .f32⟩
  | .local _ .vmem, ⟨53, _⟩ => ⟨S16x1, .f32⟩
  | .local _ .vmem, ⟨54, _⟩ => ⟨S16x1, .f32⟩
  | .local _ .vmem, ⟨55, _⟩ => ⟨S256x16, .f32⟩
  | .local _ .vmem, ⟨56, _⟩ => ⟨S256x16, .f32⟩
  | .local _ .vmem, ⟨57, _⟩ => ⟨S256x16, .f32⟩
  | .local _ .vmem, ⟨58, _⟩ => ⟨S256x16, .f32⟩
  | .local _ .vmem, ⟨59, _⟩ => ⟨S256x16, .f32⟩
  | .local _ .vmem, ⟨60, _⟩ => ⟨S256x16, .f32⟩
  | .local _ .vmem, ⟨61, _⟩ => ⟨S1x1, .f32⟩
  | .local _ .vmem, ⟨62, _⟩ => ⟨S256x4096, .f32⟩
  | .local _ .vmem, ⟨63, _⟩ => ⟨S256x4096, .f32⟩
  | .local _ .vmem, ⟨64, _⟩ => ⟨S256x16, .f32⟩
  | .local _ .vmem, ⟨65, _⟩ => ⟨S256x16, .f32⟩
  | .local _ .vmem, ⟨66, _⟩ => ⟨S4096x16, .f32⟩
  | .local _ .vmem, ⟨67, _⟩ => ⟨S4096x16, .f32⟩
  | .local _ .vmem, ⟨68, _⟩ => ⟨S256x4096, .f32⟩
  | .local _ .vmem, ⟨69, _⟩ => ⟨S256x4096, .f32⟩
  | .local _ .vmem, ⟨70, _⟩ => ⟨S256x16, .f32⟩
  | .local _ .vmem, ⟨71, _⟩ => ⟨S256x16, .f32⟩
  | .local _ .vmem, ⟨72, _⟩ => ⟨S1x1, .f32⟩
  | .local _ .vmem, ⟨73, _⟩ => ⟨S4096x16, .f32⟩
  | .local _ .vmem, ⟨74, _⟩ => ⟨S4096x16, .f32⟩
  | .local _ .vmem, ⟨75, _⟩ => ⟨S10x16, .f32⟩
  | .local _ .vmem, ⟨76, _⟩ => ⟨S1x1, .f32⟩
  | .local _ .vmem, ⟨77, _⟩ => ⟨S1x1, .f32⟩
  | .local _ .vmem, ⟨78, _⟩ => ⟨S1x1, .f32⟩
  | .local _ .vmem, ⟨79, _⟩ => ⟨S4096x10, .f32⟩
  | .local _ .vmem, ⟨80, _⟩ => ⟨S4096x10, .f32⟩
  | .local _ .vmem, ⟨81, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6_0 : Ref sig .tc := ⟨.hbm, 30, rfl⟩
abbrev main_v6_1 : Ref sig .tc := ⟨.hbm, 31, rfl⟩
abbrev main_v6_2 : Ref sig .tc := ⟨.hbm, 32, rfl⟩
abbrev main_v6_3 : Ref sig .tc := ⟨.hbm, 33, rfl⟩
abbrev main_v6_4 : Ref sig .tc := ⟨.hbm, 34, rfl⟩
abbrev main_v7_0 : Ref sig .tc := ⟨.hbm, 35, rfl⟩
abbrev main_v7_1 : Ref sig .tc := ⟨.hbm, 36, rfl⟩
abbrev main_v8_0 : Ref sig .tc := ⟨.hbm, 37, rfl⟩
abbrev main_v8_1 : Ref sig .tc := ⟨.hbm, 38, rfl⟩
abbrev main_v8_2 : Ref sig .tc := ⟨.hbm, 39, rfl⟩
abbrev main_v9_0 : Ref sig .tc := ⟨.hbm, 40, rfl⟩
abbrev main_v9_1 : Ref sig .tc := ⟨.hbm, 41, rfl⟩
abbrev main_v9_2 : Ref sig .tc := ⟨.hbm, 42, rfl⟩
abbrev main_v10_0 : Ref sig .tc := ⟨.hbm, 43, rfl⟩
abbrev main_v10_1 : Ref sig .tc := ⟨.hbm, 44, rfl⟩
abbrev main_v10_2 : Ref sig .tc := ⟨.hbm, 45, rfl⟩
abbrev main_v11_0 : Ref sig .tc := ⟨.hbm, 46, rfl⟩
abbrev main_v11_1 : Ref sig .tc := ⟨.hbm, 47, rfl⟩
abbrev main_v11_2 : Ref sig .tc := ⟨.hbm, 48, rfl⟩
abbrev main_v12 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc2_stg10_0 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc3_stg7_1 : Ref sig .tc := ⟨.vmem, 58, rfl⟩
abbrev cc3_stg8_0 : Ref sig .tc := ⟨.vmem, 59, rfl⟩
abbrev cc3_stg8_1 : Ref sig .tc := ⟨.vmem, 60, rfl⟩
abbrev cc3_stg9_0 : Ref sig .tc := ⟨.vmem, 61, rfl⟩
abbrev cc4_stg0_0 : Ref sig .tc := ⟨.vmem, 62, rfl⟩
abbrev cc4_stg0_1 : Ref sig .tc := ⟨.vmem, 63, rfl⟩
abbrev cc4_stg1_0 : Ref sig .tc := ⟨.vmem, 64, rfl⟩
abbrev cc4_stg1_1 : Ref sig .tc := ⟨.vmem, 65, rfl⟩
abbrev cc4_stg2_0 : Ref sig .tc := ⟨.vmem, 66, rfl⟩
abbrev cc4_stg3_0 : Ref sig .tc := ⟨.vmem, 67, rfl⟩
abbrev cc4_stg4_0 : Ref sig .tc := ⟨.vmem, 68, rfl⟩
abbrev cc4_stg4_1 : Ref sig .tc := ⟨.vmem, 69, rfl⟩
abbrev cc4_stg5_0 : Ref sig .tc := ⟨.vmem, 70, rfl⟩
abbrev cc4_stg5_1 : Ref sig .tc := ⟨.vmem, 71, rfl⟩
abbrev cc4_stg6_0 : Ref sig .tc := ⟨.vmem, 72, rfl⟩
abbrev cc5_stg0_0 : Ref sig .tc := ⟨.vmem, 73, rfl⟩
abbrev cc5_stg1_0 : Ref sig .tc := ⟨.vmem, 74, rfl⟩
abbrev cc5_stg2_0 : Ref sig .tc := ⟨.vmem, 75, rfl⟩
abbrev cc5_stg3_0 : Ref sig .tc := ⟨.vmem, 76, rfl⟩
abbrev cc5_stg4_0 : Ref sig .tc := ⟨.vmem, 77, rfl⟩
abbrev cc5_stg5_0 : Ref sig .tc := ⟨.vmem, 78, rfl⟩
abbrev cc5_stg6_0 : Ref sig .tc := ⟨.vmem, 79, rfl⟩
abbrev cc5_stg7_0 : Ref sig .tc := ⟨.vmem, 80, rfl⟩
abbrev cc5_stg8_0 : Ref sig .tc := ⟨.vmem, 81, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem6_1 : DmaSem sig := 28
abbrev cc1_sem7_0 : DmaSem sig := 29
abbrev cc1_sem7_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem8_0 : DmaSem sig := 42
abbrev cc2_sem8_1 : DmaSem sig := 43
abbrev cc2_sem9_0 : DmaSem sig := 44
abbrev cc2_sem9_1 : DmaSem sig := 45
abbrev cc2_sem10_0 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem6_1 : DmaSem sig := 56
abbrev cc3_sem7_0 : DmaSem sig := 57
abbrev cc3_sem7_1 : DmaSem sig := 58
abbrev cc3_sem8_0 : DmaSem sig := 59
abbrev cc3_sem8_1 : DmaSem sig := 60
abbrev cc3_sem9_0 : DmaSem sig := 61
abbrev cc4_sem0_0 : DmaSem sig := 62
abbrev cc4_sem0_1 : DmaSem sig := 63
abbrev cc4_sem1_0 : DmaSem sig := 64
abbrev cc4_sem1_1 : DmaSem sig := 65
abbrev cc4_sem2_0 : DmaSem sig := 66
abbrev cc4_sem3_0 : DmaSem sig := 67
abbrev cc4_sem4_0 : DmaSem sig := 68
abbrev cc4_sem4_1 : DmaSem sig := 69
abbrev cc4_sem5_0 : DmaSem sig := 70
abbrev cc4_sem5_1 : DmaSem sig := 71
abbrev cc4_sem6_0 : DmaSem sig := 72
abbrev cc5_sem0_0 : DmaSem sig := 73
abbrev cc5_sem1_0 : DmaSem sig := 74
abbrev cc5_sem2_0 : DmaSem sig := 75
abbrev cc5_sem3_0 : DmaSem sig := 76
abbrev cc5_sem4_0 : DmaSem sig := 77
abbrev cc5_sem5_0 : DmaSem sig := 78
abbrev cc5_sem6_0 : DmaSem sig := 79
abbrev cc5_sem7_0 : DmaSem sig := 80
abbrev cc5_sem8_0 : DmaSem sig := 81

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4096x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_7 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_7 : Index := 0#32
  ![v6.toNat, 0]
def k2_cond1 (i : grid2.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_36 : BitVec 32 := 0#32
  let v72 : BitVec 1 := Scalar.cmpi .ne v71 c0_i32_36
  v72

def k2_cond2 (i : grid2.Coords) : BitVec 1 :=
  let arg0 : BitVec 32 := BitVec.ofNat 32 (i 0).val
  let c0_i32_37 : BitVec 32 := 0#32
  let v73 : BitVec 1 := Scalar.cmpi .sgt arg0 c0_i32_37
  let v74 : BitVec 32 := Scalar.extui v73
  let c0_i32_38 : BitVec 32 := 0#32
  let v75 : BitVec 1 := Scalar.cmpi .ne v74 c0_i32_38
  v75

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![16], ![false]⟩

def k3_off1 (i : grid3.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_7 : Index := 0#32
  ![v6.toNat, 0]
def k3_cond1 (i : grid3.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_33 : BitVec 32 := 0#32
  let v70 : BitVec 1 := Scalar.cmpi .ne v69 c0_i32_33
  v70

def k3_cond2 (i : grid3.Coords) : BitVec 1 :=
  let arg0 : BitVec 32 := BitVec.ofNat 32 (i 0).val
  let c0_i32_34 : BitVec 32 := 0#32
  let v71 : BitVec 1 := Scalar.cmpi .sgt arg0 c0_i32_34
  let v72 : BitVec 32 := Scalar.extui v71
  let c0_i32_35 : BitVec 32 := 0#32
  let v73 : BitVec 1 := Scalar.cmpi .ne v72 c0_i32_35
  v73

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x16 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x16 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![16], ![false]⟩

def k4_cond1 (i : grid4.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k4_cond2 (i : grid4.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4096x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x4096 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := .none

abbrev stage5_0 : Fin 1 → Memref sig .tc .vmem S4096x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S4096x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S10x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S4096x10 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S4096x10 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

class Facts₀ : Prop where
  shapeCasts_S256_S1x256 : S256.ShapeCasts S1x256
  shapeCasts_S128_S1x128 : S128.ShapeCasts S1x128
  shapeCasts_S16_S1x16 : S16.ShapeCasts S1x16
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x128_S16x128_0_0 : ∀ a, (![0, 0] : Fin 2 → Nat) a + S16x128.size a ≤ S16x128.size a
  h_S16x128 : 0 < S16x128.numel
  inb_S128x256_S128x256_0_0 : ∀ a, (![0, 0] : Fin 2 → Nat) a + S128x256.size a ≤ S128x256.size a
  h_S128x256 : 0 < S128x256.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x16_S4096x16_0_0 : ∀ a, (![0, 0] : Fin 2 → Nat) a + S4096x16.size a ≤ S4096x16.size a
  h_S4096x16 : 0 < S4096x16.numel
  inb_S4096x256_S4096x256_0_0 : ∀ a, (![0, 0] : Fin 2 → Nat) a + S4096x256.size a ≤ S4096x256.size a
  h_S4096x256 : 0 < S4096x256.numel
  inb_S4096x128_S4096x128_0_0 : ∀ a, (![0, 0] : Fin 2 → Nat) a + S4096x128.size a ≤ S4096x128.size a
  h_S4096x128 : 0 < S4096x128.numel
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S4096x256_S4096x256 : S4096x256.ShapeCasts S4096x256
  h_S256x256 : 0 < S256x256.numel
  shapeCasts_S256x256_S256x256 : S256x256.ShapeCasts S256x256
  transposes_S4096x1_p1_0_S1x4096 : S4096x1.Transposes [1, 0] S1x4096
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  bitsLt_bf16_f32 : FTy.bits .bf16 < FTy.bits .f32
  broadcasts_S256x1_S256x256 : S256x1.Broadcasts S256x256
  inb_S256x256_S256x256_0_0 : ∀ a, (![0, 0] : Fin 2 → Nat) a + S256x256.size a ≤ S256x256.size a
  inb_S128x1_S128x1_0_0 : ∀ a, (![0, 0] : Fin 2 → Nat) a + S128x1.size a ≤ S128x1.size a
  h_S128x1 : 0 < S128x1.numel
  shapeCasts_S4096x128_S4096x128 : S4096x128.ShapeCasts S4096x128
  shapeCasts_S256x128_S256x128 : S256x128.ShapeCasts S256x128
  broadcasts_S256x1_S256x128 : S256x1.Broadcasts S256x128
  inb_S256x16_S256x16_0_0 : ∀ a, (![0, 0] : Fin 2 → Nat) a + S256x16.size a ≤ S256x16.size a
  h_S256x16 : 0 < S256x16.numel
  shapeCasts_S256x4096_S1x256x4096 : S256x4096.ShapeCasts S1x256x4096
  reduces_S1x256x4096_S1 : S1x256x4096.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x1_S16x1_0_0 : ∀ a, (![0, 0] : Fin 2 → Nat) a + S16x1.size a ≤ S16x1.size a
  h_S16x1 : 0 < S16x1.numel
  shapeCasts_S4096x16_S4096x16 : S4096x16.ShapeCasts S4096x16
  shapeCasts_S256x16_S256x16 : S256x16.ShapeCasts S256x16
  broadcasts_S256x1_S256x16 : S256x1.Broadcasts S256x16
  inb_S10x16_S10x16_0_0 : ∀ a, (![0, 0] : Fin 2 → Nat) a + S10x16.size a ≤ S10x16.size a
  h_S10x16 : 0 < S10x16.numel
  reduces_S4096x16_S4096 : S4096x16.Reduces [1] S4096
  shapeCasts_S4096_S4096x1 : S4096.ShapeCasts S4096x1
  reduces_S10x16_S10 : S10x16.Reduces [1] S10
  shapeCasts_S10_S10x1 : S10.ShapeCasts S10x1
  broadcasts_S4096x1_S4096x10 : S4096x1.Broadcasts S4096x10
  transposes_S10x1_p1_0_S1x10 : S10x1.Transposes [1, 0] S1x10
  broadcasts_S1x10_S4096x10 : S1x10.Broadcasts S4096x10
  reduces_S4096x10_S4096 : S4096x10.Reduces [1] S4096
  inb_S4096x10_S4096x10_0_0 : ∀ a, (![0, 0] : Fin 2 → Nat) a + S4096x10.size a ≤ S4096x10.size a
  h_S4096x10 : 0 < S4096x10.numel
  shapeCasts_S1x1_S_ : S1x1.ShapeCasts S_
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x16_S4096x16_1_0_0_1_n_n_wf : DotDims.WF S4096x128 S128x16 S4096x16 [1] [0] [0] [1] [] []
  dot_S4096x16_S16x128_S4096x128_1_0_0_1_n_n_wf : DotDims.WF S4096x16 S16x128 S4096x128 [1] [0] [0] [1] [] []
  dot_S4096x128_S128x256_S4096x256_1_0_0_1_n_n_wf : DotDims.WF S4096x128 S128x256 S4096x256 [1] [0] [0] [1] [] []
  dot_S4096x256_S256x512_S4096x512_1_0_0_1_n_n_wf : DotDims.WF S4096x256 S256x512 S4096x512 [1] [0] [0] [1] [] []
  dot_S256x256_S256x1_S256x1_1_0_0_1_n_n_wf : DotDims.WF S256x256 S256x1 S256x1 [1] [0] [0] [1] [] []
  dot_S4096x256_S256x1_S4096x1_1_0_0_1_n_n_wf : DotDims.WF S4096x256 S256x1 S4096x1 [1] [0] [0] [1] [] []
  dot_S256x4096_S4096x256_S256x256_1_0_0_1_n_n_wf : DotDims.WF S256x4096 S4096x256 S256x256 [1] [0] [0] [1] [] []
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  dot_S4096x128_S128x1_S4096x1_1_0_0_1_n_n_wf : DotDims.WF S4096x128 S128x1 S4096x1 [1] [0] [0] [1] [] []
  dot_S256x4096_S4096x128_S256x128_1_0_0_1_n_n_wf : DotDims.WF S256x4096 S4096x128 S256x128 [1] [0] [0] [1] [] []
  dot_S256x128_S128x16_S256x16_1_0_0_1_n_n_wf : DotDims.WF S256x128 S128x16 S256x16 [1] [0] [0] [1] [] []
  dot_S256x256_S4096x256_S256x4096_1_1_0_0_n_n_wf : DotDims.WF S256x256 S4096x256 S256x4096 [1] [1] [0] [0] [] []
  dot_S256x16_S16x1_S256x1_1_0_0_1_n_n_wf : DotDims.WF S256x16 S16x1 S256x1 [1] [0] [0] [1] [] []
  dot_S4096x16_S16x1_S4096x1_1_0_0_1_n_n_wf : DotDims.WF S4096x16 S16x1 S4096x1 [1] [0] [0] [1] [] []
  dot_S256x4096_S4096x16_S256x16_1_0_0_1_n_n_wf : DotDims.WF S256x4096 S4096x16 S256x16 [1] [0] [0] [1] [] []
  dot_S256x128_S4096x128_S256x4096_1_1_0_0_n_n_wf : DotDims.WF S256x128 S4096x128 S256x4096 [1] [1] [0] [0] [] []
  dot_S256x16_S4096x16_S256x4096_1_1_0_0_n_n_wf : DotDims.WF S256x16 S4096x16 S256x4096 [1] [1] [0] [0] [] []
  dot_S4096x16_S10x16_S4096x10_1_1_0_0_n_n_wf : DotDims.WF S4096x16 S10x16 S4096x10 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hrank1 : 0 < grid1.rank
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .f32 = 32 ∨ (Rect.block (s := S4096x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S4096x256.size a
  hwx1_6 : ∀ i : grid1.Coords, EltTy.bits .f32 = 32 ∨ (Rect.block (s := S4096x256) S256x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S4096x128.size a
  hwx1_7 : ∀ i : grid1.Coords, EltTy.bits .f32 = 32 ∨ (Rect.block (s := S4096x128) S256x128.size (cc1_transform_7 i) (hinb1_7 i)).WholeWords (EltTy.packing .f32)
  hrank2 : 0 < grid2.rank
  k2_off1_inb : ∀ i : grid2.Coords, ∀ a, (k2_off1 i) a + S256x128.size a ≤ S4096x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S4096x256.size a
  hwx2_1 : ∀ i : grid2.Coords, EltTy.bits .f32 = 32 ∨ (Rect.block (s := S4096x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x256.size a
  hwx2_2 : ∀ i : grid2.Coords, EltTy.bits .f32 = 32 ∨ (Rect.block (s := S4096x256) S4096x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S4096x128.size a
  hwx2_3 : ∀ i : grid2.Coords, EltTy.bits .f32 = 32 ∨ (Rect.block (s := S4096x128) S4096x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S4096x128.size a
  hwx2_6 : ∀ i : grid2.Coords, EltTy.bits .f32 = 32 ∨ (Rect.block (s := S4096x128) S256x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x16.size a ≤ S128x16.size a
  hwx2_7 : ∀ i : grid2.Coords, EltTy.bits .f32 = 32 ∨ (Rect.block (s := S128x16) S128x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S4096x128.size a
  hwx2_8 : ∀ i : grid2.Coords, EltTy.bits .f32 = 32 ∨ (Rect.block (s := S4096x128) S256x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x16.size a ≤ S4096x16.size a
  hwx2_9 : ∀ i : grid2.Coords, EltTy.bits .f32 = 32 ∨ (Rect.block (s := S4096x16) S256x16.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hrank3 : 0 < grid3.rank
  k3_off1_inb : ∀ i : grid3.Coords, ∀ a, (k3_off1 i) a + S256x16.size a ≤ S4096x16.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S4096x128.size a
  hwx3_1 : ∀ i : grid3.Coords, EltTy.bits .f32 = 32 ∨ (Rect.block (s := S4096x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S4096x128.size a
  hwx3_2 : ∀ i : grid3.Coords, EltTy.bits .f32 = 32 ∨ (Rect.block (s := S4096x128) S4096x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x16.size a ≤ S4096x16.size a
  hwx3_3 : ∀ i : grid3.Coords, EltTy.bits .f32 = 32 ∨ (Rect.block (s := S4096x16) S4096x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x1.size a ≤ S16x1.size a
  hwx3_4 : ∀ i : grid3.Coords, EltTy.bits .f32 = 32 ∨ (Rect.block (s := S16x1) S16x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x1.size a ≤ S16x1.size a
  hwx3_5 : ∀ i : grid3.Coords, EltTy.bits .f32 = 32 ∨ (Rect.block (s := S16x1) S16x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x16.size a ≤ S4096x16.size a
  hwx3_6 : ∀ i : grid3.Coords, EltTy.bits .f32 = 32 ∨ (Rect.block (s := S4096x16) S256x16.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x16.size a ≤ S4096x16.size a
  hwx3_7 : ∀ i : grid3.Coords, EltTy.bits .f32 = 32 ∨ (Rect.block (s := S4096x16) S256x16.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x16.size a ≤ S4096x16.size a
  hwx3_8 : ∀ i : grid3.Coords, EltTy.bits .f32 = 32 ∨ (Rect.block (s := S4096x16) S256x16.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x4096.size a ≤ S4096x4096.size a
  hwx4_0 : ∀ i : grid4.Coords, EltTy.bits .f32 = 32 ∨ (Rect.block (s := S4096x4096) S256x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x16.size a ≤ S4096x16.size a
  hwx4_1 : ∀ i : grid4.Coords, EltTy.bits .f32 = 32 ∨ (Rect.block (s := S4096x16) S256x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4096x16.size a ≤ S4096x16.size a
  hwx4_2 : ∀ i : grid4.Coords, EltTy.bits .f32 = 32 ∨ (Rect.block (s := S4096x16) S4096x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x16.size a ≤ S4096x16.size a
  hwx4_3 : ∀ i : grid4.Coords, EltTy.bits .f32 = 32 ∨ (Rect.block (s := S4096x16) S4096x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x4096.size a ≤ S4096x4096.size a
  hwx4_4 : ∀ i : grid4.Coords, EltTy.bits .f32 = 32 ∨ (Rect.block (s := S4096x4096) S256x4096.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x16.size a ≤ S4096x16.size a
  hwx4_5 : ∀ i : grid4.Coords, EltTy.bits .f32 = 32 ∨ (Rect.block (s := S4096x16) S256x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage5_6 : ∀ j, (stage5_6 j).IsWhole
  hstage5_7 : ∀ j, (stage5_7 j).IsWhole
  hstage5_8 : ∀ j, (stage5_8 j).IsWhole

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S4096x16_S10x16_S4096x10_1_1_0_0_n_n : DotDims S4096x16 S10x16 S4096x10 where
  lhsContracting := [1]
  rhsContracting := [1]
  lhsNonContracting := [0]
  rhsNonContracting := [0]
  lhsBatch := []
  rhsBatch := []
  wf := dot_S4096x16_S10x16_S4096x10_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_v3) false false (stage0_8 0) (sem0_8 0) (Memref.isWhole_whole _) (hstage0_8 0)

abbrev win0_9 : Pipeline.Window sig grid0 :=
  Pipeline.Window.whole (Memref.whole main_arg10) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_arg12) false false (stage0_11 0) (sem0_11 0) (Memref.isWhole_whole _) (hstage0_11 0)

abbrev win0_12 : Pipeline.Window sig grid0 :=
  Pipeline.Window.whole (Memref.whole main_v5) false false (stage0_12 0) (sem0_12 0) (Memref.isWhole_whole _) (hstage0_12 0)

abbrev win0_13 : Pipeline.Window sig grid0 :=
  Pipeline.Window.whole (Memref.whole main_arg14) false false (stage0_13 0) (sem0_13 0) (Memref.isWhole_whole _) (hstage0_13 0)

abbrev win0_14 : Pipeline.Window sig grid0 :=
  Pipeline.Window.whole (Memref.whole main_v6_0) true false (stage0_14 0) (sem0_14 0) (Memref.isWhole_whole _) (hstage0_14 0)

abbrev win0_15 : Pipeline.Window sig grid0 :=
  Pipeline.Window.whole (Memref.whole main_v6_1) true false (stage0_15 0) (sem0_15 0) (Memref.isWhole_whole _) (hstage0_15 0)

abbrev win0_16 : Pipeline.Window sig grid0 :=
  Pipeline.Window.whole (Memref.whole main_v6_2) true false (stage0_16 0) (sem0_16 0) (Memref.isWhole_whole _) (hstage0_16 0)

abbrev win0_17 : Pipeline.Window sig grid0 :=
  Pipeline.Window.whole (Memref.whole main_v6_3) true false (stage0_17 0) (sem0_17 0) (Memref.isWhole_whole _) (hstage0_17 0)

abbrev win0_18 : Pipeline.Window sig grid0 :=
  Pipeline.Window.whole (Memref.whole main_v6_4) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_4) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_2) S256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7_0) S256x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7_1) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S4096x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7_1) S4096x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6_3) S256x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S128x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8_0) S256x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v8_1) S256x16.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v8_2) S1x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond1 i == 1#1) && !(k2_cond2 i == 1#1) | ⟨_ + 11, h⟩ => absurd h (Nat.not_lt.2 (Nat.le_add_left _ _))

abbrev win3_0 : Pipeline.Window sig grid3 :=
  Pipeline.Window.ofSpec (Memref.whole main_arg1) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8_0) S256x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8_0) S4096x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8_1) S4096x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S16x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg22) S16x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6_1) S256x16.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v9_0) S256x16.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v9_1) S256x16.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v9_2) S1x1.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond1 i == 1#1) && !(k3_cond2 i == 1#1) | ⟨_ + 10, h⟩ => absurd h (Nat.not_lt.2 (Nat.le_add_left _ _))

abbrev win4_0 : Pipeline.Window sig grid4 :=
  Pipeline.Window.ofSpec (Memref.whole main_arg1) S256x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9_0) S256x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9_0) S4096x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9_1) S4096x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10_0) S256x4096.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v10_1) S256x16.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v10_2) S1x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond1 i == 1#1) && !(k4_cond2 i == 1#1) | ⟨_ + 7, h⟩ => absurd h (Nat.not_lt.2 (Nat.le_add_left _ _))

abbrev win5_0 : Pipeline.Window sig grid5 :=
  Pipeline.Window.whole (Memref.whole main_v10_1) false false (stage5_0 0) (sem5_0 0) (Memref.isWhole_whole _) (hstage5_0 0)

abbrev win5_1 : Pipeline.Window sig grid5 :=
  Pipeline.Window.whole (Memref.whole main_v6_1) false false (stage5_1 0) (sem5_1 0) (Memref.isWhole_whole _) (hstage5_1 0)

abbrev win5_2 : Pipeline.Window sig grid5 :=
  Pipeline.Window.whole (Memref.whole main_arg23) false false (stage5_2 0) (sem5_2 0) (Memref.isWhole_whole _) (hstage5_2 0)

abbrev win5_3 : Pipeline.Window sig grid5 :=
  Pipeline.Window.whole (Memref.whole main_v8_2) false false (stage5_3 0) (sem5_3 0) (Memref.isWhole_whole _) (hstage5_3 0)

abbrev win5_4 : Pipeline.Window sig grid5 :=
  Pipeline.Window.whole (Memref.whole main_v9_2) false false (stage5_4 0) (sem5_4 0) (Memref.isWhole_whole _) (hstage5_4 0)

abbrev win5_5 : Pipeline.Window sig grid5 :=
  Pipeline.Window.whole (Memref.whole main_v10_2) false false (stage5_5 0) (sem5_5 0) (Memref.isWhole_whole _) (hstage5_5 0)

abbrev win5_6 : Pipeline.Window sig grid5 :=
  Pipeline.Window.whole (Memref.whole main_v11_0) true false (stage5_6 0) (sem5_6 0) (Memref.isWhole_whole _) (hstage5_6 0)

abbrev win5_7 : Pipeline.Window sig grid5 :=
  Pipeline.Window.whole (Memref.whole main_v11_1) true false (stage5_7 0) (sem5_7 0) (Memref.isWhole_whole _) (hstage5_7 0)

abbrev win5_8 : Pipeline.Window sig grid5 :=
  Pipeline.Window.whole (Memref.whole main_v11_2) true false (stage5_8 0) (sem5_8 0) (Memref.isWhole_whole _) (hstage5_8 0)

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S128x256 : Shape := ⟨2, ![128, 256]⟩
abbrev S256x512 : Shape := ⟨2, ![256, 512]⟩
abbrev S512 : Shape := ⟨1, ![512]⟩
abbrev S256x1 : Shape := ⟨2, ![256, 1]⟩
abbrev S128x1 : Shape := ⟨2, ![128, 1]⟩
abbrev S16x1 : Shape := ⟨2, ![16, 1]⟩
abbrev S10x16 : Shape := ⟨2, ![10, 16]⟩
abbrev S4096x256 : Shape := ⟨2, ![4096, 256]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096x16 : Shape := ⟨2, ![4096, 16]⟩
abbrev S1x16 : Shape := ⟨2, ![1, 16]⟩
abbrev S1x512 : Shape := ⟨2, ![1, 512]⟩
abbrev S4096x1 : Shape := ⟨2, ![4096, 1]⟩
abbrev S1x4096 : Shape := ⟨2, ![1, 4096]⟩
abbrev S4096 : Shape := ⟨1, ![4096]⟩
abbrev S256x4096 : Shape := ⟨2, ![256, 4096]⟩
abbrev S128x4096 : Shape := ⟨2, ![128, 4096]⟩
abbrev S16x4096 : Shape := ⟨2, ![16, 4096]⟩
abbrev S4096x1x16 : Shape := ⟨3, ![4096, 1, 16]⟩
abbrev S1x10x16 : Shape := ⟨3, ![1, 10, 16]⟩
abbrev S4096x10x16 : Shape := ⟨3, ![4096, 10, 16]⟩
abbrev S4096x10 : Shape := ⟨2, ![4096, 10]⟩

abbrev nBuf : Space → Nat
  | .hbm => 342
  | .vmem => 0
  | .smem => 0
  | _ => 0

abbrev hbmTy0_0 (i : Nat) : BufTy := match i % 128 with
  | 0 => ⟨S4096x512, .f32⟩
  | 1 => ⟨S4096x4096, .f32⟩
  | 2 => ⟨S512x256, .f32⟩
  | 3 => ⟨S256, .f32⟩
  | 4 => ⟨S256x128, .f32⟩
  | 5 => ⟨S128, .f32⟩
  | 6 => ⟨S128x16, .f32⟩
  | 7 => ⟨S16, .f32⟩
  | 8 => ⟨S16x128, .f32⟩
  | 9 => ⟨S128, .f32⟩
  | 10 => ⟨S128x256, .f32⟩
  | 11 => ⟨S256, .f32⟩
  | 12 => ⟨S256x512, .f32⟩
  | 13 => ⟨S512, .f32⟩
  | 14 => ⟨S512x256, .f32⟩
  | 15 => ⟨S256x1, .f32⟩
  | 16 => ⟨S256x1, .f32⟩
  | 17 => ⟨S256x128, .f32⟩
  | 18 => ⟨S128x1, .f32⟩
  | 19 => ⟨S128x1, .f32⟩
  | 20 => ⟨S128x16, .f32⟩
  | 21 => ⟨S16x1, .f32⟩
  | 22 => ⟨S16x1, .f32⟩
  | 23 => ⟨S10x16, .f32⟩
  | 24 => ⟨S4096x256, .f32⟩
  | 25 => ⟨S1x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S4096x128, .f32⟩
  | 32 => ⟨S1x128, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S4096x16, .f32⟩
  | 39 => ⟨S1x16, .f32⟩
  | 40 => ⟨S4096x16, .f32⟩
  | 41 => ⟨S4096x16, .f32⟩
  | 42 => ⟨S4096x128, .f32⟩
  | 43 => ⟨S1x128, .f32⟩
  | 44 => ⟨S4096x128, .f32⟩
  | 45 => ⟨S4096x128, .f32⟩
  | 46 => ⟨S_, .f32⟩
  | 47 => ⟨S4096x128, .f32⟩
  | 48 => ⟨S4096x128, .f32⟩
  | 49 => ⟨S4096x256, .f32⟩
  | 50 => ⟨S1x256, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x512, .f32⟩
  | 57 => ⟨S1x512, .f32⟩
  | 58 => ⟨S4096x512, .f32⟩
  | 59 => ⟨S4096x512, .f32⟩
  | 60 => ⟨S4096x256, .f32⟩
  | 61 => ⟨S4096x1, .f32⟩
  | 62 => ⟨S4096x1, .f32⟩
  | 63 => ⟨S1x4096, .f32⟩
  | 64 => ⟨S4096x4096, .f32⟩
  | 65 => ⟨S4096x4096, .f32⟩
  | 66 => ⟨S4096x4096, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S4096x4096, .f32⟩
  | 74 => ⟨S_, .f32⟩
  | 75 => ⟨S4096x4096, .f32⟩
  | 76 => ⟨S4096x4096, .i1⟩
  | 77 => ⟨S_, .f32⟩
  | 78 => ⟨S4096x4096, .f32⟩
  | 79 => ⟨S4096x4096, .f32⟩
  | 80 => ⟨S_, .f32⟩
  | 81 => ⟨S4096, .f32⟩
  | 82 => ⟨S_, .f32⟩
  | 83 => ⟨S4096, .f32⟩
  | 84 => ⟨S4096, .f32⟩
  | 85 => ⟨S4096x1, .f32⟩
  | 86 => ⟨S4096x4096, .f32⟩
  | 87 => ⟨S4096x4096, .f32⟩
  | 88 => ⟨S4096x4096, .f32⟩
  | 89 => ⟨S_, .f32⟩
  | 90 => ⟨S4096, .f32⟩
  | 91 => ⟨S4096x1, .f32⟩
  | 92 => ⟨S4096x4096, .f32⟩
  | 93 => ⟨S4096x4096, .f32⟩
  | 94 => ⟨S4096x256, .f32⟩
  | 95 => ⟨S_, .f32⟩
  | 96 => ⟨S4096x256, .f32⟩
  | 97 => ⟨S4096x256, .i1⟩
  | 98 => ⟨S_, .f32⟩
  | 99 => ⟨S4096x256, .f32⟩
  | 100 => ⟨S4096x256, .i1⟩
  | 101 => ⟨S_, .f32⟩
  | 102 => ⟨S_, .f32⟩
  | 103 => ⟨S4096x256, .f32⟩
  | 104 => ⟨S4096x256, .f32⟩
  | 105 => ⟨S4096x256, .f32⟩
  | 106 => ⟨S_, .f32⟩
  | 107 => ⟨S4096x256, .f32⟩
  | 108 => ⟨S4096x256, .f32⟩
  | 109 => ⟨S4096x256, .f32⟩
  | 110 => ⟨S256x4096, .f32⟩
  | 111 => ⟨S4096x4096, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S4096x4096, .f32⟩
  | 121 => ⟨S4096x4096, .f32⟩
  | 122 => ⟨S_, .f32⟩
  | 123 => ⟨S_, .f32⟩
  | 124 => ⟨S_, .f32⟩
  | 125 => ⟨S_, .f32⟩
  | 126 => ⟨S_, .f32⟩
  | 127 => ⟨S4096x256, .f32⟩
  | _ => ⟨S4096x512, .f32⟩

abbrev hbmTy0_1 (i : Nat) : BufTy := match i % 128 with
  | 0 => ⟨S4096x256, .f32⟩
  | 1 => ⟨S_, .f32⟩
  | 2 => ⟨S4096x256, .f32⟩
  | 3 => ⟨S4096x256, .f32⟩
  | 4 => ⟨S4096x256, .f32⟩
  | 5 => ⟨S4096x128, .f32⟩
  | 6 => ⟨S4096x1, .f32⟩
  | 7 => ⟨S4096x1, .f32⟩
  | 8 => ⟨S1x4096, .f32⟩
  | 9 => ⟨S4096x4096, .f32⟩
  | 10 => ⟨S4096x4096, .f32⟩
  | 11 => ⟨S4096x4096, .f32⟩
  | 12 => ⟨S_, .f32⟩
  | 13 => ⟨S4096x4096, .f32⟩
  | 14 => ⟨S4096x4096, .i1⟩
  | 15 => ⟨S_, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S_, .f32⟩
  | 26 => ⟨S4096, .f32⟩
  | 27 => ⟨S_, .f32⟩
  | 28 => ⟨S4096, .f32⟩
  | 29 => ⟨S4096, .f32⟩
  | 30 => ⟨S4096x1, .f32⟩
  | 31 => ⟨S4096x4096, .f32⟩
  | 32 => ⟨S4096x4096, .f32⟩
  | 33 => ⟨S4096x4096, .f32⟩
  | 34 => ⟨S_, .f32⟩
  | 35 => ⟨S4096, .f32⟩
  | 36 => ⟨S4096x1, .f32⟩
  | 37 => ⟨S4096x4096, .f32⟩
  | 38 => ⟨S4096x4096, .f32⟩
  | 39 => ⟨S4096x128, .f32⟩
  | 40 => ⟨S_, .f32⟩
  | 41 => ⟨S4096x128, .f32⟩
  | 42 => ⟨S4096x128, .i1⟩
  | 43 => ⟨S_, .f32⟩
  | 44 => ⟨S4096x128, .f32⟩
  | 45 => ⟨S4096x128, .i1⟩
  | 46 => ⟨S_, .f32⟩
  | 47 => ⟨S_, .f32⟩
  | 48 => ⟨S4096x128, .f32⟩
  | 49 => ⟨S4096x128, .f32⟩
  | 50 => ⟨S4096x128, .f32⟩
  | 51 => ⟨S_, .f32⟩
  | 52 => ⟨S4096x128, .f32⟩
  | 53 => ⟨S4096x128, .f32⟩
  | 54 => ⟨S4096x128, .f32⟩
  | 55 => ⟨S128x4096, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x4096, .f32⟩
  | 66 => ⟨S4096x4096, .f32⟩
  | 67 => ⟨S_, .f32⟩
  | 68 => ⟨S_, .f32⟩
  | 69 => ⟨S_, .f32⟩
  | 70 => ⟨S_, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x16, .f32⟩
  | 79 => ⟨S4096x1, .f32⟩
  | 80 => ⟨S4096x1, .f32⟩
  | 81 => ⟨S1x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .i1⟩
  | 88 => ⟨S_, .f32⟩
  | 89 => ⟨S4096x4096, .f32⟩
  | 90 => ⟨S4096x4096, .f32⟩
  | 91 => ⟨S4096x4096, .f32⟩
  | 92 => ⟨S_, .f32⟩
  | 93 => ⟨S4096x4096, .f32⟩
  | 94 => ⟨S4096x4096, .i1⟩
  | 95 => ⟨S_, .f32⟩
  | 96 => ⟨S4096x4096, .f32⟩
  | 97 => ⟨S4096x4096, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1, .f32⟩
  | 104 => ⟨S4096x4096, .f32⟩
  | 105 => ⟨S4096x4096, .f32⟩
  | 106 => ⟨S4096x4096, .f32⟩
  | 107 => ⟨S_, .f32⟩
  | 108 => ⟨S4096, .f32⟩
  | 109 => ⟨S4096x1, .f32⟩
  | 110 => ⟨S4096x4096, .f32⟩
  | 111 => ⟨S4096x4096, .f32⟩
  | 112 => ⟨S4096x16, .f32⟩
  | 113 => ⟨S_, .f32⟩
  | 114 => ⟨S4096x16, .f32⟩
  | 115 => ⟨S4096x16, .i1⟩
  | 116 => ⟨S_, .f32⟩
  | 117 => ⟨S4096x16, .f32⟩
  | 118 => ⟨S4096x16, .i1⟩
  | 119 => ⟨S_, .f32⟩
  | 120 => ⟨S_, .f32⟩
  | 121 => ⟨S4096x16, .f32⟩
  | 122 => ⟨S4096x16, .f32⟩
  | 123 => ⟨S4096x16, .f32⟩
  | 124 => ⟨S_, .f32⟩
  | 125 => ⟨S4096x16, .f32⟩
  | 126 => ⟨S4096x16, .f32⟩
  | 127 => ⟨S4096x16, .f32⟩
  | _ => ⟨S4096x512, .f32⟩

abbrev hbmTy0_2 (i : Nat) : BufTy := match i % 128 with
  | 0 => ⟨S16x4096, .f32⟩
  | 1 => ⟨S4096x4096, .f32⟩
  | 2 => ⟨S4096x4096, .f32⟩
  | 3 => ⟨S4096x4096, .f32⟩
  | 4 => ⟨S_, .f32⟩
  | 5 => ⟨S4096x4096, .f32⟩
  | 6 => ⟨S4096x4096, .f32⟩
  | 7 => ⟨S_, .f32⟩
  | 8 => ⟨S4096x4096, .f32⟩
  | 9 => ⟨S4096x4096, .f32⟩
  | 10 => ⟨S4096x4096, .f32⟩
  | 11 => ⟨S4096x4096, .f32⟩
  | 12 => ⟨S_, .f32⟩
  | 13 => ⟨S_, .f32⟩
  | 14 => ⟨S_, .f32⟩
  | 15 => ⟨S_, .f32⟩
  | 16 => ⟨S_, .f32⟩
  | 17 => ⟨S4096x16, .f32⟩
  | 18 => ⟨S4096x16, .f32⟩
  | 19 => ⟨S_, .f32⟩
  | 20 => ⟨S4096x16, .f32⟩
  | 21 => ⟨S4096x16, .f32⟩
  | 22 => ⟨S4096x16, .f32⟩
  | 23 => ⟨S4096x16, .f32⟩
  | 24 => ⟨S16x4096, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x1x16, .f32⟩
  | 35 => ⟨S1x10x16, .f32⟩
  | 36 => ⟨S4096x10x16, .f32⟩
  | 37 => ⟨S4096x10x16, .f32⟩
  | 38 => ⟨S4096x10x16, .f32⟩
  | 39 => ⟨S4096x10x16, .f32⟩
  | 40 => ⟨S_, .f32⟩
  | 41 => ⟨S4096x10, .f32⟩
  | 42 => ⟨S_, .f32⟩
  | 43 => ⟨S4096x10, .f32⟩
  | 44 => ⟨S4096x10, .f32⟩
  | 45 => ⟨S_, .f32⟩
  | 46 => ⟨S4096x10, .f32⟩
  | 47 => ⟨S4096x10, .f32⟩
  | 48 => ⟨S_, .f32⟩
  | 49 => ⟨S4096x10, .f32⟩
  | 50 => ⟨S4096x10, .f32⟩
  | 51 => ⟨S_, .f32⟩
  | 52 => ⟨S4096x10, .f32⟩
  | 53 => ⟨S4096x10, .f32⟩
  | 54 => ⟨S_, .f32⟩
  | 55 => ⟨S4096, .f32⟩
  | 56 => ⟨S4096x1, .f32⟩
  | 57 => ⟨S4096x10, .f32⟩
  | 58 => ⟨S4096x10, .f32⟩
  | 59 => ⟨S4096x1x16, .f32⟩
  | 60 => ⟨S1x10x16, .f32⟩
  | 61 => ⟨S4096x10x16, .f32⟩
  | 62 => ⟨S4096x10x16, .f32⟩
  | 63 => ⟨S4096x10x16, .f32⟩
  | 64 => ⟨S4096x10x16, .f32⟩
  | 65 => ⟨S_, .f32⟩
  | 66 => ⟨S4096x10, .f32⟩
  | 67 => ⟨S_, .f32⟩
  | 68 => ⟨S4096x10, .f32⟩
  | 69 => ⟨S4096x10, .f32⟩
  | 70 => ⟨S_, .f32⟩
  | 71 => ⟨S4096x10, .f32⟩
  | 72 => ⟨S4096x10, .f32⟩
  | 73 => ⟨S_, .f32⟩
  | 74 => ⟨S4096x10, .f32⟩
  | 75 => ⟨S4096x10, .f32⟩
  | 76 => ⟨S_, .f32⟩
  | 77 => ⟨S4096x10, .f32⟩
  | 78 => ⟨S4096x10, .f32⟩
  | 79 => ⟨S_, .f32⟩
  | 80 => ⟨S4096, .f32⟩
  | 81 => ⟨S4096x1, .f32⟩
  | 82 => ⟨S4096x10, .f32⟩
  | 83 => ⟨S4096x10, .f32⟩
  | 84 => ⟨S_, .f32⟩
  | 85 => ⟨S_, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_cst : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_call2_cst : Ref sig .tc := ⟨.hbm, 46, rfl⟩
abbrev main_call2_v0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call3_cst : Ref sig .tc := ⟨.hbm, 53, rfl⟩
abbrev main_call3_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst : Ref sig .tc := ⟨.hbm, 67, rfl⟩
abbrev main_v35 : Ref sig .tc := ⟨.hbm, 68, rfl⟩
abbrev main_v36 : Ref sig .tc := ⟨.hbm, 69, rfl⟩
abbrev main_cst_0 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_1 : Ref sig .tc := ⟨.hbm, 74, rfl⟩
abbrev main_v40 : Ref sig .tc := ⟨.hbm, 75, rfl⟩
abbrev main_v41 : Ref sig .tc := ⟨.hbm, 76, rfl⟩
abbrev main_cst_2 : Ref sig .tc := ⟨.hbm, 77, rfl⟩
abbrev main_call5_v0 : Ref sig .tc := ⟨.hbm, 78, rfl⟩
abbrev main_v42 : Ref sig .tc := ⟨.hbm, 79, rfl⟩
abbrev main_cst_3 : Ref sig .tc := ⟨.hbm, 80, rfl⟩
abbrev main_v43 : Ref sig .tc := ⟨.hbm, 81, rfl⟩
abbrev main_cst_4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call6_cst : Ref sig .tc := ⟨.hbm, 95, rfl⟩
abbrev main_call6_v0 : Ref sig .tc := ⟨.hbm, 96, rfl⟩
abbrev main_call6_v1 : Ref sig .tc := ⟨.hbm, 97, rfl⟩
abbrev main_call6_cst_0 : Ref sig .tc := ⟨.hbm, 98, rfl⟩
abbrev main_call6_v2 : Ref sig .tc := ⟨.hbm, 99, rfl⟩
abbrev main_call6_v3 : Ref sig .tc := ⟨.hbm, 100, rfl⟩
abbrev main_call6_cst_1 : Ref sig .tc := ⟨.hbm, 101, rfl⟩
abbrev main_call6_call0_v0 : Ref sig .tc := ⟨.hbm, 102, rfl⟩
abbrev main_call6_call0_v1 : Ref sig .tc := ⟨.hbm, 103, rfl⟩
abbrev main_call6_v4 : Ref sig .tc := ⟨.hbm, 104, rfl⟩
abbrev main_call6_v5 : Ref sig .tc := ⟨.hbm, 105, rfl⟩
abbrev main_call6_cst_2 : Ref sig .tc := ⟨.hbm, 106, rfl⟩
abbrev main_call6_v6 : Ref sig .tc := ⟨.hbm, 107, rfl⟩
abbrev main_call6_v7 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_6 : Ref sig .tc := ⟨.hbm, 114, rfl⟩
abbrev main_v60 : Ref sig .tc := ⟨.hbm, 115, rfl⟩
abbrev main_v61 : Ref sig .tc := ⟨.hbm, 116, rfl⟩
abbrev main_cst_7 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_8 : Ref sig .tc := ⟨.hbm, 122, rfl⟩
abbrev main_v66 : Ref sig .tc := ⟨.hbm, 123, rfl⟩
abbrev main_cst_9 : Ref sig .tc := ⟨.hbm, 124, rfl⟩
abbrev main_v67 : Ref sig .tc := ⟨.hbm, 125, rfl⟩
abbrev main_cst_10 : Ref sig .tc := ⟨.hbm, 126, rfl⟩
abbrev main_v68 : Ref sig .tc := ⟨.hbm, 127, rfl⟩
abbrev main_v69 : Ref sig .tc := ⟨.hbm, 128, rfl⟩
abbrev main_cst_11 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_12 : Ref sig .tc := ⟨.hbm, 140, rfl⟩
abbrev main_v80 : Ref sig .tc := ⟨.hbm, 141, rfl⟩
abbrev main_v81 : Ref sig .tc := ⟨.hbm, 142, rfl⟩
abbrev main_cst_13 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_14 : Ref sig .tc := ⟨.hbm, 147, rfl⟩
abbrev main_v85 : Ref sig .tc := ⟨.hbm, 148, rfl⟩
abbrev main_v86 : Ref sig .tc := ⟨.hbm, 149, rfl⟩
abbrev main_cst_15 : Ref sig .tc := ⟨.hbm, 150, rfl⟩
abbrev main_call8_v0 : Ref sig .tc := ⟨.hbm, 151, rfl⟩
abbrev main_v87 : Ref sig .tc := ⟨.hbm, 152, rfl⟩
abbrev main_cst_16 : Ref sig .tc := ⟨.hbm, 153, rfl⟩
abbrev main_v88 : Ref sig .tc := ⟨.hbm, 154, rfl⟩
abbrev main_cst_17 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_18 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_call9_cst : Ref sig .tc := ⟨.hbm, 168, rfl⟩
abbrev main_call9_v0 : Ref sig .tc := ⟨.hbm, 169, rfl⟩
abbrev main_call9_v1 : Ref sig .tc := ⟨.hbm, 170, rfl⟩
abbrev main_call9_cst_0 : Ref sig .tc := ⟨.hbm, 171, rfl⟩
abbrev main_call9_v2 : Ref sig .tc := ⟨.hbm, 172, rfl⟩
abbrev main_call9_v3 : Ref sig .tc := ⟨.hbm, 173, rfl⟩
abbrev main_call9_cst_1 : Ref sig .tc := ⟨.hbm, 174, rfl⟩
abbrev main_call9_call0_v0 : Ref sig .tc := ⟨.hbm, 175, rfl⟩
abbrev main_call9_call0_v1 : Ref sig .tc := ⟨.hbm, 176, rfl⟩
abbrev main_call9_v4 : Ref sig .tc := ⟨.hbm, 177, rfl⟩
abbrev main_call9_v5 : Ref sig .tc := ⟨.hbm, 178, rfl⟩
abbrev main_call9_cst_2 : Ref sig .tc := ⟨.hbm, 179, rfl⟩
abbrev main_call9_v6 : Ref sig .tc := ⟨.hbm, 180, rfl⟩
abbrev main_call9_v7 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_19 : Ref sig .tc := ⟨.hbm, 187, rfl⟩
abbrev main_v105 : Ref sig .tc := ⟨.hbm, 188, rfl⟩
abbrev main_v106 : Ref sig .tc := ⟨.hbm, 189, rfl⟩
abbrev main_cst_20 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_cst_21 : Ref sig .tc := ⟨.hbm, 195, rfl⟩
abbrev main_v111 : Ref sig .tc := ⟨.hbm, 196, rfl⟩
abbrev main_cst_22 : Ref sig .tc := ⟨.hbm, 197, rfl⟩
abbrev main_v112 : Ref sig .tc := ⟨.hbm, 198, rfl⟩
abbrev main_cst_23 : Ref sig .tc := ⟨.hbm, 199, rfl⟩
abbrev main_v113 : Ref sig .tc := ⟨.hbm, 200, rfl⟩
abbrev main_v114 : Ref sig .tc := ⟨.hbm, 201, rfl⟩
abbrev main_cst_24 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_cst_25 : Ref sig .tc := ⟨.hbm, 213, rfl⟩
abbrev main_v125 : Ref sig .tc := ⟨.hbm, 214, rfl⟩
abbrev main_v126 : Ref sig .tc := ⟨.hbm, 215, rfl⟩
abbrev main_cst_26 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_cst_27 : Ref sig .tc := ⟨.hbm, 220, rfl⟩
abbrev main_v130 : Ref sig .tc := ⟨.hbm, 221, rfl⟩
abbrev main_v131 : Ref sig .tc := ⟨.hbm, 222, rfl⟩
abbrev main_cst_28 : Ref sig .tc := ⟨.hbm, 223, rfl⟩
abbrev main_call11_v0 : Ref sig .tc := ⟨.hbm, 224, rfl⟩
abbrev main_v132 : Ref sig .tc := ⟨.hbm, 225, rfl⟩
abbrev main_cst_29 : Ref sig .tc := ⟨.hbm, 226, rfl⟩
abbrev main_v133 : Ref sig .tc := ⟨.hbm, 227, rfl⟩
abbrev main_cst_30 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_cst_31 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_call12_cst : Ref sig .tc := ⟨.hbm, 241, rfl⟩
abbrev main_call12_v0 : Ref sig .tc := ⟨.hbm, 242, rfl⟩
abbrev main_call12_v1 : Ref sig .tc := ⟨.hbm, 243, rfl⟩
abbrev main_call12_cst_0 : Ref sig .tc := ⟨.hbm, 244, rfl⟩
abbrev main_call12_v2 : Ref sig .tc := ⟨.hbm, 245, rfl⟩
abbrev main_call12_v3 : Ref sig .tc := ⟨.hbm, 246, rfl⟩
abbrev main_call12_cst_1 : Ref sig .tc := ⟨.hbm, 247, rfl⟩
abbrev main_call12_call0_v0 : Ref sig .tc := ⟨.hbm, 248, rfl⟩
abbrev main_call12_call0_v1 : Ref sig .tc := ⟨.hbm, 249, rfl⟩
abbrev main_call12_v4 : Ref sig .tc := ⟨.hbm, 250, rfl⟩
abbrev main_call12_v5 : Ref sig .tc := ⟨.hbm, 251, rfl⟩
abbrev main_call12_cst_2 : Ref sig .tc := ⟨.hbm, 252, rfl⟩
abbrev main_call12_v6 : Ref sig .tc := ⟨.hbm, 253, rfl⟩
abbrev main_call12_v7 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_cst_32 : Ref sig .tc := ⟨.hbm, 260, rfl⟩
abbrev main_v150 : Ref sig .tc := ⟨.hbm, 261, rfl⟩
abbrev main_v151 : Ref sig .tc := ⟨.hbm, 262, rfl⟩
abbrev main_cst_33 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_cst_34 : Ref sig .tc := ⟨.hbm, 268, rfl⟩
abbrev main_v156 : Ref sig .tc := ⟨.hbm, 269, rfl⟩
abbrev main_cst_35 : Ref sig .tc := ⟨.hbm, 270, rfl⟩
abbrev main_v157 : Ref sig .tc := ⟨.hbm, 271, rfl⟩
abbrev main_cst_36 : Ref sig .tc := ⟨.hbm, 272, rfl⟩
abbrev main_v158 : Ref sig .tc := ⟨.hbm, 273, rfl⟩
abbrev main_v159 : Ref sig .tc := ⟨.hbm, 274, rfl⟩
abbrev main_cst_37 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_cst_38 : Ref sig .tc := ⟨.hbm, 284, rfl⟩
abbrev main_v168 : Ref sig .tc := ⟨.hbm, 285, rfl⟩
abbrev main_v169 : Ref sig .tc := ⟨.hbm, 286, rfl⟩
abbrev main_cst_39 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_cst_40 : Ref sig .tc := ⟨.hbm, 296, rfl⟩
abbrev main_v178 : Ref sig .tc := ⟨.hbm, 297, rfl⟩
abbrev main_cst_41 : Ref sig .tc := ⟨.hbm, 298, rfl⟩
abbrev main_v179 : Ref sig .tc := ⟨.hbm, 299, rfl⟩
abbrev main_v180 : Ref sig .tc := ⟨.hbm, 300, rfl⟩
abbrev main_cst_42 : Ref sig .tc := ⟨.hbm, 301, rfl⟩
abbrev main_v181 : Ref sig .tc := ⟨.hbm, 302, rfl⟩
abbrev main_v182 : Ref sig .tc := ⟨.hbm, 303, rfl⟩
abbrev main_cst_43 : Ref sig .tc := ⟨.hbm, 304, rfl⟩
abbrev main_v183 : Ref sig .tc := ⟨.hbm, 305, rfl⟩
abbrev main_v184 : Ref sig .tc := ⟨.hbm, 306, rfl⟩
abbrev main_cst_44 : Ref sig .tc := ⟨.hbm, 307, rfl⟩
abbrev main_v185 : Ref sig .tc := ⟨.hbm, 308, rfl⟩
abbrev main_v186 : Ref sig .tc := ⟨.hbm, 309, rfl⟩
abbrev main_cst_45 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_v193 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_cst_46 : Ref sig .tc := ⟨.hbm, 321, rfl⟩
abbrev main_v197 : Ref sig .tc := ⟨.hbm, 322, rfl⟩
abbrev main_cst_47 : Ref sig .tc := ⟨.hbm, 323, rfl⟩
abbrev main_v198 : Ref sig .tc := ⟨.hbm, 324, rfl⟩
abbrev main_v199 : Ref sig .tc := ⟨.hbm, 325, rfl⟩
abbrev main_cst_48 : Ref sig .tc := ⟨.hbm, 326, rfl⟩
abbrev main_v200 : Ref sig .tc := ⟨.hbm, 327, rfl⟩
abbrev main_v201 : Ref sig .tc := ⟨.hbm, 328, rfl⟩
abbrev main_cst_49 : Ref sig .tc := ⟨.hbm, 329, rfl⟩
abbrev main_v202 : Ref sig .tc := ⟨.hbm, 330, rfl⟩
abbrev main_v203 : Ref sig .tc := ⟨.hbm, 331, rfl⟩
abbrev main_cst_50 : Ref sig .tc := ⟨.hbm, 332, rfl⟩
abbrev main_v204 : Ref sig .tc := ⟨.hbm, 333, rfl⟩
abbrev main_v205 : Ref sig .tc := ⟨.hbm, 334, rfl⟩
abbrev main_cst_51 : Ref sig .tc := ⟨.hbm, 335, rfl⟩
abbrev main_v206 : Ref sig .tc := ⟨.hbm, 336, rfl⟩
abbrev main_v207 : Ref sig .tc := ⟨.hbm, 337, rfl⟩
abbrev main_v208 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  transposes_S4096x256_S256x4096_1_0 : S4096x256.Transposes [1, 0] S256x4096
  reducesTo_S4096x4096_S_d0_1 : S4096x4096.ReducesTo [0, 1] S_
  transposes_S4096x128_S128x4096_1_0 : S4096x128.Transposes [1, 0] S128x4096
  bcast_S_S4096x16 : S_.BroadcastsInDim S4096x16 (![] : Fin 0 → Fin S4096x16.rank)
  transposes_S4096x16_S16x4096_1_0 : S4096x16.Transposes [1, 0] S16x4096
  bcast_S4096x16_S4096x1x16_0_2 : S4096x16.BroadcastsInDim S4096x1x16 (![0, 2] : Fin 2 → Fin S4096x1x16.rank)
  bcast_S10x16_S1x10x16_1_2 : S10x16.BroadcastsInDim S1x10x16 (![1, 2] : Fin 2 → Fin S1x10x16.rank)
  bcast_S4096x1x16_S4096x10x16_0_1_2 : S4096x1x16.BroadcastsInDim S4096x10x16 (![0, 1, 2] : Fin 3 → Fin S4096x10x16.rank)
  bcast_S1x10x16_S4096x10x16_0_1_2 : S1x10x16.BroadcastsInDim S4096x10x16 (![0, 1, 2] : Fin 3 → Fin S4096x10x16.rank)
  reducesTo_S4096x10x16_S4096x10_d2 : S4096x10x16.ReducesTo [2] S4096x10
  bcast_S_S4096x10 : S_.BroadcastsInDim S4096x10 (![] : Fin 0 → Fin S4096x10.rank)
  reducesTo_S4096x10_S4096_d1 : S4096x10.ReducesTo [1] S4096
  bcast_S4096x1_S4096x10_0_1 : S4096x1.BroadcastsInDim S4096x10 (![0, 1] : Fin 2 → Fin S4096x10.rank)
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x16_S4096x16_1_0_0_1_n_n_wf : DotDims.WF S4096x128 S128x16 S4096x16 [1] [0] [0] [1] [] []
  dot_S4096x16_S16x128_S4096x128_1_0_0_1_n_n_wf : DotDims.WF S4096x16 S16x128 S4096x128 [1] [0] [0] [1] [] []
  dot_S4096x128_S128x256_S4096x256_1_0_0_1_n_n_wf : DotDims.WF S4096x128 S128x256 S4096x256 [1] [0] [0] [1] [] []
  dot_S4096x256_S256x512_S4096x512_1_0_0_1_n_n_wf : DotDims.WF S4096x256 S256x512 S4096x512 [1] [0] [0] [1] [] []
  dot_S4096x256_S256x1_S4096x1_1_0_0_1_n_n_wf : DotDims.WF S4096x256 S256x1 S4096x1 [1] [0] [0] [1] [] []
  dot_S4096x4096_S4096x256_S4096x256_1_0_0_1_n_n_wf : DotDims.WF S4096x4096 S4096x256 S4096x256 [1] [0] [0] [1] [] []
  dot_S4096x256_S256x4096_S4096x4096_1_0_0_1_n_n_wf : DotDims.WF S4096x256 S256x4096 S4096x4096 [1] [0] [0] [1] [] []
  dot_S4096x128_S128x1_S4096x1_1_0_0_1_n_n_wf : DotDims.WF S4096x128 S128x1 S4096x1 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []
  dot_S4096x16_S16x1_S4096x1_1_0_0_1_n_n_wf : DotDims.WF S4096x16 S16x1 S4096x1 [1] [0] [0] [1] [] []
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Ideal.Region.lean ====
import proofs.«156812_g12472585028273_cont_sun_m_131_10_alg».proof.Proof.Gen.KernelIdeal.Launch
import proofs.«156812_g12472585028273_cont_sun_m_131_10_alg».proof.Proof.Gen.KernelIdeal.Skeleton
import proofs.«156812_g12472585028273_cont_sun_m_131_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Rg

open Cert.KernelIdeal Idealize.ShloMosaic Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable {c : Thread nD τ} {sp : Space} {sh : Shape} {e : EltTy} {m : Memref sig c.2.kind sp sh e} {q : PosShare TreeShare}
  {f : m.view.ty.Contents (Elt F)}

-- A buffer a body only reads is handed back at the contents it was taken at.
theorem kept : (m.view.loc c ↦[m.view.set]{q} f : sProp 𝕄)
    ⊢ iprop(∃ g, ⌜m.view.read (Elt F) g = m.view.read (Elt F) f⌝ ∗ (m.view.loc c ↦[m.view.set]{q} g)) :=
  owns_intro c m q f

-- One store through a rectangle that tiles the shape leaves the payload, whatever the buffer held.
theorem stored (r : Rect sh) (size : Fin sh.rank → ℕ) {p : r.shape.Idx → Elt F e}
    (h : ∀ p' : r.shape.Idx → Elt F e, View.Piece.tiled [(⟨r, p'⟩ : View.Piece (Elt F) sh e)] size = true) :
    (m.view.loc c ↦[m.view.set]{q} m.view.writes (Elt F) f [⟨r, p⟩] : sProp 𝕄)
      ⊢ iprop(∃ g, ⌜m.view.read (Elt F) g = View.canon [⟨r, p⟩]⌝ ∗ (m.view.loc c ↦[m.view.set]{q} g)) :=
  View.read_writes_eq_canon m.view f _ (View.cover_of_tiled _ size (h p)) ▸ owns_intro c m q _

end Cert.KernelIdeal.Rg

end
-- ==== Proof.Ideal.Region0.lean ====
import proofs.«156812_g12472585028273_cont_sun_m_131_10_alg».proof.Proof.Ideal.Region

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev all4096x512 : Rect S4096x512 := Rect.unit (s := S4096x512) ![0, 0] S4096x512.size inb_S4096x512_S4096x512_0_0
abbrev all512x256 : Rect S512x256 := Rect.unit (s := S512x256) ![0, 0] S512x256.size inb_S512x256_S512x256_0_0
abbrev all1x256 : Rect S1x256 := Rect.unit (s := S1x256) ![0, 0] S1x256.size inb_S1x256_S1x256_0_0
abbrev all256x128 : Rect S256x128 := Rect.unit (s := S256x128) ![0, 0] S256x128.size inb_S256x128_S256x128_0_0
abbrev all1x128 : Rect S1x128 := Rect.unit (s := S1x128) ![0, 0] S1x128.size inb_S1x128_S1x128_0_0
abbrev all128x16 : Rect S128x16 := Rect.unit (s := S128x16) ![0, 0] S128x16.size inb_S128x16_S128x16_0_0
abbrev all1x16 : Rect S1x16 := Rect.unit (s := S1x16) ![0, 0] S1x16.size inb_S1x16_S1x16_0_0
abbrev all16x128 : Rect S16x128 := Rect.unit (s := S16x128) ![0, 0] S16x128.size inb_S16x128_S16x128_0_0
abbrev all128x256 : Rect S128x256 := Rect.unit (s := S128x256) ![0, 0] S128x256.size inb_S128x256_S128x256_0_0
abbrev all256x512 : Rect S256x512 := Rect.unit (s := S256x512) ![0, 0] S256x512.size inb_S256x512_S256x512_0_0
abbrev all1x512 : Rect S1x512 := Rect.unit (s := S1x512) ![0, 0] S1x512.size inb_S1x512_S1x512_0_0
abbrev all4096x16 : Rect S4096x16 := Rect.unit (s := S4096x16) ![0, 0] S4096x16.size inb_S4096x16_S4096x16_0_0
abbrev all4096x256 : Rect S4096x256 := Rect.unit (s := S4096x256) ![0, 0] S4096x256.size inb_S4096x256_S4096x256_0_0
abbrev all4096x128 : Rect S4096x128 := Rect.unit (s := S4096x128) ![0, 0] S4096x128.size inb_S4096x128_S4096x128_0_0

def out0_16 (x0 : Vec F S4096x512 .f32) (x1 : Vec F S512x256 .f32) (x2 : Vec F S1x256 .f32) : Vec F S4096x256 .f32 :=
  View.canon [⟨all4096x256, k0_pay3 (View.ld x0 all4096x512) (View.ld x1 all512x256) (View.ld x2 all1x256)⟩]

def out0_17 (x0 : Vec F S4096x512 .f32) (x1 : Vec F S512x256 .f32) (x2 : Vec F S1x256 .f32) (x3 : Vec F S256x128 .f32)
    (x4 : Vec F S1x128 .f32) : Vec F S4096x128 .f32 :=
  View.canon [⟨all4096x128, k0_pay4 (View.ld x0 all4096x512) (View.ld x1 all512x256) (View.ld x2 all1x256)
    (View.ld x3 all256x128) (View.ld x4 all1x128)⟩]

def out0_15 (x0 : Vec F S4096x512 .f32) (x1 : Vec F S512x256 .f32) (x2 : Vec F S1x256 .f32) (x3 : Vec F S256x128 .f32)
    (x4 : Vec F S1x128 .f32) (x5 : Vec F S128x16 .f32) (x6 : Vec F S1x16 .f32) : Vec F S4096x16 .f32 :=
  View.canon [⟨all4096x16, k0_pay5 (View.ld x0 all4096x512) (View.ld x1 all512x256) (View.ld x2 all1x256)
    (View.ld x3 all256x128) (View.ld x4 all1x128) (View.ld x5 all128x16) (View.ld x6 all1x16)⟩]

def out0_14 (x0 : Vec F S4096x512 .f32) (x1 : Vec F S512x256 .f32) (x2 : Vec F S1x256 .f32) (x3 : Vec F S256x128 .f32)
    (x4 : Vec F S1x128 .f32) (x5 : Vec F S128x16 .f32) (x6 : Vec F S1x16 .f32) (x7 : Vec F S16x128 .f32)
    (x8 : Vec F S1x128 .f32) (x9 : Vec F S128x256 .f32) (x10 : Vec F S1x256 .f32) (x11 : Vec F S256x512 .f32)
    (x12 : Vec F S1x512 .f32) : Vec F S4096x512 .f32 :=
  View.canon [⟨all4096x512, k0_pay1
    (k0_pay6 (View.ld x0 all4096x512) (View.ld x1 all512x256) (View.ld x2 all1x256) (View.ld x3 all256x128)
      (View.ld x4 all1x128) (View.ld x5 all128x16) (View.ld x6 all1x16) (View.ld x7 all16x128) (View.ld x8 all1x128))
    (View.ld x9 all128x256) (constant S4096x256 .f32 0x00000000#32 : FVec F S4096x256 .f32)
    (View.ld x10 all1x256) (View.ld x11 all256x512) (View.ld x12 all1x512)⟩]

def out0_18 (x0 : Vec F S4096x512 .f32) (x13 : Vec F S512x256 .f32) : Vec F S4096x256 .f32 :=
  View.canon [⟨all4096x256, k0_pay2 (View.ld x0 all4096x512) (View.ld x13 all512x256)⟩]

set_option maxHeartbeats 1000000 in
theorem sound_kernel0 (c : Dev nD) {E : Set ℕ}
    {arg0 arg14 : Memref sig .tc .vmem S4096x512 .f32} {arg1 arg13 : Memref sig .tc .vmem S512x256 .f32} {arg2 arg10 : Memref sig .tc .vmem S1x256 .f32} {arg3 : Memref sig .tc .vmem S256x128 .f32} {arg4 arg8 : Memref sig .tc .vmem S1x128 .f32} {arg5 : Memref sig .tc .vmem S128x16 .f32} {arg6 : Memref sig .tc .vmem S1x16 .f32} {arg7 : Memref sig .tc .vmem S16x128 .f32} {arg9 : Memref sig .tc .vmem S128x256 .f32} {arg11 : Memref sig .tc .vmem S256x512 .f32} {arg12 : Memref sig .tc .vmem S1x512 .f32} {arg15 : Memref sig .tc .vmem S4096x16 .f32} {arg16 arg18 : Memref sig .tc .vmem S4096x256 .f32} {arg17 : Memref sig .tc .vmem S4096x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole}
    (x0 : Vec F S4096x512 .f32) (x1 : Vec F S512x256 .f32) (x2 : Vec F S1x256 .f32) (x3 : Vec F S256x128 .f32)
    (x4 : Vec F S1x128 .f32) (x5 : Vec F S128x16 .f32) (x6 : Vec F S1x16 .f32) (x7 : Vec F S16x128 .f32)
    (x8 : Vec F S1x128 .f32) (x9 : Vec F S128x256 .f32) (x10 : Vec F S1x256 .f32) (x11 : Vec F S256x512 .f32)
    (x12 : Vec F S1x512 .f32) (x13 : Vec F S512x256 .f32) (K : PUnit → sProp 𝕄) :
    iprop(owns c arg0 fullShare x0 ∗ owns c arg1 fullShare x1 ∗ owns c arg2 fullShare x2
        ∗ owns c arg3 fullShare x3 ∗ owns c arg4 fullShare x4 ∗ owns c arg5 fullShare x5
        ∗ owns c arg6 fullShare x6 ∗ owns c arg7 fullShare x7 ∗ owns c arg8 fullShare x8
        ∗ owns c arg9 fullShare x9 ∗ owns c arg10 fullShare x10 ∗ owns c arg11 fullShare x11
        ∗ owns c arg12 fullShare x12 ∗ owns c arg13 fullShare x13
        ∗ (∃ d, owns c arg14 fullShare d) ∗ (∃ d, owns c arg15 fullShare d)
        ∗ (∃ d, owns c arg16 fullShare d) ∗ (∃ d, owns c arg17 fullShare d)
        ∗ (∃ d, owns c arg18 fullShare d)
        ∗ (iprop(owns c arg0 fullShare x0 ∗ owns c arg1 fullShare x1 ∗ owns c arg2 fullShare x2
            ∗ owns c arg3 fullShare x3 ∗ owns c arg4 fullShare x4 ∗ owns c arg5 fullShare x5
            ∗ owns c arg6 fullShare x6 ∗ owns c arg7 fullShare x7 ∗ owns c arg8 fullShare x8
            ∗ owns c arg9 fullShare x9 ∗ owns c arg10 fullShare x10 ∗ owns c arg11 fullShare x11
            ∗ owns c arg12 fullShare x12 ∗ owns c arg13 fullShare x13
            ∗ owns c arg14 fullShare (out0_14 x0 x1 x2 x3 x4 x5 x6 x7 x8 x9 x10 x11 x12)
            ∗ owns c arg15 fullShare (out0_15 x0 x1 x2 x3 x4 x5 x6)
            ∗ owns c arg16 fullShare (out0_16 x0 x1 x2)
            ∗ owns c arg17 fullShare (out0_17 x0 x1 x2 x3 x4)
            ∗ owns c arg18 fullShare (out0_18 x0 x13)) -∗ K ⟨⟩))
      ⊢ wp frame (wpE (defs₀ (F := F)) Variants.none c none) E
          (cc0__k0 arg0 harg0 arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17 arg18 harg18) K := by
  simp only [cc0__k0_eq_skeleton]; unfold cc0__k0_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13
  sl_exec
  sl_step
  iapply Hk
  isplitl [H0]; · iapply kept $$ H0
  isplitl [H1]; · iapply kept $$ H1
  isplitl [H2]; · iapply kept $$ H2
  isplitl [H3]; · iapply kept $$ H3
  isplitl [H4]; · iapply kept $$ H4
  isplitl [H5]; · iapply kept $$ H5
  isplitl [H6]; · iapply kept $$ H6
  isplitl [H7]; · iapply kept $$ H7
  isplitl [H8]; · iapply kept $$ H8
  isplitl [H9]; · iapply kept $$ H9
  isplitl [H10]; · iapply kept $$ H10
  isplitl [H11]; · iapply kept $$ H11
  isplitl [H12]; · iapply kept $$ H12
  isplitl [H13]; · iapply kept $$ H13
  isplitl [H14]; · iapply stored all4096x512 S4096x512.size (fun _ => rfl) $$ H14
  isplitl [H15]; · iapply stored all4096x16 S4096x16.size (fun _ => rfl) $$ H15
  isplitl [H16]; · iapply stored all4096x256 S4096x256.size (fun _ => rfl) $$ H16
  isplitl [H17]; · iapply stored all4096x128 S4096x128.size (fun _ => rfl) $$ H17
  iapply stored all4096x256 S4096x256.size (fun _ => rfl) $$ H18

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t)
        (iblk0 V c 6 t)
    | ⟨16, _⟩ => out0_16 (iblk0 V c 0 t) (iblk0 V c 1 t) (iblk0 V c 2 t)
    | ⟨17, _⟩ => out0_17 (iblk0 V c 0 t) (iblk0 V c 1 t) (iblk0 V c 2 t) (iblk0 V c 3 t) (iblk0 V c 4 t)
    | ⟨18, _⟩ => out0_18 (iblk0 V c 0 t) (iblk0 V c 13 t)
    | ⟨_ + 19, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_eq0 (c : Dev nD) (t : Fin (cfg0.N + 1)) : (dat0 V c).Φ t = Pipeline.ΦA spec0 c := by
  dsimp only [dat0]

theorem owed_eq0 (c : Dev nD) (t : Fin (cfg0.N + 1)) : (dat0 V c).owed t = 0 := by
  dsimp only [dat0]

theorem q_eq0 (c : Dev nD) (w : Fin cfg0.W) : (dat0 V c).q w = fullShare := by
  dsimp only [dat0]

theorem after0_14 (c : Dev nD) (t : Fin cfg0.N) : (dat0 V c).after 14 t
    = out0_14 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) (iblk0 V c 12 t) := by
  dsimp only [dat0]
theorem after0_15 (c : Dev nD) (t : Fin cfg0.N) : (dat0 V c).after 15 t
    = out0_15 (iblk0 V c 0 t) (iblk0 V c 1 t) (iblk0 V c 2 t) (iblk0 V c 3 t) (iblk0 V c 4 t) (iblk0 V c 5 t)
        (iblk0 V c 6 t) := by
  dsimp only [dat0]
theorem after0_16 (c : Dev nD) (t : Fin cfg0.N) : (dat0 V c).after 16 t
    = out0_16 (iblk0 V c 0 t) (iblk0 V c 1 t) (iblk0 V c 2 t) := by
  dsimp only [dat0]
theorem after0_17 (c : Dev nD) (t : Fin cfg0.N) : (dat0 V c).after 17 t
    = out0_17 (iblk0 V c 0 t) (iblk0 V c 1 t) (iblk0 V c 2 t) (iblk0 V c 3 t) (iblk0 V c 4 t) := by
  dsimp only [dat0]
theorem after0_18 (c : Dev nD) (t : Fin cfg0.N) : (dat0 V c).after 18 t
    = out0_18 (iblk0 V c 0 t) (iblk0 V c 13 t) := by
  dsimp only [dat0]

set_option maxHeartbeats 1000000 in
theorem body_obligation0 (c : Dev nD) : BodyObligation (dat0 (F := F) V c) (defs₀ (F := F)) Variants.none () Set.univ := fun t => by
  rw [bigSep_W0, bigSep_W0]
  show _ ⊢ wp frame _ _ (bodyAt0 t) _
  have bf := fun (w : Fin 19) h d => (dat0 V c).before_fetched w t h d
  simp only [bf 0 (fetch0_0 t), bf 1 (fetch0_1 t), bf 2 (fetch0_2 t), bf 3 (fetch0_3 t), bf 4 (fetch0_4 t), bf 5 (fetch0_5 t), bf 6 (fetch0_6 t), bf 7 (fetch0_7 t), bf 8 (fetch0_8 t), bf 9 (fetch0_9 t), bf 10 (fetch0_10 t), bf 11 (fetch0_11 t), bf 12 (fetch0_12 t), bf 13 (fetch0_13 t)]
  rw [Phi_eq0, Phi_eq0,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  iintro H
  isplitl [HΦ]; · iexact HΦ
  isplitl [Ho]; · iexact Ho
  dsimp only [dat0]
  iexact H

end Cert.KernelIdeal.Rg
-- ==== Proof.Ideal.Region1.lean ====
import proofs.«156812_g12472585028273_cont_sun_m_131_10_alg».proof.Proof.Ideal.Region

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_adj : Rect S256x4096 := Rect.unit (s := S256x4096) ![0, 0] S256x4096.size inb_S256x4096_S256x4096_0_0
abbrev r1_h : Rect S4096x256 := Rect.unit (s := S4096x256) ![0, 0] S4096x256.size inb_S4096x256_S4096x256_0_0
abbrev r1_a : Rect S256x1 := Rect.unit (s := S256x1) ![0, 0] S256x1.size inb_S256x1_S256x1_0_0
abbrev r1_sq : Rect S256x256 := Rect.unit (s := S256x256) ![0, 0] S256x256.size inb_S256x256_S256x256_0_0
abbrev r1_w : Rect S256x128 := Rect.unit (s := S256x128) ![0, 0] S256x128.size inb_S256x128_S256x128_0_0
abbrev r1_rows (i : grid1.Coords) : Rect S4096x256 := Rect.unit (s := S4096x256) (k1_off1 i) S256x256.size (k1_off1_inb i)

def att1 (i : grid1.Coords) (x0 : Vec F S256x4096 .f32) (x1 : Vec F S4096x256 .f32) (x2 x3 : Vec F S256x1 .f32) : FVec F S256x256 .f32 :=
  k1_pay3 (View.ld x0 r1_adj) (View.ld x2 r1_a) (View.ld x3 r1_a) (View.ld x1 r1_h) (View.ld x1 (r1_rows i))

def pos1 (i : grid1.Coords) (x0 : Vec F S256x4096 .f32) (x1 : Vec F S4096x256 .f32) (x2 x3 : Vec F S256x1 .f32) : IVec S256x256 1 :=
  k1_pay4 (View.ld x0 r1_adj) (View.ld x2 r1_a) (View.ld x3 r1_a) (View.ld x1 r1_h) (View.ld x1 (r1_rows i))

def out1_6 (i : grid1.Coords) (x0 : Vec F S256x4096 .f32) (x1 : Vec F S4096x256 .f32) (x2 x3 : Vec F S256x1 .f32) : Vec F S256x256 .f32 :=
  View.canon [⟨r1_sq, k1_pay1 (att1 i x0 x1 x2 x3) (pos1 i x0 x1 x2 x3) (Scalar.ofBits .f32 0x00000000#32)⟩]

def out1_7 (i : grid1.Coords) (x0 : Vec F S256x4096 .f32) (x1 : Vec F S4096x256 .f32) (x2 x3 : Vec F S256x1 .f32)
    (x4 : Vec F S256x256 .f32) (x5 : Vec F S256x128 .f32) : Vec F S256x128 .f32 :=
  View.canon [⟨r1_w, k1_pay2 (att1 i x0 x1 x2 x3) (pos1 i x0 x1 x2 x3) (Scalar.ofBits .f32 0x00000000#32) (View.ld x4 r1_sq) (View.ld x5 r1_w)⟩]

set_option maxHeartbeats 1000000 in
-- Each output's one store covers its whole shape, so what it leaves is a function of the inputs alone.
theorem sound_kernel1 (c : Dev nD) (E : Set ℕ) (i : grid1.Coords) {arg1 : Memref sig .tc .vmem S256x4096 .f32} (harg1 : arg1.IsWhole)
    {arg2 : Memref sig .tc .vmem S4096x256 .f32} (harg2 : arg2.IsWhole) {arg3 arg4 : Memref sig .tc .vmem S256x1 .f32} (harg3 : arg3.IsWhole)
    (harg4 : arg4.IsWhole) {arg5 : Memref sig .tc .vmem S256x256 .f32} (harg5 : arg5.IsWhole) {arg6 : Memref sig .tc .vmem S256x128 .f32}
    (harg6 : arg6.IsWhole) {arg7 : Memref sig .tc .vmem S256x256 .f32} (harg7 : arg7.IsWhole) {arg8 : Memref sig .tc .vmem S256x128 .f32}
    (harg8 : arg8.IsWhole) (x0 : Vec F S256x4096 .f32) (x1 : Vec F S4096x256 .f32) (x2 x3 : Vec F S256x1 .f32) (x4 d6 : Vec F S256x256 .f32)
    (x5 d7 : Vec F S256x128 .f32) (K : PUnit → sProp 𝕄) :
    iprop(owns c.tc arg1 fullShare x0 ∗ owns c.tc arg2 fullShare x1 ∗ owns c.tc arg3 fullShare x2 ∗ owns c.tc arg4 fullShare x3
        ∗ owns c.tc arg5 fullShare x4 ∗ owns c.tc arg6 fullShare x5 ∗ owns c.tc arg7 fullShare d6 ∗ owns c.tc arg8 fullShare d7
        ∗ (iprop(owns c.tc arg1 fullShare x0 ∗ owns c.tc arg2 fullShare x1 ∗ owns c.tc arg3 fullShare x2 ∗ owns c.tc arg4 fullShare x3
            ∗ owns c.tc arg5 fullShare x4 ∗ owns c.tc arg6 fullShare x5 ∗ owns c.tc arg7 fullShare (out1_6 i x0 x1 x2 x3)
            ∗ owns c.tc arg8 fullShare (out1_7 i x0 x1 x2 x3 x4 x5)) -∗ K ⟨⟩))
      ⊢ wp frame (wpE (defs₀ (F := F)) Variants.none c none) E (cc1__s1 i arg1 harg1 arg2 harg2 arg3 harg3 arg4 harg4 arg5 harg5 arg6 harg6 arg7 harg7 arg8 harg8) K := by
  simp only [cc1__s1_eq_skeleton]; unfold cc1__s1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst hf0 hf1 hf2 hf3 hf4 hf5
  sl_exec
  sl_step
  iapply Hk
  isplitl [H0]; · iapply kept $$ H0
  isplitl [H1]; · iapply kept $$ H1
  isplitl [H2]; · iapply kept $$ H2
  isplitl [H3]; · iapply kept $$ H3
  isplitl [H4]; · iapply kept $$ H4
  isplitl [H5]; · iapply kept $$ H5
  isplitl [H6]; · iapply stored r1_sq S256x256.size (fun _ => rfl) $$ H6
  iapply stored r1_w S256x128.size (fun _ => rfl) $$ H7

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t)
    | ⟨7, _⟩ => out1_7 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl
theorem Phi_eq1 (c : Dev nD) (t : Fin (cfg1.N + 1)) : (dat1 V c).Φ t = Pipeline.ΦA spec1 c := rfl
theorem owed_eq1 (c : Dev nD) (t : Fin (cfg1.N + 1)) : (dat1 V c).owed t = 0 := rfl
theorem q_eq1 (c : Dev nD) (w : Fin cfg1.W) : (dat1 V c).q w = fullShare := rfl
theorem after1_6 (c : Dev nD) (t : Fin cfg1.N) : (dat1 V c).after 6 t
    = out1_6 (grid1.coords t) (iblk1 V c 0 t) (iblk1 V c 1 t) (iblk1 V c 2 t) (iblk1 V c 3 t) := by dsimp only [dat1]
theorem after1_7 (c : Dev nD) (t : Fin cfg1.N) : (dat1 V c).after 7 t
    = out1_7 (grid1.coords t) (iblk1 V c 0 t) (iblk1 V c 1 t) (iblk1 V c 2 t) (iblk1 V c 3 t) (iblk1 V c 4 t) (iblk1 V c 5 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ ∀ d, (dat1 V c).before 5 t d = iblk1 V c 5 t := by
  refine ⟨?_, ?_, ?_, ?_, ?_, ?_⟩ <;>
    exact fun d => ((dat1 V c).before_in_eq_fetched _ rfl (fun _ => rfl) (fun _ _ _ => rfl) (fun _ => rfl) t d).trans rfl

theorem after1 (c : Dev nD) (t : Fin cfg1.N) :
    (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t :=
  ⟨rfl, rfl, rfl, rfl, rfl, rfl⟩

theorem body_obligation1 (c : Dev nD) : BodyObligation (dat1 (F := F) V c) (defs₀ (F := F)) Variants.none () Set.univ := fun t => by
  rw [bigSep_W1, bigSep_W1]
  obtain ⟨b0, b1, b2, b3, b4, b5⟩ := before1 V c t
  obtain ⟨a0, a1, a2, a3, a4, a5⟩ := after1 V c t
  simp only [b0, b1, b2, b3, b4, b5, a0, a1, a2, a3, a4, a5, after1_6, after1_7, Phi_eq1]
  rw [show (dat1 V c).owesAt () t.succ = (dat1 V c).owesAt () t.castSucc from rfl]
  iintro ⟨HΦ, Ho, ⟨%_, H0⟩, ⟨%_, H1⟩, ⟨%_, H2⟩, ⟨%_, H3⟩, ⟨%_, H4⟩, ⟨%_, H5⟩, ⟨%d6, H6⟩, ⟨%d7, H7⟩⟩
  iapply (sound_kernel1 c Set.univ (grid1.coords t) _ _ _ _ _ _ _ _ (iblk1 V c 0 t) (iblk1 V c 1 t) (iblk1 V c 2 t) (iblk1 V c 3 t)
    (iblk1 V c 4 t) ((dat1 V c).before 6 t d6) (iblk1 V c 5 t) ((dat1 V c).before 7 t d7) _)
  iframe H0 H1 H2 H3 H4 H5 H6 H7
  iintro H
  iframe

end Cert.KernelIdeal.Rg

end
-- ==== Proof.Ideal.Region2.lean ====
import proofs.«156812_g12472585028273_cont_sun_m_131_10_alg».proof.Proof.Ideal.Region

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_adj : Rect S256x4096 := Rect.unit (s := S256x4096) ![0, 0] S256x4096.size inb_S256x4096_S256x4096_0_0
abbrev r2_g1rows : Rect S256x256 := Rect.unit (s := S256x256) ![0, 0] S256x256.size inb_S256x256_S256x256_0_0
abbrev r2_g1 : Rect S4096x256 := Rect.unit (s := S4096x256) ![0, 0] S4096x256.size inb_S4096x256_S4096x256_0_0
abbrev r2_h2 : Rect S4096x128 := Rect.unit (s := S4096x128) ![0, 0] S4096x128.size inb_S4096x128_S4096x128_0_0
abbrev r2_h2rows (i : grid2.Coords) : Rect S4096x128 := Rect.unit (s := S4096x128) (k2_off1 i) S256x128.size (k2_off1_inb i)
abbrev r2_att : Rect S128x1 := Rect.unit (s := S128x1) ![0, 0] S128x1.size inb_S128x1_S128x1_0_0
abbrev r2_rows128 : Rect S256x128 := Rect.unit (s := S256x128) ![0, 0] S256x128.size inb_S256x128_S256x128_0_0
abbrev r2_w3 : Rect S128x16 := Rect.unit (s := S128x16) ![0, 0] S128x16.size inb_S128x16_S128x16_0_0
abbrev r2_rows16 : Rect S256x16 := Rect.unit (s := S256x16) ![0, 0] S256x16.size inb_S256x16_S256x16_0_0
abbrev r2_cell : Rect S1x1 := Rect.unit (s := S1x1) ![0, 0] S1x1.size inb_S1x1_S1x1_0_0

def agg2 (i : grid2.Coords) (x0 : Vec F S256x4096 .f32) (x3 : Vec F S4096x128 .f32) (x4 x5 : Vec F S128x1 .f32) : FVec F S256x128 .f32 :=
  k2_pay2 (View.ld x0 r2_adj) (View.ld x4 r2_att) (View.ld x5 r2_att) (View.ld x3 r2_h2) (View.ld x3 (r2_h2rows i))

def aggPos2 (i : grid2.Coords) (x0 : Vec F S256x4096 .f32) (x3 : Vec F S4096x128 .f32) (x4 x5 : Vec F S128x1 .f32) : IVec S256x128 1 :=
  k2_pay3 (View.ld x0 r2_adj) (View.ld x4 r2_att) (View.ld x5 r2_att) (View.ld x3 r2_h2) (View.ld x3 (r2_h2rows i))

def act2 (i : grid2.Coords) (x0 : Vec F S256x4096 .f32) (x3 : Vec F S4096x128 .f32) (x4 x5 : Vec F S128x1 .f32) : FVec F S256x128 .f32 :=
  k2_pay4 (agg2 i x0 x3 x4 x5) (aggPos2 i x0 x3 x4 x5) (Scalar.ofBits .f32 0x00000000#32)

def proj2 (i : grid2.Coords) (x0 : Vec F S256x4096 .f32) (x3 : Vec F S4096x128 .f32) (x4 x5 : Vec F S128x1 .f32)
    (x6 : Vec F S256x128 .f32) (x7 : Vec F S128x16 .f32) : FVec F S256x16 .f32 :=
  k2_pay5 (agg2 i x0 x3 x4 x5) (aggPos2 i x0 x3 x4 x5) (Scalar.ofBits .f32 0x00000000#32) (View.ld x6 r2_rows128) (View.ld x7 r2_w3)

def lossTerm2 (x0 : Vec F S256x4096 .f32) (x1 : Vec F S256x256 .f32) (x2 : Vec F S4096x256 .f32) : FVec F S1x1 .f32 :=
  k2_pay6 (View.ld x0 r2_adj) (View.ld x1 r2_g1rows) (View.ld x2 r2_g1)

def out2_8 (i : grid2.Coords) (x0 : Vec F S256x4096 .f32) (x3 : Vec F S4096x128 .f32) (x4 x5 : Vec F S128x1 .f32) : Vec F S256x128 .f32 :=
  View.canon [⟨r2_rows128, act2 i x0 x3 x4 x5⟩]

def out2_9 (i : grid2.Coords) (x0 : Vec F S256x4096 .f32) (x3 : Vec F S4096x128 .f32) (x4 x5 : Vec F S128x1 .f32)
    (x6 : Vec F S256x128 .f32) (x7 : Vec F S128x16 .f32) : Vec F S256x16 .f32 :=
  View.canon [⟨r2_rows16, proj2 i x0 x3 x4 x5 x6 x7⟩]

def out2_10_first (x0 : Vec F S256x4096 .f32) (x1 : Vec F S256x256 .f32) (x2 : Vec F S4096x256 .f32) : Vec F S1x1 .f32 :=
  View.canon [⟨r2_cell, lossTerm2 x0 x1 x2⟩]

def out2_10_next (x0 : Vec F S256x4096 .f32) (x1 : Vec F S256x256 .f32) (x2 : Vec F S4096x256 .f32) (acc : Vec F S1x1 .f32) : Vec F S1x1 .f32 :=
  View.canon [⟨r2_cell, k2_pay1 (lossTerm2 x0 x1 x2) (View.ld acc r2_cell)⟩]

def outsAt2 (c : Dev nD) : (n : ℕ) → n < cfg2.N → Vec F S1x1 .f32
  | 0, hn => out2_10_first (iblk2 V c 0 ⟨0, hn⟩) (iblk2 V c 1 ⟨0, hn⟩) (iblk2 V c 2 ⟨0, hn⟩)
  | n + 1, hn => out2_10_next (iblk2 V c 0 ⟨n + 1, hn⟩) (iblk2 V c 1 ⟨n + 1, hn⟩) (iblk2 V c 2 ⟨n + 1, hn⟩) (outsAt2 c n (Nat.lt_of_succ_lt hn))

theorem outsAt2_zero (c : Dev nD) (hn : 0 < cfg2.N) :
    outsAt2 V c 0 hn = out2_10_first (iblk2 V c 0 ⟨0, hn⟩) (iblk2 V c 1 ⟨0, hn⟩) (iblk2 V c 2 ⟨0, hn⟩) := rfl

theorem outsAt2_succ (c : Dev nD) (n : ℕ) (hn : n + 1 < cfg2.N) :
    outsAt2 V c (n + 1) hn = out2_10_next (iblk2 V c 0 ⟨n + 1, hn⟩) (iblk2 V c 1 ⟨n + 1, hn⟩) (iblk2 V c 2 ⟨n + 1, hn⟩) (outsAt2 V c n (Nat.lt_of_succ_lt hn)) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (grid2.coords t) (iblk2 V c 0 t) (iblk2 V c 3 t) (iblk2 V c 4 t) (iblk2 V c 5 t)
    | ⟨9, _⟩ => out2_9 (grid2.coords t) (iblk2 V c 0 t) (iblk2 V c 3 t) (iblk2 V c 4 t) (iblk2 V c 5 t) (iblk2 V c 6 t) (iblk2 V c 7 t)
    | ⟨10, _⟩ => outsAt2 V c t.val t.isLt
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := rfl
theorem Phi_eq2 (c : Dev nD) (t : Fin (cfg2.N + 1)) : (dat2 V c).Φ t = Pipeline.ΦA spec2 c := rfl
theorem owed_eq2 (c : Dev nD) (t : Fin (cfg2.N + 1)) : (dat2 V c).owed t = 0 := rfl
theorem q_eq2 (c : Dev nD) (w : Fin cfg2.W) :
    (dat2 V c).q w = match w with
      | ⟨1, _⟩ => fullShare.left
      | ⟨2, _⟩ => fullShare.right
      | _ => fullShare := by dsimp only [dat2]
theorem after2_8 (c : Dev nD) (t : Fin cfg2.N) :
    (dat2 V c).after 8 t = out2_8 (grid2.coords t) (iblk2 V c 0 t) (iblk2 V c 3 t) (iblk2 V c 4 t) (iblk2 V c 5 t) := by dsimp only [dat2]
theorem after2_9 (c : Dev nD) (t : Fin cfg2.N) :
    (dat2 V c).after 9 t = out2_9 (grid2.coords t) (iblk2 V c 0 t) (iblk2 V c 3 t) (iblk2 V c 4 t) (iblk2 V c 5 t) (iblk2 V c 6 t) (iblk2 V c 7 t) := by dsimp only [dat2]
theorem after2_10 (c : Dev nD) (t : Fin cfg2.N) : (dat2 V c).after 10 t = outsAt2 V c t.val t.isLt := by dsimp only [dat2]

theorem hcond2 : ∀ i : grid2.Coords, k2_cond1 i = 1#1 ∧ ¬ k2_cond2 i = 1#1 ∨ ¬ k2_cond1 i = 1#1 ∧ k2_cond2 i = 1#1 := by decide +kernel
theorem hcond2_1 : ∀ t : Fin cfg2.N, k2_cond1 (grid2.coords t) = 1#1 ↔ t.val = 0 :=
  (by decide +kernel : ∀ t : Fin grid2.N, k2_cond1 (grid2.coords t) = 1#1 ↔ t.val = 0)
theorem live2_10 : ∀ i : grid2.Coords, cfg2.idle 10 i = false := by decide +kernel
theorem liveAt2_10 (t : Fin cfg2.N) : cfg2.idle 10 (cfg2.grid.coords t) = false := live2_10 _

set_option maxHeartbeats 4000000 in
-- Each output's one store covers its whole shape; the last cell gets the point's term, alone at the first point and added to what it held at a later one.
theorem sound_kernel2 (c : Dev nD) (E : Set ℕ) (i : grid2.Coords) {arg1 : Memref sig .tc .vmem S256x4096 .f32} (harg1 : arg1.IsWhole)
    {arg2 : Memref sig .tc .vmem S256x256 .f32} (harg2 : arg2.IsWhole) {arg3 : Memref sig .tc .vmem S4096x256 .f32} (harg3 : arg3.IsWhole)
    {arg4 : Memref sig .tc .vmem S4096x128 .f32} (harg4 : arg4.IsWhole) {arg5 arg6 : Memref sig .tc .vmem S128x1 .f32} (harg5 : arg5.IsWhole)
    (harg6 : arg6.IsWhole) {arg7 : Memref sig .tc .vmem S256x128 .f32} (harg7 : arg7.IsWhole) {arg8 : Memref sig .tc .vmem S128x16 .f32}
    (harg8 : arg8.IsWhole) {arg9 : Memref sig .tc .vmem S256x128 .f32} (harg9 : arg9.IsWhole) {arg10 : Memref sig .tc .vmem S256x16 .f32}
    (harg10 : arg10.IsWhole) {arg11 : Memref sig .tc .vmem S1x1 .f32} (harg11 : arg11.IsWhole) (x0 : Vec F S256x4096 .f32)
    (x1 : Vec F S256x256 .f32) (x2 : Vec F S4096x256 .f32) (x3 : Vec F S4096x128 .f32) (x4 x5 : Vec F S128x1 .f32) (x6 d8 : Vec F S256x128 .f32)
    (x7 : Vec F S128x16 .f32) (d9 : Vec F S256x16 .f32) (acc : Vec F S1x1 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
        ∗ owns c.tc arg9 fullShare d8 ∗ owns c.tc arg10 fullShare d9 ∗ owns c.tc arg11 fullShare acc
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
            ∗ owns c.tc arg9 fullShare (out2_8 i x0 x3 x4 x5) ∗ owns c.tc arg10 fullShare (out2_9 i x0 x3 x4 x5 x6 x7)
            ∗ owns c.tc arg11 fullShare (if k2_cond1 i = 1#1 then out2_10_first x0 x1 x2 else out2_10_next x0 x1 x2 acc)) -∗ K ⟨⟩))
      ⊢ wp frame (wpE (defs₀ (F := F)) Variants.none c none) E (cc2__s2 i arg1 harg1 arg2 harg2 arg3 harg3 arg4 harg4 arg5 harg5 arg6 harg6 arg7 harg7 arg8 harg8 arg9 harg9 arg10 harg10 arg11 harg11) K := by
  obtain ⟨hc1, hc2⟩ | ⟨hc1, hc2⟩ := hcond2 i <;> (first | rw [if_pos hc1] | rw [if_neg hc1])
  all_goals
    simp only [cc2__s2_eq_skeleton]; unfold cc2__s2_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, -, H9⟩, ⟨%f10, %hf10, H10⟩, Hk⟩
    subst hf0 hf1 hf2 hf3 hf4 hf5 hf6 hf7 hf10
    sl_exec (disch := first | exact hc1 | exact hc2)
    sl_step
    iapply Hk
    isplitl [H0]; · iapply kept $$ H0
    isplitl [H1]; · iapply kept $$ H1
    isplitl [H2]; · iapply kept $$ H2
    isplitl [H3]; · iapply kept $$ H3
    isplitl [H4]; · iapply kept $$ H4
    isplitl [H5]; · iapply kept $$ H5
    isplitl [H6]; · iapply kept $$ H6
    isplitl [H7]; · iapply kept $$ H7
    isplitl [H8]; · iapply stored r2_rows128 S256x128.size (fun _ => rfl) $$ H8
    isplitl [H9]; · iapply stored r2_rows16 S256x16.size (fun _ => rfl) $$ H9
    iapply stored r2_cell S1x1.size (fun _ => rfl) $$ H10

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) ∧ ∀ d, (dat2 V c).before 7 t d = iblk2 V c 7 t := by
  refine ⟨?_, ?_, ?_, ?_, ?_, ?_, ?_, ?_⟩ <;>
    exact fun d => ((dat2 V c).before_in_eq_fetched _ rfl (fun _ => rfl) (fun _ _ _ => rfl) (fun _ => rfl) t d).trans rfl

theorem before2_10_later (c : Dev nD) (t : Fin cfg2.N) (h0 : t.val ≠ 0) (d) :
    (dat2 V c).before 10 t d = outsAt2 V c (t.val - 1) (Nat.lt_of_le_of_lt (Nat.sub_le _ _) t.isLt) := by
  have hN : t.val < 16 := lt_of_lt_of_eq t.isLt (show cfg2.N = 16 from N_2)
  rw [Dat.before_out_kept _ 10 rfl t h0 (Bool.eq_false_iff.mpr fun h => by have := (flush2_10 _).mp h; dsimp only at this; omega)
    live2_10 (fun _ _ => rfl)]
  rfl

theorem after2_10_if (c : Dev nD) (t : Fin cfg2.N) (d) : outsAt2 V c t.val t.isLt =
    if k2_cond1 (grid2.coords t) = 1#1 then out2_10_first (iblk2 V c 0 t) (iblk2 V c 1 t) (iblk2 V c 2 t)
    else out2_10_next (iblk2 V c 0 t) (iblk2 V c 1 t) (iblk2 V c 2 t) ((dat2 V c).before 10 t d) := by
  obtain ⟨n, hn⟩ := t
  cases n with
  | zero => exact (if_pos ((hcond2_1 _).mpr rfl)).symm
  | succ n => rw [if_neg fun h => Nat.succ_ne_zero n ((hcond2_1 _).mp h), before2_10_later V c ⟨n + 1, hn⟩ (Nat.succ_ne_zero n)]; rfl

theorem after2 (c : Dev nD) (t : Fin cfg2.N) :
    (dat2 V c).after 0 t = iblk2 V c 0 t ∧ (dat2 V c).after 1 t = iblk2 V c 1 t ∧ (dat2 V c).after 2 t = iblk2 V c 2 t
    ∧ (dat2 V c).after 3 t = iblk2 V c 3 t ∧ (dat2 V c).after 4 t = iblk2 V c 4 t ∧ (dat2 V c).after 5 t = iblk2 V c 5 t
    ∧ (dat2 V c).after 6 t = iblk2 V c 6 t ∧ (dat2 V c).after 7 t = iblk2 V c 7 t :=
  ⟨rfl, rfl, rfl, rfl, rfl, rfl, rfl, rfl⟩

set_option maxHeartbeats 4000000 in
theorem body_obligation2 (c : Dev nD) : BodyObligation (dat2 (F := F) V c) (defs₀ (F := F)) Variants.none () Set.univ := fun t => by
  rw [bigSep_W2, bigSep_W2]
  beta_reduce
  rw [liveAt2_10 t]
  obtain ⟨b0, b1, b2, b3, b4, b5, b6, b7⟩ := before2 V c t
  obtain ⟨a0, a1, a2, a3, a4, a5, a6, a7⟩ := after2 V c t
  simp only [b0, b1, b2, b3, b4, b5, b6, b7, a0, a1, a2, a3, a4, a5, a6, a7, after2_8, after2_9, after2_10, Phi_eq2]
  rw [show (dat2 V c).owesAt () t.succ = (dat2 V c).owesAt () t.castSucc from rfl]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%d8, H8⟩, ⟨%d9, H9⟩, ⟨%d10, H10⟩⟩
  iapply (sound_kernel2 c Set.univ (grid2.coords t) _ _ _ _ _ _ _ _ _ _ _ (iblk2 V c 0 t) (iblk2 V c 1 t) (iblk2 V c 2 t) (iblk2 V c 3 t)
    (iblk2 V c 4 t) (iblk2 V c 5 t) (iblk2 V c 6 t) ((dat2 V c).before 8 t d8) (iblk2 V c 7 t) ((dat2 V c).before 9 t d9) ((dat2 V c).before 10 t d10) _)
  iframe H0 H1 H2 H3 H4 H5 H6 H7 H8 H9 H10
  iintro H
  rw [← after2_10_if V c t d10]
  iframe

end Cert.KernelIdeal.Rg

end
-- ==== Proof.Ideal.Region3.lean ====
import proofs.«156812_g12472585028273_cont_sun_m_131_10_alg».proof.Proof.Ideal.Region

set_option maxRecDepth 16384

noncomputable section

namespace Cert.KernelIdeal.Rg

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_adj : Rect S256x4096 := Rect.unit (s := S256x4096) ![0, 0] S256x4096.size inb_S256x4096_S256x4096_0_0

abbrev r3_g2r : Rect S256x128 := Rect.unit (s := S256x128) ![0, 0] S256x128.size inb_S256x128_S256x128_0_0

abbrev r3_g2w : Rect S4096x128 := Rect.unit (s := S4096x128) ![0, 0] S4096x128.size inb_S4096x128_S4096x128_0_0

abbrev r3_h3w : Rect S4096x16 := Rect.unit (s := S4096x16) ![0, 0] S4096x16.size inb_S4096x16_S4096x16_0_0

abbrev r3_h3s (i : grid3.Coords) : Rect S4096x16 := Rect.unit (s := S4096x16) (k3_off1 i) S256x16.size (k3_off1_inb i)

abbrev r3_vec : Rect S16x1 := Rect.unit (s := S16x1) ![0, 0] S16x1.size inb_S16x1_S16x1_0_0

abbrev r3_row : Rect S256x16 := Rect.unit (s := S256x16) ![0, 0] S256x16.size inb_S256x16_S256x16_0_0

abbrev r3_cell : Rect S1x1 := Rect.unit (s := S1x1) ![0, 0] S1x1.size inb_S1x1_S1x1_0_0

def att3 (i : grid3.Coords) (x0 : Vec F S256x4096 .f32) (x3 : Vec F S4096x16 .f32) (x4 x5 : Vec F S16x1 .f32) : FVec F S256x16 .f32 :=
  k3_pay1 (View.ld x0 r3_adj) (View.ld x4 r3_vec) (View.ld x5 r3_vec) (View.ld x3 r3_h3w) (View.ld x3 (r3_h3s i))

def pos3 (i : grid3.Coords) (x0 : Vec F S256x4096 .f32) (x3 : Vec F S4096x16 .f32) (x4 x5 : Vec F S16x1 .f32) : IVec S256x16 1 :=
  k3_pay2 (View.ld x0 r3_adj) (View.ld x4 r3_vec) (View.ld x5 r3_vec) (View.ld x3 r3_h3w) (View.ld x3 (r3_h3s i))

def out3_7 (i : grid3.Coords) (x0 : Vec F S256x4096 .f32) (x3 : Vec F S4096x16 .f32) (x4 x5 : Vec F S16x1 .f32) : Vec F S256x16 .f32 :=
  View.canon [⟨r3_row, k3_pay3 (att3 i x0 x3 x4 x5) (pos3 i x0 x3 x4 x5) (Scalar.ofBits .f32 0x00000000#32)⟩]

def out3_8 (i : grid3.Coords) (x0 : Vec F S256x4096 .f32) (x3 : Vec F S4096x16 .f32) (x4 x5 : Vec F S16x1 .f32) (x6 : Vec F S256x16 .f32) : Vec F S256x16 .f32 :=
  View.canon [⟨r3_row, k3_pay4 (att3 i x0 x3 x4 x5) (pos3 i x0 x3 x4 x5) (Scalar.ofBits .f32 0x00000000#32) (View.ld x6 r3_row)⟩]

def out3_9A (x0 : Vec F S256x4096 .f32) (x1 : Vec F S256x128 .f32) (x2 : Vec F S4096x128 .f32) : Vec F S1x1 .f32 :=
  View.canon [⟨r3_cell, k3_pay5 (View.ld x0 r3_adj) (View.ld x1 r3_g2r) (View.ld x2 r3_g2w)⟩]

def out3_9B (x0 : Vec F S256x4096 .f32) (x1 : Vec F S256x128 .f32) (x2 : Vec F S4096x128 .f32) (xo : Vec F S1x1 .f32) : Vec F S1x1 .f32 :=
  View.canon [⟨r3_cell, k3_pay6 (View.ld x0 r3_adj) (View.ld x1 r3_g2r) (View.ld x2 r3_g2w) (View.ld xo r3_cell)⟩]

def outsAt3 (c : Dev nD) : (n : ℕ) → n < cfg3.N → Vec F S1x1 .f32
  | 0, hn => out3_9A (iblk3 V c 0 ⟨0, hn⟩) (iblk3 V c 1 ⟨0, hn⟩) (iblk3 V c 2 ⟨0, hn⟩)
  | n + 1, hn => out3_9B (iblk3 V c 0 ⟨n + 1, hn⟩) (iblk3 V c 1 ⟨n + 1, hn⟩) (iblk3 V c 2 ⟨n + 1, hn⟩) (outsAt3 c n (Nat.lt_of_succ_lt hn))

def q3 : Fin cfg3.W → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (cfg3.grid.coords t) (iblk3 V c 0 t) (iblk3 V c 3 t) (iblk3 V c 4 t) (iblk3 V c 5 t)
    | ⟨8, _⟩ => out3_8 (cfg3.grid.coords t) (iblk3 V c 0 t) (iblk3 V c 3 t) (iblk3 V c 4 t) (iblk3 V c 5 t) (iblk3 V c 6 t)
    | ⟨9, _⟩ => outsAt3 V c t.val t.isLt
  Φ _ := Pipeline.ΦA spec3 c
  q w := q3 w
  owed _ := 0

theorem A_eq3 (c : Dev nD) (w : Fin cfg3.W) : (dat3 V c).A w = V c (Pipeline.arrRef spec3 w) := rfl

theorem Phi_eq3 (c : Dev nD) (t : Fin (cfg3.N + 1)) : (dat3 V c).Φ t = Pipeline.ΦA spec3 c := rfl

theorem owed_eq3 (c : Dev nD) (t : Fin (cfg3.N + 1)) : (dat3 V c).owed t = 0 := rfl

theorem q_eq3 (c : Dev nD) (w : Fin cfg3.W) : (dat3 V c).q w =
    match w with | ⟨1, _⟩ => fullShare.left | ⟨2, _⟩ => fullShare.right | _ => fullShare :=
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ => rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (cfg3.grid.coords t) (iblk3 V c 0 t) (iblk3 V c 3 t) (iblk3 V c 4 t) (iblk3 V c 5 t) := by dsimp only [dat3]
theorem after3_8 (c : Dev nD) (t : Fin cfg3.N) : (dat3 V c).after 8 t =
    out3_8 (cfg3.grid.coords t) (iblk3 V c 0 t) (iblk3 V c 3 t) (iblk3 V c 4 t) (iblk3 V c 5 t) (iblk3 V c 6 t) := by dsimp only [dat3]
theorem after3_9 (c : Dev nD) (t : Fin cfg3.N) : (dat3 V c).after 9 t = outsAt3 V c t.val t.isLt := by dsimp only [dat3]

/-- The body leaves every input as it finds it. -/
theorem before3_in (c : Dev nD) : ∀ w : Fin cfg3.W, (cfg3.win w).isOut = false → ∀ t d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ => fun t d =>
    ((dat3 V c).before_in_eq_fetched _ rfl (fun _ => rfl) (fun _ _ _ => rfl) (fun _ => rfl) t d).trans rfl
  | ⟨7, _⟩, h | ⟨8, _⟩, h | ⟨9, _⟩, h => nomatch h

theorem hcond3 : ∀ t : Fin cfg3.N, k3_cond1 (grid3.coords t) = 1#1 ∧ ¬k3_cond2 (grid3.coords t) = 1#1 ∧ t.val = 0
    ∨ ¬k3_cond1 (grid3.coords t) = 1#1 ∧ k3_cond2 (grid3.coords t) = 1#1 ∧ t.val ≠ 0 := by decide +kernel

/-- One of the two conditions holds at every coordinate. -/
theorem idle3_9 : ∀ i : grid3.Coords, cfg3.idle 9 i = false := by decide +kernel

/-- At a later point the cell holds what the point before left. -/
theorem before3_9_B (c : Dev nD) (t : Fin cfg3.N) (h0 : t.val ≠ 0) (d) :
    (dat3 V c).before 9 t d = outsAt3 V c (t.val - 1) (Nat.lt_of_le_of_lt (Nat.sub_le _ _) t.isLt) := by
  have hN : t.val < 16 := lt_of_lt_of_eq t.isLt (show cfg3.N = 16 from N_3)
  rw [Dat.before_out_kept _ 9 rfl t h0 (Bool.eq_false_iff.mpr fun h => by have := (flush3_9 _).mp h; dsimp only at this; omega)
    idle3_9 (fun _ _ => rfl)]
  rfl

/-- A point is the first, where the cell is set, or a later one, where the block's sum is added to what the cell held. -/
theorem case3 (c : Dev nD) (t : Fin cfg3.N) (d) :
    k3_cond1 (grid3.coords t) = 1#1 ∧ ¬k3_cond2 (grid3.coords t) = 1#1
        ∧ outsAt3 V c t.val t.isLt = out3_9A (iblk3 V c 0 t) (iblk3 V c 1 t) (iblk3 V c 2 t)
      ∨ ¬k3_cond1 (grid3.coords t) = 1#1 ∧ k3_cond2 (grid3.coords t) = 1#1
        ∧ outsAt3 V c t.val t.isLt = out3_9B (iblk3 V c 0 t) (iblk3 V c 1 t) (iblk3 V c 2 t) ((dat3 V c).before 9 t d) := by
  rcases hcond3 t with ⟨h1, h2, h0⟩ | ⟨h1, h2, h0⟩
  · obtain ⟨_, _⟩ := t; subst h0; exact .inl ⟨h1, h2, rfl⟩
  · rw [before3_9_B V c t h0]; obtain ⟨_ | n, _⟩ := t
    · exact absurd rfl h0
    · exact .inr ⟨h1, h2, rfl⟩

set_option maxHeartbeats 4000000 in
/-- The body keeps its inputs, stores each output once, and leaves `o` in the cell. -/
theorem sound_kernel3 (c : Dev nD) (E : Set ℕ) (i : grid3.Coords)
    (arg1 : Memref sig .tc .vmem S256x4096 .f32) (harg1 : arg1.IsWhole) (arg2 : Memref sig .tc .vmem S256x128 .f32) (harg2 : arg2.IsWhole) (arg3 : Memref sig .tc .vmem S4096x128 .f32) (harg3 : arg3.IsWhole)
    (arg4 : Memref sig .tc .vmem S4096x16 .f32) (harg4 : arg4.IsWhole) (arg5 : Memref sig .tc .vmem S16x1 .f32) (harg5 : arg5.IsWhole) (arg6 : Memref sig .tc .vmem S16x1 .f32) (harg6 : arg6.IsWhole)
    (arg7 : Memref sig .tc .vmem S256x16 .f32) (harg7 : arg7.IsWhole) (arg8 : Memref sig .tc .vmem S256x16 .f32) (harg8 : arg8.IsWhole)
    (arg9 : Memref sig .tc .vmem S256x16 .f32) (harg9 : arg9.IsWhole) (arg10 : Memref sig .tc .vmem S1x1 .f32) (harg10 : arg10.IsWhole)
    (x0 : Vec F S256x4096 .f32) (x1 : Vec F S256x128 .f32) (x2 : Vec F S4096x128 .f32) (x3 : Vec F S4096x16 .f32) (x4 x5 : Vec F S16x1 .f32)
    (x6 d7 d8 : Vec F S256x16 .f32) (xo o : Vec F S1x1 .f32) (K : PUnit → sProp 𝕄)
    (h : k3_cond1 i = 1#1 ∧ ¬k3_cond2 i = 1#1 ∧ o = out3_9A x0 x1 x2 ∨ ¬k3_cond1 i = 1#1 ∧ k3_cond2 i = 1#1 ∧ o = out3_9B x0 x1 x2 xo) :
    iprop((owns c arg1 fullShare x0 ∗ owns c arg2 fullShare x1 ∗ owns c arg3 fullShare x2 ∗ owns c arg4 fullShare x3 ∗ owns c arg5 fullShare x4 ∗ owns c arg6 fullShare x5 ∗ owns c arg7 fullShare x6
          ∗ owns c arg8 fullShare d7 ∗ owns c arg9 fullShare d8 ∗ owns c arg10 fullShare xo)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6
            ∗ owns c arg8 fullShare (out3_7 i x0 x3 x4 x5) ∗ owns c arg9 fullShare (out3_8 i x0 x3 x4 x5 x6) ∗ owns c arg10 fullShare o) -∗ K ⟨⟩))
      ⊢ wp frame (wpE (defs₀ (F := F)) Variants.none c none) E (cc3__s3 i arg1 harg1 arg2 harg2 arg3 harg3 arg4 harg4 arg5 harg5 arg6 harg6 arg7 harg7 arg8 harg8 arg9 harg9 arg10 harg10) K := by
  simp only [cc3__s3_eq_skeleton]; unfold cc3__s3_skel owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, ⟨%f9, %hf9, H9⟩⟩, Hk⟩
  subst hf0 hf1 hf2 hf3 hf4 hf5 hf6 hf9
  rcases h with ⟨hc1, hc2, rfl⟩ | ⟨hc1, hc2, rfl⟩ <;>
  · sl_exec (disch := first | exact hc1 | exact hc2)
    sl_step
    iapply Hk
    isplitl [H0]; · iapply kept $$ H0
    isplitl [H1]; · iapply kept $$ H1
    isplitl [H2]; · iapply kept $$ H2
    isplitl [H3]; · iapply kept $$ H3
    isplitl [H4]; · iapply kept $$ H4
    isplitl [H5]; · iapply kept $$ H5
    isplitl [H6]; · iapply kept $$ H6
    isplitl [H7]; · iapply stored r3_row S256x16.size (fun _ => rfl) $$ H7
    isplitl [H8]; · iapply stored r3_row S256x16.size (fun _ => rfl) $$ H8
    iapply stored r3_cell S1x1.size (fun _ => rfl) $$ H9

set_option maxHeartbeats 1600000 in
/-- Every input holds its block, so the body's triple applies. -/
theorem body_obligation3 (c : Dev nD) : BodyObligation (dat3 (F := F) V c) (defs₀ (F := F)) Variants.none () Set.univ := fun t => by
  rw [bigSep_W3, bigSep_W3]
  simp only [show idle3 9 (grid3.coords t) = false from idle3_9 _, before3_in V c 0 rfl, before3_in V c 1 rfl, before3_in V c 2 rfl, before3_in V c 3 rfl, before3_in V c 4 rfl, before3_in V c 5 rfl, before3_in V c 6 rfl,
    after3_0, after3_1, after3_2, after3_3, after3_4, after3_5, after3_6, after3_7, after3_8, after3_9]
  rw [show (dat3 V c).Φ t.succ = (dat3 V c).Φ t.castSucc from rfl,
    show (dat3 V c).owesAt () t.succ = (dat3 V c).owesAt () t.castSucc from rfl]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel3 c Set.univ (grid3.coords t) _ _ _ _ _ _ _ _ _ _ _ _ _ _ _ _ _ _ _ _ _ _ _ _ _ _ _ _ _ _ _ _ (case3 V c t d9)
  isplitl [H0 H1 H2 H3 H4 H5 H6 H7 H8 H9]
  · iframe
  iintro ⟨H0, H1, H2, H3, H4, H5, H6, H7, H8, H9⟩
  iframe

end Cert.KernelIdeal.Rg

end
-- ==== Proof.Ideal.Region4.lean ====
import proofs.«156812_g12472585028273_cont_sun_m_131_10_alg».proof.Proof.Ideal.Region

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S256x4096 := Rect.unit (s := S256x4096) ![0, 0] S256x4096.size inb_S256x4096_S256x4096_0_0
abbrev r4_g : Rect S256x16 := Rect.unit (s := S256x16) ![0, 0] S256x16.size inb_S256x16_S256x16_0_0
abbrev r4_z : Rect S4096x16 := Rect.unit (s := S4096x16) ![0, 0] S4096x16.size inb_S4096x16_S4096x16_0_0
abbrev r4_c : Rect S1x1 := Rect.unit (s := S1x1) ![0, 0] S1x1.size inb_S1x1_S1x1_0_0

def out4_4 (x1 : Vec F S256x16 .f32) (x2 : Vec F S4096x16 .f32) : Vec F S256x4096 .f32 :=
  View.canon [⟨r4_a, k4_pay1 (View.ld x1 r4_g) (View.ld x2 r4_z)⟩]

def out4_5 (x0 : Vec F S256x4096 .f32) (x3 : Vec F S4096x16 .f32) : Vec F S256x16 .f32 :=
  View.canon [⟨r4_g, k4_pay4 (View.ld x0 r4_a) (View.ld x3 r4_z)⟩]

def out4_6_A (x0 : Vec F S256x4096 .f32) (x1 : Vec F S256x16 .f32) (x2 : Vec F S4096x16 .f32) : Vec F S1x1 .f32 :=
  View.canon [⟨r4_c, k4_pay2 (View.ld x0 r4_a) (View.ld x1 r4_g) (View.ld x2 r4_z)⟩]

def out4_6_B (x0 : Vec F S256x4096 .f32) (x1 : Vec F S256x16 .f32) (x2 : Vec F S4096x16 .f32) (xo : Vec F S1x1 .f32) : Vec F S1x1 .f32 :=
  View.canon [⟨r4_c, k4_pay3 (View.ld x0 r4_a) (View.ld x1 r4_g) (View.ld x2 r4_z) (View.ld xo r4_c)⟩]

def outsAt4 (c : Dev nD) : (n : ℕ) → n < cfg4.N → Vec F S1x1 .f32
  | 0, hn => out4_6_A (iblk4 V c 0 ⟨0, hn⟩) (iblk4 V c 1 ⟨0, hn⟩) (iblk4 V c 2 ⟨0, hn⟩)
  | n + 1, hn =>
    out4_6_B (iblk4 V c 0 ⟨n + 1, hn⟩) (iblk4 V c 1 ⟨n + 1, hn⟩) (iblk4 V c 2 ⟨n + 1, hn⟩) (outsAt4 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 1 t) (iblk4 V c 2 t)
    | ⟨5, _⟩ => out4_5 (iblk4 V c 0 t) (iblk4 V c 3 t)
    | ⟨6, _⟩ => outsAt4 V c t.val t.isLt
  Φ _ := Pipeline.ΦA spec4 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq4 (c : Dev nD) (w : Fin cfg4.W) : (dat4 V c).A w = V c (Pipeline.arrRef spec4 w) := rfl

theorem Phi_eq4 (c : Dev nD) (t : Fin (cfg4.N + 1)) : (dat4 V c).Φ t = Pipeline.ΦA spec4 c := rfl

theorem owed_eq4 (c : Dev nD) (t : Fin (cfg4.N + 1)) : (dat4 V c).owed t = 0 := rfl

theorem q_eq4 (c : Dev nD) (w : Fin cfg4.W) :
    (dat4 V c).q w = match w with | ⟨1, _⟩ => fullShare.left | ⟨2, _⟩ => fullShare.right | _ => fullShare :=
  match w with
  | ⟨0, _⟩ | ⟨1, _⟩ | ⟨2, _⟩ | ⟨3, _⟩ | ⟨4, _⟩ | ⟨5, _⟩ | ⟨6, _⟩ => rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 1 t) (iblk4 V c 2 t) := by dsimp only [dat4]
theorem after4_5 (c : Dev nD) (t : Fin cfg4.N) : (dat4 V c).after 5 t = out4_5 (iblk4 V c 0 t) (iblk4 V c 3 t) := by dsimp only [dat4]
theorem after4_6 (c : Dev nD) (t : Fin cfg4.N) : (dat4 V c).after 6 t = outsAt4 V c t.val t.isLt := by dsimp only [dat4]

/-- The body leaves every input as it finds it. -/
theorem before4_in (c : Dev nD) : ∀ w : Fin cfg4.W, (cfg4.win w).isOut = false → ∀ t d, (dat4 V c).before w t d = (dat4 V c).after w t
  | ⟨0, _⟩, _ | ⟨1, _⟩, _ | ⟨2, _⟩, _ | ⟨3, _⟩, _ => fun t d =>
    ((dat4 V c).before_in_eq_fetched _ rfl (fun _ => rfl) (fun _ _ _ => rfl) (fun _ => rfl) t d).trans rfl
  | ⟨4, _⟩, h | ⟨5, _⟩, h | ⟨6, _⟩, h => nomatch h

theorem hcond4 : ∀ t : Fin cfg4.N, k4_cond1 (grid4.coords t) = 1#1 ∧ ¬k4_cond2 (grid4.coords t) = 1#1 ∧ t.val = 0
    ∨ ¬k4_cond1 (grid4.coords t) = 1#1 ∧ k4_cond2 (grid4.coords t) = 1#1 ∧ t.val ≠ 0 := by decide +kernel

/-- One of the two conditions holds at every coordinate. -/
theorem hlive4_6 : ∀ i : grid4.Coords, cfg4.idle 6 i = false := by decide +kernel

/-- At a later point the cell holds what the point before left. -/
theorem before4_6_pos (c : Dev nD) (t : Fin cfg4.N) (h0 : t.val ≠ 0) (d) :
    (dat4 V c).before 6 t d = outsAt4 V c (t.val - 1) (Nat.lt_of_le_of_lt (Nat.sub_le _ _) t.isLt) := by
  have hN : t.val < 16 := lt_of_lt_of_eq t.isLt (show cfg4.N = 16 from N_4)
  rw [Dat.before_out_kept _ 6 rfl t h0 (Bool.eq_false_iff.mpr fun h => by have := (flush4_6 _).mp h; dsimp only at this; omega)
    hlive4_6 (fun _ _ => rfl)]
  rfl

/-- A point is the first, where the cell is set, or a later one, where the sum is added to what the cell held. -/
theorem case4 (c : Dev nD) (t : Fin cfg4.N) (d) :
    k4_cond1 (grid4.coords t) = 1#1 ∧ ¬k4_cond2 (grid4.coords t) = 1#1
        ∧ outsAt4 V c t.val t.isLt = out4_6_A (iblk4 V c 0 t) (iblk4 V c 1 t) (iblk4 V c 2 t)
      ∨ ¬k4_cond1 (grid4.coords t) = 1#1 ∧ k4_cond2 (grid4.coords t) = 1#1
        ∧ outsAt4 V c t.val t.isLt = out4_6_B (iblk4 V c 0 t) (iblk4 V c 1 t) (iblk4 V c 2 t) ((dat4 V c).before 6 t d) := by
  rcases hcond4 t with ⟨h1, h2, h0⟩ | ⟨h1, h2, h0⟩
  · obtain ⟨_, _⟩ := t; subst h0; exact .inl ⟨h1, h2, rfl⟩
  · rw [before4_6_pos V c t h0]; obtain ⟨_ | n, _⟩ := t
    · exact absurd rfl h0
    · exact .inr ⟨h1, h2, rfl⟩

set_option maxHeartbeats 1000000 in
/-- The body keeps its inputs, stores each output once, and leaves `o` in the cell. -/
theorem sound_kernel4 (c : Dev nD) (E : Set ℕ) (i : grid4.Coords)
    (arg1 : Memref sig .tc .vmem S256x4096 .f32) (harg1 : arg1.IsWhole) (arg2 : Memref sig .tc .vmem S256x16 .f32) (harg2 : arg2.IsWhole)
    (arg3 : Memref sig .tc .vmem S4096x16 .f32) (harg3 : arg3.IsWhole) (arg4 : Memref sig .tc .vmem S4096x16 .f32) (harg4 : arg4.IsWhole)
    (arg5 : Memref sig .tc .vmem S256x4096 .f32) (harg5 : arg5.IsWhole) (arg6 : Memref sig .tc .vmem S256x16 .f32) (harg6 : arg6.IsWhole)
    (arg7 : Memref sig .tc .vmem S1x1 .f32) (harg7 : arg7.IsWhole)
    (x0 : Vec F S256x4096 .f32) (x1 : Vec F S256x16 .f32) (x2 x3 : Vec F S4096x16 .f32) (d4 : Vec F S256x4096 .f32) (d5 : Vec F S256x16 .f32)
    (xo o : Vec F S1x1 .f32) (K : PUnit → sProp 𝕄)
    (h : k4_cond1 i = 1#1 ∧ ¬k4_cond2 i = 1#1 ∧ o = out4_6_A x0 x1 x2 ∨ ¬k4_cond1 i = 1#1 ∧ k4_cond2 i = 1#1 ∧ o = out4_6_B x0 x1 x2 xo) :
    iprop((owns c arg1 fullShare x0 ∗ owns c arg2 fullShare x1 ∗ owns c arg3 fullShare x2 ∗ owns c arg4 fullShare x3
          ∗ owns c arg5 fullShare d4 ∗ owns c arg6 fullShare d5 ∗ owns c arg7 fullShare xo)
        ∗ (iprop(owns c arg1 fullShare x0 ∗ owns c arg2 fullShare x1 ∗ owns c arg3 fullShare x2 ∗ owns c arg4 fullShare x3
            ∗ owns c arg5 fullShare (out4_4 x1 x2) ∗ owns c arg6 fullShare (out4_5 x0 x3) ∗ owns c arg7 fullShare o) -∗ K ⟨⟩))
      ⊢ wp frame (wpE (defs₀ (F := F)) Variants.none c none) E (cc4__s4 i arg1 harg1 arg2 harg2 arg3 harg3 arg4 harg4 arg5 harg5 arg6 harg6 arg7 harg7) K := by
  simp only [cc4__s4_eq_skeleton]; unfold cc4__s4_skel owns
  iintro ⟨⟨⟨%f0, %hf0, H0⟩, ⟨%f1, %hf1, H1⟩, ⟨%f2, %hf2, H2⟩, ⟨%f3, %hf3, H3⟩, ⟨%f4, -, H4⟩, ⟨%f5, -, H5⟩, ⟨%f6, %hf6, H6⟩⟩, Hk⟩
  subst hf0 hf1 hf2 hf3 hf6
  rcases h with ⟨hc1, hc2, rfl⟩ | ⟨hc1, hc2, rfl⟩ <;>
  · sl_exec (disch := first | sl_exact hc1 | sl_exact hc2)
    sl_step
    iapply Hk
    isplitl [H0]; · iapply kept $$ H0
    isplitl [H1]; · iapply kept $$ H1
    isplitl [H2]; · iapply kept $$ H2
    isplitl [H3]; · iapply kept $$ H3
    isplitl [H4]; · iapply stored r4_a S256x4096.size (fun _ => rfl) $$ H4
    isplitl [H5]; · iapply stored r4_g S256x16.size (fun _ => rfl) $$ H5
    iapply stored r4_c S1x1.size (fun _ => rfl) $$ H6

set_option maxHeartbeats 1000000 in
/-- Every input holds its block, so the body's triple applies. -/
theorem body_obligation4 (c : Dev nD) : BodyObligation (dat4 (F := F) V c) (defs₀ (F := F)) Variants.none () Set.univ := fun t => by
  rw [bigSep_W4, bigSep_W4]
  simp only [show idle4 6 (grid4.coords t) = false from hlive4_6 _, before4_in V c 0 rfl, before4_in V c 1 rfl, before4_in V c 2 rfl, before4_in V c 3 rfl,
    after4_0, after4_1, after4_2, after4_3, after4_4, after4_5, after4_6]
  rw [show (dat4 V c).Φ t.succ = (dat4 V c).Φ t.castSucc from rfl,
    show (dat4 V c).owesAt () t.succ = (dat4 V c).owesAt () t.castSucc from rfl]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel4 c Set.univ (grid4.coords t) _ _ _ _ _ _ _ _ _ _ _ _ _ _ _ _ _ _ _ _ _ _ _ (case4 V c t d6)
  isplitl [H0 H1 H2 H3 H4 H5 H6]
  · iframe
  iintro ⟨H0, H1, H2, H3, H4, H5, H6⟩
  iframe

end Cert.KernelIdeal.Rg

end
-- ==== Proof.Ideal.Region5.lean ====
import proofs.«156812_g12472585028273_cont_sun_m_131_10_alg».proof.Proof.Ideal.Region

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_clu : Rect S10x16 := Rect.unit (s := S10x16) ![0, 0] S10x16.size inb_S10x16_S10x16_0_0

abbrev r5_z : Rect S4096x16 := Rect.unit (s := S4096x16) ![0, 0] S4096x16.size inb_S4096x16_S4096x16_0_0

abbrev r5_q : Rect S4096x10 := Rect.unit (s := S4096x10) ![0, 0] S4096x10.size inb_S4096x10_S4096x10_0_0

abbrev r5_cell : Rect S1x1 := Rect.unit (s := S1x1) ![0, 0] S1x1.size inb_S1x1_S1x1_0_0

def out5_6 (x0 : Vec F S4096x16 .f32) (x2 : Vec F S10x16 .f32) : Vec F S4096x10 .f32 :=
  View.canon [⟨r5_q, k5_pay3 (View.ld x2 r5_clu) (View.ld x0 r5_z)⟩]

def out5_7 (x1 : Vec F S4096x16 .f32) (x2 : Vec F S10x16 .f32) : Vec F S4096x10 .f32 :=
  View.canon [⟨r5_q, k5_pay1 (k5_pay5 (View.ld x1 r5_z)) (k5_pay6 (View.ld x2 r5_clu)) (k5_pay7 (View.ld x2 r5_clu) (View.ld x1 r5_z))⟩]

def out5_8 (x3 x4 x5 : Vec F S1x1 .f32) : Vec F S1x1 .f32 :=
  View.canon [⟨r5_cell, k5_pay2 (View.ld x3 r5_cell) (View.ld x4 r5_cell) (View.ld x5 r5_cell)⟩]

theorem sound_kernel5 (c : Dev nD) {E : Set ℕ} {arg0 arg1 : Memref sig .tc .vmem S4096x16 .f32} {arg2 : Memref sig .tc .vmem S10x16 .f32} {arg3 arg4 arg5 arg8 : Memref sig .tc .vmem S1x1 .f32} {arg6 arg7 : Memref sig .tc .vmem S4096x10 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    (x0 x1 : Vec F S4096x16 .f32) (x2 : Vec F S10x16 .f32) (x3 x4 x5 : Vec F S1x1 .f32)
    (K : PUnit → sProp 𝕄) :
    iprop(owns c arg0 fullShare x0 ∗ owns c arg1 fullShare x1 ∗ owns c arg2 fullShare x2
        ∗ owns c arg3 fullShare x3 ∗ owns c arg4 fullShare x4 ∗ owns c arg5 fullShare x5
        ∗ (∃ d, owns c arg6 fullShare d) ∗ (∃ d, owns c arg7 fullShare d) ∗ (∃ d, owns c arg8 fullShare d)
        ∗ (iprop(owns c arg0 fullShare x0 ∗ owns c arg1 fullShare x1 ∗ owns c arg2 fullShare x2
            ∗ owns c arg3 fullShare x3 ∗ owns c arg4 fullShare x4 ∗ owns c arg5 fullShare x5
            ∗ owns c arg6 fullShare (out5_6 x0 x2) ∗ owns c arg7 fullShare (out5_7 x1 x2)
            ∗ owns c arg8 fullShare (out5_8 x3 x4 x5)) -∗ K ⟨⟩))
      ⊢ wp frame (wpE (defs₀ (F := F)) Variants.none c none) E (cc5__kq arg0 harg0 arg1 harg1 arg2 harg2 arg3 harg3 arg4 harg4 arg5 harg5 arg6 harg6 arg7 harg7 arg8 harg8) K := by
  simp only [cc5__kq_eq_skeleton]; unfold cc5__kq_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]; · iapply kept $$ H0
  isplitl [H1]; · iapply kept $$ H1
  isplitl [H2]; · iapply kept $$ H2
  isplitl [H3]; · iapply kept $$ H3
  isplitl [H4]; · iapply kept $$ H4
  isplitl [H5]; · iapply kept $$ H5
  isplitl [H6]; · iapply stored r5_q S4096x10.size (fun _ => rfl) $$ H6
  isplitl [H7]; · iapply stored r5_q S4096x10.size (fun _ => rfl) $$ H7
  iapply stored r5_cell S1x1.size (fun _ => rfl) $$ H8

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 2 t)
    | ⟨7, _⟩ => out5_7 (iblk5 V c 1 t) (iblk5 V c 2 t)
    | ⟨8, _⟩ => out5_8 (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem Phi_eq5 (c : Dev nD) (t : Fin (cfg5.N + 1)) : (dat5 V c).Φ t = Pipeline.ΦA spec5 c := by
  dsimp only [dat5]
theorem owed_eq5 (c : Dev nD) (t : Fin (cfg5.N + 1)) : (dat5 V c).owed t = 0 := by
  dsimp only [dat5]
theorem q_eq5 (c : Dev nD) (w : Fin cfg5.W) : (dat5 V c).q w = fullShare := by
  dsimp only [dat5]

theorem after5_6 (c : Dev nD) (t : Fin cfg5.N) : (dat5 V c).after 6 t = out5_6 (iblk5 V c 0 t) (iblk5 V c 2 t) := by dsimp only [dat5]
theorem after5_7 (c : Dev nD) (t : Fin cfg5.N) : (dat5 V c).after 7 t = out5_7 (iblk5 V c 1 t) (iblk5 V c 2 t) := by dsimp only [dat5]
theorem after5_8 (c : Dev nD) (t : Fin cfg5.N) : (dat5 V c).after 8 t = out5_8 (iblk5 V c 3 t) (iblk5 V c 4 t) (iblk5 V c 5 t) := by dsimp only [dat5]

theorem body_obligation5 (c : Dev nD) : BodyObligation (dat5 (F := F) V c) (defs₀ (F := F)) Variants.none () Set.univ := fun t => by
  rw [bigSep_W5, bigSep_W5]
  show _ ⊢ wp frame _ _ (bodyAt5 t) _
  have bf := fun (w : Fin 9) h d => (dat5 V c).before_fetched w t h d
  simp only [bf 0 (fetch5_0 t), bf 1 (fetch5_1 t), bf 2 (fetch5_2 t), bf 3 (fetch5_3 t), bf 4 (fetch5_4 t), bf 5 (fetch5_5 t)]
  rw [Phi_eq5, Phi_eq5,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro H
  isplitl [HΦ]; · iexact HΦ
  isplitl [Ho]; · iexact Ho
  dsimp only [dat5]
  iexact H

end Cert.KernelIdeal.Rg

end
-- ==== Proof.Ideal.SharedRows.lean ====
import proofs.«156812_g12472585028273_cont_sun_m_131_10_alg».proof.Proof.Gen.KernelIdeal.Launch
import Idealize.ShloMosaic.Lib.Pipeline.Dat
import Idealize.ShloMosaic.Lib.Pipeline.Regions
import Idealize.ShloMosaic.Lib.Pipeline.RegionsLoop
import Idealize.ShloMosaic.Lib.Pipeline.Frame
import Idealize.ShloMosaic.Lib.Pipeline.FrameSuffix
import Mathlib.Tactic.FinCases

set_option maxRecDepth 3472

noncomputable section

namespace Cert.KernelIdeal.Rg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ
structure SharedPair {gr W : Nat} (win : Fin W → Pipeline.WinSpec sig gr) (a b : Fin W) : Prop where
  ne : a ≠ b
  same : Pipeline.arrRef win a = Pipeline.arrRef win b
  inj_off : ∀ w w', w ≠ b → w' ≠ b → Pipeline.arrRef win w = Pipeline.arrRef win w' → w = w'
  in_a : (win a).isOut = false
  in_b : (win b).isOut = false

instance {gr W : Nat} (win : Fin W → Pipeline.WinSpec sig gr) (a b : Fin W) : Decidable (SharedPair win a b) :=
  decidable_of_iff (a ≠ b ∧ Pipeline.arrRef win a = Pipeline.arrRef win b
      ∧ (∀ w w', w ≠ b → w' ≠ b → Pipeline.arrRef win w = Pipeline.arrRef win w' → w = w')
      ∧ (win a).isOut = false ∧ (win b).isOut = false)
    ⟨fun ⟨h₁, h₂, h₃, h₄, h₅⟩ => ⟨h₁, h₂, h₃, h₄, h₅⟩, fun ⟨h₁, h₂, h₃, h₄, h₅⟩ => ⟨h₁, h₂, h₃, h₄, h₅⟩⟩

def pairShare {W : Nat} (a b : Fin W) (w : Fin W) : PosShare TreeShare :=
  if w = a then fullShare.left else if w = b then fullShare.right else fullShare

theorem pairShare_fst {W : Nat} (a b : Fin W) : pairShare a b a = fullShare.left := by
  unfold pairShare; rw [if_pos rfl]
theorem pairShare_snd {W : Nat} {a b : Fin W} (h : a ≠ b) : pairShare a b b = fullShare.right := by
  unfold pairShare; rw [if_neg (Ne.symm h), if_pos rfl]
theorem pairShare_other {W : Nat} {a b w : Fin W} (ha : w ≠ a) (hb : w ≠ b) : pairShare a b w = fullShare := by
  unfold pairShare; rw [if_neg ha, if_neg hb]

theorem sep_regroup {M : Type} [URA M] (P Q R : sProp M) : iprop(Q ∗ P ∗ R) = iprop((P ∗ Q) ∗ R) :=
  Idealize.SL.BI.Entails.antisymm (Idealize.SL.BI.sep_assoc'.trans (Idealize.SL.BI.sep_mono_l Idealize.SL.BI.sep_comm))
    ((Idealize.SL.BI.sep_mono_l Idealize.SL.BI.sep_comm).trans Idealize.SL.BI.sep_assoc)

section Generic

variable {cfg : Pipeline.Cfg sig Λ₀} {c : Dev nD} (dat : Dat τ (Elt F) Unit ℕ (UR sig nD τ) ℕ cfg c)

theorem arrays_eq_arrBufs {a b : Fin cfg.W} (hp : SharedPair cfg.spec a b) (harr : ∀ w, (cfg.spec w).arr.IsWhole)
    (hq : ∀ w, dat.q w = pairShare a b w)
    (V : (r : Ref sig .tc) → Buf (Elt F) ((c : Thread nD τ).loc r))
    (G : (w : Fin cfg.W) → Buf (Elt F) ((cfg.win w).arr.view.loc (c : Thread nD τ)))
    (hG : ∀ w, G w = V (Pipeline.arrRef cfg.spec w)) :
    dat.arrays G = (Pipeline.arrBufs cfg.spec c V : sProp 𝕄) := by
  classical
  have hsa : dat.share a = fullShare.left := by
    unfold Dat.share; rw [show (cfg.win a).isOut = false from hp.in_a, hq a, pairShare_fst]; rfl
  have hsb : dat.share b = fullShare.right := by
    unfold Dat.share; rw [show (cfg.win b).isOut = false from hp.in_b, hq b, pairShare_snd hp.ne]; rfl
  have hso : ∀ w, w ≠ a → w ≠ b → dat.share w = fullShare := fun w h1 h2 => by
    unfold Dat.share; rw [hq w, pairShare_other h1 h2, ite_self]

  have hA : dat.arrays G = bigSep Finset.univ fun w : Fin cfg.W =>
      (((c : Thread nD τ).loc (Pipeline.arrRef cfg.spec w)) ↦{dat.share w} V (Pipeline.arrRef cfg.spec w) : sProp 𝕄) := by
    unfold Dat.arrays
    exact bigSep_congr fun w _ => by rw [(harr w).set_eq_univ, hG w]

  have himg : Finset.univ.image (Pipeline.arrRef cfg.spec) = (Finset.univ.erase b).image (Pipeline.arrRef cfg.spec) := by
    ext r
    constructor
    · intro hr
      obtain ⟨w, -, rfl⟩ := Finset.mem_image.mp hr
      by_cases h : w = b
      · exact Finset.mem_image.mpr ⟨a, Finset.mem_erase.mpr ⟨hp.ne, Finset.mem_univ _⟩, by rw [h]; exact hp.same⟩
      · exact Finset.mem_image.mpr ⟨w, Finset.mem_erase.mpr ⟨h, Finset.mem_univ _⟩, rfl⟩
    · intro hr
      obtain ⟨w, -, rfl⟩ := Finset.mem_image.mp hr
      exact Finset.mem_image.mpr ⟨w, Finset.mem_univ _, rfl⟩
  have hinj : Set.InjOn (Pipeline.arrRef cfg.spec) ↑(Finset.univ.erase b) := fun w hw w' hw' e =>
    hp.inj_off w w' (Finset.ne_of_mem_erase (Finset.mem_coe.mp hw)) (Finset.ne_of_mem_erase (Finset.mem_coe.mp hw')) e
  have hB : (Pipeline.arrBufs cfg.spec c V : sProp 𝕄) = bigSep (Finset.univ.erase b) fun w : Fin cfg.W =>
      (((c : Thread nD τ).loc (Pipeline.arrRef cfg.spec w)) ↦{fullShare} V (Pipeline.arrRef cfg.spec w) : sProp 𝕄) := by
    unfold Pipeline.arrBufs
    rw [himg, bigSep_image_of_injOn hinj]
  have ha : a ∈ Finset.univ.erase b := Finset.mem_erase.mpr ⟨hp.ne, Finset.mem_univ _⟩

  have hrest : (bigSep ((Finset.univ.erase b).erase a) fun w : Fin cfg.W =>
      (((c : Thread nD τ).loc (Pipeline.arrRef cfg.spec w)) ↦{dat.share w} V (Pipeline.arrRef cfg.spec w) : sProp 𝕄))
      = bigSep ((Finset.univ.erase b).erase a) fun w : Fin cfg.W =>
      (((c : Thread nD τ).loc (Pipeline.arrRef cfg.spec w)) ↦{fullShare} V (Pipeline.arrRef cfg.spec w) : sProp 𝕄) :=
    bigSep_congr fun w hw => by
      rw [hso w (Finset.ne_of_mem_erase hw) (Finset.ne_of_mem_erase (Finset.mem_of_mem_erase hw))]

  have hsplit := pointsTo_share (Ix := Unit) (Name := ℕ) (U := UR sig nD τ) (Lvl := ℕ)
    (ℓ := (c : Thread nD τ).loc (Pipeline.arrRef cfg.spec a)) (I := Finset.univ)
    (f := V (Pipeline.arrRef cfg.spec a)) (PosShare.mem_left_op_right fullShare)
  have hb : (((c : Thread nD τ).loc (Pipeline.arrRef cfg.spec a)) ↦{fullShare.right} V (Pipeline.arrRef cfg.spec a) : sProp 𝕄)
      = (((c : Thread nD τ).loc (Pipeline.arrRef cfg.spec b)) ↦{fullShare.right} V (Pipeline.arrRef cfg.spec b) : sProp 𝕄) :=
    congrArg (fun r : Ref sig .tc => (((c : Thread nD τ).loc r) ↦{fullShare.right} V r : sProp 𝕄)) hp.same
  rw [hA, hB, bigSep_univ_split b, bigSep_erase ha, bigSep_erase ha, hrest, hsa, hsb, BI.equiv_iff.mp ⟨hsplit.1, hsplit.2⟩, hb]

  exact sep_regroup _ _ _

theorem unscopedBufs_eq (hun : ∀ w, (Pipeline.arrRef cfg.spec w).isScoped = false)
    (V : (r : Ref sig .tc) → Buf (Elt F) ((c : Thread nD τ).loc r)) :
    (unscopedBufs c V : sProp 𝕄) = iprop(Pipeline.arrBufs cfg.spec c V ∗ Pipeline.unscopedRest cfg.spec c V) :=
  Pipeline.PerCore.unscopedBufs_split₀ (Ix := Unit) (Name := ℕ) (U := UR sig nD τ) (Lvl := ℕ) (fun (_ : Dev nD) (_ : Unit) => cfg) () c hun V

theorem entry_bufs {a b : Fin cfg.W} (hp : SharedPair cfg.spec a b) (hun : ∀ w, (Pipeline.arrRef cfg.spec w).isScoped = false)
    (harr : ∀ w, (cfg.spec w).arr.IsWhole) (hq : ∀ w, dat.q w = pairShare a b w)
    (V : (r : Ref sig .tc) → Buf (Elt F) ((c : Thread nD τ).loc r)) (hA : ∀ w, dat.A w = V (Pipeline.arrRef cfg.spec w)) :
    (unscopedBufs c V : sProp 𝕄) ⊢ iprop(dat.arrays (dat.arrAt · 0) ∗ Pipeline.unscopedRest cfg.spec c V) := by
  rw [unscopedBufs_eq hun V, arrays_eq_arrBufs dat hp harr hq V (dat.arrAt · 0) fun w => by
    rw [show dat.arrAt w 0 = dat.A w from rfl, hA]]

theorem exit_bufs {a b : Fin cfg.W} (hp : SharedPair cfg.spec a b) (hun : ∀ w, (Pipeline.arrRef cfg.spec w).isScoped = false)
    (harr : ∀ w, (cfg.spec w).arr.IsWhole) (hq : ∀ w, dat.q w = pairShare a b w)
    (V V' : (r : Ref sig .tc) → Buf (Elt F) ((c : Thread nD τ).loc r))
    (G : (w : Fin cfg.W) → Buf (Elt F) ((cfg.win w).arr.view.loc (c : Thread nD τ)))
    (hG : ∀ w, G w = V' (Pipeline.arrRef cfg.spec w))
    (hrest : ∀ r, r ∉ Finset.univ.image (Pipeline.arrRef cfg.spec) → V' r = V r) :
    iprop(dat.arrays G ∗ Pipeline.unscopedRest cfg.spec c V) ⊢ (unscopedBufs c V' : sProp 𝕄) := by
  rw [unscopedBufs_eq hun V', arrays_eq_arrBufs dat hp harr hq V' G hG]
  refine sep_mono .rfl (Entails.of_eq ?_)
  unfold Pipeline.unscopedRest
  exact bigSep_congr fun r hr => by rw [hrest r (Finset.mem_sdiff.mp hr).2]

end Generic

theorem shared2 : SharedPair spec2 1 2 := by decide
theorem shared3 : SharedPair spec3 1 2 := by decide
theorem shared4 : SharedPair spec4 1 2 := by decide

end Cert.KernelIdeal.Rg

end
-- ==== Proof.Ideal.Chain.lean ====
import proofs.«156812_g12472585028273_cont_sun_m_131_10_alg».proof.Proof.Gen.KernelIdeal.Launch
import proofs.«156812_g12472585028273_cont_sun_m_131_10_alg».proof.Proof.Gen.KernelIdeal.Skeleton
import proofs.«156812_g12472585028273_cont_sun_m_131_10_alg».proof.Proof.Gen.KernelIdeal.Points
import proofs.«156812_g12472585028273_cont_sun_m_131_10_alg».proof.Proof.Gen.KernelIdeal.Regions
import proofs.«156812_g12472585028273_cont_sun_m_131_10_alg».proof.Proof.Ideal.Region0
import proofs.«156812_g12472585028273_cont_sun_m_131_10_alg».proof.Proof.Ideal.Region1
import proofs.«156812_g12472585028273_cont_sun_m_131_10_alg».proof.Proof.Ideal.Region2
import proofs.«156812_g12472585028273_cont_sun_m_131_10_alg».proof.Proof.Ideal.Region3
import proofs.«156812_g12472585028273_cont_sun_m_131_10_alg».proof.Proof.Ideal.Region4
import proofs.«156812_g12472585028273_cont_sun_m_131_10_alg».proof.Proof.Ideal.Region5
import proofs.«156812_g12472585028273_cont_sun_m_131_10_alg».proof.Proof.Ideal.SharedRows
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def updW {n : ℕ} (ar : Fin n → Ref sig .tc) (f : (w : Fin n) → (Proc.devRef (τ := τ) .tc (ar w)).ty.Contents (Elt F))
    (W : Valuation τ sig (Elt F)) : List (Fin n) → Valuation τ sig (Elt F)
  | [] => W
  | w :: l => Function.update (updW ar f W l) (Proc.devRef .tc (ar w)) (f w)

theorem updW_of {n : ℕ} (ar : Fin n → Ref sig .tc) (f : (w : Fin n) → (Proc.devRef (τ := τ) .tc (ar w)).ty.Contents (Elt F))
    (W : Valuation τ sig (Elt F)) (b : Ref sig .tc) :
    ∀ l : List (Fin n), (∀ w ∈ l, b ≠ ar w) → updW ar f W l (Proc.devRef .tc b) = W (Proc.devRef .tc b)
  | [], _ => rfl
  | w :: l, h => (Function.update_of_ne (StableHlo.devRef_ne_of_ne (h w (List.mem_cons.mpr (.inl rfl)))) _ _).trans
      (updW_of ar f W b l fun v hv => h v (List.mem_cons.mpr (.inr hv)))

theorem updW_mem {n : ℕ} (ar : Fin n → Ref sig .tc) (f : (w : Fin n) → (Proc.devRef (τ := τ) .tc (ar w)).ty.Contents (Elt F))
    (W : Valuation τ sig (Elt F)) :
    ∀ l : List (Fin n), (l.map ar).Nodup → ∀ w ∈ l, updW ar f W l (Proc.devRef .tc (ar w)) = f w
  | [], _, _, hw => by cases hw
  | v :: l, hn, w, hw => by
    rw [List.map_cons, List.nodup_cons] at hn
    rcases List.mem_cons.mp hw with rfl | hw'
    · exact Function.update_self _ _ _
    · exact (Function.update_of_ne (StableHlo.devRef_ne_of_ne fun e : ar w = ar v => hn.1 (e ▸ List.mem_map_of_mem hw')) _ _).trans (updW_mem ar f W l hn.2 w hw')

/-- What a region leaves: the arrays of its output windows `l` at their last contents, every other buffer as it was. -/
structure Step {cfg : Cfg sig Λ₀} {c : Dev nD} (dat : Dat τ (Elt F) Unit ℕ (UR sig nD τ) ℕ cfg c)
    (l : List (Fin cfg.W)) (W W' : Valuation τ sig (Elt F)) : Prop where
  of : ∀ b : Ref sig .tc, b ∉ l.map (Pipeline.arrRef cfg.spec) → W' (Proc.devRef .tc b) = W (Proc.devRef .tc b)
  out : ∀ w ∈ l, W' (Proc.devRef .tc (Pipeline.arrRef cfg.spec w)) = dat.arrAt w cfg.N
  hF : ∀ w, dat.arrAt w cfg.N = W' (Proc.devRef .tc (Pipeline.arrRef cfg.spec w))
  hrest : ∀ b : Ref sig .tc, b ∉ Finset.univ.image (Pipeline.arrRef cfg.spec) → W' (Proc.devRef .tc b) = W (Proc.devRef .tc b)

abbrev nxt {cfg : Cfg sig Λ₀} {c : Dev nD} (dat : Dat τ (Elt F) Unit ℕ (UR sig nD τ) ℕ cfg c)
    (l : List (Fin cfg.W)) (W : Valuation τ sig (Elt F)) : Valuation τ sig (Elt F) :=
  updW (Pipeline.arrRef cfg.spec) (dat.arrAt · cfg.N) W l

theorem step {cfg : Cfg sig Λ₀} {c : Dev nD} (dat : Dat τ (Elt F) Unit ℕ (UR sig nD τ) ℕ cfg c)
    (l : List (Fin cfg.W)) (W : Valuation τ sig (Elt F))
    (hA : ∀ w, dat.A w = W (Proc.devRef .tc (Pipeline.arrRef cfg.spec w)))
    (hn : (l.map (Pipeline.arrRef cfg.spec)).Nodup)
    (hin : ∀ w, w ∉ l → (cfg.win w).isOut = false ∧ ∀ v ∈ l, Pipeline.arrRef cfg.spec w ≠ Pipeline.arrRef cfg.spec v) :
    Step dat l W (nxt dat l W) where
  of b h := updW_of _ (dat.arrAt · cfg.N) W b l fun w hw e => h (e ▸ List.mem_map_of_mem hw)
  out w hw := updW_mem _ (dat.arrAt · cfg.N) W l hn w hw
  hF w := by
    by_cases hw : w ∈ l
    · exact (updW_mem _ (dat.arrAt · cfg.N) W l hn w hw).symm
    · exact ((dat.arrAt_in w (hin w hw).1 _).trans (hA w)).trans (updW_of _ (dat.arrAt · cfg.N) W _ l (hin w hw).2).symm
  hrest b hb := updW_of _ (dat.arrAt · cfg.N) W b l fun w _ e => hb (Finset.mem_image.mpr ⟨w, Finset.mem_univ _, e.symm⟩)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

abbrev o0 : List (Fin cfg0.W) := [14, 15, 16, 17, 18]
def W2 (c : Dev nD) : Valuation τ sig (Elt F) := nxt (dat0 (V1 m ρ) c) o0 (W1 m ρ c)
abbrev V2 : (c : Dev nD) → (b : Ref sig .tc) → Buf (Elt F) ((c : Thread nD τ).loc b) := fun c b => W2 m ρ c b
theorem st0 (c : Dev nD) : Step (dat0 (V1 m ρ) c) o0 (W1 m ρ c) (W2 m ρ c) :=
  step _ _ _ (A_eq0 (V1 m ρ) c) (by decide) (by decide)

abbrev o1 : List (Fin cfg1.W) := [6, 7]
def W3 (c : Dev nD) : Valuation τ sig (Elt F) := nxt (dat1 (V2 m ρ) c) o1 (W2 m ρ c)
abbrev V3 : (c : Dev nD) → (b : Ref sig .tc) → Buf (Elt F) ((c : Thread nD τ).loc b) := fun c b => W3 m ρ c b
theorem st1 (c : Dev nD) : Step (dat1 (V2 m ρ) c) o1 (W2 m ρ c) (W3 m ρ c) :=
  step _ _ _ (A_eq1 (V2 m ρ) c) (by decide) (by decide)

abbrev o2 : List (Fin cfg2.W) := [8, 9, 10]
def W4 (c : Dev nD) : Valuation τ sig (Elt F) := nxt (dat2 (V3 m ρ) c) o2 (W3 m ρ c)
abbrev V4 : (c : Dev nD) → (b : Ref sig .tc) → Buf (Elt F) ((c : Thread nD τ).loc b) := fun c b => W4 m ρ c b
theorem st2 (c : Dev nD) : Step (dat2 (V3 m ρ) c) o2 (W3 m ρ c) (W4 m ρ c) :=
  step _ _ _ (A_eq2 (V3 m ρ) c) (by decide) (by decide)

abbrev o3 : List (Fin cfg3.W) := [7, 8, 9]
def W5 (c : Dev nD) : Valuation τ sig (Elt F) := nxt (dat3 (V4 m ρ) c) o3 (W4 m ρ c)
abbrev V5 : (c : Dev nD) → (b : Ref sig .tc) → Buf (Elt F) ((c : Thread nD τ).loc b) := fun c b => W5 m ρ c b
theorem st3 (c : Dev nD) : Step (dat3 (V4 m ρ) c) o3 (W4 m ρ c) (W5 m ρ c) :=
  step _ _ _ (A_eq3 (V4 m ρ) c) (by decide) (by decide)

abbrev o4 : List (Fin cfg4.W) := [4, 5, 6]
def W6 (c : Dev nD) : Valuation τ sig (Elt F) := nxt (dat4 (V5 m ρ) c) o4 (W5 m ρ c)
abbrev V6 : (c : Dev nD) → (b : Ref sig .tc) → Buf (Elt F) ((c : Thread nD τ).loc b) := fun c b => W6 m ρ c b
theorem st4 (c : Dev nD) : Step (dat4 (V5 m ρ) c) o4 (W5 m ρ c) (W6 m ρ c) :=
  step _ _ _ (A_eq4 (V5 m ρ) c) (by decide) (by decide)

abbrev o5 : List (Fin cfg5.W) := [6, 7, 8]
def W7 (c : Dev nD) : Valuation τ sig (Elt F) := nxt (dat5 (V6 m ρ) c) o5 (W6 m ρ c)
abbrev V7 : (c : Dev nD) → (b : Ref sig .tc) → Buf (Elt F) ((c : Thread nD τ).loc b) := fun c b => W7 m ρ c b
theorem st5 (c : Dev nD) : Step (dat5 (V6 m ρ) c) o5 (W6 m ρ c) (W7 m ρ c) :=
  step _ _ _ (A_eq5 (V6 m ρ) c) (by decide) (by decide)

abbrev W8 : Dev nD → Valuation τ sig (Elt F) := fun c => StableHlo.after hostOps6 (W7 m ρ c)

theorem W8_of (c : Dev nD) (b : Ref sig .tc) (h : b ∉ (hostOps6_W : List (Ref sig .tc))) :
    W8 m ρ c (Proc.devRef .tc b) = W7 m ρ c (Proc.devRef .tc b) :=
  StableHlo.after_of_writes_sub hostOps6 _ hostOps6_writes h

abbrev written : List (Ref sig .tc) :=
  hostOps0_W ++ (o0.map (Pipeline.arrRef cfg0.spec) ++ (o1.map (Pipeline.arrRef cfg1.spec) ++ (o2.map (Pipeline.arrRef cfg2.spec)
    ++ (o3.map (Pipeline.arrRef cfg3.spec) ++ (o4.map (Pipeline.arrRef cfg4.spec) ++ (o5.map (Pipeline.arrRef cfg5.spec) ++ hostOps6_W))))))

theorem nm {α : Type} {b : α} {l₁ l₂ : List α} (h : b ∉ l₁ ++ l₂) : b ∉ l₁ ∧ b ∉ l₂ :=
  ⟨fun m => h (List.mem_append_left _ m), fun m => h (List.mem_append_right _ m)⟩

section
variable (c : Dev nD) (b : Ref sig .tc) (h : b ∉ (written : List (Ref sig .tc)))
include h
theorem W1_launch : W1 m ρ c (Proc.devRef .tc b) = m ((c : Thread nD τ).loc b) :=
  (StableHlo.after_of_writes_sub hostOps0 _ hostOps0_writes (nm h).1).trans rfl
theorem W2_launch : W2 m ρ c (Proc.devRef .tc b) = m ((c : Thread nD τ).loc b) :=
  ((st0 m ρ c).of b (nm (nm h).2).1).trans (W1_launch m ρ c b h)
theorem W3_launch : W3 m ρ c (Proc.devRef .tc b) = m ((c : Thread nD τ).loc b) :=
  ((st1 m ρ c).of b (nm (nm (nm h).2).2).1).trans (W2_launch m ρ c b h)
theorem W4_launch : W4 m ρ c (Proc.devRef .tc b) = m ((c : Thread nD τ).loc b) :=
  ((st2 m ρ c).of b (nm (nm (nm (nm h).2).2).2).1).trans (W3_launch m ρ c b h)
theorem W5_launch : W5 m ρ c (Proc.devRef .tc b) = m ((c : Thread nD τ).loc b) :=
  ((st3 m ρ c).of b (nm (nm (nm (nm (nm h).2).2).2).2).1).trans (W4_launch m ρ c b h)
theorem W6_launch : W6 m ρ c (Proc.devRef .tc b) = m ((c : Thread nD τ).loc b) :=
  ((st4 m ρ c).of b (nm (nm (nm (nm (nm (nm h).2).2).2).2).2).1).trans (W5_launch m ρ c b h)
theorem W7_launch : W7 m ρ c (Proc.devRef .tc b) = m ((c : Thread nD τ).loc b) :=
  ((st5 m ρ c).of b (nm (nm (nm (nm (nm (nm (nm h).2).2).2).2).2).2).1).trans (W6_launch m ρ c b h)
theorem W8_launch : W8 m ρ c (Proc.devRef .tc b) = m ((c : Thread nD τ).loc b) :=
  (W8_of m ρ c b (nm (nm (nm (nm (nm (nm (nm h).2).2).2).2).2).2).2).trans (W7_launch m ρ c b h)
end

theorem W8_main_arg0 (c : Dev nD) : W8 m ρ c (Proc.devRef .tc main_arg0) = m ((c : Thread nD τ).loc main_arg0) :=
  W8_launch m ρ c _ (by decide)
theorem W8_main_arg1 (c : Dev nD) : W8 m ρ c (Proc.devRef .tc main_arg1) = m ((c : Thread nD τ).loc main_arg1) :=
  W8_launch m ρ c _ (by decide)
theorem W8_main_arg2 (c : Dev nD) : W8 m ρ c (Proc.devRef .tc main_arg2) = m ((c : Thread nD τ).loc main_arg2) :=
  W8_launch m ρ c _ (by decide)
theorem W8_main_arg3 (c : Dev nD) : W8 m ρ c (Proc.devRef .tc main_arg3) = m ((c : Thread nD τ).loc main_arg3) :=
  W8_launch m ρ c _ (by decide)
theorem W8_main_arg4 (c : Dev nD) : W8 m ρ c (Proc.devRef .tc main_arg4) = m ((c : Thread nD τ).loc main_arg4) :=
  W8_launch m ρ c _ (by decide)
theorem W8_main_arg5 (c : Dev nD) : W8 m ρ c (Proc.devRef .tc main_arg5) = m ((c : Thread nD τ).loc main_arg5) :=
  W8_launch m ρ c _ (by decide)
theorem W8_main_arg6 (c : Dev nD) : W8 m ρ c (Proc.devRef .tc main_arg6) = m ((c : Thread nD τ).loc main_arg6) :=
  W8_launch m ρ c _ (by decide)
theorem W8_main_arg7 (c : Dev nD) : W8 m ρ c (Proc.devRef .tc main_arg7) = m ((c : Thread nD τ).loc main_arg7) :=
  W8_launch m ρ c _ (by decide)
theorem W8_main_arg8 (c : Dev nD) : W8 m ρ c (Proc.devRef .tc main_arg8) = m ((c : Thread nD τ).loc main_arg8) :=
  W8_launch m ρ c _ (by decide)
theorem W8_main_arg9 (c : Dev nD) : W8 m ρ c (Proc.devRef .tc main_arg9) = m ((c : Thread nD τ).loc main_arg9) :=
  W8_launch m ρ c _ (by decide)
theorem W8_main_arg10 (c : Dev nD) : W8 m ρ c (Proc.devRef .tc main_arg10) = m ((c : Thread nD τ).loc main_arg10) :=
  W8_launch m ρ c _ (by decide)
theorem W8_main_arg11 (c : Dev nD) : W8 m ρ c (Proc.devRef .tc main_arg11) = m ((c : Thread nD τ).loc main_arg11) :=
  W8_launch m ρ c _ (by decide)
theorem W8_main_arg12 (c : Dev nD) : W8 m ρ c (Proc.devRef .tc main_arg12) = m ((c : Thread nD τ).loc main_arg12) :=
  W8_launch m ρ c _ (by decide)
theorem W8_main_arg13 (c : Dev nD) : W8 m ρ c (Proc.devRef .tc main_arg13) = m ((c : Thread nD τ).loc main_arg13) :=
  W8_launch m ρ c _ (by decide)
theorem W8_main_arg14 (c : Dev nD) : W8 m ρ c (Proc.devRef .tc main_arg14) = m ((c : Thread nD τ).loc main_arg14) :=
  W8_launch m ρ c _ (by decide)
theorem W8_main_arg15 (c : Dev nD) : W8 m ρ c (Proc.devRef .tc main_arg15) = m ((c : Thread nD τ).loc main_arg15) :=
  W8_launch m ρ c _ (by decide)
theorem W8_main_arg16 (c : Dev nD) : W8 m ρ c (Proc.devRef .tc main_arg16) = m ((c : Thread nD τ).loc main_arg16) :=
  W8_launch m ρ c _ (by decide)
theorem W8_main_arg17 (c : Dev nD) : W8 m ρ c (Proc.devRef .tc main_arg17) = m ((c : Thread nD τ).loc main_arg17) :=
  W8_launch m ρ c _ (by decide)
theorem W8_main_arg18 (c : Dev nD) : W8 m ρ c (Proc.devRef .tc main_arg18) = m ((c : Thread nD τ).loc main_arg18) :=
  W8_launch m ρ c _ (by decide)
theorem W8_main_arg19 (c : Dev nD) : W8 m ρ c (Proc.devRef .tc main_arg19) = m ((c : Thread nD τ).loc main_arg19) :=
  W8_launch m ρ c _ (by decide)
theorem W8_main_arg20 (c : Dev nD) : W8 m ρ c (Proc.devRef .tc main_arg20) = m ((c : Thread nD τ).loc main_arg20) :=
  W8_launch m ρ c _ (by decide)
theorem W8_main_arg21 (c : Dev nD) : W8 m ρ c (Proc.devRef .tc main_arg21) = m ((c : Thread nD τ).loc main_arg21) :=
  W8_launch m ρ c _ (by decide)
theorem W8_main_arg22 (c : Dev nD) : W8 m ρ c (Proc.devRef .tc main_arg22) = m ((c : Thread nD τ).loc main_arg22) :=
  W8_launch m ρ c _ (by decide)
theorem W8_main_arg23 (c : Dev nD) : W8 m ρ c (Proc.devRef .tc main_arg23) = m ((c : Thread nD τ).loc main_arg23) :=
  W8_launch m ρ c _ (by decide)

theorem V1_main_v0 (c : Dev nD) :
    V1 m ρ c main_v0 = shapeCast (s := S256) S1x256 (m ((c : Thread nD τ).loc main_arg3)) shapeCasts_S256_S1x256 := by
  unfold V1 W1 hostOps0
  after_results
  rfl
theorem V1_main_v1 (c : Dev nD) :
    V1 m ρ c main_v1 = shapeCast (s := S128) S1x128 (m ((c : Thread nD τ).loc main_arg5)) shapeCasts_S128_S1x128 := by
  unfold V1 W1 hostOps0
  after_results
  rfl
theorem V1_main_v2 (c : Dev nD) :
    V1 m ρ c main_v2 = shapeCast (s := S16) S1x16 (m ((c : Thread nD τ).loc main_arg7)) shapeCasts_S16_S1x16 := by
  unfold V1 W1 hostOps0
  after_results
  rfl
theorem V1_main_v3 (c : Dev nD) :
    V1 m ρ c main_v3 = shapeCast (s := S128) S1x128 (m ((c : Thread nD τ).loc main_arg9)) shapeCasts_S128_S1x128 := by
  unfold V1 W1 hostOps0
  after_results
  rfl
theorem V1_main_v4 (c : Dev nD) :
    V1 m ρ c main_v4 = shapeCast (s := S256) S1x256 (m ((c : Thread nD τ).loc main_arg11)) shapeCasts_S256_S1x256 := by
  unfold V1 W1 hostOps0
  after_results
  rfl
theorem V1_main_v5 (c : Dev nD) :
    V1 m ρ c main_v5 = shapeCast (s := S512) S1x512 (m ((c : Thread nD τ).loc main_arg13)) shapeCasts_S512_S1x512 := by
  unfold V1 W1 hostOps0
  after_results
  rfl
theorem V1_main_arg0 (c : Dev nD) : V1 m ρ c main_arg0 = m ((c : Thread nD τ).loc main_arg0) := W1_launch m ρ c _ (by decide)
theorem V1_main_arg2 (c : Dev nD) : V1 m ρ c main_arg2 = m ((c : Thread nD τ).loc main_arg2) := W1_launch m ρ c _ (by decide)
theorem V1_main_arg4 (c : Dev nD) : V1 m ρ c main_arg4 = m ((c : Thread nD τ).loc main_arg4) := W1_launch m ρ c _ (by decide)
theorem V1_main_arg6 (c : Dev nD) : V1 m ρ c main_arg6 = m ((c : Thread nD τ).loc main_arg6) := W1_launch m ρ c _ (by decide)
theorem V1_main_arg8 (c : Dev nD) : V1 m ρ c main_arg8 = m ((c : Thread nD τ).loc main_arg8) := W1_launch m ρ c _ (by decide)
theorem V1_main_arg10 (c : Dev nD) : V1 m ρ c main_arg10 = m ((c : Thread nD τ).loc main_arg10) := W1_launch m ρ c _ (by decide)
theorem V1_main_arg12 (c : Dev nD) : V1 m ρ c main_arg12 = m ((c : Thread nD τ).loc main_arg12) := W1_launch m ρ c _ (by decide)
theorem V1_main_arg14 (c : Dev nD) : V1 m ρ c main_arg14 = m ((c : Thread nD τ).loc main_arg14) := W1_launch m ρ c _ (by decide)
theorem V2_main_arg1 (c : Dev nD) : V2 m ρ c main_arg1 = m ((c : Thread nD τ).loc main_arg1) := W2_launch m ρ c _ (by decide)
theorem V2_main_arg15 (c : Dev nD) : V2 m ρ c main_arg15 = m ((c : Thread nD τ).loc main_arg15) := W2_launch m ρ c _ (by decide)
theorem V2_main_arg16 (c : Dev nD) : V2 m ρ c main_arg16 = m ((c : Thread nD τ).loc main_arg16) := W2_launch m ρ c _ (by decide)
theorem V2_main_arg17 (c : Dev nD) : V2 m ρ c main_arg17 = m ((c : Thread nD τ).loc main_arg17) := W2_launch m ρ c _ (by decide)
theorem V3_main_arg1 (c : Dev nD) : V3 m ρ c main_arg1 = m ((c : Thread nD τ).loc main_arg1) := W3_launch m ρ c _ (by decide)
theorem V3_main_arg18 (c : Dev nD) : V3 m ρ c main_arg18 = m ((c : Thread nD τ).loc main_arg18) := W3_launch m ρ c _ (by decide)
theorem V3_main_arg19 (c : Dev nD) : V3 m ρ c main_arg19 = m ((c : Thread nD τ).loc main_arg19) := W3_launch m ρ c _ (by decide)
theorem V3_main_arg20 (c : Dev nD) : V3 m ρ c main_arg20 = m ((c : Thread nD τ).loc main_arg20) := W3_launch m ρ c _ (by decide)
theorem V4_main_arg1 (c : Dev nD) : V4 m ρ c main_arg1 = m ((c : Thread nD τ).loc main_arg1) := W4_launch m ρ c _ (by decide)
theorem V4_main_arg21 (c : Dev nD) : V4 m ρ c main_arg21 = m ((c : Thread nD τ).loc main_arg21) := W4_launch m ρ c _ (by decide)
theorem V4_main_arg22 (c : Dev nD) : V4 m ρ c main_arg22 = m ((c : Thread nD τ).loc main_arg22) := W4_launch m ρ c _ (by decide)
theorem V5_main_arg1 (c : Dev nD) : V5 m ρ c main_arg1 = m ((c : Thread nD τ).loc main_arg1) := W5_launch m ρ c _ (by decide)
theorem V6_main_arg23 (c : Dev nD) : V6 m ρ c main_arg23 = m ((c : Thread nD τ).loc main_arg23) := W6_launch m ρ c _ (by decide)
theorem V2_main_v6_4 (c : Dev nD) : V2 m ρ c main_v6_4 = (dat0 (V1 m ρ) c).arrAt 18 cfg0.N :=
  (st0 m ρ c).out 18 (by decide)
theorem V2_main_v6_2 (c : Dev nD) : V2 m ρ c main_v6_2 = (dat0 (V1 m ρ) c).arrAt 16 cfg0.N :=
  (st0 m ρ c).out 16 (by decide)
theorem V3_main_v7_0 (c : Dev nD) : V3 m ρ c main_v7_0 = (dat1 (V2 m ρ) c).arrAt 6 cfg1.N :=
  (st1 m ρ c).out 6 (by decide)
theorem V3_main_v7_1 (c : Dev nD) : V3 m ρ c main_v7_1 = (dat1 (V2 m ρ) c).arrAt 7 cfg1.N :=
  (st1 m ρ c).out 7 (by decide)
theorem V3_main_v6_3 (c : Dev nD) : V3 m ρ c main_v6_3 = (dat0 (V1 m ρ) c).arrAt 17 cfg0.N :=
  ((st1 m ρ c).of main_v6_3 (by decide)).trans ((st0 m ρ c).out 17 (by decide))
theorem V4_main_v8_0 (c : Dev nD) : V4 m ρ c main_v8_0 = (dat2 (V3 m ρ) c).arrAt 8 cfg2.N :=
  (st2 m ρ c).out 8 (by decide)
theorem V4_main_v8_1 (c : Dev nD) : V4 m ρ c main_v8_1 = (dat2 (V3 m ρ) c).arrAt 9 cfg2.N :=
  (st2 m ρ c).out 9 (by decide)
theorem V4_main_v6_1 (c : Dev nD) : V4 m ρ c main_v6_1 = (dat0 (V1 m ρ) c).arrAt 15 cfg0.N :=
  ((st2 m ρ c).of main_v6_1 (by decide)).trans <| ((st1 m ρ c).of main_v6_1 (by decide)).trans ((st0 m ρ c).out 15 (by decide))
theorem V5_main_v9_0 (c : Dev nD) : V5 m ρ c main_v9_0 = (dat3 (V4 m ρ) c).arrAt 7 cfg3.N :=
  (st3 m ρ c).out 7 (by decide)
theorem V5_main_v9_1 (c : Dev nD) : V5 m ρ c main_v9_1 = (dat3 (V4 m ρ) c).arrAt 8 cfg3.N :=
  (st3 m ρ c).out 8 (by decide)
theorem V6_main_v10_1 (c : Dev nD) : V6 m ρ c main_v10_1 = (dat4 (V5 m ρ) c).arrAt 5 cfg4.N :=
  (st4 m ρ c).out 5 (by decide)
theorem V6_main_v6_1 (c : Dev nD) : V6 m ρ c main_v6_1 = (dat0 (V1 m ρ) c).arrAt 15 cfg0.N :=
  ((st4 m ρ c).of main_v6_1 (by decide)).trans <| ((st3 m ρ c).of main_v6_1 (by decide)).trans (V4_main_v6_1 m ρ c)
theorem V6_main_v8_2 (c : Dev nD) : V6 m ρ c main_v8_2 = (dat2 (V3 m ρ) c).arrAt 10 cfg2.N :=
  ((st4 m ρ c).of main_v8_2 (by decide)).trans <| ((st3 m ρ c).of main_v8_2 (by decide)).trans ((st2 m ρ c).out 10 (by decide))
theorem V6_main_v9_2 (c : Dev nD) : V6 m ρ c main_v9_2 = (dat3 (V4 m ρ) c).arrAt 9 cfg3.N :=
  ((st4 m ρ c).of main_v9_2 (by decide)).trans ((st3 m ρ c).out 9 (by decide))
theorem V6_main_v10_2 (c : Dev nD) : V6 m ρ c main_v10_2 = (dat4 (V5 m ρ) c).arrAt 6 cfg4.N :=
  (st4 m ρ c).out 6 (by decide)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨_ + 6, h⟩ => absurd h (Nat.not_lt.2 (Nat.le_add_left _ _))
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section
variable {cfg : Cfg sig Λ₀} {c : Dev nD} (dat : Dat τ (Elt F) Unit ℕ (UR sig nD τ) ℕ cfg c)

theorem entry_gen {H A Z S T Pf : sProp 𝕄} (h0 : ∀ t, dat.owed t = 0) (hr : dat.recorded 0 = Set.univ) (hPf : (BI.emp : sProp 𝕄) ⊢ Pf)
    (hsplit : H ⊢ iprop(A ∗ Z)) :
    iprop((H ∗ R c) ∗ S ∗ T) ⊢ |={Set.univ}=> iprop(A ∗ Pf ∗ dat.owesAt () 0 ∗ (∃ r, prngReg c r) ∗ Z) := by
  unfold Pipeline.Dat.owesAt Pipeline.owesWithin; rw [h0]
  iintro ⟨⟨Hub, Hp, HO⟩, -, -⟩
  ihave H := hsplit $$ Hub
  icases H with ⟨Ha, Hrest⟩
  imodintro
  isplitl [Ha]; · iexact Ha
  isplitr; · iapply hPf; iempintro
  isplitl [HO]
  · icases HO with ⟨%W, HO⟩; iexists W; isplitr; · ipureintro; exact fun _ _ => Or.inl (hr ▸ trivial)
    iexact HO
  isplitl [Hp]; · iexact Hp
  iexact Hrest

theorem in_gen {Pf : sProp 𝕄} (hΦ : dat.Φ 0 = Pipeline.ΦA cfg.spec c) :
    iprop((∃ r, prngReg c r) ∗ Pf ∗ Pipeline.scopedRest cfg.spec c) ⊢ dat.Φ 0 := by
  rw [hΦ]; unfold Pipeline.ΦA
  iintro ⟨Hp, -, Hr⟩
  isplitl [Hr]; · iexact Hr
  iexact Hp

theorem out_gen {S : sProp 𝕄} (hΦ : dat.Φ (Fin.last cfg.N) = Pipeline.ΦA cfg.spec c) (hS : (BI.emp : sProp 𝕄) ⊢ S) :
    dat.Φ (Fin.last cfg.N) ⊢ iprop((∃ r, prngReg c r) ∗ S ∗ Pipeline.scopedRest cfg.spec c) := by
  rw [hΦ]; unfold Pipeline.ΦA
  iintro ⟨Hr, Hp⟩
  isplitl [Hp]; · iexact Hp
  isplitr; · iapply hS; iempintro
  iexact Hr

theorem exit_gen {H A Z : sProp 𝕄} (h0 : ∀ t, dat.owed t = 0) (hjoin : iprop(A ∗ Z) ⊢ H) :
    iprop(A ∗ dat.owesAt () (Fin.last cfg.N) ∗ (∃ r, prngReg c r) ∗ Z) ⊢ |={Set.univ}=> iprop(H ∗ R c) := by
  unfold Pipeline.Dat.owesAt Pipeline.owesWithin; rw [h0]
  iintro ⟨Ha, HO, HY, Hrest⟩
  imodintro
  isplitl [Ha Hrest]
  · iapply hjoin; isplitl [Ha] <;> iassumption
  isplitl [HY]; · iexact HY
  icases HO with ⟨%W, -, HO⟩; iexists W; iexact HO
end

theorem pref0 (p : Fin 6) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

set_option backward.isDefEq.respectTransparency.types false in
/-- A region over the thread state: entered from every unscoped buffer at `W`, left at `W'`. -/
def mkReg (p : Fin 6) (win : Pipeline.WinFacts₀ (pcfgs (F := F) p).spec)
    (bp : ∀ w : Fin (Pipeline.pin (pcfgs (F := F)) adm p).W, 0 < ((Pipeline.pin (pcfgs (F := F)) adm p).spec w).block.numel)
    (sw : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hbody : ∀ c, Pipeline.BodyObligationLoose (pdats m ρ p c) defs₀ 𝒱₀ () Set.univ)
    (h0 : ∀ c t, (pdats m ρ p c).owed t = 0) (hr : ∀ c, (pdats m ρ p c).recorded 0 = Set.univ)
    (hΦ : ∀ c t, (pdats m ρ p c).Φ t = Pipeline.ΦA (Pipeline.pin (pcfgs (F := F)) adm p).spec c)
    (W W' : Dev nD → Valuation τ sig (Elt F)) (Z : Dev nD → sProp 𝕄)
    (hsplit : ∀ c, (unscopedBufs c (fun r => W c r) : sProp 𝕄) ⊢ iprop((pdats m ρ p c).arrays ((pdats m ρ p c).arrAt · 0) ∗ Z c))
    (hjoin : ∀ c, iprop((pdats m ρ p c).arrays ((pdats m ρ p c).arrAt · (Pipeline.pin (pcfgs (F := F)) adm p).N) ∗ Z c)
      ⊢ (unscopedBufs c (fun r => W' c r) : sProp 𝕄)) :
    Pipeline.RegionSeg (pcfgs (F := F)) adm (pdats m ρ) () defs₀ 𝒱₀ L lv p where
  win := win
  block_pos := bp
  stage_whole := sw
  K := PEmpty
  osem k := k.elim
  ho := Pipeline.OwnSemFacts.none _
  hbody := hbody
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z := Z
  hentry c := entry_gen _ (h0 c) (hr c) (pref0 p c) ((Entails.of_eq (Pipeline.unscopedBufs_held c (W c)).symm).trans (hsplit c))
  hin c := in_gen _ (hΦ c 0)
  hout c := out_gen _ (hΦ c _) (Entails.of_eq (by rw [Pipeline.ownSems0_none]))
  hexit c := exit_gen _ (h0 c) ((hjoin c).trans (Entails.of_eq (Pipeline.unscopedBufs_held c (W' c))))

set_option backward.isDefEq.respectTransparency.types false in
def reg0 : Pipeline.RegionSeg (pcfgs (F := F)) adm (pdats m ρ) () defs₀ 𝒱₀ L lv 0 :=
  mkReg m ρ 0 launch0.win.to₀ launch0.block_pos launch0.stage_whole (fun c => (body_obligation0 (V1 m ρ) c).loose)
    (owed_eq0 (V1 m ρ)) (fun _ => rfl) (Phi_eq0 (V1 m ρ)) (W1 m ρ) (W2 m ρ) _
    (fun c => Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w)
    (fun c => Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (st0 m ρ c).hF (st0 m ρ c).hrest)

set_option backward.isDefEq.respectTransparency.types false in
def reg1 : Pipeline.RegionSeg (pcfgs (F := F)) adm (pdats m ρ) () defs₀ 𝒱₀ L lv 1 :=
  mkReg m ρ 1 launch1.win.to₀ launch1.block_pos launch1.stage_whole (fun c => (body_obligation1 (V2 m ρ) c).loose)
    (owed_eq1 (V2 m ρ)) (fun _ => rfl) (Phi_eq1 (V2 m ρ)) (W2 m ρ) (W3 m ρ) _
    (fun c => Pipeline.arrays_of_unscopedBufs (p := 1) (pcfgs (F := F)) adm (pdats m ρ) launch1.win launch1.arr_whole c
      ((pdats m ρ 1 c).share_full fun w => q_eq1 (V2 m ρ) c w) (V2 m ρ c) fun w => A_eq1 (V2 m ρ) c w)
    (fun c => Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (st1 m ρ c).hF (st1 m ρ c).hrest)

theorem hq2 (c : Dev nD) (w : Fin 11) : (dat2 (V3 m ρ) c).q w = pairShare 1 2 w :=
  (q_eq2 (V3 m ρ) c w).trans (by fin_cases w <;> rfl)
set_option backward.isDefEq.respectTransparency.types false in
def reg2 : Pipeline.RegionSeg (pcfgs (F := F)) adm (pdats m ρ) () defs₀ 𝒱₀ L lv 2 :=
  mkReg m ρ 2 winFacts₀2 block_pos2 stage_whole2 (fun c => (body_obligation2 (V3 m ρ) c).loose)
    (owed_eq2 (V3 m ρ)) (fun _ => rfl) (Phi_eq2 (V3 m ρ)) (W3 m ρ) (W4 m ρ) _
    (fun c => entry_bufs (pdats m ρ 2 c) shared2 winFacts₀2.arr_unscoped arr_whole2 (hq2 m ρ c) (V3 m ρ c)
      fun w => A_eq2 (V3 m ρ) c w)
    (fun c => exit_bufs (pdats m ρ 2 c) shared2 winFacts₀2.arr_unscoped arr_whole2 (hq2 m ρ c) (V3 m ρ c) (V4 m ρ c)
      ((pdats m ρ 2 c).arrAt · cfg2.N) (st2 m ρ c).hF (st2 m ρ c).hrest)

theorem hq3 (c : Dev nD) (w : Fin 10) : (dat3 (V4 m ρ) c).q w = pairShare 1 2 w :=
  (q_eq3 (V4 m ρ) c w).trans (by fin_cases w <;> rfl)
set_option backward.isDefEq.respectTransparency.types false in
def reg3 : Pipeline.RegionSeg (pcfgs (F := F)) adm (pdats m ρ) () defs₀ 𝒱₀ L lv 3 :=
  mkReg m ρ 3 winFacts₀3 block_pos3 stage_whole3 (fun c => (body_obligation3 (V4 m ρ) c).loose)
    (owed_eq3 (V4 m ρ)) (fun _ => rfl) (Phi_eq3 (V4 m ρ)) (W4 m ρ) (W5 m ρ) _
    (fun c => entry_bufs (pdats m ρ 3 c) shared3 winFacts₀3.arr_unscoped arr_whole3 (hq3 m ρ c) (V4 m ρ c)
      fun w => A_eq3 (V4 m ρ) c w)
    (fun c => exit_bufs (pdats m ρ 3 c) shared3 winFacts₀3.arr_unscoped arr_whole3 (hq3 m ρ c) (V4 m ρ c) (V5 m ρ c)
      ((pdats m ρ 3 c).arrAt · cfg3.N) (st3 m ρ c).hF (st3 m ρ c).hrest)

theorem hq4 (c : Dev nD) (w : Fin 7) : (dat4 (V5 m ρ) c).q w = pairShare 1 2 w :=
  (q_eq4 (V5 m ρ) c w).trans (by fin_cases w <;> rfl)
set_option backward.isDefEq.respectTransparency.types false in
def reg4 : Pipeline.RegionSeg (pcfgs (F := F)) adm (pdats m ρ) () defs₀ 𝒱₀ L lv 4 :=
  mkReg m ρ 4 winFacts₀4 block_pos4 stage_whole4 (fun c => (body_obligation4 (V5 m ρ) c).loose)
    (owed_eq4 (V5 m ρ)) (fun _ => rfl) (Phi_eq4 (V5 m ρ)) (W5 m ρ) (W6 m ρ) _
    (fun c => entry_bufs (pdats m ρ 4 c) shared4 winFacts₀4.arr_unscoped arr_whole4 (hq4 m ρ c) (V5 m ρ c)
      fun w => A_eq4 (V5 m ρ) c w)
    (fun c => exit_bufs (pdats m ρ 4 c) shared4 winFacts₀4.arr_unscoped arr_whole4 (hq4 m ρ c) (V5 m ρ c) (V6 m ρ c)
      ((pdats m ρ 4 c).arrAt · cfg4.N) (st4 m ρ c).hF (st4 m ρ c).hrest)

set_option backward.isDefEq.respectTransparency.types false in
def reg5 : Pipeline.RegionSeg (pcfgs (F := F)) adm (pdats m ρ) () defs₀ 𝒱₀ L lv 5 :=
  mkReg m ρ 5 launch5.win.to₀ launch5.block_pos launch5.stage_whole (fun c => (body_obligation5 (V6 m ρ) c).loose)
    (owed_eq5 (V6 m ρ)) (fun _ => rfl) (Phi_eq5 (V6 m ρ)) (W6 m ρ) (W7 m ρ) _
    (fun c => Pipeline.arrays_of_unscopedBufs (p := 5) (pcfgs (F := F)) adm (pdats m ρ) launch5.win launch5.arr_whole c
      ((pdats m ρ 5 c).share_full fun w => q_eq5 (V6 m ρ) c w) (V6 m ρ c) fun w => A_eq5 (V6 m ρ) c w)
    (fun c => Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => q_eq5 (V6 m ρ) c w)
      (V6 m ρ c) (V7 m ρ c) ((pdats m ρ 5 c).arrAt · cfg5.N) (st5 m ρ c).hF (st5 m ρ c).hrest)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .host (hseg hostOps6 hostOps6_sub hostOps6_fresh (W7 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => StableHlo.held (c : Thread nD τ) (Pipeline.ucRefs τ sig) (W8 m ρ c))
    (hch := ⟨fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W8 m ρ c) ∗ (∃ r, prngReg c r) ∗ ∃ W, owes (c : Thread nD τ) (0 : CellTallies nD τ sig Unit) W)
          ⊢ iprop(StableHlo.held (c : Thread nD τ) (Pipeline.ucRefs τ sig) (W8 m ρ c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨Hh, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => by
    repeat' apply And.intro
    all_goals exact (h c _ (mem_uc _ (by decide))).trans (W8_launch m ρ c _ (by decide))) (run_all m ρ)

theorem W8_result0 (c : Dev nD) : W8 m ρ c (Proc.devRef .tc main_v6_0) = (dat0 (V1 m ρ) c).arrAt 14 cfg0.N :=
  (W8_of m ρ c main_v6_0 (by decide)).trans <| ((st5 m ρ c).of main_v6_0 (by decide)).trans <| ((st4 m ρ c).of main_v6_0 (by decide)).trans <| ((st3 m ρ c).of main_v6_0 (by decide)).trans <| ((st2 m ρ c).of main_v6_0 (by decide)).trans <|
    ((st1 m ρ c).of main_v6_0 (by decide)).trans ((st0 m ρ c).out 14 (by decide))
theorem W8_result1 (c : Dev nD) : W8 m ρ c (Proc.devRef .tc main_v10_0) = (dat4 (V5 m ρ) c).arrAt 4 cfg4.N :=
  (W8_of m ρ c main_v10_0 (by decide)).trans <| ((st5 m ρ c).of main_v10_0 (by decide)).trans ((st4 m ρ c).out 4 (by decide))
theorem W8_result2 (c : Dev nD) : W8 m ρ c (Proc.devRef .tc main_v6_1) = (dat0 (V1 m ρ) c).arrAt 15 cfg0.N :=
  (W8_of m ρ c main_v6_1 (by decide)).trans <| ((st5 m ρ c).of main_v6_1 (by decide)).trans (V6_main_v6_1 m ρ c)
theorem W8_result3 (c : Dev nD) : W8 m ρ c (Proc.devRef .tc main_v11_0) = (dat5 (V6 m ρ) c).arrAt 6 cfg5.N :=
  (W8_of m ρ c main_v11_0 (by decide)).trans ((st5 m ρ c).out 6 (by decide))
theorem W8_result4 (c : Dev nD) : W8 m ρ c (Proc.devRef .tc main_v11_1) = (dat5 (V6 m ρ) c).arrAt 7 cfg5.N :=
  (W8_of m ρ c main_v11_1 (by decide)).trans ((st5 m ρ c).out 7 (by decide))
theorem W8_result5 (c : Dev nD) : W8 m ρ c (Proc.devRef .tc main_v10_1) = (dat4 (V5 m ρ) c).arrAt 5 cfg4.N :=
  (W8_of m ρ c main_v10_1 (by decide)).trans <| ((st5 m ρ c).of main_v10_1 (by decide)).trans (V6_main_v10_1 m ρ c)
theorem W8_result6 (c : Dev nD) :
    W8 m ρ c (Proc.devRef .tc main_v12)
      = shapeCast (s := S1x1) S_ ((dat5 (V6 m ρ) c).arrAt 8 cfg5.N) shapeCasts_S1x1_S_ := by
  have h := StableHlo.reshape_result (τ := τ) (Val := Elt F) main_v11_2 main_v12 rfl shapeCasts_S1x1_S_ ⟨by decide, rfl⟩ ⟨by decide, rfl⟩ (W7 m ρ c)
  have e : W7 m ρ c (Proc.devRef .tc main_v11_2) = _ := (st5 m ρ c).out 8 (by decide)
  rw [e] at h
  exact h

end Cert.KernelIdeal.Rg

end
-- ==== Proof.Real.Arr.lean ====
import Idealize.ShloMosaic.Lib.ValueIdx
import Idealize.ShloMosaic.PureOps.Ideal

noncomputable section

namespace Cert.Net

open Idealize.ShloMosaic Idealize.ShloMosaic.ValueIdx

def up2 {m n : Nat} (M : Fin m → Fin n → ℝ) : (⟨2, ![m, n]⟩ : Shape).Idx → EReal :=
  fun i => ((M (i 0) (i 1) : ℝ) : EReal)

def up1 {n : Nat} (v : Fin n → ℝ) : (⟨1, ![n]⟩ : Shape).Idx → EReal :=
  fun i => ((v (i 0) : ℝ) : EReal)

def up0 (r : ℝ) : (⟨0, ![]⟩ : Shape).Idx → EReal :=
  fun _ => (r : EReal)

theorem up2_apply {m n : Nat} (M : Fin m → Fin n → ℝ) (p : Fin m) (q : Fin n) :
    up2 M (ix2 p q) = ((M p q : ℝ) : EReal) := rfl

def slope : ℝ := (Ideal.ofBits .f32 0x3E4CCCCD#32 : EReal).toReal

def negBig : ℝ := (Ideal.ofBits .f32 0xD9FFCB9E#32 : EReal).toReal

def colOf {d : Nat} (v : Fin d → ℝ) : Fin d → Fin 1 → ℝ := fun l _ => v l
def rowOf {d : Nat} (v : Fin d → ℝ) : Fin 1 → Fin d → ℝ := fun _ l => v l

def cellOf (r : ℝ) : Fin 1 → Fin 1 → ℝ := fun _ _ => r

end Cert.Net

end
-- ==== Proof.Value.HostEnds.lean ====
import proofs.«156812_g12472585028273_cont_sun_m_131_10_alg».proof.Proof.Real.Arr
import Idealize.ShloMosaic.Lib.ValueLayout

noncomputable section

namespace Cert.KernelIdeal.Val

open Idealize.ShloMosaic Idealize.ShloMosaic.ValueIdx Cert.Net

/-- A reshape keeps the row-major order: a vector becomes the one-row matrix of the same numbers. -/
theorem shapeCast_up1_row {n : Nat} {X : (⟨1, ![n]⟩ : Shape).Idx → EReal} (v : Fin n → ℝ) (hX : X = up1 v)
    (h : (⟨1, ![n]⟩ : Shape).ShapeCasts ⟨2, ![1, n]⟩) : shapeCast ⟨2, ![1, n]⟩ X h = up2 (rowOf v) := by
  subst hX
  funext j
  obtain ⟨u, i, rfl⟩ : ∃ (u : Fin 1) (i : Fin n), j = ix2 u i := ⟨j 0, j 1, eq_ix2 j⟩
  rw [shapeCast_a_1a_apply]
  rfl

theorem shapeCast_up2_cell {X : (⟨2, ![1, 1]⟩ : Shape).Idx → EReal} (r : ℝ) (hX : X = up2 (cellOf r))
    (h : (⟨2, ![1, 1]⟩ : Shape).ShapeCasts ⟨0, ![]⟩) : shapeCast ⟨0, ![]⟩ X h = up0 r :=
  hX ▸ rfl

end Cert.KernelIdeal.Val

end
-- ==== Proof.Real.Spec.lean ====
import Mathlib.Analysis.SpecialFunctions.Exp
import Mathlib.Analysis.SpecialFunctions.Pow.Real
import Mathlib.Algebra.BigOperators.Fin
import Mathlib.Algebra.BigOperators.Field
import Mathlib.Data.Fintype.BigOperators
import Mathlib.Data.Finset.Lattice.Fold
import Mathlib.Data.Real.Basic

namespace Cert.Net

open Finset

abbrev Mat (m n : ℕ) := Fin m → Fin n → ℝ

noncomputable def relu (x : ℝ) : ℝ := max x 0

noncomputable def leaky (a x : ℝ) : ℝ := if 0 < x then x else a * x

noncomputable def elu (x : ℝ) : ℝ := if 0 < x then x else Real.exp x - 1

noncomputable def sigm (x : ℝ) : ℝ := (1 + Real.exp (-x))⁻¹

noncomputable def mix (x y : ℝ) : ℝ := (1 / 2) * x + (1 / 2) * y

def mm {m k n : ℕ} (a : Mat m k) (b : Mat k n) : Mat m n := fun i j => ∑ l, a i l * b l j

def mmT {m k n : ℕ} (a : Mat m k) (b : Mat n k) : Mat m n := fun i j => ∑ l, a i l * b j l

def addRow {m n : ℕ} (x : Mat m n) (b : Fin n → ℝ) : Mat m n := fun i j => x i j + b j

noncomputable def reluM {m n : ℕ} (x : Mat m n) : Mat m n := fun i j => relu (x i j)

noncomputable def mixM {m n : ℕ} (x y : Mat m n) : Mat m n := fun i j => mix (x i j) (y i j)

noncomputable def scores {N d : ℕ} (a neg : ℝ) (h : Mat N d) (aS aN : Fin d → ℝ)
    (adj : Mat N N) : Mat N N :=
  fun i j => if 0 < adj i j then leaky a ((∑ l, h i l * aS l) + (∑ l, h j l * aN l)) else neg

noncomputable def rowMax {n m : ℕ} [NeZero m] (att : Mat n m) (i : Fin n) : ℝ :=
  Finset.univ.sup' ⟨(0 : Fin m), Finset.mem_univ _⟩ (att i)

noncomputable def attendK {n m d : ℕ} [NeZero m] (att : Mat n m) (h : Mat m d) : Mat n d :=
  fun i j => elu ((∑ k, Real.exp (att i k - rowMax att i) * h k j)
    / ∑ k, Real.exp (att i k - rowMax att i))

noncomputable def attendR {n m d : ℕ} [NeZero m] (att : Mat n m) (h : Mat m d) : Mat n d :=
  fun i j => elu (∑ k, (Real.exp (att i k - rowMax att i)
    / ∑ k', Real.exp (att i k' - rowMax att i)) * h k j)

theorem le_rowMax {n m : ℕ} [NeZero m] (att : Mat n m) (i : Fin n) (k : Fin m) :
    att i k ≤ rowMax att i := by
  unfold rowMax
  exact Finset.le_sup' (att i) (Finset.mem_univ k)

theorem exists_eq_rowMax {n m : ℕ} [NeZero m] (att : Mat n m) (i : Fin n) :
    ∃ k, att i k = rowMax att i := by
  unfold rowMax
  obtain ⟨k, _, hk⟩ := Finset.exists_mem_eq_sup' ⟨(0 : Fin m), Finset.mem_univ _⟩ (att i)
  exact ⟨k, hk.symm⟩

theorem one_le_rowSum {n m : ℕ} [NeZero m] (att : Mat n m) (i : Fin n) :
    1 ≤ ∑ k, Real.exp (att i k - rowMax att i) := by
  obtain ⟨k0, hk0⟩ := exists_eq_rowMax att i
  have h1 : Real.exp (att i k0 - rowMax att i) = 1 := by rw [hk0, sub_self, Real.exp_zero]
  calc (1 : ℝ) = Real.exp (att i k0 - rowMax att i) := h1.symm
    _ ≤ ∑ k, Real.exp (att i k - rowMax att i) :=
        Finset.single_le_sum (f := fun k => Real.exp (att i k - rowMax att i))
          (fun k _ => (Real.exp_pos _).le) (Finset.mem_univ k0)

theorem rowSum_pos {n m : ℕ} [NeZero m] (att : Mat n m) (i : Fin n) :
    0 < ∑ k, Real.exp (att i k - rowMax att i) :=
  lt_of_lt_of_le one_pos (one_le_rowSum att i)

theorem attend_eq {n m d : ℕ} [NeZero m] (att : Mat n m) (h : Mat m d) :
    attendK att h = attendR att h := by
  funext i j
  unfold attendK attendR
  congr 1
  rw [Finset.sum_div]
  refine Finset.sum_congr rfl fun k _ => ?_
  ring

noncomputable def eluK (x : ℝ) : ℝ := if 0 < x then x else Real.exp (min x 0) - 1

noncomputable def eluR (x : ℝ) : ℝ :=
  if 0 < x then x else 1 * (Real.exp (if 0 < x then 0 else x) - 1)

theorem eluK_eq (x : ℝ) : eluK x = elu x := by
  unfold eluK elu
  by_cases hx : 0 < x
  · simp only [if_pos hx]
  · simp only [if_neg hx, min_eq_left (not_lt.mp hx)]

theorem eluR_eq (x : ℝ) : eluR x = elu x := by
  unfold eluR elu
  by_cases hx : 0 < x
  · simp only [if_pos hx]
  · simp only [if_neg hx, one_mul]

noncomputable def sqErr {N d : ℕ} (g : Mat N d) (adj : Mat N N) : ℝ :=
  ∑ i, ∑ j, (sigm (∑ l, g i l * g j l) - adj i j) * (sigm (∑ l, g i l * g j l) - adj i j)

def blockRow (b : Fin 16) (r : Fin 256) : Fin 4096 := ⟨256 * b.val + r.val, by omega⟩

def blockEquiv : Fin 16 × Fin 256 ≃ Fin 4096 where
  toFun p := blockRow p.1 p.2
  invFun i := (⟨i.val / 256, by omega⟩, ⟨i.val % 256, by omega⟩)
  left_inv := by
    intro p
    obtain ⟨b, r⟩ := p
    have hb := b.isLt
    have hr := r.isLt
    refine Prod.ext (Fin.ext ?_) (Fin.ext ?_)
    · show (256 * b.val + r.val) / 256 = b.val
      omega
    · show (256 * b.val + r.val) % 256 = r.val
      omega
  right_inv := by
    intro i
    apply Fin.ext
    show 256 * (i.val / 256) + i.val % 256 = i.val
    omega

theorem sum_blockRow (f : Fin 4096 → ℝ) :
    ∑ b : Fin 16, ∑ r : Fin 256, f (blockRow b r) = ∑ i, f i := by
  rw [← Fintype.sum_prod_type' (f := fun b r => f (blockRow b r))]
  exact blockEquiv.sum_comp f

noncomputable def sqErrBlock {d : ℕ} (g : Mat 4096 d) (adj : Mat 4096 4096) (b : Fin 16) : ℝ :=
  ∑ r : Fin 256, ∑ j : Fin 4096,
    (sigm (∑ l, g (blockRow b r) l * g j l) - adj (blockRow b r) j)
      * (sigm (∑ l, g (blockRow b r) l * g j l) - adj (blockRow b r) j)

theorem sqErr_blocks {d : ℕ} (g : Mat 4096 d) (adj : Mat 4096 4096) :
    ∑ b : Fin 16, sqErrBlock g adj b = sqErr g adj := by
  unfold sqErr sqErrBlock
  exact sum_blockRow (fun i => ∑ j, (sigm (∑ l, g i l * g j l) - adj i j)
    * (sigm (∑ l, g i l * g j l) - adj i j))

def accum (p : ℕ → ℝ) : ℕ → ℝ
  | 0 => p 0
  | t + 1 => accum p t + p (t + 1)

theorem accum_eq_sum (p : ℕ → ℝ) (t : ℕ) : accum p t = ∑ s ∈ Finset.range (t + 1), p s := by
  induction t with
  | zero => simp [accum]
  | succ t ih =>
    rw [accum, ih]
    exact (Finset.sum_range_succ p (t + 1)).symm

theorem accum_fin {n : ℕ} (p : ℕ → ℝ) (q : Fin (n + 1) → ℝ)
    (hpq : ∀ t : Fin (n + 1), p t.val = q t) : accum p n = ∑ t, q t := by
  rw [accum_eq_sum, Finset.sum_range]
  exact Finset.sum_congr rfl fun t _ => hpq t

noncomputable def lossK (l0 l1 l2 : ℝ) : ℝ := ((l0 + l1) + l2) * (1 / 16777216)

noncomputable def lossR (l0 l1 l2 : ℝ) : ℝ := (l0 / 16777216 + l1 / 16777216) + l2 / 16777216

theorem loss_eq (l0 l1 l2 : ℝ) : lossK l0 l1 l2 = lossR l0 l1 l2 := by
  unfold lossK lossR
  ring

def dist2K {N C d : ℕ} (z : Mat N d) (cl : Mat C d) : Mat N C :=
  fun i k => ((∑ e, z i e * z i e) - 2 * (∑ e, z i e * cl k e)) + (∑ e, cl k e * cl k e)

def dist2R {N C d : ℕ} (z : Mat N d) (cl : Mat C d) : Mat N C :=
  fun i k => ∑ e, (z i e - cl k e) * (z i e - cl k e)

noncomputable def kernK {N C d : ℕ} (z : Mat N d) (cl : Mat C d) : Mat N C :=
  fun i k => 1 / (1 + dist2K z cl i k / 1)

noncomputable def kernR {N C d : ℕ} (z : Mat N d) (cl : Mat C d) : Mat N C :=
  fun i k => Real.rpow (1 / (1 + dist2R z cl i k / 1)) 1

noncomputable def assignK {N C d : ℕ} (z : Mat N d) (cl : Mat C d) : Mat N C :=
  fun i k => kernK z cl i k / ∑ k', kernK z cl i k'

noncomputable def assignR {N C d : ℕ} (z : Mat N d) (cl : Mat C d) : Mat N C :=
  fun i k => kernR z cl i k / ∑ k', kernR z cl i k'

theorem dist2_eq {N C d : ℕ} (z : Mat N d) (cl : Mat C d) : dist2K z cl = dist2R z cl := by
  funext i k
  unfold dist2K dist2R
  rw [Finset.mul_sum, ← Finset.sum_sub_distrib, ← Finset.sum_add_distrib]
  refine Finset.sum_congr rfl fun e _ => ?_
  ring

theorem dist2R_nonneg {N C d : ℕ} (z : Mat N d) (cl : Mat C d) (i : Fin N) (k : Fin C) :
    0 ≤ dist2R z cl i k :=
  Finset.sum_nonneg fun e _ => mul_self_nonneg _

theorem dist2K_nonneg {N C d : ℕ} (z : Mat N d) (cl : Mat C d) (i : Fin N) (k : Fin C) :
    0 ≤ dist2K z cl i k := by
  rw [dist2_eq]
  exact dist2R_nonneg z cl i k

theorem kern_eq {N C d : ℕ} (z : Mat N d) (cl : Mat C d) : kernK z cl = kernR z cl := by
  funext i k
  unfold kernK kernR
  rw [dist2_eq, Real.rpow_eq_pow, Real.rpow_one]

theorem kernK_den_pos {N C d : ℕ} (z : Mat N d) (cl : Mat C d) (i : Fin N) (k : Fin C) :
    0 < 1 + dist2K z cl i k / 1 := by
  have h := dist2K_nonneg z cl i k
  rw [div_one]
  linarith

theorem kernR_den_pos {N C d : ℕ} (z : Mat N d) (cl : Mat C d) (i : Fin N) (k : Fin C) :
    0 < 1 + dist2R z cl i k / 1 := by
  have h := dist2R_nonneg z cl i k
  rw [div_one]
  linarith

theorem kernK_pos {N C d : ℕ} (z : Mat N d) (cl : Mat C d) (i : Fin N) (k : Fin C) :
    0 < kernK z cl i k := by
  unfold kernK
  exact one_div_pos.mpr (kernK_den_pos z cl i k)

theorem kernK_rowSum_pos {N C d : ℕ} [NeZero C] (z : Mat N d) (cl : Mat C d) (i : Fin N) :
    0 < ∑ k, kernK z cl i k :=
  Finset.sum_pos (fun k _ => kernK_pos z cl i k) ⟨(0 : Fin C), Finset.mem_univ _⟩

theorem kernR_rowSum_pos {N C d : ℕ} [NeZero C] (z : Mat N d) (cl : Mat C d) (i : Fin N) :
    0 < ∑ k, kernR z cl i k := by
  rw [← kern_eq]
  exact kernK_rowSum_pos z cl i

theorem assign_eq {N C d : ℕ} (z : Mat N d) (cl : Mat C d) : assignK z cl = assignR z cl := by
  funext i k
  unfold assignK assignR
  rw [kern_eq]

end Cert.Net
-- ==== Proof.Real.Lift.lean ====
import Idealize.ShloMosaic.PureOps.Ideal
import Idealize.ShloMosaic.PureOps.Ideal.Laws
import Idealize.ShloMosaic.Lib.ValueIdx
import proofs.«156812_g12472585028273_cont_sun_m_131_10_alg».proof.Proof.Real.Arr

noncomputable section

namespace Cert.Lift

open Idealize.ShloMosaic Idealize.ShloMosaic.ValueIdx
open scoped BigOperators

def up {α : Type} (f : α → ℝ) : α → EReal := fun i => ((f i : ℝ) : EReal)

section Basic
variable {α : Type}

@[simp] theorem up_apply (f : α → ℝ) (i : α) : up f i = ((f i : ℝ) : EReal) := rfl

theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

theorem coe_max (x y : ℝ) : ((max x y : ℝ) : EReal) = max (x : EReal) (y : EReal) := EReal.coe_strictMono.monotone.map_max

theorem coe_min (x y : ℝ) : ((min x y : ℝ) : EReal) = min (x : EReal) (y : EReal) := EReal.coe_strictMono.monotone.map_min

theorem fold_max_bot_coe {ι : Type} (s : Finset ι) (hs : s.Nonempty) (f : ι → ℝ) :
    s.fold max (⊥ : EReal) (fun i => ((f i : ℝ) : EReal)) = ((s.sup' hs f : ℝ) : EReal) := by
  induction hs using Finset.Nonempty.cons_induction with
  | singleton a => rw [Finset.fold_singleton, Finset.sup'_singleton]; exact max_eq_left bot_le
  | cons a s ha hs ih => rw [Finset.fold_cons, ih, Finset.sup'_cons hs, coe_max]

theorem up2_eq_up {m n : Nat} (M : Fin m → Fin n → ℝ) : Cert.Net.up2 M = up (fun i => M (i 0) (i 1)) := rfl

theorem up0_eq_up (r : ℝ) : Cert.Net.up0 r = up (fun _ => r) := rfl

theorem up_eq_up2 {m n : Nat} (f : (⟨2, ![m, n]⟩ : Shape).Idx → ℝ) :
    up f = Cert.Net.up2 (fun p q => f (ix2 p q)) := by
  funext i
  obtain ⟨p, q, rfl⟩ : ∃ (p : Fin m) (q : Fin n), i = ix2 p q := ⟨i 0, i 1, eq_ix2 i⟩
  rfl

theorem up_eq_up1 {n : Nat} (f : (⟨1, ![n]⟩ : Shape).Idx → ℝ) :
    up f = Cert.Net.up1 (fun p => f (ix1 p)) := by
  funext i
  obtain ⟨p, rfl⟩ : ∃ p : Fin n, i = ix1 p := ⟨i 0, eq_ix1 i⟩
  rfl

end Basic

section Pointwise
variable {S : Shape} {φ : FTy}

theorem mulf_up (a b : S.Idx → ℝ) :
    mulf (F := Ideal) (φ := φ) (up a) (up b) = up (fun i => a i * b i) := by funext i; exact (EReal.coe_mul (a i) (b i)).symm

theorem addf_up (a b : S.Idx → ℝ) :
    addf (F := Ideal) (φ := φ) (up a) (up b) = up (fun i => a i + b i) := by funext i; exact (EReal.coe_add (a i) (b i)).symm

theorem subf_up (a b : S.Idx → ℝ) :
    subf (F := Ideal) (φ := φ) (up a) (up b) = up (fun i => a i - b i) := by funext i; exact (EReal.coe_sub (a i) (b i)).symm

theorem divf_up (a b : S.Idx → ℝ) (hb : ∀ i, b i ≠ 0) :
    divf (F := Ideal) (φ := φ) (up a) (up b) = up (fun i => a i / b i) := by
  funext i
  show Ideal.div ((a i : ℝ) : EReal) ((b i : ℝ) : EReal) = ((a i / b i : ℝ) : EReal)
  rw [Ideal.div_coe (hb i), ← EReal.coe_mul, mul_one_div]

theorem hostDivf_up (a b : S.Idx → ℝ) (hb : ∀ i, b i ≠ 0) :
    Host.divf (F := Ideal) (φ := φ) (up a) (up b) = up (fun i => a i / b i) := divf_up a b hb

theorem maximumf_up (a b : S.Idx → ℝ) :
    maximumf (F := Ideal) (φ := φ) (up a) (up b) = up (fun i => max (a i) (b i)) := by funext i; exact (coe_max (a i) (b i)).symm

theorem minimumf_up (a b : S.Idx → ℝ) :
    minimumf (F := Ideal) (φ := φ) (up a) (up b) = up (fun i => min (a i) (b i)) := by funext i; exact (coe_min (a i) (b i)).symm

theorem negf_up (a : S.Idx → ℝ) :
    negf (F := Ideal) (φ := φ) (up a) = up (fun i => -a i) := by funext i; exact (EReal.coe_neg (a i)).symm

theorem exp_up (a : S.Idx → ℝ) :
    Idealize.ShloMosaic.exp (F := Ideal) (φ := φ) (up a) = up (fun i => Real.exp (a i)) := by funext i; exact Ideal.exp_coe (a i)

theorem hostExp_up (a : S.Idx → ℝ) :
    Host.exp (F := Ideal) (φ := φ) (up a) = up (fun i => Real.exp (a i)) := exp_up a

theorem hostExpm1_up (a : S.Idx → ℝ) :
    Host.expm1 (F := Ideal) (φ := φ) (up a) = up (fun i => Real.exp (a i) - 1) := by funext i; exact (EReal.coe_sub (Real.exp (a i)) 1).symm

theorem logistic_up (a : S.Idx → ℝ) :
    logistic (F := Ideal) (φ := φ) (up a) = up (fun i => (1 + Real.exp (-a i))⁻¹) := by funext i; exact Ideal.logistic_coe (a i)

theorem logisticExpansion_up (a : S.Idx → ℝ) (one one' : S.Idx → EReal) (h1 : one = up (fun _ => 1))
    (h1' : one' = up (fun _ => 1)) :
    divf (F := Ideal) (φ := φ) one (addf one' (Idealize.ShloMosaic.exp (negf (up a))))
      = up (fun i => (1 + Real.exp (-a i))⁻¹) := by
  subst h1 h1'
  rw [negf_up, exp_up, addf_up,
    divf_up _ _ (fun i => (by positivity : (0 : ℝ) < 1 + Real.exp (-a i)).ne')]
  simp only [one_div]

theorem hostLogisticExpansion_up (a : S.Idx → ℝ) (one one' : S.Idx → EReal) (h1 : one = up (fun _ => 1))
    (h1' : one' = up (fun _ => 1)) :
    Host.divf (F := Ideal) (φ := φ) one (addf one' (Host.exp (Host.negf (up a))))
      = up (fun i => (1 + Real.exp (-a i))⁻¹) := logisticExpansion_up a one one' h1 h1'

theorem hostPowf_one_up (a : S.Idx → ℝ) (one : S.Idx → EReal) (h1 : one = up (fun _ => 1)) :
    Host.powf (F := Ideal) (φ := φ) (up a) one = up a := by
  subst h1
  funext i
  show ((Real.rpow (a i) 1 : ℝ) : EReal) = ((a i : ℝ) : EReal)
  rw [Real.rpow_eq_pow, Real.rpow_one]

theorem cmpf_ogt_up (a b : S.Idx → ℝ) (i : S.Idx) :
    cmpf (F := Ideal) (φ := φ) .ogt (up a) (up b) i = 1 ↔ b i < a i := by
  show BitVec.ofBool (decide (((b i : ℝ) : EReal) < ((a i : ℝ) : EReal))) = 1 ↔ b i < a i
  by_cases h : b i < a i <;> simp [h, EReal.coe_lt_coe_iff]

theorem select_up (m : IVec S 1) (c d : S.Idx → ℝ) :
    select m (up c) (up d) = up (fun i => if m i = 1 then c i else d i) := by
  funext i
  show (if m i = 1 then ((c i : ℝ) : EReal) else ((d i : ℝ) : EReal)) = ((if m i = 1 then c i else d i : ℝ) : EReal)
  split <;> rfl

theorem select_ogt_up (a b c d : S.Idx → ℝ) :
    select (cmpf (F := Ideal) (φ := φ) .ogt (up a) (up b)) (up c) (up d)
      = up (fun i => if b i < a i then c i else d i) := by
  rw [select_up]
  congr 1
  funext i
  simp only [cmpf_ogt_up]

theorem truncf_id (ψ : FTy) (x : S.Idx → EReal) (h : ψ.bits < φ.bits) :
    truncf (F := Ideal) (φ := φ) ψ x h = x := rfl

theorem maximumf_bot_left (bot y : S.Idx → EReal) (hb : ∀ i, bot i = ⊥) :
    maximumf (F := Ideal) (φ := φ) bot y = y := by
  funext i
  show max (bot i) (y i) = y i
  rw [hb i]; exact max_eq_right bot_le

end Pointwise

section Constants

theorem ofBits_zero : Ideal.ofBits .f32 0x00000000#32 = ((0 : ℝ) : EReal) := by simp [Ideal.ofBits, Ideal.ieee]

theorem ofBits_one : Ideal.ofBits .f32 0x3F800000#32 = ((1 : ℝ) : EReal) := by simp [Ideal.ofBits, Ideal.ieee, -EReal.coe_mul]; norm_num

theorem ofBits_two : Ideal.ofBits .f32 0x40000000#32 = ((2 : ℝ) : EReal) := by simp [Ideal.ofBits, Ideal.ieee, -EReal.coe_mul]; norm_num

theorem ofBits_half : Ideal.ofBits .f32 0x3F000000#32 = ((1 / 2 : ℝ) : EReal) := by simp [Ideal.ofBits, Ideal.ieee, -EReal.coe_mul]; norm_num

theorem ofBits_inv_2p24 : Ideal.ofBits .f32 0x33800000#32 = ((1 / 16777216 : ℝ) : EReal) := by simp [Ideal.ofBits, Ideal.ieee, -EReal.coe_mul]; norm_num

theorem ofBits_2p24 : Ideal.ofBits .f32 0x4B800000#32 = ((16777216 : ℝ) : EReal) := by simp [Ideal.ofBits, Ideal.ieee, -EReal.coe_mul]; norm_num

theorem ofBits_negInf : Ideal.ofBits .f32 0xFF800000#32 = ⊥ := by simp [Ideal.ofBits, Ideal.ieee]

theorem ieee_real (e m : Nat) {w : Nat} (b : BitVec w) (h : (b.extractLsb' m e).toNat ≠ 2 ^ e - 1) :
    ∃ r : ℝ, Ideal.ieee e m b = (r : EReal) := by
  unfold Ideal.ieee
  simp only [h, if_false]
  split <;> exact ⟨_, rfl⟩

theorem ofBits_slope_real : ∃ r : ℝ, Ideal.ofBits .f32 0x3E4CCCCD#32 = (r : EReal) := ieee_real 8 23 (0x3E4CCCCD#32) (by decide)

theorem ofBits_mask_real : ∃ r : ℝ, Ideal.ofBits .f32 0xD9FFCB9E#32 = (r : EReal) := ieee_real 8 23 (0xD9FFCB9E#32) (by decide)

theorem ofBits_slope : Ideal.ofBits .f32 0x3E4CCCCD#32 = (Cert.Net.slope : EReal) := by
  obtain ⟨r, hr⟩ := ofBits_slope_real
  unfold Cert.Net.slope
  rw [hr, EReal.toReal_coe]

theorem ofBits_mask : Ideal.ofBits .f32 0xD9FFCB9E#32 = (Cert.Net.negBig : EReal) := by
  obtain ⟨r, hr⟩ := ofBits_mask_real
  unfold Cert.Net.negBig
  rw [hr, EReal.toReal_coe]

variable {S : Shape} {φ : FTy}

theorem constant_up {w : BitVec φ.bits} {r : ℝ} (h : Ideal.ofBits φ w = (r : EReal)) :
    constant (F := Ideal) S φ w = up (fun _ => r) := by funext _; exact h

theorem broadcast_ofBits_up {w : BitVec φ.bits} {r : ℝ} (h : Ideal.ofBits φ w = (r : EReal)) :
    broadcast S (Scalar.ofBits (F := Ideal) φ w) = up (fun _ => r) := by funext _; exact h

theorem broadcastInDim_constant {F : FTy → Type} [FloatOps F] {s t : Shape} (dims : Fin s.rank → Fin t.rank)
    (h : s.BroadcastsInDim t dims) (w : BitVec φ.bits) :
    broadcastInDim t dims h (constant (F := F) s φ w) = constant t φ w := rfl

theorem broadcast_zero_up : broadcast S (Scalar.ofBits (F := Ideal) .f32 0x00000000#32) = up (fun _ => 0) := broadcast_ofBits_up ofBits_zero

theorem constant_one_up : constant (F := Ideal) S .f32 0x3F800000#32 = up (fun _ => 1) := constant_up ofBits_one

theorem broadcast_one_up : broadcast S (Scalar.ofBits (F := Ideal) .f32 0x3F800000#32) = up (fun _ => 1) := broadcast_ofBits_up ofBits_one

theorem broadcast_two_up : broadcast S (Scalar.ofBits (F := Ideal) .f32 0x40000000#32) = up (fun _ => 2) := broadcast_ofBits_up ofBits_two

theorem broadcast_half_up : broadcast S (Scalar.ofBits (F := Ideal) .f32 0x3F000000#32) = up (fun _ => 1 / 2) := broadcast_ofBits_up ofBits_half

theorem broadcast_inv_2p24_up : broadcast S (Scalar.ofBits (F := Ideal) .f32 0x33800000#32) = up (fun _ => 1 / 16777216) := broadcast_ofBits_up ofBits_inv_2p24

theorem constant_2p24_up : constant (F := Ideal) S .f32 0x4B800000#32 = up (fun _ => 16777216) := constant_up ofBits_2p24

theorem broadcast_slope_up : broadcast S (Scalar.ofBits (F := Ideal) .f32 0x3E4CCCCD#32) = up (fun _ => Cert.Net.slope) := broadcast_ofBits_up ofBits_slope

theorem broadcast_mask_up : broadcast S (Scalar.ofBits (F := Ideal) .f32 0xD9FFCB9E#32) = up (fun _ => Cert.Net.negBig) := broadcast_ofBits_up ofBits_mask

theorem maximumf_constant_negInf_left (y : S.Idx → EReal) :
    maximumf (F := Ideal) (φ := .f32) (constant S .f32 0xFF800000#32) y = y := maximumf_bot_left _ y (fun _ => ofBits_negInf)

end Constants

section Sums
variable {φ : FTy}

theorem matmul_zero_up {sl sr so : Shape} {φ₁ φ₂ : FTy} (d : DotDims sl sr so) (prec : Option ContractPrecision)
    (l : sl.Idx → ℝ) (r : sr.Idx → ℝ) :
    matmul (F := Ideal) (φ₁ := φ₁) (φ₂ := φ₂) d prec (up l) (up r) (constant so .f32 0x00000000#32)
      = up (fun j => ∑ k : d.contr.Idx, l (d.lhsIdx j k) * r (d.rhsIdx j k)) := by
  funext j
  refine (Ideal.matmul_constant_zero_apply (φ₁ := φ₁) (φ₂ := φ₂) d prec (up l) (up r) j).trans ?_
  simp only [up_apply, ← EReal.coe_mul]
  exact coe_sum _ _

theorem multiReduction_add_single_up {s t : Shape} {a : Fin s.rank} (x : s.Idx → ℝ) (acc : BitVec φ.bits)
    (h : s.Reduces [a] t) (hφ : FKind.Formats φ) (hacc : acc = FKind.add.neutral φ hφ) :
    multiReduction (F := Ideal) .add [a] t (up x) acc h hφ hacc
      = up (fun j => ∑ k : Fin (s.size a), x (h.lift j k)) := by
  funext j
  exact (Ideal.multiReduction_add_single (up x) acc h hφ hacc j).trans (coe_sum Finset.univ fun k => x (h.lift j k))

theorem multiReduction_add_total_up {s t : Shape} {axes : List (Fin s.rank)} (x : s.Idx → ℝ) (acc : BitVec φ.bits)
    (h : s.Reduces axes t) (ht : ∀ b, t.size b = 1) (hφ : FKind.Formats φ) (hacc : acc = FKind.add.neutral φ hφ) :
    multiReduction (F := Ideal) .add axes t (up x) acc h hφ hacc = up (fun _ => ∑ i : s.Idx, x i) := by
  funext j
  exact (Ideal.multiReduction_add_total (up x) acc h ht hφ hacc j).trans (coe_sum Finset.univ x)

theorem hostReduceAdd_single_up {s t u : Shape} {a : Fin s.rank} (x : s.Idx → ℝ) (init : u.Idx → EReal) (r0 : ℝ)
    (h' : s.ReducesTo [a] t) (h : s.Reduces [a] t) (hu : 0 < u.numel) (h0 : init (Shape.Idx.first hu) = (r0 : EReal)) :
    Host.reduceAdd (F := Ideal) (φ := φ) (up x) init h' hu
      = up (fun j => r0 + ∑ k : Fin (s.size a), x (h.lift j k)) := by
  funext j
  show Ideal.hostReduceAdd h' (up x) (init (Shape.Idx.first hu)) j = _
  rw [Ideal.hostReduceAdd_single h' h, h0]
  show (r0 : EReal) + ∑ k : Fin (s.size a), ((x (h.lift j k) : ℝ) : EReal) = _
  rw [coe_sum, ← EReal.coe_add]
  rfl

theorem hostReduceAdd_single_zero_up {s t u : Shape} {a : Fin s.rank} (x : s.Idx → ℝ)
    (h' : s.ReducesTo [a] t) (h : s.Reduces [a] t) (hu : 0 < u.numel) :
    Host.reduceAdd (F := Ideal) (φ := .f32) (up x) (constant u .f32 0x00000000#32) h' hu
      = up (fun j => ∑ k : Fin (s.size a), x (h.lift j k)) := by
  rw [hostReduceAdd_single_up x _ 0 h' h hu ofBits_zero]
  simp only [zero_add]

theorem hostReduceAdd_total_up {s t u : Shape} {axes : List (Fin s.rank)} (x : s.Idx → ℝ) (init : u.Idx → EReal) (r0 : ℝ)
    (h' : s.ReducesTo axes t) (ht : ∀ b, t.size b = 1) (hu : 0 < u.numel) (h0 : init (Shape.Idx.first hu) = (r0 : EReal)) :
    Host.reduceAdd (F := Ideal) (φ := φ) (up x) init h' hu = up (fun _ => r0 + ∑ i : s.Idx, x i) := by
  funext j
  show Ideal.hostReduceAdd h' (up x) (init (Shape.Idx.first hu)) j = _
  rw [Ideal.hostReduceAdd_total h' ht, h0]
  show (r0 : EReal) + ∑ i : s.Idx, ((x i : ℝ) : EReal) = _
  rw [coe_sum, ← EReal.coe_add]
  rfl

theorem hostReduceAdd_total_zero_up {s t u : Shape} {axes : List (Fin s.rank)} (x : s.Idx → ℝ)
    (h' : s.ReducesTo axes t) (ht : ∀ b, t.size b = 1) (hu : 0 < u.numel) :
    Host.reduceAdd (F := Ideal) (φ := .f32) (up x) (constant u .f32 0x00000000#32) h' hu
      = up (fun _ => ∑ i : s.Idx, x i) := by
  rw [hostReduceAdd_total_up x _ 0 h' ht hu ofBits_zero]
  simp only [zero_add]

end Sums

section Maxima
variable {φ : FTy}

theorem sup'_univ_eq {n : Nat} {f : Fin n → ℝ} {m : ℝ} (hne : (Finset.univ : Finset (Fin n)).Nonempty) (hle : ∀ k, f k ≤ m)
    (hex : ∃ k, f k = m) : Finset.univ.sup' hne f = m := by
  obtain ⟨k, hk⟩ := hex
  exact le_antisymm (Finset.sup'_le _ _ fun k _ => hle k) (hk ▸ Finset.le_sup' f (Finset.mem_univ k))

theorem multiReduction_max_single_up {s t : Shape} {a : Fin s.rank} (x : s.Idx → ℝ) (acc : BitVec φ.bits)
    (h : s.Reduces [a] t) (hφ : FKind.Formats φ) (hacc : acc = FKind.maximumf.neutral φ hφ) (hpos : 0 < s.size a) :
    multiReduction (F := Ideal) .maximumf [a] t (up x) acc h hφ hacc
      = up (fun j => (Finset.univ : Finset (Fin (s.size a))).sup' ⟨⟨0, hpos⟩, Finset.mem_univ _⟩
          (fun k => x (h.lift j k))) := by
  have hbot : FloatOps.ofBits (F := Ideal) φ acc = ⊥ := by
    show Ideal.ofBits φ acc = ⊥
    rcases hφ with rfl | rfl <;> subst hacc <;> simp [FKind.neutral, Ideal.ofBits, Ideal.ieee]
  funext j
  rw [Ideal.multiReduction_maximumf_single (up x) acc h hφ hacc j, hbot]
  exact fold_max_bot_coe Finset.univ _ (fun k => x (h.lift j k))

theorem multiReduction_max_single_eq {s t : Shape} {a : Fin s.rank} (x : s.Idx → ℝ) (acc : BitVec φ.bits)
    (h : s.Reduces [a] t) (hφ : FKind.Formats φ) (hacc : acc = FKind.maximumf.neutral φ hφ) (j : t.Idx) (m : ℝ)
    (hle : ∀ k, x (h.lift j k) ≤ m) (hex : ∃ k, x (h.lift j k) = m) :
    multiReduction (F := Ideal) .maximumf [a] t (up x) acc h hφ hacc j = (m : EReal) := by
  have hpos : 0 < s.size a := by obtain ⟨k, _⟩ := hex; exact Fin.pos k
  rw [multiReduction_max_single_up x acc h hφ hacc hpos]
  exact congrArg _ (sup'_univ_eq _ hle hex)

theorem hostReduce_max_single_up {s t u : Shape} {a : Fin s.rank} (x : s.Idx → ℝ) (init : u.Idx → EReal)
    (h' : s.ReducesTo [a] t) (h : s.Reduces [a] t) (hu : 0 < u.numel) (h0 : init (Shape.Idx.first hu) = ⊥)
    (hpos : 0 < s.size a) :
    Host.reduce (FloatOps.maximumf (F := Ideal) (φ := φ)) (up x) init h' hu
      = up (fun j => (Finset.univ : Finset (Fin (s.size a))).sup' ⟨⟨0, hpos⟩, Finset.mem_univ _⟩
          (fun k => x (h.lift j k))) := by
  funext j
  rw [Host.reduce_eq_fold_single (FloatOps.maximumf (F := Ideal) (φ := φ)) (up x) init h' h hu j, h0]
  exact fold_max_bot_coe Finset.univ _ (fun k => x (h.lift j k))

theorem hostReduce_max_single_negInf_up {s t u : Shape} {a : Fin s.rank} (x : s.Idx → ℝ)
    (h' : s.ReducesTo [a] t) (h : s.Reduces [a] t) (hu : 0 < u.numel) (hpos : 0 < s.size a) :
    Host.reduce (FloatOps.maximumf (F := Ideal) (φ := .f32)) (up x) (constant u .f32 0xFF800000#32) h' hu
      = up (fun j => (Finset.univ : Finset (Fin (s.size a))).sup' ⟨⟨0, hpos⟩, Finset.mem_univ _⟩
          (fun k => x (h.lift j k))) := hostReduce_max_single_up x _ h' h hu ofBits_negInf hpos

end Maxima

end Cert.Lift

end
-- ==== Proof.Real.MatMul.lean ====
import Idealize.ShloMosaic.PureOps.Ideal
import Idealize.ShloMosaic.PureOps.Ideal.Laws
import Idealize.ShloMosaic.Lib.ValueIdx
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift

noncomputable section

namespace Cert.Lift

open Idealize.ShloMosaic Idealize.ShloMosaic.ValueIdx
open scoped BigOperators

section Axes
variable {sl sr so : Shape} (d : DotDims sl sr so)

theorem lhsIdx_val_of_free {al : Fin sl.rank} (hb : d.lhsBatch = []) (hn : d.lhsNonContracting = [al])
    (j : so.Idx) (k : d.contr.Idx) (h0 : 0 < so.rank) : (d.lhsIdx j k al).val = (j ⟨0, h0⟩).val := by
  have hnb : al ∉ d.lhsBatch := by rw [hb]; exact List.not_mem_nil
  have hmem : al ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

theorem rhsIdx_val_of_free {al : Fin sl.rank} {ar : Fin sr.rank} (hlb : d.lhsBatch = []) (hln : d.lhsNonContracting = [al])
    (hrb : d.rhsBatch = []) (hrn : d.rhsNonContracting = [ar])
    (j : so.Idx) (k : d.contr.Idx) (h1 : 1 < so.rank) : (d.rhsIdx j k ar).val = (j ⟨1, h1⟩).val := by
  have hnb : ar ∉ d.rhsBatch := by rw [hrb]; exact List.not_mem_nil
  have hmem : ar ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end Axes

theorem matmul_zero_up2 {m k n : Nat} (d : DotDims (⟨2, ![m, k]⟩ : Shape) ⟨2, ![k, n]⟩ ⟨2, ![m, n]⟩)
    (prec : Option ContractPrecision) {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (a : Cert.Net.Mat m k) (b : Cert.Net.Mat k n) :
    matmul (F := Ideal) (φ₁ := φ₁) (φ₂ := φ₂) d prec (Cert.Net.up2 a) (Cert.Net.up2 b) (constant _ .f32 0x00000000#32)
      = Cert.Net.up2 (Cert.Net.mm a b) := by
  rw [up2_eq_up a, up2_eq_up b, matmul_zero_up, up_eq_up2]
  congr 1
  funext p q
  have hr : d.contr.rank = 1 := by rw [d.rank_contr, hlc]; rfl
  have hs : d.contr.size ⟨0, by omega⟩ = k := by
    rw [d.size_contr 0 (by rw [hlc]; exact Nat.one_pos)]
    simp only [hlc, List.getElem_cons_zero]
    rfl
  show ∑ κ : d.contr.Idx, a (d.lhsIdx (ix2 p q) κ 0) (d.lhsIdx (ix2 p q) κ 1) * b (d.rhsIdx (ix2 p q) κ 0) (d.rhsIdx (ix2 p q) κ 1)
      = ∑ l : Fin k, a p l * b l q
  refine ((Equiv.sum_comp (contrEquiv1 d k hr hs).symm _).symm).trans ?_
  refine Finset.sum_congr rfl fun l _ => ?_
  have e0 : d.lhsIdx (ix2 p q) ((contrEquiv1 d k hr hs).symm l) 0 = p :=
    Fin.ext (lhsIdx_val_of_free d hlb hln _ _ Nat.two_pos)
  have e1 : d.lhsIdx (ix2 p q) ((contrEquiv1 d k hr hs).symm l) 1 = l :=
    Fin.ext ((d.lhsIdx_val_of_single hlc _ _).trans (contrEquiv1_symm_val d k hr hs l))
  have e2 : d.rhsIdx (ix2 p q) ((contrEquiv1 d k hr hs).symm l) 0 = l :=
    Fin.ext ((d.rhsIdx_val_of_single hrc _ _).trans (contrEquiv1_symm_val d k hr hs l))
  have e3 : d.rhsIdx (ix2 p q) ((contrEquiv1 d k hr hs).symm l) 1 = q :=
    Fin.ext (rhsIdx_val_of_free d hlb hln hrb hrn _ _ Nat.one_lt_two)
  rw [e0, e1, e2, e3]

theorem matmulT_zero_up2 {m k n : Nat} (d : DotDims (⟨2, ![m, k]⟩ : Shape) ⟨2, ![n, k]⟩ ⟨2, ![m, n]⟩)
    (prec : Option ContractPrecision) {φ₁ φ₂ : FTy}
    (hlb : d.lhsBatch = []) (hln : d.lhsNonContracting = [0]) (hlc : d.lhsContracting = [1])
    (hrb : d.rhsBatch = []) (hrn : d.rhsNonContracting = [0]) (hrc : d.rhsContracting = [1])
    (a : Cert.Net.Mat m k) (b : Cert.Net.Mat n k) :
    matmul (F := Ideal) (φ₁ := φ₁) (φ₂ := φ₂) d prec (Cert.Net.up2 a) (Cert.Net.up2 b) (constant _ .f32 0x00000000#32)
      = Cert.Net.up2 (Cert.Net.mmT a b) := by
  rw [up2_eq_up a, up2_eq_up b, matmul_zero_up, up_eq_up2]
  congr 1
  funext p q
  have hr : d.contr.rank = 1 := by rw [d.rank_contr, hlc]; rfl
  have hs : d.contr.size ⟨0, by omega⟩ = k := by
    rw [d.size_contr 0 (by rw [hlc]; exact Nat.one_pos)]
    simp only [hlc, List.getElem_cons_zero]
    rfl
  show ∑ κ : d.contr.Idx, a (d.lhsIdx (ix2 p q) κ 0) (d.lhsIdx (ix2 p q) κ 1) * b (d.rhsIdx (ix2 p q) κ 0) (d.rhsIdx (ix2 p q) κ 1)
      = ∑ l : Fin k, a p l * b q l
  refine ((Equiv.sum_comp (contrEquiv1 d k hr hs).symm _).symm).trans ?_
  refine Finset.sum_congr rfl fun l _ => ?_
  have e0 : d.lhsIdx (ix2 p q) ((contrEquiv1 d k hr hs).symm l) 0 = p :=
    Fin.ext (lhsIdx_val_of_free d hlb hln _ _ Nat.two_pos)
  have e1 : d.lhsIdx (ix2 p q) ((contrEquiv1 d k hr hs).symm l) 1 = l :=
    Fin.ext ((d.lhsIdx_val_of_single hlc _ _).trans (contrEquiv1_symm_val d k hr hs l))
  have e2 : d.rhsIdx (ix2 p q) ((contrEquiv1 d k hr hs).symm l) 0 = q :=
    Fin.ext (rhsIdx_val_of_free d hlb hln hrb hrn _ _ Nat.one_lt_two)
  have e3 : d.rhsIdx (ix2 p q) ((contrEquiv1 d k hr hs).symm l) 1 = l :=
    Fin.ext ((d.rhsIdx_val_of_single hrc _ _).trans (contrEquiv1_symm_val d k hr hs l))
  rw [e0, e1, e2, e3]

end Cert.Lift

end
-- ==== Proof.Value.Region0.lean ====
import proofs.«156812_g12472585028273_cont_sun_m_131_10_alg».proof.Proof.Ideal.Region0
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import proofs.«156812_g12472585028273_cont_sun_m_131_10_alg».proof.Proof.Real.MatMul
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

section Arrays
variable {m n : Nat}

private theorem broadcastTo_row_up2 (b : Fin n → ℝ) (h : (⟨2, ![1, n]⟩ : Shape).Broadcasts ⟨2, ![m, n]⟩) :
    broadcastTo (⟨2, ![m, n]⟩ : Shape) (up2 (rowOf b)) h = up2 (fun (_ : Fin m) q => b q) := by
  funext j
  obtain ⟨p, q, rfl⟩ : ∃ (p : Fin m) (q : Fin n), j = ix2 p q := ⟨j 0, j 1, eq_ix2 j⟩
  exact broadcastTo_1b_ab_apply _ h p q

private theorem relu_up2 (A : Mat m n) :
    maximumf (F := Ideal) (φ := .f32) (up2 A) (broadcast (⟨2, ![m, n]⟩ : Shape) (Scalar.ofBits (F := Ideal) .f32 0x00000000#32))
      = up2 (reluM A) := by
  rw [broadcast_zero_up, up2_eq_up, maximumf_up]; rfl

private theorem addRow_up2 (A : Mat m n) (b : Fin n → ℝ) (hc : (⟨2, ![1, n]⟩ : Shape).ShapeCasts ⟨2, ![1, n]⟩)
    (hb : (⟨2, ![1, n]⟩ : Shape).Broadcasts ⟨2, ![m, n]⟩) :
    addf (F := Ideal) (φ := .f32) (up2 A) (broadcastTo (⟨2, ![m, n]⟩ : Shape) (shapeCast (⟨2, ![1, n]⟩ : Shape) (up2 (rowOf b)) hc) hb)
      = up2 (addRow A b) := by
  rw [shapeCast_self, broadcastTo_row_up2, up2_eq_up, up2_eq_up, addf_up]; rfl

end Arrays

variable (x : Mat 4096 512) (We1 : Mat 512 256) (be1 : Fin 256 → ℝ) (We2 : Mat 256 128) (be2 : Fin 128 → ℝ)
  (Wz : Mat 128 16) (bz : Fin 16 → ℝ) (Wd1 : Mat 16 128) (bd1 : Fin 128 → ℝ) (Wd2 : Mat 128 256) (bd2 : Fin 256 → ℝ)
  (Wxb : Mat 256 512) (bxb : Fin 512 → ℝ) (Wg1 : Mat 512 256)

theorem k0pay3_up2 :
    k0_pay3 (F := Ideal) (up2 x) (up2 We1) (up2 (rowOf be1)) = up2 (reluM (addRow (mm x We1) be1)) := by
  dsimp only [k0_pay3]
  rw [matmul_zero_up2 _ none rfl rfl rfl rfl rfl rfl x We1, addRow_up2, relu_up2]

theorem k0pay4_up2 :
    k0_pay4 (F := Ideal) (up2 x) (up2 We1) (up2 (rowOf be1)) (up2 We2) (up2 (rowOf be2))
      = up2 (reluM (addRow (mm (reluM (addRow (mm x We1) be1)) We2) be2)) := by
  dsimp only [k0_pay4]
  rw [k0pay3_up2, matmul_zero_up2 _ none rfl rfl rfl rfl rfl rfl _ We2, addRow_up2, relu_up2]

theorem k0pay5_up2 :
    k0_pay5 (F := Ideal) (up2 x) (up2 We1) (up2 (rowOf be1)) (up2 We2) (up2 (rowOf be2)) (up2 Wz) (up2 (rowOf bz))
      = up2 (addRow (mm (reluM (addRow (mm (reluM (addRow (mm x We1) be1)) We2) be2)) Wz) bz) := by
  dsimp only [k0_pay5]
  rw [k0pay4_up2, matmul_zero_up2 _ none rfl rfl rfl rfl rfl rfl _ Wz, addRow_up2]

theorem k0pay6_up2 :
    k0_pay6 (F := Ideal) (up2 x) (up2 We1) (up2 (rowOf be1)) (up2 We2) (up2 (rowOf be2)) (up2 Wz) (up2 (rowOf bz))
        (up2 Wd1) (up2 (rowOf bd1))
      = up2 (reluM (addRow (mm (addRow (mm (reluM (addRow (mm (reluM (addRow (mm x We1) be1)) We2) be2)) Wz) bz) Wd1) bd1)) := by
  dsimp only [k0_pay6]
  rw [k0pay5_up2, matmul_zero_up2 _ none rfl rfl rfl rfl rfl rfl _ Wd1, addRow_up2, relu_up2]

theorem k0pay1_up2 (dh1 : Mat 4096 128) :
    k0_pay1 (F := Ideal) (up2 dh1) (up2 Wd2) (constant S4096x256 .f32 0x00000000#32) (up2 (rowOf bd2)) (up2 Wxb) (up2 (rowOf bxb))
      = up2 (addRow (mm (reluM (addRow (mm dh1 Wd2) bd2)) Wxb) bxb) := by
  dsimp only [k0_pay1]
  rw [matmul_zero_up2 _ none rfl rfl rfl rfl rfl rfl dh1 Wd2, addRow_up2, relu_up2,
    matmul_zero_up2 _ none rfl rfl rfl rfl rfl rfl _ Wxb, addRow_up2]

theorem k0pay2_up2 : k0_pay2 (F := Ideal) (up2 x) (up2 Wg1) = up2 (mm x Wg1) := by
  dsimp only [k0_pay2]
  rw [matmul_zero_up2 _ none rfl rfl rfl rfl rfl rfl x Wg1]

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- A block whose element at j sits in the array at 0 · size + 1 · j reads the array as it is. -/
theorem compEmb0 {n : Fin 2 → ℕ} {α : Type} (X : ((a : Fin 2) → Fin (n a)) → α) (f : ((a : Fin 2) → Fin (n a)) → (a : Fin 2) → Fin (n a))
    (h0 : ∀ j, (f j 0 : ℕ) = 0 * n 0 + 1 * j 0 := by exact fun _ => rfl)
    (h1 : ∀ j, (f j 1 : ℕ) = 0 * n 1 + 1 * j 1 := by exact fun _ => rfl) : (fun j => X (f j)) = X :=
  funext fun j => congrArg X (Shape.idx_ext₂ ((h0 j).trans (by omega)) ((h1 j).trans (by omega)))

theorem memWhole0 (b : Ref sig .tc) {off : Fin b.ty.shape.rank → ℕ} (h : off = fun _ => 0) (inb : ∀ a, off a + b.ty.shape.size a ≤ b.ty.shape.size a)
    (i : b.ty.shape.Idx) : i ∈ ((View.whole b).slice (Rect.unit off b.ty.shape.size inb)).set := by
  rw [View.set_slice_whole]; exact View.mem_set_unit_zero h inb i

section Blocks
variable (t : Fin cfg0.N)
theorem iblk0_0 : (iblk0 V c 0 t : S4096x512.Idx → EReal) = V c main_arg0 := compEmb0 _ ((cfg0.win 0).blk t).view.emb
theorem iblk0_1 : (iblk0 V c 1 t : S512x256.Idx → EReal) = V c main_arg2 := compEmb0 _ ((cfg0.win 1).blk t).view.emb
theorem iblk0_2 : (iblk0 V c 2 t : S1x256.Idx → EReal) = V c main_v0 := compEmb0 _ ((cfg0.win 2).blk t).view.emb
theorem iblk0_3 : (iblk0 V c 3 t : S256x128.Idx → EReal) = V c main_arg4 := compEmb0 _ ((cfg0.win 3).blk t).view.emb
theorem iblk0_4 : (iblk0 V c 4 t : S1x128.Idx → EReal) = V c main_v1 := compEmb0 _ ((cfg0.win 4).blk t).view.emb
theorem iblk0_5 : (iblk0 V c 5 t : S128x16.Idx → EReal) = V c main_arg6 := compEmb0 _ ((cfg0.win 5).blk t).view.emb
theorem iblk0_6 : (iblk0 V c 6 t : S1x16.Idx → EReal) = V c main_v2 := compEmb0 _ ((cfg0.win 6).blk t).view.emb
theorem iblk0_7 : (iblk0 V c 7 t : S16x128.Idx → EReal) = V c main_arg8 := compEmb0 _ ((cfg0.win 7).blk t).view.emb
theorem iblk0_8 : (iblk0 V c 8 t : S1x128.Idx → EReal) = V c main_v3 := compEmb0 _ ((cfg0.win 8).blk t).view.emb
theorem iblk0_9 : (iblk0 V c 9 t : S128x256.Idx → EReal) = V c main_arg10 := compEmb0 _ ((cfg0.win 9).blk t).view.emb
theorem iblk0_10 : (iblk0 V c 10 t : S1x256.Idx → EReal) = V c main_v4 := compEmb0 _ ((cfg0.win 10).blk t).view.emb
theorem iblk0_11 : (iblk0 V c 11 t : S256x512.Idx → EReal) = V c main_arg12 := compEmb0 _ ((cfg0.win 11).blk t).view.emb
theorem iblk0_12 : (iblk0 V c 12 t : S1x512.Idx → EReal) = V c main_v5 := compEmb0 _ ((cfg0.win 12).blk t).view.emb
theorem iblk0_13 : (iblk0 V c 13 t : S512x256.Idx → EReal) = V c main_arg14 := compEmb0 _ ((cfg0.win 13).blk t).view.emb
end Blocks

variable (h_x : (V c main_arg0 : S4096x512.Idx → EReal) = up2 x)
include h_x

theorem arrAt0_18 (h_Wg1 : (V c main_arg14 : S512x256.Idx → EReal) = up2 Wg1) :
    (dat0 (F := Ideal) V c).arrAt 18 cfg0.N = up2 (mm x Wg1) := by
  refine (dat0 (F := Ideal) V c).arrAt_eq_of_cover 18 _ (fun t _ => ?_)
    fun i => ⟨t0_0, flush0_18 _, memWhole0 main_v6_4 (funext fun a => by fin_cases a <;> rfl) _ i⟩
  show (cfg0.win 18).cut (grid0.coords t) ((dat0 V c).after 18 t) = _
  rw [after0_18, iblk0_0 V c t, iblk0_13 V c t, h_x, h_Wg1]
  unfold out0_18
  rw [View.canon_unit_zero hz0]
  simp only [View.ld_unit_zero (S := ⟨2, _⟩) hz0]
  rw [k0pay2_up2]
  exact (compEmb0 _ ((cfg0.win 18).blk t).view.emb).symm

variable (h_We1 : (V c main_arg2 : S512x256.Idx → EReal) = up2 We1) (h_be1 : (V c main_v0 : S1x256.Idx → EReal) = up2 (rowOf be1))
include h_We1 h_be1

theorem arrAt0_16 : (dat0 (F := Ideal) V c).arrAt 16 cfg0.N = up2 (reluM (addRow (mm x We1) be1)) := by
  refine (dat0 (F := Ideal) V c).arrAt_eq_of_cover 16 _ (fun t _ => ?_)
    fun i => ⟨t0_0, flush0_16 _, memWhole0 main_v6_2 (funext fun a => by fin_cases a <;> rfl) _ i⟩
  show (cfg0.win 16).cut (grid0.coords t) ((dat0 V c).after 16 t) = _
  rw [after0_16, iblk0_0 V c t, iblk0_1 V c t, iblk0_2 V c t, h_x, h_We1, h_be1]
  unfold out0_16
  rw [View.canon_unit_zero hz0]
  simp only [View.ld_unit_zero (S := ⟨2, _⟩) hz0]
  rw [k0pay3_up2]
  exact (compEmb0 _ ((cfg0.win 16).blk t).view.emb).symm

variable (h_We2 : (V c main_arg4 : S256x128.Idx → EReal) = up2 We2) (h_be2 : (V c main_v1 : S1x128.Idx → EReal) = up2 (rowOf be2))
include h_We2 h_be2

theorem arrAt0_17 : (dat0 (F := Ideal) V c).arrAt 17 cfg0.N = up2 (reluM (addRow (mm (reluM (addRow (mm x We1) be1)) We2) be2)) := by
  refine (dat0 (F := Ideal) V c).arrAt_eq_of_cover 17 _ (fun t _ => ?_)
    fun i => ⟨t0_0, flush0_17 _, memWhole0 main_v6_3 (funext fun a => by fin_cases a <;> rfl) _ i⟩
  show (cfg0.win 17).cut (grid0.coords t) ((dat0 V c).after 17 t) = _
  rw [after0_17, iblk0_0 V c t, iblk0_1 V c t, iblk0_2 V c t, iblk0_3 V c t, iblk0_4 V c t, h_x, h_We1, h_be1, h_We2, h_be2]
  unfold out0_17
  rw [View.canon_unit_zero hz0]
  simp only [View.ld_unit_zero (S := ⟨2, _⟩) hz0]
  rw [k0pay4_up2]
  exact (compEmb0 _ ((cfg0.win 17).blk t).view.emb).symm

variable (h_Wz : (V c main_arg6 : S128x16.Idx → EReal) = up2 Wz) (h_bz : (V c main_v2 : S1x16.Idx → EReal) = up2 (rowOf bz))
include h_Wz h_bz

theorem arrAt0_15 : (dat0 (F := Ideal) V c).arrAt 15 cfg0.N
    = up2 (addRow (mm (reluM (addRow (mm (reluM (addRow (mm x We1) be1)) We2) be2)) Wz) bz) := by
  refine (dat0 (F := Ideal) V c).arrAt_eq_of_cover 15 _ (fun t _ => ?_)
    fun i => ⟨t0_0, flush0_15 _, memWhole0 main_v6_1 (funext fun a => by fin_cases a <;> rfl) _ i⟩
  show (cfg0.win 15).cut (grid0.coords t) ((dat0 V c).after 15 t) = _
  rw [after0_15, iblk0_0 V c t, iblk0_1 V c t, iblk0_2 V c t, iblk0_3 V c t, iblk0_4 V c t, iblk0_5 V c t, iblk0_6 V c t,
    h_x, h_We1, h_be1, h_We2, h_be2, h_Wz, h_bz]
  unfold out0_15
  rw [View.canon_unit_zero hz0]
  simp only [View.ld_unit_zero (S := ⟨2, _⟩) hz0]
  rw [k0pay5_up2]
  exact (compEmb0 _ ((cfg0.win 15).blk t).view.emb).symm

theorem arrAt0_14 (h_Wd1 : (V c main_arg8 : S16x128.Idx → EReal) = up2 Wd1) (h_bd1 : (V c main_v3 : S1x128.Idx → EReal) = up2 (rowOf bd1))
    (h_Wd2 : (V c main_arg10 : S128x256.Idx → EReal) = up2 Wd2) (h_bd2 : (V c main_v4 : S1x256.Idx → EReal) = up2 (rowOf bd2))
    (h_Wxb : (V c main_arg12 : S256x512.Idx → EReal) = up2 Wxb) (h_bxb : (V c main_v5 : S1x512.Idx → EReal) = up2 (rowOf bxb)) :
    (dat0 (F := Ideal) V c).arrAt 14 cfg0.N
      = up2 (addRow (mm (reluM (addRow (mm (reluM (addRow (mm
          (addRow (mm (reluM (addRow (mm (reluM (addRow (mm x We1) be1)) We2) be2)) Wz) bz) Wd1) bd1)) Wd2) bd2)) Wxb) bxb) := by
  refine (dat0 (F := Ideal) V c).arrAt_eq_of_cover 14 _ (fun t _ => ?_)
    fun i => ⟨t0_0, flush0_14 _, memWhole0 main_v6_0 (funext fun a => by fin_cases a <;> rfl) _ i⟩
  show (cfg0.win 14).cut (grid0.coords t) ((dat0 V c).after 14 t) = _
  rw [after0_14, iblk0_0 V c t, iblk0_1 V c t, iblk0_2 V c t, iblk0_3 V c t, iblk0_4 V c t, iblk0_5 V c t, iblk0_6 V c t,
    iblk0_7 V c t, iblk0_8 V c t, iblk0_9 V c t, iblk0_10 V c t, iblk0_11 V c t, iblk0_12 V c t,
    h_x, h_We1, h_be1, h_We2, h_be2, h_Wz, h_bz, h_Wd1, h_bd1, h_Wd2, h_bd2, h_Wxb, h_bxb]
  unfold out0_14
  rw [View.canon_unit_zero hz0]
  simp only [View.ld_unit_zero (S := ⟨2, _⟩) hz0]
  rw [k0pay6_up2, k0pay1_up2]
  exact (compEmb0 _ ((cfg0.win 14).blk t).view.emb).symm

end Cert.KernelIdeal.Val

end
-- ==== Proof.Value.AttendOps.lean ====
import Idealize.ShloMosaic.Lib.Pipeline.Value
import Idealize.ShloMosaic.Lib.ValueLayout
import Idealize.ShloMosaic.Lib.ValueIdx
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import proofs.«156812_g12472585028273_cont_sun_m_131_10_alg».proof.Proof.Real.MatMul

noncomputable section

namespace Cert.KernelIdeal.Val.Att

open Idealize.ShloMosaic Idealize.ShloMosaic.ValueIdx
open Cert.Net Cert.Lift
open scoped BigOperators

section Ops

theorem bcastCol {a b : ℕ} (f : (⟨2, ![a, 1]⟩ : Shape).Idx → ℝ) (h : (⟨2, ![a, 1]⟩ : Shape).Broadcasts ⟨2, ![a, b]⟩) :
    broadcastTo ⟨2, ![a, b]⟩ (up f) h = up (fun j => f (ix2 (j 0) (0 : Fin 1))) := by
  funext j
  obtain ⟨p, q, rfl⟩ : ∃ (p : Fin a) (q : Fin b), j = ix2 p q := ⟨j 0, j 1, eq_ix2 j⟩
  refine broadcastTo_apply (up f) h (ix2 p q) (ix2 p (0 : Fin 1)) fun ax => ?_
  match ax with
  | ⟨0, _⟩ =>
    show p.val = if a = 1 then 0 else p.val
    split
    · have := p.isLt; omega
    · rfl
  | ⟨1, _⟩ => rfl

theorem bcastRow {a b : ℕ} (f : (⟨2, ![1, b]⟩ : Shape).Idx → ℝ) (h : (⟨2, ![1, b]⟩ : Shape).Broadcasts ⟨2, ![a, b]⟩) :
    broadcastTo ⟨2, ![a, b]⟩ (up f) h = up (fun j => f (ix2 (0 : Fin 1) (j 1))) := by
  funext j
  obtain ⟨p, q, rfl⟩ : ∃ (p : Fin a) (q : Fin b), j = ix2 p q := ⟨j 0, j 1, eq_ix2 j⟩
  exact broadcastTo_1b_ab_apply (up f) h p q

theorem transposeCol {a : ℕ} (f : (⟨2, ![a, 1]⟩ : Shape).Idx → ℝ) (h : (⟨2, ![a, 1]⟩ : Shape).Transposes [1, 0] ⟨2, ![1, a]⟩) :
    transpose ⟨2, ![1, a]⟩ [1, 0] (up f) h = up (fun j => f (ix2 (j 1) (0 : Fin 1))) := by
  funext j
  obtain ⟨p, q, rfl⟩ : ∃ (p : Fin 1) (q : Fin a), j = ix2 p q := ⟨j 0, j 1, eq_ix2 j⟩
  have hp : p = (0 : Fin 1) := Subsingleton.elim _ _
  subst hp
  exact transpose_ix2_apply (up f) h (0 : Fin 1) q

theorem castCol {a : ℕ} (f : (⟨1, ![a]⟩ : Shape).Idx → ℝ) (h : (⟨1, ![a]⟩ : Shape).ShapeCasts ⟨2, ![a, 1]⟩) :
    shapeCast ⟨2, ![a, 1]⟩ (up f) h = up (fun j => f (ix1 (j 0))) := by
  funext j
  obtain ⟨p, q, rfl⟩ : ∃ (p : Fin a) (q : Fin 1), j = ix2 p q := ⟨j 0, j 1, eq_ix2 j⟩
  refine shapeCast_apply (up f) h (ix2 p q) (ix1 p) ?_
  have hq : q.val = 0 := by omega
  rw [Shape.rowMajor_val_two, Shape.rowMajor_val_one]
  show p.val = p.val * 1 + q.val
  rw [hq, Nat.mul_one, Nat.add_zero]

theorem liftRow {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

theorem rowMaxUp {a b : ℕ} (f : (⟨2, ![a, b]⟩ : Shape).Idx → ℝ) (h : (⟨2, ![a, b]⟩ : Shape).Reduces [1] ⟨1, ![a]⟩)
    (m : Fin a → ℝ) (hle : ∀ r k, f (ix2 r k) ≤ m r) (hex : ∀ r, ∃ k, f (ix2 r k) = m r) :
    multiReduction (F := Ideal) (φ := .f32) .maximumf [1] ⟨1, ![a]⟩ (up f) 0xFF800000#32 h (.inl rfl) rfl
      = up (fun j => m (j 0)) := by
  funext j
  obtain ⟨r, rfl⟩ : ∃ r : Fin a, j = ix1 r := ⟨j 0, eq_ix1 j⟩
  refine multiReduction_max_single_eq f _ h (.inl rfl) rfl (ix1 r) (m r) (fun k => ?_) ?_
  · rw [liftRow h r k]; exact hle r k
  · obtain ⟨k, hk⟩ := hex r
    exact ⟨k, by rw [liftRow h r k]; exact hk⟩

theorem rowSumUp {a b : ℕ} (f : (⟨2, ![a, b]⟩ : Shape).Idx → ℝ) (h : (⟨2, ![a, b]⟩ : Shape).Reduces [1] ⟨1, ![a]⟩) :
    multiReduction (F := Ideal) (φ := .f32) .add [1] ⟨1, ![a]⟩ (up f) 0x00000000#32 h (.inl rfl) rfl
      = up (fun j => ∑ k : Fin b, f (ix2 (j 0) k)) := by
  refine (multiReduction_add_single_up f _ h (.inl rfl) rfl).trans ?_
  congr 1
  funext j
  obtain ⟨r, rfl⟩ : ∃ r : Fin a, j = ix1 r := ⟨j 0, eq_ix1 j⟩
  exact Finset.sum_congr rfl fun k _ => by rw [liftRow h r k]; rfl

theorem mmUp {m k n : ℕ} {φ₁ φ₂ : FTy} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩) (prec : Option ContractPrecision)
    (l : (⟨2, ![m, k]⟩ : Shape).Idx → ℝ) (r : (⟨2, ![k, n]⟩ : Shape).Idx → ℝ) :
    matmul (F := Ideal) (φ₁ := φ₁) (φ₂ := φ₂) d prec (up l) (up r) (constant ⟨2, ![m, n]⟩ .f32 0x00000000#32)
      = up (fun j => ∑ c : Fin k, l (ix2 (j 0) c) * r (ix2 c (j 1))) := by
  subst hd
  rw [up_eq_up2 l, up_eq_up2 r, matmul_zero_up2 _ prec rfl rfl rfl rfl rfl rfl]
  rfl

end Ops

section Total

theorem sumShapeCast {s t : Shape} {β : Type} [AddCommMonoid β] (x : s.Idx → β) (h : s.ShapeCasts t) :
    ∑ i : t.Idx, shapeCast t x h i = ∑ i : s.Idx, x i := by
  unfold shapeCast
  exact Equiv.sum_comp (Shape.reshapeEquiv h) x

theorem totalUp {a b : ℕ} (f : (⟨2, ![a, b]⟩ : Shape).Idx → ℝ)
    (hc : (⟨2, ![a, b]⟩ : Shape).ShapeCasts ⟨3, ![1, a, b]⟩) (hr : (⟨3, ![1, a, b]⟩ : Shape).Reduces [1, 2] ⟨1, ![1]⟩)
    (h1 : (⟨1, ![1]⟩ : Shape).ShapeCasts ⟨3, ![1, 1, 1]⟩)
    (hp : ∀ ax, (![0, 0, 0] : Fin 3 → Nat) ax < (⟨3, ![1, 1, 1]⟩ : Shape).size ax) :
    broadcast ⟨2, ![1, 1]⟩ (extractAt ![0, 0, 0] (shapeCast ⟨3, ![1, 1, 1]⟩
        (multiReduction (F := Ideal) (φ := .f32) .add [1, 2] ⟨1, ![1]⟩ (shapeCast ⟨3, ![1, a, b]⟩ (up f) hc)
          0x00000000#32 hr (.inl rfl) rfl) h1) hp)
      = up (fun _ => ∑ p : Fin a, ∑ q : Fin b, f (ix2 p q)) := by
  have e1 : shapeCast ⟨3, ![1, a, b]⟩ (up f) hc = up (shapeCast ⟨3, ![1, a, b]⟩ f hc) := rfl
  have e2 := multiReduction_add_total_up (φ := .f32) (shapeCast ⟨3, ![1, a, b]⟩ f hc) 0x00000000#32 hr
    (fun ax => match ax with | ⟨0, _⟩ => rfl) (.inl rfl) rfl
  rw [e1, e2, sumShapeCast f hc, sum_idx2]
  rfl

end Total

section Stages
variable {S : Shape}

theorem leakyUp (a : S.Idx → ℝ) :
    select (cmpf (F := Ideal) (φ := .f32) .ogt (up a) (broadcast S (Scalar.ofBits (F := Ideal) .f32 0x00000000#32))) (up a)
        (mulf (F := Ideal) (φ := .f32) (broadcast S (Scalar.ofBits (F := Ideal) .f32 0x3E4CCCCD#32)) (up a))
      = up (fun i => leaky slope (a i)) := by
  rw [broadcast_zero_up, broadcast_slope_up, mulf_up, select_ogt_up]
  rfl

theorem maskUp (adj s : S.Idx → ℝ) :
    select (cmpf (F := Ideal) (φ := .f32) .ogt (up adj) (broadcast S (Scalar.ofBits (F := Ideal) .f32 0x00000000#32))) (up s)
        (broadcast S (Scalar.ofBits (F := Ideal) .f32 0xD9FFCB9E#32))
      = up (fun i => if 0 < adj i then s i else negBig) := by
  rw [broadcast_zero_up, broadcast_mask_up, select_ogt_up]

theorem eluUp (p : S.Idx → ℝ) :
    select (cmpf (F := Ideal) (φ := .f32) .ogt (up p) (broadcast S (Scalar.ofBits (F := Ideal) .f32 0x00000000#32))) (up p)
        (subf (F := Ideal) (φ := .f32)
          (Idealize.ShloMosaic.exp (minimumf (up p) (broadcast S (Scalar.ofBits (F := Ideal) .f32 0x00000000#32))))
          (broadcast S (Scalar.ofBits (F := Ideal) .f32 0x3F800000#32)))
      = up (fun i => elu (p i)) := by
  rw [broadcast_zero_up, broadcast_one_up, minimumf_up, exp_up, subf_up, select_ogt_up]
  refine congrArg up (funext fun i => ?_)
  exact eluK_eq (p i)

theorem mixUp (a b : S.Idx → ℝ) :
    addf (F := Ideal) (φ := .f32) (mulf (broadcast S (Scalar.ofBits (F := Ideal) .f32 0x3F000000#32)) (up a))
        (mulf (broadcast S (Scalar.ofBits (F := Ideal) .f32 0x3F000000#32)) (up b))
      = up (fun i => mix (a i) (b i)) := by
  rw [broadcast_half_up, mulf_up, mulf_up, addf_up]
  rfl

theorem sqDiffUp (g a : S.Idx → ℝ) :
    mulf (F := Ideal) (φ := .f32) (subf (logistic (up g)) (up a)) (subf (logistic (up g)) (up a))
      = up (fun i => (sigm (g i) - a i) * (sigm (g i) - a i)) := by
  rw [logistic_up, subf_up, mulf_up]
  rfl

end Stages

end Cert.KernelIdeal.Val.Att

end
-- ==== Proof.Value.Region1.lean ====
import proofs.«156812_g12472585028273_cont_sun_m_131_10_alg».proof.Proof.Ideal.Region1
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import proofs.«156812_g12472585028273_cont_sun_m_131_10_alg».proof.Proof.Value.AttendOps
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL.Sem
open Idealize.ShloMosaic.Pipeline (Dat)
open Cert.Net Cert.Lift Cert.KernelIdeal.Val.Att
open scoped BigOperators

def attB1 (adjB : Mat 256 4096) (hB : Mat 256 256) (h : Mat 4096 256) (aS aN : Fin 256 → ℝ) : Mat 256 4096 :=
  fun r k => if 0 < adjB r k then leaky slope ((∑ l, hB r l * aS l) + (∑ l, h k l * aN l)) else negBig

def meanB1 (att : Mat 256 4096) (h : Mat 4096 256) : Mat 256 256 :=
  fun r j => (∑ k, Real.exp (att r k - rowMax att r) * h k j) / ∑ k, Real.exp (att r k - rowMax att r)

set_option maxHeartbeats 1000000 in
theorem pay3_up1 (adjB : Mat 256 4096) (hB : Mat 256 256) (h : Mat 4096 256) (aS aN : Fin 256 → ℝ) :
    k1_pay3 (F := Ideal) (up2 adjB) (up2 (colOf aS)) (up2 (colOf aN)) (up2 h) (up2 hB)
      = up2 (meanB1 (attB1 adjB hB h aS aN) h) := by
  unfold k1_pay3
  simp only [up2_eq_up]
  rw [shapeCast_self, shapeCast_self, mmUp dot_S256x256_S256x1_S256x1_1_0_0_1_n_n _ rfl none,
    mmUp dot_S4096x256_S256x1_S4096x1_1_0_0_1_n_n _ rfl none, transposeCol, bcastCol, bcastRow, addf_up, leakyUp, maskUp,
    rowMaxUp _ reduces_S256x4096_S256 (fun r => rowMax (attB1 adjB hB h aS aN) r)
      (fun r k => le_rowMax (attB1 adjB hB h aS aN) r k) (fun r => exists_eq_rowMax (attB1 adjB hB h aS aN) r),
    castCol, bcastCol, subf_up, exp_up, truncf_id, truncf_id, mmUp dot_S256x4096_S4096x256_S256x256_1_0_0_1_n_n _ rfl none,
    rowSumUp, castCol, bcastCol, divf_up]
  · rfl
  · exact fun i => (rowSum_pos (attB1 adjB hB h aS aN) _).ne'

theorem pay4_eq1 (v0 : Vec Ideal S256x4096 .f32) (v1 v2 : Vec Ideal S256x1 .f32) (v3 : Vec Ideal S4096x256 .f32) (v7 : Vec Ideal S256x256 .f32) :
    k1_pay4 (F := Ideal) v0 v1 v2 v3 v7
      = cmpf .ogt (k1_pay3 (F := Ideal) v0 v1 v2 v3 v7) (broadcast S256x256 (Scalar.ofBits (F := Ideal) .f32 0x00000000#32)) := rfl

theorem pay1_up1 (y : Mat 256 256) :
    k1_pay1 (F := Ideal) (up2 y) (cmpf .ogt (up2 y) (broadcast S256x256 (Scalar.ofBits (F := Ideal) .f32 0x00000000#32)))
        (Scalar.ofBits (F := Ideal) .f32 0x00000000#32)
      = up2 (fun r j => elu (y r j)) :=
  eluUp _

theorem pay2_up1 (g ehB : Mat 256 256) (W : Mat 256 128) (v35 : FVec Ideal S256x256 .f32) (v37 : IVec S256x256 1) (cst : Ideal .f32)
    (hg : k1_pay1 (F := Ideal) v35 v37 cst = up2 g) :
    k1_pay2 (F := Ideal) v35 v37 cst (up2 ehB) (up2 W) = up2 (mm (mixM g ehB) W) := by
  unfold k1_pay2
  rw [hg]
  simp only [up2_eq_up]
  rw [shapeCast_self, mixUp, mmUp dot_S256x256_S256x128_S256x128_1_0_0_1_n_n _ rfl none]
  rfl

variable (V : (c : Dev nD) → (b : Ref sig .tc) → Buf (Elt Ideal) ((c : Thread nD τ).loc b))

theorem hz1 : (![0, 0] : Fin 2 → Nat) = fun _ => 0 := funext fun a => by fin_cases a <;> rfl

def tb1 (t : Fin cfg1.N) : Fin 16 := Fin.cast N_1 t

theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (grid1.coords t (0 : Fin 1)).val = t.val :=
  (by decide +kernel : ∀ t : Fin grid1.N, _)

/-- An array of a real matrix read through an index map that sends row r to row ρ r and keeps the column. -/
theorem readUp1 {A B a : ℕ} (M : Mat A B) (ρ : Fin a → Fin A) (X : (⟨2, ![A, B]⟩ : Shape).Idx → EReal) (hX : X = up2 M)
    (f : (⟨2, ![a, B]⟩ : Shape).Idx → (⟨2, ![A, B]⟩ : Shape).Idx)
    (h0 : ∀ y, (f y 0 : ℕ) = ρ (y 0)) (h1 : ∀ y, (f y 1 : ℕ) = y 1) :
    (fun y => X (f y)) = up2 (fun r k => M (ρ r) k) := by
  subst hX
  funext y
  show ((M (f y 0) (f y 1) : ℝ) : EReal) = (M (ρ (y 0)) (y 1) : ℝ)
  rw [Fin.ext (h0 y), Fin.ext (h1 y)]

section Blocks
variable (c : Dev nD) (t : Fin cfg1.N)

theorem iblk1_0_up (adj : Mat 4096 4096) (h_adj : (V c main_arg1 : S4096x4096.Idx → EReal) = up2 adj) :
    (iblk1 V c 0 t : Vec Ideal S256x4096 .f32) = up2 (fun r k => adj (blockRow (tb1 t) r) k) := by
  obtain ⟨⟨e0, e1⟩, -⟩ := idx_facts1 t
  exact readUp1 adj (blockRow (tb1 t)) _ h_adj ((cfg1.win 0).blk t).view.emb
    (fun y => by show win1_0.index t 0 * 256 + 1 * (y 0).val = 256 * t.val + (y 0).val; rw [e0]; omega)
    (fun y => by show win1_0.index t 1 * 4096 + 1 * (y 1).val = (y 1).val; rw [e1]; omega)

theorem iblk1_1_up (h1 : Mat 4096 256) (h_h1 : (V c main_v6_4 : S4096x256.Idx → EReal) = up2 h1) :
    (iblk1 V c 1 t : Vec Ideal S4096x256 .f32) = up2 h1 := by
  obtain ⟨-, ⟨e0, e1⟩, -⟩ := idx_facts1 t
  exact readUp1 h1 id _ h_h1 ((cfg1.win 1).blk t).view.emb
    (fun y => by show win1_1.index t 0 * 4096 + 1 * (y 0).val = (y 0).val; rw [e0]; omega)
    (fun y => by show win1_1.index t 1 * 256 + 1 * (y 1).val = (y 1).val; rw [e1]; omega)

theorem iblk1_2_up (aS : Mat 256 1) (h_as : (V c main_arg15 : S256x1.Idx → EReal) = up2 aS) :
    (iblk1 V c 2 t : Vec Ideal S256x1 .f32) = up2 aS := by
  obtain ⟨-, -, ⟨e0, e1⟩, -⟩ := idx_facts1 t
  exact readUp1 aS id _ h_as ((cfg1.win 2).blk t).view.emb
    (fun y => by show win1_2.index t 0 * 256 + 1 * (y 0).val = (y 0).val; rw [e0]; omega)
    (fun y => by show win1_2.index t 1 * 1 + 1 * (y 1).val = (y 1).val; rw [e1]; omega)

theorem iblk1_3_up (aN : Mat 256 1) (h_an : (V c main_arg16 : S256x1.Idx → EReal) = up2 aN) :
    (iblk1 V c 3 t : Vec Ideal S256x1 .f32) = up2 aN := by
  obtain ⟨-, -, -, ⟨e0, e1⟩, -⟩ := idx_facts1 t
  exact readUp1 aN id _ h_an ((cfg1.win 3).blk t).view.emb
    (fun y => by show win1_3.index t 0 * 256 + 1 * (y 0).val = (y 0).val; rw [e0]; omega)
    (fun y => by show win1_3.index t 1 * 1 + 1 * (y 1).val = (y 1).val; rw [e1]; omega)

theorem iblk1_4_up (eh1 : Mat 4096 256) (h_eh1 : (V c main_v6_2 : S4096x256.Idx → EReal) = up2 eh1) :
    (iblk1 V c 4 t : Vec Ideal S256x256 .f32) = up2 (fun r k => eh1 (blockRow (tb1 t) r) k) := by
  obtain ⟨-, -, -, -, ⟨e0, e1⟩, -⟩ := idx_facts1 t
  exact readUp1 eh1 (blockRow (tb1 t)) _ h_eh1 ((cfg1.win 4).blk t).view.emb
    (fun y => by show win1_4.index t 0 * 256 + 1 * (y 0).val = 256 * t.val + (y 0).val; rw [e0]; omega)
    (fun y => by show win1_4.index t 1 * 256 + 1 * (y 1).val = (y 1).val; rw [e1]; omega)

theorem iblk1_5_up (Wg2 : Mat 256 128) (h_W : (V c main_arg17 : S256x128.Idx → EReal) = up2 Wg2) :
    (iblk1 V c 5 t : Vec Ideal S256x128 .f32) = up2 Wg2 := by
  obtain ⟨-, -, -, -, -, ⟨e0, e1⟩, -⟩ := idx_facts1 t
  exact readUp1 Wg2 id _ h_W ((cfg1.win 5).blk t).view.emb
    (fun y => by show win1_5.index t 0 * 256 + 1 * (y 0).val = (y 0).val; rw [e0]; omega)
    (fun y => by show win1_5.index t 1 * 128 + 1 * (y 1).val = (y 1).val; rw [e1]; omega)

theorem rows1_up (h1 : Mat 4096 256) :
    (View.ld (Val := Elt Ideal) (e' := .f32) (up2 h1) (r1_rows (grid1.coords t)) : Vec Ideal S256x256 .f32)
      = up2 (fun r k => h1 (blockRow (tb1 t) r) k) := by
  obtain ⟨-, -, -, -, -, -, -, -, eg⟩ := idx_facts1 t
  have hoff := k1_off1_eq (grid1.coords t)
  exact readUp1 h1 (blockRow (tb1 t)) _ rfl (r1_rows (grid1.coords t)).idx
    (fun y => by
      show k1_off1 (grid1.coords t) 0 + 1 * (y 0).val = 256 * t.val + (y 0).val
      rw [hoff, ← eg]; show 256 * (grid1.coords t (0 : Fin 1)).val + 1 * (y 0).val = _; omega)
    (fun y => by show k1_off1 (grid1.coords t) 1 + 1 * (y 1).val = (y 1).val; rw [hoff]; show 0 + 1 * (y 1).val = _; omega)

end Blocks

theorem memRows1 (b : Ref sig .tc) (off size : Fin b.ty.shape.rank → ℕ) (inb : ∀ a, off a + size a ≤ b.ty.shape.size a) (i : b.ty.shape.Idx)
    (h : ∀ a, off a ≤ (i a).val ∧ (i a).val < off a + size a) : i ∈ ((View.whole b).slice (Rect.unit off size inb)).set := by
  rw [View.set_slice_whole, Rect.mem_set_unit]; exact h

variable (c : Dev nD) (adj : Mat 4096 4096) (h1 : Mat 4096 256) (as1 an1 : Fin 256 → ℝ)
  (h_adj : (V c main_arg1 : S4096x4096.Idx → EReal) = up2 adj) (h_h1 : (V c main_v6_4 : S4096x256.Idx → EReal) = up2 h1)
  (h_as : (V c main_arg15 : S256x1.Idx → EReal) = up2 (colOf as1)) (h_an : (V c main_arg16 : S256x1.Idx → EReal) = up2 (colOf an1))
include h_adj h_h1 h_as h_an

theorem value1_6 : (dat1 (F := Ideal) V c).arrAt 6 cfg1.N = up2 (attendK (scores slope negBig h1 as1 an1 adj) h1) := by
  refine (dat1 (F := Ideal) V c).arrAt_eq_of_cover 6 _ (fun t _ => ?_) fun i => ?_
  · obtain ⟨-, -, -, -, -, -, ⟨e0, e1⟩, -, -⟩ := idx_facts1 t
    show (cfg1.win 6).cut (grid1.coords t) ((dat1 V c).after 6 t) = _
    rw [after1_6, iblk1_0_up V c t adj h_adj, iblk1_1_up V c t h1 h_h1, iblk1_2_up V c t _ h_as, iblk1_3_up V c t _ h_an]
    unfold out1_6 att1 pos1
    rw [View.canon_unit_zero hz1, pay4_eq1, rows1_up]
    simp only [View.ld_unit_zero (S := ⟨2, _⟩) hz1]
    rw [pay3_up1, pay1_up1]
    exact (readUp1 (attendK (scores slope negBig h1 as1 an1 adj) h1) (blockRow (tb1 t)) _ rfl ((cfg1.win 6).blk t).view.emb
      (fun y => by show win1_6.index t 0 * 256 + 1 * (y 0).val = 256 * t.val + (y 0).val; rw [e0]; omega)
      (fun y => by show win1_6.index t 1 * 256 + 1 * (y 1).val = (y 1).val; rw [e1]; omega)).symm
  · have hi0 : (i 0).val < 4096 := (i 0).isLt
    have hi1 : (i 1).val < 256 := (i 1).isLt
    obtain ⟨t, ht⟩ : ∃ t : Fin cfg1.N, t.val = (i 0).val / 256 := ⟨⟨(i 0).val / 256, by have : cfg1.N = 16 := N_1; omega⟩, rfl⟩
    obtain ⟨-, -, -, -, -, -, ⟨e0, e1⟩, -, -⟩ := idx_facts1 t
    exact ⟨t, flush1_6 t, memRows1 main_v7_0 _ _ _ i fun a => match a with
      | ⟨0, _⟩ => by
        show win1_6.index t 0 * 256 ≤ (i 0).val ∧ (i 0).val < win1_6.index t 0 * 256 + 256
        rw [e0, ht]; omega
      | ⟨1, _⟩ => by
        show win1_6.index t 1 * 256 ≤ (i 1).val ∧ (i 1).val < win1_6.index t 1 * 256 + 256
        rw [e1]; omega⟩

theorem value1_7 (eh1 : Mat 4096 256) (Wg2 : Mat 256 128)
    (h_eh1 : (V c main_v6_2 : S4096x256.Idx → EReal) = up2 eh1) (h_W : (V c main_arg17 : S256x128.Idx → EReal) = up2 Wg2) :
    (dat1 (F := Ideal) V c).arrAt 7 cfg1.N = up2 (mm (mixM (attendK (scores slope negBig h1 as1 an1 adj) h1) eh1) Wg2) := by
  refine (dat1 (F := Ideal) V c).arrAt_eq_of_cover 7 _ (fun t _ => ?_) fun i => ?_
  · obtain ⟨-, -, -, -, -, -, -, ⟨e0, e1⟩, -⟩ := idx_facts1 t
    show (cfg1.win 7).cut (grid1.coords t) ((dat1 V c).after 7 t) = _
    rw [after1_7, iblk1_0_up V c t adj h_adj, iblk1_1_up V c t h1 h_h1, iblk1_2_up V c t _ h_as, iblk1_3_up V c t _ h_an,
      iblk1_4_up V c t eh1 h_eh1, iblk1_5_up V c t Wg2 h_W]
    unfold out1_7 att1 pos1
    rw [View.canon_unit_zero hz1, pay4_eq1, rows1_up]
    simp only [View.ld_unit_zero (S := ⟨2, _⟩) hz1]
    rw [pay2_up1 (fun r j => attendK (scores slope negBig h1 as1 an1 adj) h1 (blockRow (tb1 t) r) j) _ Wg2 _ _ _
      (by rw [pay3_up1, pay1_up1]; rfl)]
    exact (readUp1 (mm (mixM (attendK (scores slope negBig h1 as1 an1 adj) h1) eh1) Wg2) (blockRow (tb1 t)) _ rfl
      ((cfg1.win 7).blk t).view.emb
      (fun y => by show win1_7.index t 0 * 256 + 1 * (y 0).val = 256 * t.val + (y 0).val; rw [e0]; omega)
      (fun y => by show win1_7.index t 1 * 128 + 1 * (y 1).val = (y 1).val; rw [e1]; omega)).symm
  · have hi0 : (i 0).val < 4096 := (i 0).isLt
    have hi1 : (i 1).val < 128 := (i 1).isLt
    obtain ⟨t, ht⟩ : ∃ t : Fin cfg1.N, t.val = (i 0).val / 256 := ⟨⟨(i 0).val / 256, by have : cfg1.N = 16 := N_1; omega⟩, rfl⟩
    obtain ⟨-, -, -, -, -, -, -, ⟨e0, e1⟩, -⟩ := idx_facts1 t
    exact ⟨t, flush1_7 t, memRows1 main_v7_1 _ _ _ i fun a => match a with
      | ⟨0, _⟩ => by
        show win1_7.index t 0 * 256 ≤ (i 0).val ∧ (i 0).val < win1_7.index t 0 * 256 + 256
        rw [e0, ht]; omega
      | ⟨1, _⟩ => by
        show win1_7.index t 1 * 128 ≤ (i 1).val ∧ (i 1).val < win1_7.index t 1 * 128 + 128
        rw [e1]; omega⟩

end Cert.KernelIdeal.Val

end
-- ==== Proof.Value.Blocks.lean ====
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import Idealize.ShloMosaic.Lib.Pipeline.Value
import Idealize.ShloMosaic.Lib.ValueIdx

noncomputable section

namespace Cert.KernelIdeal.Val

open Idealize.ShloMosaic Idealize.ShloMosaic.ValueIdx
open Cert.Net Cert.Lift
open scoped BigOperators

theorem hz : (![0, 0] : Fin 2 → Nat) = fun _ => 0 := funext fun a => by fin_cases a <;> rfl

section Reads

variable {m n : ℕ} {i0 i1 : ℕ}

/-- An index map that shifts rows by `256 b` and fixes columns reads rows `256 b + r` of the matrix. -/
theorem up2_rowsAt (M : Mat 4096 n) (b : Fin 16) {e : (⟨2, ![256, n]⟩ : Shape).Idx → (⟨2, ![4096, n]⟩ : Shape).Idx}
    (e0 : i0 = 256 * b.val) (e1 : i1 = 0) (h0 : ∀ x, (e x 0 : ℕ) = i0 + 1 * (x 0).val) (h1 : ∀ x, (e x 1 : ℕ) = i1 + 1 * (x 1).val) :
    (fun x => up2 M (e x)) = up2 (fun r q => M (blockRow b r) q) :=
  funext fun x => (congrArg (up2 M) (Shape.idx_ext₂ (y := ix2 (blockRow b (x 0)) (x 1))
    ((h0 x).trans (by subst e0; show _ = 256 * b.val + (x 0).val; omega)) ((h1 x).trans (by subst e1; show _ = (x 1).val; omega)))).trans rfl

theorem up2_rowBlock (M : Mat 4096 n) (b : Fin 16) {e : (⟨2, ![256, n]⟩ : Shape).Idx → (⟨2, ![4096, n]⟩ : Shape).Idx}
    (e0 : i0 = b.val) (e1 : i1 = 0) (h0 : ∀ x, (e x 0 : ℕ) = i0 * 256 + 1 * (x 0).val) (h1 : ∀ x, (e x 1 : ℕ) = i1 * n + 1 * (x 1).val) :
    (fun x => up2 M (e x)) = up2 (fun r q => M (blockRow b r) q) :=
  up2_rowsAt M b (by rw [e0]; omega) (by rw [e1]; omega) h0 h1

/-- An index map with zero offsets is the identity. -/
theorem emb_whole {e : (⟨2, ![m, n]⟩ : Shape).Idx → (⟨2, ![m, n]⟩ : Shape).Idx}
    (e0 : i0 = 0) (e1 : i1 = 0) (h0 : ∀ x, (e x 0 : ℕ) = i0 * m + 1 * (x 0).val) (h1 : ∀ x, (e x 1 : ℕ) = i1 * n + 1 * (x 1).val) (x) :
    e x = x :=
  Shape.idx_ext₂ ((h0 x).trans (by subst e0; omega)) ((h1 x).trans (by subst e1; omega))

theorem read_whole {α : Type} (X : (⟨2, ![m, n]⟩ : Shape).Idx → α) {e : (⟨2, ![m, n]⟩ : Shape).Idx → (⟨2, ![m, n]⟩ : Shape).Idx}
    (e0 : i0 = 0) (e1 : i1 = 0) (h0 : ∀ x, (e x 0 : ℕ) = i0 * m + 1 * (x 0).val) (h1 : ∀ x, (e x 1 : ℕ) = i1 * n + 1 * (x 1).val) :
    (fun x => X (e x)) = X :=
  funext fun x => congrArg X (emb_whole e0 e1 h0 h1 x)

variable {idx sz : Fin 2 → ℕ}

/-- Row `i` lies in the block of 256 rows number `i / 256`. -/
theorem rowBlock_mem (i : (⟨2, ![4096, n]⟩ : Shape).Idx) (s0 : sz 0 = 256) (s1 : sz 1 = n) (e0 : idx 0 = (i 0).val / 256) (e1 : idx 1 = 0)
    (a : Fin 2) : idx a * sz a ≤ (i a).val ∧ (i a).val < idx a * sz a + sz a := by
  have h0 : (i 0).val < 4096 := (i 0).isLt
  have h1 : (i 1).val < n := (i 1).isLt
  match a with
  | ⟨0, _⟩ => show idx 0 * sz 0 ≤ (i 0).val ∧ (i 0).val < idx 0 * sz 0 + sz 0; rw [e0, s0]; omega
  | ⟨1, _⟩ => show idx 1 * sz 1 ≤ (i 1).val ∧ (i 1).val < idx 1 * sz 1 + sz 1; rw [e1, s1]; omega

theorem whole_mem (i : (⟨2, ![m, n]⟩ : Shape).Idx) (s0 : sz 0 = m) (s1 : sz 1 = n) (e0 : idx 0 = 0) (e1 : idx 1 = 0)
    (a : Fin 2) : idx a * sz a ≤ (i a).val ∧ (i a).val < idx a * sz a + sz a := by
  have h0 : (i 0).val < m := (i 0).isLt
  have h1 : (i 1).val < n := (i 1).isLt
  match a with
  | ⟨0, _⟩ => show idx 0 * sz 0 ≤ (i 0).val ∧ (i 0).val < idx 0 * sz 0 + sz 0; rw [e0, s0]; omega
  | ⟨1, _⟩ => show idx 1 * sz 1 ≤ (i 1).val ∧ (i 1).val < idx 1 * sz 1 + sz 1; rw [e1, s1]; omega

end Reads

section Loss

variable {d : ℕ}

/-- The squared error of a block of rows `Gb` against all rows `G`, less the block `A` of the adjacency. -/
def lossB (A : Mat 256 4096) (Gb : Mat 256 d) (G : Mat 4096 d) : ℝ :=
  ∑ r : Fin 256, ∑ q : Fin 4096, (sigm (∑ l, Gb r l * G q l) - A r q) * (sigm (∑ l, Gb r l * G q l) - A r q)

def shareOf (g : Mat 4096 d) (adj : Mat 4096 4096) (s : ℕ) : ℝ :=
  if h : s < 16 then sqErrBlock g adj ⟨s, h⟩ else 0

theorem lossB_block (g : Mat 4096 d) (adj : Mat 4096 4096) (b : Fin 16) :
    lossB (fun r q => adj (blockRow b r) q) (fun r l => g (blockRow b r) l) g = shareOf g adj b.val :=
  by unfold shareOf; rw [dif_pos b.isLt]; rfl

theorem accum_shareOf (g : Mat 4096 d) (adj : Mat 4096 4096) : accum (shareOf g adj) 15 = sqErr g adj :=
  (accum_fin (n := 15) _ (sqErrBlock g adj) fun t => dif_pos t.isLt).trans (sqErr_blocks g adj)

theorem cellAdd_up (a s : ℝ) :
    addf (F := Ideal) (φ := .f32) (up2 (cellOf a)) (up2 (cellOf s)) = up2 (cellOf (a + s)) := by
  rw [up2_eq_up, up2_eq_up, addf_up]
  rfl

/-- A cell that holds the first term after the first step and adds the next term at each later step holds the running total. -/
theorem cell_accum {N : ℕ} (f : (k : ℕ) → k < N → (⟨2, ![1, 1]⟩ : Shape).Idx → EReal) (p : ℕ → ℝ)
    (h0 : ∀ hk, f 0 hk = up2 (cellOf (p 0)))
    (hs : ∀ k hk (a : ℝ), f k (Nat.lt_of_succ_lt hk) = up2 (cellOf a) → f (k + 1) hk = up2 (cellOf (a + p (k + 1)))) :
    ∀ k hk, f k hk = up2 (cellOf (accum p k))
  | 0, hk => h0 hk
  | k + 1, hk => hs k hk _ (cell_accum f p h0 hs k _)

end Loss

end Cert.KernelIdeal.Val

end
-- ==== Proof.Value.Region2Cell.lean ====
import proofs.«156812_g12472585028273_cont_sun_m_131_10_alg».proof.Proof.Gen.KernelIdeal.Skeleton
import proofs.«156812_g12472585028273_cont_sun_m_131_10_alg».proof.Proof.Real.MatMul
import proofs.«156812_g12472585028273_cont_sun_m_131_10_alg».proof.Proof.Value.AttendOps
import proofs.«156812_g12472585028273_cont_sun_m_131_10_alg».proof.Proof.Value.Blocks

noncomputable section

namespace Cert.KernelIdeal.Val

open Cert.KernelIdeal Cert.KernelIdeal.Gen
open Idealize.ShloMosaic Idealize.ShloMosaic.ValueIdx
open Cert.Net Cert.Lift
open scoped BigOperators

theorem k2pay1_up (s a : ℝ) :
    k2_pay1 (F := Ideal) (up2 (cellOf s)) (up2 (cellOf a)) = up2 (cellOf (a + s)) := by
  unfold k2_pay1
  simp only [shapeCast_self]
  exact cellAdd_up a s

theorem k2pay6_up (A : Mat 256 4096) (GB : Mat 256 256) (G : Mat 4096 256) :
    k2_pay6 (F := Ideal) (up2 A) (up2 GB) (up2 G) = up2 (cellOf (lossB A GB G)) := by
  unfold k2_pay6
  simp only [shapeCast_self]
  rw [truncf_id, truncf_id, matmulT_zero_up2 dot_S256x256_S4096x256_S256x4096_1_1_0_0_n_n none rfl rfl rfl rfl rfl rfl GB G]
  simp only [up2_eq_up]
  rw [Att.sqDiffUp, Att.totalUp]
  rfl

end Cert.KernelIdeal.Val

end
-- ==== Proof.Value.Region2Att.lean ====
import proofs.«156812_g12472585028273_cont_sun_m_131_10_alg».proof.Proof.Gen.KernelIdeal.Skeleton
import proofs.«156812_g12472585028273_cont_sun_m_131_10_alg».proof.Proof.Real.MatMul
import proofs.«156812_g12472585028273_cont_sun_m_131_10_alg».proof.Proof.Value.AttendOps

set_option maxRecDepth 4096

noncomputable section

namespace Cert.KernelIdeal.Val

open Idealize.ShloMosaic Idealize.ShloMosaic.ValueIdx
open Cert.KernelIdeal Cert.KernelIdeal.Gen
open Cert.Net
open scoped BigOperators

section Rules2

variable {a b : Nat}

theorem transpose2 (h : (⟨2, ![a, b]⟩ : Shape).Transposes [1, 0] ⟨2, ![b, a]⟩) (M : Mat a b) :
    transpose ⟨2, ![b, a]⟩ [1, 0] (up2 M) h = up2 (fun q p => M p q) := by
  funext j
  obtain ⟨q, p, rfl⟩ : ∃ (q : Fin b) (p : Fin a), j = ix2 q p := ⟨j 0, j 1, eq_ix2 j⟩
  refine (transpose_apply [1, 0] (up2 M) h (ix2 q p) (ix2 p q) ?_).trans rfl
  intro c
  match c with
  | ⟨0, _⟩ => rfl
  | ⟨1, _⟩ => rfl

theorem bcastColK (h : (⟨2, ![a, 1]⟩ : Shape).Broadcasts ⟨2, ![a, b]⟩) (c : Mat a 1) :
    broadcastTo ⟨2, ![a, b]⟩ (up2 c) h = up2 (fun p _ => c p 0) :=
  Att.bcastCol (fun i : (⟨2, ![a, 1]⟩ : Shape).Idx => c (i 0) (i 1)) h

theorem bcastRowK (h : (⟨2, ![1, b]⟩ : Shape).Broadcasts ⟨2, ![a, b]⟩) (r : Mat 1 b) :
    broadcastTo ⟨2, ![a, b]⟩ (up2 r) h = up2 (fun _ q => r 0 q) :=
  Att.bcastRow (fun i : (⟨2, ![1, b]⟩ : Shape).Idx => r (i 0) (i 1)) h

theorem castColK (h : (⟨1, ![a]⟩ : Shape).ShapeCasts ⟨2, ![a, 1]⟩) (v : Fin a → ℝ) :
    shapeCast ⟨2, ![a, 1]⟩ (up1 v) h = up2 (fun p _ => v p) :=
  Att.castCol (fun i : (⟨1, ![a]⟩ : Shape).Idx => v (i 0)) h

theorem addfK (x y : Mat a b) :
    addf (F := Ideal) (φ := .f32) (up2 x) (up2 y) = up2 (fun p q => x p q + y p q) :=
  Cert.Lift.addf_up (S := ⟨2, ![a, b]⟩) (fun i => x (i 0) (i 1)) (fun i => y (i 0) (i 1))

theorem subfK (x y : Mat a b) :
    subf (F := Ideal) (φ := .f32) (up2 x) (up2 y) = up2 (fun p q => x p q - y p q) :=
  Cert.Lift.subf_up (S := ⟨2, ![a, b]⟩) (fun i => x (i 0) (i 1)) (fun i => y (i 0) (i 1))

theorem expK (x : Mat a b) :
    Idealize.ShloMosaic.exp (F := Ideal) (φ := .f32) (up2 x) = up2 (fun p q => Real.exp (x p q)) :=
  Cert.Lift.exp_up (S := ⟨2, ![a, b]⟩) (fun i => x (i 0) (i 1))

theorem divfK (x y : Mat a b) (hy : ∀ p q, y p q ≠ 0) :
    divf (F := Ideal) (φ := .f32) (up2 x) (up2 y) = up2 (fun p q => x p q / y p q) :=
  Cert.Lift.divf_up (S := ⟨2, ![a, b]⟩) (fun i => x (i 0) (i 1)) (fun i => y (i 0) (i 1)) (fun i => hy (i 0) (i 1))

theorem leakyK (e : Mat a b) :
    select (cmpf (F := Ideal) (φ := .f32) .ogt (up2 e) (broadcast ⟨2, ![a, b]⟩ (Scalar.ofBits (F := Ideal) .f32 0x00000000#32))) (up2 e)
        (mulf (F := Ideal) (φ := .f32) (broadcast ⟨2, ![a, b]⟩ (Scalar.ofBits (F := Ideal) .f32 0x3E4CCCCD#32)) (up2 e))
      = up2 (fun p q => leaky slope (e p q)) :=
  Att.leakyUp (S := ⟨2, ![a, b]⟩) (fun i => e (i 0) (i 1))

theorem maskK (A s : Mat a b) :
    select (cmpf (F := Ideal) (φ := .f32) .ogt (up2 A) (broadcast ⟨2, ![a, b]⟩ (Scalar.ofBits (F := Ideal) .f32 0x00000000#32))) (up2 s)
        (broadcast ⟨2, ![a, b]⟩ (Scalar.ofBits (F := Ideal) .f32 0xD9FFCB9E#32))
      = up2 (fun p q => if 0 < A p q then s p q else negBig) :=
  Att.maskUp (S := ⟨2, ![a, b]⟩) (fun i => A (i 0) (i 1)) (fun i => s (i 0) (i 1))

theorem rowMaxK [NeZero b] (h : (⟨2, ![a, b]⟩ : Shape).Reduces [1] ⟨1, ![a]⟩) (att : Mat a b) :
    multiReduction (F := Ideal) (φ := .f32) .maximumf [1] ⟨1, ![a]⟩ (up2 att) 0xFF800000#32 h (.inl rfl) rfl
      = up1 (fun r => rowMax att r) :=
  Att.rowMaxUp (fun i : (⟨2, ![a, b]⟩ : Shape).Idx => att (i 0) (i 1)) h (fun r => rowMax att r) (fun r k => le_rowMax att r k)
    (fun r => exists_eq_rowMax att r)

theorem rowSumK (h : (⟨2, ![a, b]⟩ : Shape).Reduces [1] ⟨1, ![a]⟩) (x : Mat a b) :
    multiReduction (F := Ideal) (φ := .f32) .add [1] ⟨1, ![a]⟩ (up2 x) 0x00000000#32 h (.inl rfl) rfl
      = up1 (fun r => ∑ k, x r k) :=
  Att.rowSumUp (fun i : (⟨2, ![a, b]⟩ : Shape).Idx => x (i 0) (i 1)) h

end Rules2

/-- The masked scores of one block of 256 rows against every node. -/
def scoresB {d : ℕ} (A : Mat 256 4096) (aS aN : Fin d → ℝ) (H : Mat 4096 d) (HB : Mat 256 d) : Mat 256 4096 :=
  fun r k => if 0 < A r k then leaky slope ((∑ l, HB r l * aS l) + (∑ l, H k l * aN l)) else negBig

/-- The softmax-weighted mean of the features over a block's scores, before the activation. -/
def quotB {d : ℕ} (att : Mat 256 4096) (H : Mat 4096 d) : Mat 256 d :=
  fun r j => (∑ k, Real.exp (att r k - rowMax att r) * H k j) / ∑ k, Real.exp (att r k - rowMax att r)

theorem k2pay2_up (A : Mat 256 4096) (aS aN : Fin 128 → ℝ) (H : Mat 4096 128) (HB : Mat 256 128) :
    k2_pay2 (F := Ideal) (up2 A) (up2 (colOf aS)) (up2 (colOf aN)) (up2 H) (up2 HB) = up2 (quotB (scoresB A aS aN H HB) H) := by
  unfold k2_pay2
  dsimp only
  rw [shapeCast_self, shapeCast_self]
  rw [Cert.Lift.matmul_zero_up2 dot_S256x128_S128x1_S256x1_1_0_0_1_n_n none rfl rfl rfl rfl rfl rfl,
    Cert.Lift.matmul_zero_up2 dot_S4096x128_S128x1_S4096x1_1_0_0_1_n_n none rfl rfl rfl rfl rfl rfl]
  rw [transpose2, bcastColK, bcastRowK, addfK, leakyK, maskK, rowMaxK, castColK, bcastColK, subfK, expK, rowSumK, castColK]
  rw [Cert.Lift.truncf_id, Cert.Lift.truncf_id]
  rw [Cert.Lift.matmul_zero_up2 dot_S256x4096_S4096x128_S256x128_1_0_0_1_n_n none rfl rfl rfl rfl rfl rfl]
  rw [bcastColK]
  refine (divfK _ _ ?_).trans ?_
  · intro p q
    exact (rowSum_pos (scoresB A aS aN H HB) p).ne'
  · rfl

end Cert.KernelIdeal.Val

end
-- ==== Proof.Value.Region2.lean ====
import proofs.«156812_g12472585028273_cont_sun_m_131_10_alg».proof.Proof.Ideal.Region2
import proofs.«156812_g12472585028273_cont_sun_m_131_10_alg».proof.Proof.Value.Region2Cell
import proofs.«156812_g12472585028273_cont_sun_m_131_10_alg».proof.Proof.Value.Region2Att

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

variable (V : (c : Dev nD) → (b : Ref sig .tc) → Buf (Elt Ideal) ((c : Thread nD τ).loc b))

abbrev pt2 (t : Fin cfg2.N) : Fin 16 := ⟨t.val, lt_of_lt_of_eq t.isLt N_2⟩

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0)
    ∧ (win2_9.index t (0 : Fin 2) = t.val ∧ win2_9.index t (1 : Fin 2) = 0)
    ∧ (win2_10.index t (0 : Fin 2) = 0 ∧ win2_10.index t (1 : Fin 2) = 0) :=
  (by decide +kernel : ∀ t : Fin grid2.N, _)

theorem off_facts2 : ∀ t : Fin cfg2.N, k2_off1 (grid2.coords t) (0 : Fin 2) = 256 * t.val ∧ k2_off1 (grid2.coords t) (1 : Fin 2) = 0 :=
  (by decide +kernel : ∀ t : Fin grid2.N, _)

theorem k2pay4_up2 (X : Mat 256 128) :
    k2_pay4 (F := Ideal) (up2 X) (cmpf (F := Ideal) (s := S256x128) (φ := .f32) .ogt (up2 X) (broadcast S256x128 (Scalar.ofBits .f32 0x00000000#32))) (Scalar.ofBits .f32 0x00000000#32)
      = up2 (fun r j => elu (X r j)) := by
  unfold k2_pay4
  dsimp only
  exact Att.eluUp (S := S256x128) (fun i => X (i 0) (i 1))

theorem k2pay5_up2 (X E : Mat 256 128) (W : Mat 128 16) :
    k2_pay5 (F := Ideal) (up2 X) (cmpf (F := Ideal) (s := S256x128) (φ := .f32) .ogt (up2 X) (broadcast S256x128 (Scalar.ofBits .f32 0x00000000#32))) (Scalar.ofBits .f32 0x00000000#32) (up2 E) (up2 W)
      = up2 (mm (mixM (fun r j => elu (X r j)) E) W) := by
  unfold k2_pay5
  simp only [shapeCast_self]
  rw [k2pay4_up2, up2_eq_up (fun r j => elu (X r j)), up2_eq_up E, Att.mixUp]
  exact matmul_zero_up2 dot_S256x128_S128x16_S256x16_1_0_0_1_n_n none rfl rfl rfl rfl rfl rfl (mixM (fun r j => elu (X r j)) E) W

theorem xb2_0_eq (c : Dev nD) (t : Fin cfg2.N) (adj : Mat 4096 4096)
    (h_adj : (V c main_arg1 : S4096x4096.Idx → EReal) = up2 adj) :
    (iblk2 V c 0 t : Vec Ideal S256x4096 .f32) = up2 (fun r k => adj (blockRow (pt2 t) r) k) := by
  obtain ⟨⟨e0, e1⟩, -⟩ := idx_facts2 t
  show (fun y => (V c main_arg1 : S4096x4096.Idx → EReal) (((cfg2.win 0).blk t).view.emb y)) = _
  rw [h_adj]
  exact up2_rowBlock adj (pt2 t) e0 e1 (fun _ => rfl) (fun _ => rfl)

theorem xb2_1_eq (c : Dev nD) (t : Fin cfg2.N) (g1 : Mat 4096 256)
    (h_g1 : (V c main_v7_0 : S4096x256.Idx → EReal) = up2 g1) :
    (iblk2 V c 1 t : Vec Ideal S256x256 .f32) = up2 (fun r k => g1 (blockRow (pt2 t) r) k) := by
  obtain ⟨-, ⟨e0, e1⟩, -⟩ := idx_facts2 t
  show (fun y => (V c main_v7_0 : S4096x256.Idx → EReal) (((cfg2.win 1).blk t).view.emb y)) = _
  rw [h_g1]
  exact up2_rowBlock g1 (pt2 t) e0 e1 (fun _ => rfl) (fun _ => rfl)

theorem xb2_6_eq (c : Dev nD) (t : Fin cfg2.N) (eh2 : Mat 4096 128)
    (h_eh2 : (V c main_v6_3 : S4096x128.Idx → EReal) = up2 eh2) :
    (iblk2 V c 6 t : Vec Ideal S256x128 .f32) = up2 (fun r k => eh2 (blockRow (pt2 t) r) k) := by
  obtain ⟨-, -, -, -, -, -, ⟨e0, e1⟩, -⟩ := idx_facts2 t
  show (fun y => (V c main_v6_3 : S4096x128.Idx → EReal) (((cfg2.win 6).blk t).view.emb y)) = _
  rw [h_eh2]
  exact up2_rowBlock eh2 (pt2 t) e0 e1 (fun _ => rfl) (fun _ => rfl)

theorem xb2_2_eq (c : Dev nD) (t : Fin cfg2.N) (g1 : Mat 4096 256)
    (h_g1 : (V c main_v7_0 : S4096x256.Idx → EReal) = up2 g1) :
    (iblk2 V c 2 t : Vec Ideal S4096x256 .f32) = up2 g1 := by
  obtain ⟨-, -, ⟨e0, e1⟩, -⟩ := idx_facts2 t
  rw [← h_g1]
  exact read_whole (V c main_v7_0 : S4096x256.Idx → EReal) (e := ((cfg2.win 2).blk t).view.emb) e0 e1 (fun _ => rfl) (fun _ => rfl)

theorem xb2_3_eq (c : Dev nD) (t : Fin cfg2.N) (h2 : Mat 4096 128)
    (h_h2 : (V c main_v7_1 : S4096x128.Idx → EReal) = up2 h2) :
    (iblk2 V c 3 t : Vec Ideal S4096x128 .f32) = up2 h2 := by
  obtain ⟨-, -, -, ⟨e0, e1⟩, -⟩ := idx_facts2 t
  rw [← h_h2]
  exact read_whole (V c main_v7_1 : S4096x128.Idx → EReal) (e := ((cfg2.win 3).blk t).view.emb) e0 e1 (fun _ => rfl) (fun _ => rfl)

theorem xb2_4_eq (c : Dev nD) (t : Fin cfg2.N) (as2 : Fin 128 → ℝ)
    (h_as2 : (V c main_arg18 : S128x1.Idx → EReal) = up2 (colOf as2)) :
    (iblk2 V c 4 t : Vec Ideal S128x1 .f32) = up2 (colOf as2) := by
  obtain ⟨-, -, -, -, ⟨e0, e1⟩, -⟩ := idx_facts2 t
  rw [← h_as2]
  exact read_whole (V c main_arg18 : S128x1.Idx → EReal) (e := ((cfg2.win 4).blk t).view.emb) e0 e1 (fun _ => rfl) (fun _ => rfl)

theorem xb2_5_eq (c : Dev nD) (t : Fin cfg2.N) (an2 : Fin 128 → ℝ)
    (h_an2 : (V c main_arg19 : S128x1.Idx → EReal) = up2 (colOf an2)) :
    (iblk2 V c 5 t : Vec Ideal S128x1 .f32) = up2 (colOf an2) := by
  obtain ⟨-, -, -, -, -, ⟨e0, e1⟩, -⟩ := idx_facts2 t
  rw [← h_an2]
  exact read_whole (V c main_arg19 : S128x1.Idx → EReal) (e := ((cfg2.win 5).blk t).view.emb) e0 e1 (fun _ => rfl) (fun _ => rfl)

theorem xb2_7_eq (c : Dev nD) (t : Fin cfg2.N) (Wg3 : Mat 128 16)
    (h_Wg3 : (V c main_arg20 : S128x16.Idx → EReal) = up2 Wg3) :
    (iblk2 V c 7 t : Vec Ideal S128x16 .f32) = up2 Wg3 := by
  obtain ⟨-, -, -, -, -, -, -, ⟨e0, e1⟩, -⟩ := idx_facts2 t
  rw [← h_Wg3]
  exact read_whole (V c main_arg20 : S128x16.Idx → EReal) (e := ((cfg2.win 7).blk t).view.emb) e0 e1 (fun _ => rfl) (fun _ => rfl)

theorem ld_rows2 (t : Fin cfg2.N) (H : Mat 4096 128) :
    View.ld (Val := Elt Ideal) (e' := .f32) (S := S4096x128) (up2 H) (r2_h2rows (grid2.coords t))
      = up2 (fun r l => H (blockRow (pt2 t) r) l) := by
  obtain ⟨o0, o1⟩ := off_facts2 t
  exact up2_rowsAt H (pt2 t) (e := (r2_h2rows (grid2.coords t)).idx) o0 o1 (fun _ => rfl) (fun _ => rfl)

abbrev attOut2 (adj : Mat 4096 4096) (h2 : Mat 4096 128) (as2 an2 : Fin 128 → ℝ) : Mat 4096 128 :=
  attendK (scores slope negBig h2 as2 an2 adj) h2

theorem agg2_rows (t : Fin cfg2.N) (A : Mat 256 4096) (H : Mat 4096 128) (aS aN : Fin 128 → ℝ) :
    agg2 (F := Ideal) (grid2.coords t) (up2 A) (up2 H) (up2 (colOf aS)) (up2 (colOf aN))
      = k2_pay2 (F := Ideal) (up2 A) (up2 (colOf aS)) (up2 (colOf aN)) (up2 H) (up2 (fun r l => H (blockRow (pt2 t) r) l)) := by
  unfold agg2
  rw [ld_rows2 t H]
  simp only [View.ld_unit_zero (S := S256x4096) hz, View.ld_unit_zero (S := S128x1) hz, View.ld_unit_zero (S := S4096x128) hz]

theorem act2_rows (t : Fin cfg2.N) (adj : Mat 4096 4096) (h2 : Mat 4096 128) (as2 an2 : Fin 128 → ℝ) :
    act2 (F := Ideal) (grid2.coords t) (up2 (fun r k => adj (blockRow (pt2 t) r) k)) (up2 h2) (up2 (colOf as2)) (up2 (colOf an2))
      = up2 (fun r j => attOut2 adj h2 as2 an2 (blockRow (pt2 t) r) j) := by
  unfold act2 aggPos2
  rw [agg2_rows, show k2_pay3 (F := Ideal) = fun v0 v1 v2 v3 v7 => cmpf .ogt (k2_pay2 v0 v1 v2 v3 v7) (broadcast S256x128 (Scalar.ofBits .f32 0x00000000#32)) from rfl]
  simp only [View.ld_unit_zero (S := S256x4096) hz, View.ld_unit_zero (S := S128x1) hz, View.ld_unit_zero (S := S4096x128) hz, ld_rows2 t h2]
  rw [k2pay2_up, k2pay4_up2]
  rfl

theorem proj2_rows (t : Fin cfg2.N) (adj : Mat 4096 4096) (h2 : Mat 4096 128) (as2 an2 : Fin 128 → ℝ) (eh2 : Mat 4096 128) (Wg3 : Mat 128 16) :
    proj2 (F := Ideal) (grid2.coords t) (up2 (fun r k => adj (blockRow (pt2 t) r) k)) (up2 h2) (up2 (colOf as2)) (up2 (colOf an2))
        (up2 (fun r k => eh2 (blockRow (pt2 t) r) k)) (up2 Wg3)
      = up2 (fun r j => mm (mixM (attOut2 adj h2 as2 an2) eh2) Wg3 (blockRow (pt2 t) r) j) := by
  unfold proj2 aggPos2
  rw [agg2_rows, show k2_pay3 (F := Ideal) = fun v0 v1 v2 v3 v7 => cmpf .ogt (k2_pay2 v0 v1 v2 v3 v7) (broadcast S256x128 (Scalar.ofBits .f32 0x00000000#32)) from rfl]
  simp only [View.ld_unit_zero (S := S256x4096) hz, View.ld_unit_zero (S := S128x1) hz, View.ld_unit_zero (S := S4096x128) hz,
    View.ld_unit_zero (S := S256x128) hz, View.ld_unit_zero (S := S128x16) hz, ld_rows2 t h2]
  rw [k2pay2_up, k2pay5_up2]
  rfl

theorem lossTerm2_rows (t : Fin cfg2.N) (adj : Mat 4096 4096) (g1 : Mat 4096 256) :
    lossTerm2 (F := Ideal) (up2 (fun r k => adj (blockRow (pt2 t) r) k)) (up2 (fun r k => g1 (blockRow (pt2 t) r) k)) (up2 g1)
      = up2 (cellOf (shareOf g1 adj t.val)) := by
  unfold lossTerm2
  simp only [View.ld_unit_zero (S := S256x4096) hz, View.ld_unit_zero (S := S256x256) hz, View.ld_unit_zero (S := S4096x256) hz]
  rw [k2pay6_up, lossB_block g1 adj (pt2 t)]

theorem arrAt2_8 (c : Dev nD) (adj : Mat 4096 4096) (h2 : Mat 4096 128) (as2 an2 : Fin 128 → ℝ)
    (h_adj : (V c main_arg1 : S4096x4096.Idx → EReal) = up2 adj) (h_h2 : (V c main_v7_1 : S4096x128.Idx → EReal) = up2 h2)
    (h_as2 : (V c main_arg18 : S128x1.Idx → EReal) = up2 (colOf as2)) (h_an2 : (V c main_arg19 : S128x1.Idx → EReal) = up2 (colOf an2)) :
    (dat2 (F := Ideal) V c).arrAt 8 cfg2.N = up2 (attendK (scores slope negBig h2 as2 an2 adj) h2) := by
  refine (dat2 (F := Ideal) V c).arrAt_eq_of_cover 8 (up2 (attOut2 adj h2 as2 an2)) (fun t _ => ?_) (fun i => ?_)
  · show (cfg2.win 8).cut (grid2.coords t) ((dat2 (F := Ideal) V c).after 8 t) = _
    rw [after2_8]
    unfold out2_8
    rw [View.canon_unit_zero hz]
    show act2 (F := Ideal) (grid2.coords t) (iblk2 V c 0 t : Vec Ideal S256x4096 .f32) (iblk2 V c 3 t : Vec Ideal S4096x128 .f32)
        (iblk2 V c 4 t : Vec Ideal S128x1 .f32) (iblk2 V c 5 t : Vec Ideal S128x1 .f32) = _
    rw [xb2_0_eq V c t adj h_adj, xb2_3_eq V c t h2 h_h2, xb2_4_eq V c t as2 h_as2, xb2_5_eq V c t an2 h_an2, act2_rows]
    obtain ⟨-, -, -, -, -, -, -, -, ⟨e0, e1⟩, -⟩ := idx_facts2 t
    exact (up2_rowBlock (attOut2 adj h2 as2 an2) (pt2 t) (e := ((cfg2.win 8).blk t).view.emb) e0 e1 (fun _ => rfl) (fun _ => rfl)).symm
  · have hi : (i 0).val < 4096 := (i 0).isLt
    have ht : (i 0).val / 256 < cfg2.N := by rw [show cfg2.N = 16 from N_2]; omega
    obtain ⟨-, -, -, -, -, -, -, -, ⟨e0, e1⟩, -⟩ := idx_facts2 ⟨_, ht⟩
    refine ⟨⟨_, ht⟩, flush2_8 _, ?_⟩
    show i ∈ ((View.whole main_v8_0).slice (win2_8.rect ⟨_, ht⟩)).set
    rw [View.set_slice_whole, Rect.mem_set_unit]
    exact rowBlock_mem i rfl rfl e0 e1

theorem arrAt2_9 (c : Dev nD) (adj : Mat 4096 4096) (h2 : Mat 4096 128) (as2 an2 : Fin 128 → ℝ) (eh2 : Mat 4096 128) (Wg3 : Mat 128 16)
    (h_adj : (V c main_arg1 : S4096x4096.Idx → EReal) = up2 adj) (h_h2 : (V c main_v7_1 : S4096x128.Idx → EReal) = up2 h2)
    (h_as2 : (V c main_arg18 : S128x1.Idx → EReal) = up2 (colOf as2)) (h_an2 : (V c main_arg19 : S128x1.Idx → EReal) = up2 (colOf an2))
    (h_eh2 : (V c main_v6_3 : S4096x128.Idx → EReal) = up2 eh2) (h_Wg3 : (V c main_arg20 : S128x16.Idx → EReal) = up2 Wg3) :
    (dat2 (F := Ideal) V c).arrAt 9 cfg2.N = up2 (mm (mixM (attendK (scores slope negBig h2 as2 an2 adj) h2) eh2) Wg3) := by
  refine (dat2 (F := Ideal) V c).arrAt_eq_of_cover 9 (up2 (mm (mixM (attOut2 adj h2 as2 an2) eh2) Wg3)) (fun t _ => ?_) (fun i => ?_)
  · show (cfg2.win 9).cut (grid2.coords t) ((dat2 (F := Ideal) V c).after 9 t) = _
    rw [after2_9]
    unfold out2_9
    rw [View.canon_unit_zero hz]
    show proj2 (F := Ideal) (grid2.coords t) (iblk2 V c 0 t : Vec Ideal S256x4096 .f32) (iblk2 V c 3 t : Vec Ideal S4096x128 .f32)
        (iblk2 V c 4 t : Vec Ideal S128x1 .f32) (iblk2 V c 5 t : Vec Ideal S128x1 .f32)
        (iblk2 V c 6 t : Vec Ideal S256x128 .f32) (iblk2 V c 7 t : Vec Ideal S128x16 .f32) = _
    rw [xb2_0_eq V c t adj h_adj, xb2_3_eq V c t h2 h_h2, xb2_4_eq V c t as2 h_as2, xb2_5_eq V c t an2 h_an2,
      xb2_6_eq V c t eh2 h_eh2, xb2_7_eq V c t Wg3 h_Wg3, proj2_rows]
    obtain ⟨-, -, -, -, -, -, -, -, -, ⟨e0, e1⟩, -⟩ := idx_facts2 t
    exact (up2_rowBlock (mm (mixM (attOut2 adj h2 as2 an2) eh2) Wg3) (pt2 t) (e := ((cfg2.win 9).blk t).view.emb) e0 e1 (fun _ => rfl) (fun _ => rfl)).symm
  · have hi : (i 0).val < 4096 := (i 0).isLt
    have ht : (i 0).val / 256 < cfg2.N := by rw [show cfg2.N = 16 from N_2]; omega
    obtain ⟨-, -, -, -, -, -, -, -, -, ⟨e0, e1⟩, -⟩ := idx_facts2 ⟨_, ht⟩
    refine ⟨⟨_, ht⟩, flush2_9 _, ?_⟩
    show i ∈ ((View.whole main_v8_1).slice (win2_9.rect ⟨_, ht⟩)).set
    rw [View.set_slice_whole, Rect.mem_set_unit]
    exact rowBlock_mem i rfl rfl e0 e1

/-- After point `n` the cell holds the shares of the blocks `0, …, n` added up. -/
theorem outsAt2_eq (c : Dev nD) (adj : Mat 4096 4096) (g1 : Mat 4096 256)
    (h_adj : (V c main_arg1 : S4096x4096.Idx → EReal) = up2 adj) (h_g1 : (V c main_v7_0 : S4096x256.Idx → EReal) = up2 g1) :
    ∀ (n : ℕ) (hn : n < cfg2.N), outsAt2 (F := Ideal) V c n hn = up2 (cellOf (accum (shareOf g1 adj) n)) := by
  refine cell_accum _ _ (fun hn => ?_) (fun n hn a ih => ?_)
  · rw [outsAt2_zero]
    unfold out2_10_first
    rw [View.canon_unit_zero hz]
    show lossTerm2 (F := Ideal) (iblk2 V c 0 ⟨0, hn⟩ : Vec Ideal S256x4096 .f32) (iblk2 V c 1 ⟨0, hn⟩ : Vec Ideal S256x256 .f32)
        (iblk2 V c 2 ⟨0, hn⟩ : Vec Ideal S4096x256 .f32) = _
    rw [xb2_0_eq V c ⟨0, hn⟩ adj h_adj, xb2_1_eq V c ⟨0, hn⟩ g1 h_g1, xb2_2_eq V c ⟨0, hn⟩ g1 h_g1, lossTerm2_rows]
  · rw [outsAt2_succ]
    unfold out2_10_next
    rw [View.canon_unit_zero hz, ih]
    show k2_pay1 (F := Ideal) (lossTerm2 (F := Ideal) (iblk2 V c 0 ⟨n + 1, hn⟩ : Vec Ideal S256x4096 .f32) (iblk2 V c 1 ⟨n + 1, hn⟩ : Vec Ideal S256x256 .f32)
        (iblk2 V c 2 ⟨n + 1, hn⟩ : Vec Ideal S4096x256 .f32))
        (View.ld (Val := Elt Ideal) (e' := .f32) (S := S1x1) (up2 (cellOf a)) r2_cell) = _
    rw [xb2_0_eq V c ⟨n + 1, hn⟩ adj h_adj, xb2_1_eq V c ⟨n + 1, hn⟩ g1 h_g1, xb2_2_eq V c ⟨n + 1, hn⟩ g1 h_g1, lossTerm2_rows,
      View.ld_unit_zero (S := S1x1) hz, k2pay1_up]

theorem arrAt2_10 (c : Dev nD) (adj : Mat 4096 4096) (g1 : Mat 4096 256)
    (h_adj : (V c main_arg1 : S4096x4096.Idx → EReal) = up2 adj) (h_g1 : (V c main_v7_0 : S4096x256.Idx → EReal) = up2 g1) :
    (dat2 (F := Ideal) V c).arrAt 10 cfg2.N = up2 (cellOf (sqErr g1 adj)) := by
  have hN : cfg2.N = 16 := N_2
  refine (dat2 (F := Ideal) V c).arrAt_eq_of_cover 10 (up2 (cellOf (sqErr g1 adj))) (fun t hf => ?_) (fun i => ?_)
  · have h15 : t.val = 15 := by have := (flush2_10 t).mp hf; have := t.isLt; omega
    show (cfg2.win 10).cut (grid2.coords t) ((dat2 (F := Ideal) V c).after 10 t) = _
    rw [after2_10, outsAt2_eq V c adj g1 h_adj h_g1, h15, accum_shareOf]
    rfl
  · have h15 : 15 < cfg2.N := by omega
    obtain ⟨-, -, -, -, -, -, -, -, -, -, ⟨e0, e1⟩⟩ := idx_facts2 ⟨15, h15⟩
    refine ⟨⟨15, h15⟩, (flush2_10 _).mpr rfl, ?_⟩
    show i ∈ ((View.whole main_v8_2).slice (win2_10.rect ⟨15, h15⟩)).set
    rw [View.set_slice_whole, Rect.mem_set_unit]
    exact whole_mem i rfl rfl e0 e1

end Cert.KernelIdeal.Val

end
-- ==== Proof.Value.Region3Pay.lean ====
import proofs.«156812_g12472585028273_cont_sun_m_131_10_alg».proof.Proof.Ideal.Region3
import proofs.«156812_g12472585028273_cont_sun_m_131_10_alg».proof.Proof.Value.Region2Att
import proofs.«156812_g12472585028273_cont_sun_m_131_10_alg».proof.Proof.Value.Blocks

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

namespace R3

theorem pay1_up (A : Mat 256 4096) (Hb : Mat 256 16) (H : Mat 4096 16) (as3 an3 : Fin 16 → ℝ) :
    k3_pay1 (F := Ideal) (up2 A) (up2 (colOf as3)) (up2 (colOf an3)) (up2 H) (up2 Hb) = up2 (quotB (scoresB A as3 an3 H Hb) H) := by
  unfold k3_pay1
  dsimp only
  rw [shapeCast_self, shapeCast_self]
  rw [matmul_zero_up2 dot_S256x16_S16x1_S256x1_1_0_0_1_n_n none rfl rfl rfl rfl rfl rfl,
    matmul_zero_up2 dot_S4096x16_S16x1_S4096x1_1_0_0_1_n_n none rfl rfl rfl rfl rfl rfl]
  rw [transpose2, bcastColK, bcastRowK, addfK, leakyK, maskK, rowMaxK, castColK, bcastColK, subfK, expK, rowSumK, castColK]
  rw [truncf_id, truncf_id]
  rw [matmul_zero_up2 dot_S256x4096_S4096x16_S256x16_1_0_0_1_n_n none rfl rfl rfl rfl rfl rfl]
  rw [bcastColK]
  refine (divfK _ _ ?_).trans ?_
  · intro p q
    exact (rowSum_pos (scoresB A as3 an3 H Hb) p).ne'
  · rfl

theorem pay3_up (A : Mat 256 4096) (Hb : Mat 256 16) (H : Mat 4096 16) (as3 an3 : Fin 16 → ℝ) :
    k3_pay3 (F := Ideal) (k3_pay1 (F := Ideal) (up2 A) (up2 (colOf as3)) (up2 (colOf an3)) (up2 H) (up2 Hb))
        (k3_pay2 (F := Ideal) (up2 A) (up2 (colOf as3)) (up2 (colOf an3)) (up2 H) (up2 Hb)) (Scalar.ofBits .f32 0x00000000#32)
      = up2 (attendK (scoresB A as3 an3 H Hb) H) := by
  unfold k3_pay3 k3_pay2
  dsimp only
  rw [pay1_up, up2_eq_up, Att.eluUp]
  rfl

theorem pay4_up (A : Mat 256 4096) (Hb : Mat 256 16) (H : Mat 4096 16) (as3 an3 : Fin 16 → ℝ) (Z : Mat 256 16) :
    k3_pay4 (F := Ideal) (k3_pay1 (F := Ideal) (up2 A) (up2 (colOf as3)) (up2 (colOf an3)) (up2 H) (up2 Hb))
        (k3_pay2 (F := Ideal) (up2 A) (up2 (colOf as3)) (up2 (colOf an3)) (up2 H) (up2 Hb)) (Scalar.ofBits .f32 0x00000000#32) (up2 Z)
      = up2 (mixM (attendK (scoresB A as3 an3 H Hb) H) Z) := by
  unfold k3_pay4
  dsimp only
  rw [pay3_up, shapeCast_self, up2_eq_up, up2_eq_up, Att.mixUp]
  rfl

theorem pay5_up (A : Mat 256 4096) (Gb : Mat 256 128) (G : Mat 4096 128) :
    k3_pay5 (F := Ideal) (up2 A) (up2 Gb) (up2 G) = up2 (cellOf (lossB A Gb G)) := by
  unfold k3_pay5
  dsimp only
  rw [shapeCast_self, shapeCast_self, truncf_id, truncf_id,
    matmulT_zero_up2 dot_S256x128_S4096x128_S256x4096_1_1_0_0_n_n none rfl rfl rfl rfl rfl rfl Gb G]
  simp only [up2_eq_up]
  rw [Att.sqDiffUp, Att.totalUp]
  rfl

theorem pay6_up (A : Mat 256 4096) (Gb : Mat 256 128) (G : Mat 4096 128) (prev : ℝ) :
    k3_pay6 (F := Ideal) (up2 A) (up2 Gb) (up2 G) (up2 (cellOf prev)) = up2 (cellOf (prev + lossB A Gb G)) := by
  unfold k3_pay6
  dsimp only
  rw [shapeCast_self, pay5_up, cellAdd_up]

end R3

end Cert.KernelIdeal.Val

end
-- ==== Proof.Value.Region3Rows.lean ====
import proofs.«156812_g12472585028273_cont_sun_m_131_10_alg».proof.Proof.Value.Region3Pay

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

variable (V : (c : Dev nD) → (b : Ref sig .tc) → Buf (Elt Ideal) ((c : Thread nD τ).loc b))

abbrev tb3 (t : Fin cfg3.N) : Fin 16 := ⟨t.val, lt_of_lt_of_eq t.isLt N_3⟩

theorem idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0)
    ∧ (win3_9.index t (0 : Fin 2) = 0 ∧ win3_9.index t (1 : Fin 2) = 0)
    ∧ k3_off1 (grid3.coords t) (0 : Fin 2) = 256 * t.val ∧ k3_off1 (grid3.coords t) (1 : Fin 2) = 0 :=
  (by decide +kernel : ∀ t : Fin grid3.N, _)

theorem blk3_0 (c : Dev nD) (adj : Mat 4096 4096) (h_adj : (V c main_arg1 : S4096x4096.Idx → EReal) = up2 adj) (t : Fin cfg3.N) :
    (iblk3 V c 0 t : Vec Ideal S256x4096 .f32) = up2 (fun r k => adj (blockRow (tb3 t) r) k) := by
  obtain ⟨⟨e0, e1⟩, -⟩ := idx3 t
  show (fun y => (V c main_arg1 : S4096x4096.Idx → EReal) (((cfg3.win 0).blk t).view.emb y)) = _
  rw [h_adj]
  exact up2_rowBlock adj (tb3 t) e0 e1 (fun _ => rfl) (fun _ => rfl)

theorem blk3_1 (c : Dev nD) (g2 : Mat 4096 128) (h_g2 : (V c main_v8_0 : S4096x128.Idx → EReal) = up2 g2) (t : Fin cfg3.N) :
    (iblk3 V c 1 t : Vec Ideal S256x128 .f32) = up2 (fun r k => g2 (blockRow (tb3 t) r) k) := by
  obtain ⟨-, ⟨e0, e1⟩, -⟩ := idx3 t
  show (fun y => (V c main_v8_0 : S4096x128.Idx → EReal) (((cfg3.win 1).blk t).view.emb y)) = _
  rw [h_g2]
  exact up2_rowBlock g2 (tb3 t) e0 e1 (fun _ => rfl) (fun _ => rfl)

theorem blk3_2 (c : Dev nD) (g2 : Mat 4096 128) (h_g2 : (V c main_v8_0 : S4096x128.Idx → EReal) = up2 g2) (t : Fin cfg3.N) :
    (iblk3 V c 2 t : Vec Ideal S4096x128 .f32) = up2 g2 := by
  obtain ⟨-, -, ⟨e0, e1⟩, -⟩ := idx3 t
  rw [← h_g2]
  exact read_whole (V c main_v8_0 : S4096x128.Idx → EReal) (e := ((cfg3.win 2).blk t).view.emb) e0 e1 (fun _ => rfl) (fun _ => rfl)

theorem blk3_3 (c : Dev nD) (h3 : Mat 4096 16) (h_h3 : (V c main_v8_1 : S4096x16.Idx → EReal) = up2 h3) (t : Fin cfg3.N) :
    (iblk3 V c 3 t : Vec Ideal S4096x16 .f32) = up2 h3 := by
  obtain ⟨-, -, -, ⟨e0, e1⟩, -⟩ := idx3 t
  rw [← h_h3]
  exact read_whole (V c main_v8_1 : S4096x16.Idx → EReal) (e := ((cfg3.win 3).blk t).view.emb) e0 e1 (fun _ => rfl) (fun _ => rfl)

theorem blk3_4 (c : Dev nD) (as3 : Fin 16 → ℝ) (h_as3 : (V c main_arg21 : S16x1.Idx → EReal) = up2 (colOf as3)) (t : Fin cfg3.N) :
    (iblk3 V c 4 t : Vec Ideal S16x1 .f32) = up2 (colOf as3) := by
  obtain ⟨-, -, -, -, ⟨e0, e1⟩, -⟩ := idx3 t
  rw [← h_as3]
  exact read_whole (V c main_arg21 : S16x1.Idx → EReal) (e := ((cfg3.win 4).blk t).view.emb) e0 e1 (fun _ => rfl) (fun _ => rfl)

theorem blk3_5 (c : Dev nD) (an3 : Fin 16 → ℝ) (h_an3 : (V c main_arg22 : S16x1.Idx → EReal) = up2 (colOf an3)) (t : Fin cfg3.N) :
    (iblk3 V c 5 t : Vec Ideal S16x1 .f32) = up2 (colOf an3) := by
  obtain ⟨-, -, -, -, -, ⟨e0, e1⟩, -⟩ := idx3 t
  rw [← h_an3]
  exact read_whole (V c main_arg22 : S16x1.Idx → EReal) (e := ((cfg3.win 5).blk t).view.emb) e0 e1 (fun _ => rfl) (fun _ => rfl)

theorem blk3_6 (c : Dev nD) (zae : Mat 4096 16) (h_zae : (V c main_v6_1 : S4096x16.Idx → EReal) = up2 zae) (t : Fin cfg3.N) :
    (iblk3 V c 6 t : Vec Ideal S256x16 .f32) = up2 (fun r k => zae (blockRow (tb3 t) r) k) := by
  obtain ⟨-, -, -, -, -, -, ⟨e0, e1⟩, -⟩ := idx3 t
  show (fun y => (V c main_v6_1 : S4096x16.Idx → EReal) (((cfg3.win 6).blk t).view.emb y)) = _
  rw [h_zae]
  exact up2_rowBlock zae (tb3 t) e0 e1 (fun _ => rfl) (fun _ => rfl)

theorem rows3 (h3 : Mat 4096 16) (t : Fin cfg3.N) :
    View.ld (Val := Elt Ideal) (S := S4096x16) (e' := .f32) (up2 h3) (r3_h3s (grid3.coords t))
      = (up2 (fun r l => h3 (blockRow (tb3 t) r) l) : FVec Ideal S256x16 .f32) := by
  obtain ⟨-, -, -, -, -, -, -, -, -, -, o0, o1⟩ := idx3 t
  exact up2_rowsAt h3 (tb3 t) (e := (r3_h3s (grid3.coords t)).idx) o0 o1 (fun _ => rfl) (fun _ => rfl)

theorem value3_7 (c : Dev nD) (adj : Mat 4096 4096) (g2 : Mat 4096 128) (h3 : Mat 4096 16) (as3 an3 : Fin 16 → ℝ) (zae : Mat 4096 16)
    (h_adj : (V c main_arg1 : S4096x4096.Idx → EReal) = up2 adj) (h_g2 : (V c main_v8_0 : S4096x128.Idx → EReal) = up2 g2)
    (h_h3 : (V c main_v8_1 : S4096x16.Idx → EReal) = up2 h3) (h_as3 : (V c main_arg21 : S16x1.Idx → EReal) = up2 (colOf as3))
    (h_an3 : (V c main_arg22 : S16x1.Idx → EReal) = up2 (colOf an3)) (h_zae : (V c main_v6_1 : S4096x16.Idx → EReal) = up2 zae) :
    ((dat3 (F := Ideal) V c).arrAt 7 cfg3.N : S4096x16.Idx → EReal)
      = up2 (attendK (scores slope negBig h3 as3 an3 adj) h3) := by
  refine (dat3 (F := Ideal) V c).arrAt_eq_of_cover 7 (up2 (attendK (scores slope negBig h3 as3 an3 adj) h3)) (fun t _ => ?_) (fun i => ?_)
  · show (cfg3.win 7).cut (grid3.coords t) ((dat3 (F := Ideal) V c).after 7 t) = _
    rw [after3_7]
    unfold out3_7 att3 pos3
    rw [View.canon_unit_zero hz]
    simp only [View.ld_unit_zero (S := S256x4096) hz, View.ld_unit_zero (S := S16x1) hz, View.ld_unit_zero (S := S4096x16) hz]
    rw [blk3_0 V c adj h_adj t, blk3_3 V c h3 h_h3 t, blk3_4 V c as3 h_as3 t, blk3_5 V c an3 h_an3 t, rows3 h3 t, R3.pay3_up]
    obtain ⟨-, -, -, -, -, -, -, ⟨e0, e1⟩, -⟩ := idx3 t
    exact (up2_rowBlock (attendK (scores slope negBig h3 as3 an3 adj) h3) (tb3 t) (e := ((cfg3.win 7).blk t).view.emb) e0 e1 (fun _ => rfl) (fun _ => rfl)).symm
  · have hi : (i 0).val < 4096 := (i 0).isLt
    have ht : (i 0).val / 256 < cfg3.N := by rw [show cfg3.N = 16 from N_3]; omega
    obtain ⟨-, -, -, -, -, -, -, ⟨e0, e1⟩, -⟩ := idx3 ⟨_, ht⟩
    refine ⟨⟨_, ht⟩, flush3_7 _, ?_⟩
    show i ∈ ((View.whole main_v9_0).slice (win3_7.rect ⟨_, ht⟩)).set
    rw [View.set_slice_whole, Rect.mem_set_unit]
    exact rowBlock_mem i rfl rfl e0 e1

theorem value3_8 (c : Dev nD) (adj : Mat 4096 4096) (g2 : Mat 4096 128) (h3 : Mat 4096 16) (as3 an3 : Fin 16 → ℝ) (zae : Mat 4096 16)
    (h_adj : (V c main_arg1 : S4096x4096.Idx → EReal) = up2 adj) (h_g2 : (V c main_v8_0 : S4096x128.Idx → EReal) = up2 g2)
    (h_h3 : (V c main_v8_1 : S4096x16.Idx → EReal) = up2 h3) (h_as3 : (V c main_arg21 : S16x1.Idx → EReal) = up2 (colOf as3))
    (h_an3 : (V c main_arg22 : S16x1.Idx → EReal) = up2 (colOf an3)) (h_zae : (V c main_v6_1 : S4096x16.Idx → EReal) = up2 zae) :
    ((dat3 (F := Ideal) V c).arrAt 8 cfg3.N : S4096x16.Idx → EReal)
      = up2 (mixM (attendK (scores slope negBig h3 as3 an3 adj) h3) zae) := by
  refine (dat3 (F := Ideal) V c).arrAt_eq_of_cover 8 (up2 (mixM (attendK (scores slope negBig h3 as3 an3 adj) h3) zae)) (fun t _ => ?_) (fun i => ?_)
  · show (cfg3.win 8).cut (grid3.coords t) ((dat3 (F := Ideal) V c).after 8 t) = _
    rw [after3_8]
    unfold out3_8 att3 pos3
    rw [View.canon_unit_zero hz]
    simp only [View.ld_unit_zero (S := S256x4096) hz, View.ld_unit_zero (S := S16x1) hz, View.ld_unit_zero (S := S4096x16) hz,
      View.ld_unit_zero (S := S256x16) hz]
    rw [blk3_0 V c adj h_adj t, blk3_3 V c h3 h_h3 t, blk3_4 V c as3 h_as3 t, blk3_5 V c an3 h_an3 t, blk3_6 V c zae h_zae t,
      rows3 h3 t, R3.pay4_up]
    obtain ⟨-, -, -, -, -, -, -, -, ⟨e0, e1⟩, -⟩ := idx3 t
    exact (up2_rowBlock (mixM (attendK (scores slope negBig h3 as3 an3 adj) h3) zae) (tb3 t) (e := ((cfg3.win 8).blk t).view.emb) e0 e1 (fun _ => rfl) (fun _ => rfl)).symm
  · have hi : (i 0).val < 4096 := (i 0).isLt
    have ht : (i 0).val / 256 < cfg3.N := by rw [show cfg3.N = 16 from N_3]; omega
    obtain ⟨-, -, -, -, -, -, -, -, ⟨e0, e1⟩, -⟩ := idx3 ⟨_, ht⟩
    refine ⟨⟨_, ht⟩, flush3_8 _, ?_⟩
    show i ∈ ((View.whole main_v9_1).slice (win3_8.rect ⟨_, ht⟩)).set
    rw [View.set_slice_whole, Rect.mem_set_unit]
    exact rowBlock_mem i rfl rfl e0 e1

end Cert.KernelIdeal.Val

end
-- ==== Proof.Value.Region3Cell.lean ====
import proofs.«156812_g12472585028273_cont_sun_m_131_10_alg».proof.Proof.Value.Region3Rows

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

variable (V : (c : Dev nD) → (b : Ref sig .tc) → Buf (Elt Ideal) ((c : Thread nD τ).loc b))

/-- After the body at position `n` the cell holds the shares of the blocks `0, …, n` added up. -/
theorem outsAt3_up (c : Dev nD) (adj : Mat 4096 4096) (g2 : Mat 4096 128)
    (h_adj : (V c main_arg1 : S4096x4096.Idx → EReal) = up2 adj) (h_g2 : (V c main_v8_0 : S4096x128.Idx → EReal) = up2 g2) :
    ∀ (n : ℕ) (hn : n < cfg3.N), (outsAt3 V c n hn : FVec Ideal S1x1 .f32) = up2 (cellOf (accum (shareOf g2 adj) n)) := by
  refine cell_accum _ _ (fun hn => ?_) (fun n hn a ih => ?_)
  · show out3_9A (iblk3 V c 0 ⟨0, hn⟩) (iblk3 V c 1 ⟨0, hn⟩) (iblk3 V c 2 ⟨0, hn⟩) = _
    unfold out3_9A
    rw [View.canon_unit_zero hz]
    simp only [View.ld_unit_zero (S := S256x4096) hz, View.ld_unit_zero (S := S256x128) hz, View.ld_unit_zero (S := S4096x128) hz]
    rw [blk3_0 V c adj h_adj, blk3_1 V c g2 h_g2, blk3_2 V c g2 h_g2, R3.pay5_up, lossB_block g2 adj (tb3 ⟨0, hn⟩)]
  · show out3_9B (iblk3 V c 0 ⟨n + 1, hn⟩) (iblk3 V c 1 ⟨n + 1, hn⟩) (iblk3 V c 2 ⟨n + 1, hn⟩) (outsAt3 V c n (Nat.lt_of_succ_lt hn)) = _
    rw [ih]
    unfold out3_9B
    rw [View.canon_unit_zero hz]
    simp only [View.ld_unit_zero (S := S256x4096) hz, View.ld_unit_zero (S := S256x128) hz, View.ld_unit_zero (S := S4096x128) hz,
      View.ld_unit_zero (S := S1x1) hz]
    rw [blk3_0 V c adj h_adj, blk3_1 V c g2 h_g2, blk3_2 V c g2 h_g2, R3.pay6_up, lossB_block g2 adj (tb3 ⟨n + 1, hn⟩)]

theorem value3_9 (c : Dev nD) (adj : Mat 4096 4096) (g2 : Mat 4096 128) (h3 : Mat 4096 16) (as3 an3 : Fin 16 → ℝ) (zae : Mat 4096 16)
    (h_adj : (V c main_arg1 : S4096x4096.Idx → EReal) = up2 adj) (h_g2 : (V c main_v8_0 : S4096x128.Idx → EReal) = up2 g2)
    (h_h3 : (V c main_v8_1 : S4096x16.Idx → EReal) = up2 h3) (h_as3 : (V c main_arg21 : S16x1.Idx → EReal) = up2 (colOf as3))
    (h_an3 : (V c main_arg22 : S16x1.Idx → EReal) = up2 (colOf an3)) (h_zae : (V c main_v6_1 : S4096x16.Idx → EReal) = up2 zae) :
    ((dat3 (F := Ideal) V c).arrAt 9 cfg3.N : S1x1.Idx → EReal) = up2 (cellOf (sqErr g2 adj)) := by
  have hN : cfg3.N = 16 := N_3
  refine (dat3 (F := Ideal) V c).arrAt_eq_of_cover 9 (up2 (cellOf (sqErr g2 adj))) (fun t hf => ?_) (fun i => ?_)
  · have h15 : t.val = 15 := by have := (flush3_9 t).mp hf; have := t.isLt; omega
    show (cfg3.win 9).cut (grid3.coords t) ((dat3 (F := Ideal) V c).after 9 t) = _
    rw [after3_9, outsAt3_up V c adj g2 h_adj h_g2 t.val t.isLt, h15, accum_shareOf]
    rfl
  · have h15 : 15 < cfg3.N := by omega
    obtain ⟨-, -, -, -, -, -, -, -, -, ⟨e0, e1⟩, -⟩ := idx3 ⟨15, h15⟩
    refine ⟨⟨15, h15⟩, (flush3_9 _).mpr rfl, ?_⟩
    show i ∈ ((View.whole main_v9_2).slice (win3_9.rect ⟨15, h15⟩)).set
    rw [View.set_slice_whole, Rect.mem_set_unit]
    exact whole_mem i rfl rfl e0 e1

end Cert.KernelIdeal.Val

end
-- ==== Proof.Value.Region4.lean ====
import proofs.«156812_g12472585028273_cont_sun_m_131_10_alg».proof.Proof.Ideal.Region4
import proofs.«156812_g12472585028273_cont_sun_m_131_10_alg».proof.Proof.Real.MatMul
import proofs.«156812_g12472585028273_cont_sun_m_131_10_alg».proof.Proof.Value.AttendOps
import proofs.«156812_g12472585028273_cont_sun_m_131_10_alg».proof.Proof.Value.Blocks

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

variable (V : (c : Dev nD) → (b : Ref sig .tc) → Buf (Elt Ideal) ((c : Thread nD τ).loc b))

theorem k4pay1_up (g : Mat 256 16) (z : Mat 4096 16) :
    k4_pay1 (F := Ideal) (up2 g) (up2 z) = up2 (fun (r : Fin 256) (j : Fin 4096) => sigm (∑ l, g r l * z j l)) := by
  unfold k4_pay1
  try dsimp only
  simp only [shapeCast_self]
  rw [matmulT_zero_up2 dot_S256x16_S4096x16_S256x4096_1_1_0_0_n_n none rfl rfl rfl rfl rfl rfl g z, up2_eq_up, logistic_up, up_eq_up2]
  rfl

theorem k4pay4_up (a : Mat 256 4096) (z : Mat 4096 16) :
    k4_pay4 (F := Ideal) (up2 a) (up2 z) = up2 (fun (r : Fin 256) (j : Fin 16) => ∑ l, a r l * z l j) := by
  unfold k4_pay4
  try dsimp only
  simp only [shapeCast_self]
  exact matmul_zero_up2 dot_S256x4096_S4096x16_S256x16_1_0_0_1_n_n none rfl rfl rfl rfl rfl rfl a z

theorem k4pay2_up (a : Mat 256 4096) (g : Mat 256 16) (z : Mat 4096 16) :
    k4_pay2 (F := Ideal) (up2 a) (up2 g) (up2 z) = up2 (cellOf (lossB a g z)) := by
  unfold k4_pay2 k4_pay1
  try dsimp only
  simp only [shapeCast_self]
  rw [matmulT_zero_up2 dot_S256x16_S4096x16_S256x4096_1_1_0_0_n_n none rfl rfl rfl rfl rfl rfl g z]
  simp only [up2_eq_up]
  rw [Att.sqDiffUp, Att.totalUp]
  rfl

theorem k4pay3_up (a : Mat 256 4096) (g : Mat 256 16) (z : Mat 4096 16) (o : ℝ) :
    k4_pay3 (F := Ideal) (up2 a) (up2 g) (up2 z) (up2 (cellOf o)) = up2 (cellOf (o + lossB a g z)) := by
  unfold k4_pay3
  try dsimp only
  rw [shapeCast_self, k4pay2_up, cellAdd_up]

abbrev pt4 (t : Fin cfg4.N) : Fin 16 := ⟨t.val, lt_of_lt_of_eq t.isLt N_4⟩

theorem idxmaps4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0 :=
  (by decide +kernel : ∀ t : Fin grid4.N, _)

theorem blk4_0 (c : Dev nD) (adj : Mat 4096 4096) (h_adj : (V c main_arg1 : S4096x4096.Idx → EReal) = up2 adj) (t : Fin cfg4.N) :
    (iblk4 V c 0 t : S256x4096.Idx → EReal) = up2 (fun r j => adj (blockRow (pt4 t) r) j) := by
  obtain ⟨e0, e1, -⟩ := idxmaps4 t
  show (fun y => (V c main_arg1 : S4096x4096.Idx → EReal) (((cfg4.win 0).blk t).view.emb y)) = _
  rw [h_adj]
  exact up2_rowBlock adj (pt4 t) e0 e1 (fun _ => rfl) (fun _ => rfl)

theorem blk4_1 (c : Dev nD) (zg : Mat 4096 16) (h_zg : (V c main_v9_0 : S4096x16.Idx → EReal) = up2 zg) (t : Fin cfg4.N) :
    (iblk4 V c 1 t : S256x16.Idx → EReal) = up2 (fun r l => zg (blockRow (pt4 t) r) l) := by
  obtain ⟨-, -, e0, e1, -⟩ := idxmaps4 t
  show (fun y => (V c main_v9_0 : S4096x16.Idx → EReal) (((cfg4.win 1).blk t).view.emb y)) = _
  rw [h_zg]
  exact up2_rowBlock zg (pt4 t) e0 e1 (fun _ => rfl) (fun _ => rfl)

theorem blk4_2 (c : Dev nD) (zg : Mat 4096 16) (h_zg : (V c main_v9_0 : S4096x16.Idx → EReal) = up2 zg) (t : Fin cfg4.N) :
    (iblk4 V c 2 t : S4096x16.Idx → EReal) = up2 zg := by
  obtain ⟨-, -, -, -, e0, e1, -⟩ := idxmaps4 t
  rw [← h_zg]
  exact read_whole (V c main_v9_0 : S4096x16.Idx → EReal) (e := ((cfg4.win 2).blk t).view.emb) e0 e1 (fun _ => rfl) (fun _ => rfl)

theorem blk4_3 (c : Dev nD) (zi : Mat 4096 16) (h_zi : (V c main_v9_1 : S4096x16.Idx → EReal) = up2 zi) (t : Fin cfg4.N) :
    (iblk4 V c 3 t : S4096x16.Idx → EReal) = up2 zi := by
  obtain ⟨-, -, -, -, -, -, e0, e1, -⟩ := idxmaps4 t
  rw [← h_zi]
  exact read_whole (V c main_v9_1 : S4096x16.Idx → EReal) (e := ((cfg4.win 3).blk t).view.emb) e0 e1 (fun _ => rfl) (fun _ => rfl)

/-- After the body at position `n` the cell holds the shares of the blocks `0, …, n` added up. -/
theorem outsAt4_up (c : Dev nD) (adj : Mat 4096 4096) (zg : Mat 4096 16) (h_adj : (V c main_arg1 : S4096x4096.Idx → EReal) = up2 adj)
    (h_zg : (V c main_v9_0 : S4096x16.Idx → EReal) = up2 zg) :
    ∀ (n : ℕ) (hn : n < cfg4.N), (outsAt4 V c n hn : S1x1.Idx → EReal) = up2 (cellOf (accum (shareOf zg adj) n)) := by
  refine cell_accum _ _ (fun hn => ?_) (fun n hn a ih => ?_)
  · show out4_6_A (iblk4 V c 0 ⟨0, hn⟩) (iblk4 V c 1 ⟨0, hn⟩) (iblk4 V c 2 ⟨0, hn⟩) = _
    unfold out4_6_A
    rw [View.canon_unit_zero hz]
    simp only [View.ld_unit_zero (S := S256x4096) hz, View.ld_unit_zero (S := S256x16) hz, View.ld_unit_zero (S := S4096x16) hz]
    rw [blk4_0 V c adj h_adj, blk4_1 V c zg h_zg, blk4_2 V c zg h_zg, k4pay2_up, lossB_block zg adj (pt4 ⟨0, hn⟩)]
  · show out4_6_B (iblk4 V c 0 ⟨n + 1, hn⟩) (iblk4 V c 1 ⟨n + 1, hn⟩) (iblk4 V c 2 ⟨n + 1, hn⟩) (outsAt4 V c n (Nat.lt_of_succ_lt hn)) = _
    rw [ih]
    unfold out4_6_B
    rw [View.canon_unit_zero hz]
    simp only [View.ld_unit_zero (S := S256x4096) hz, View.ld_unit_zero (S := S256x16) hz, View.ld_unit_zero (S := S4096x16) hz,
      View.ld_unit_zero (S := S1x1) hz]
    rw [blk4_0 V c adj h_adj, blk4_1 V c zg h_zg, blk4_2 V c zg h_zg, k4pay3_up, lossB_block zg adj (pt4 ⟨n + 1, hn⟩)]

theorem arrAt4_4 (c : Dev nD) (zg : Mat 4096 16) (h_zg : (V c main_v9_0 : S4096x16.Idx → EReal) = up2 zg) :
    (dat4 (F := Ideal) V c).arrAt 4 cfg4.N = up2 (fun (i j : Fin 4096) => sigm (∑ l, zg i l * zg j l)) := by
  refine (dat4 (F := Ideal) V c).arrAt_eq_of_cover 4 _ (fun t _ => ?_) (fun i => ?_)
  · show (cfg4.win 4).cut (grid4.coords t) ((dat4 (F := Ideal) V c).after 4 t) = _
    rw [after4_4]
    unfold out4_4
    rw [View.canon_unit_zero hz]
    simp only [View.ld_unit_zero (S := S256x16) hz, View.ld_unit_zero (S := S4096x16) hz]
    rw [blk4_1 V c zg h_zg t, blk4_2 V c zg h_zg t, k4pay1_up]
    obtain ⟨-, -, -, -, -, -, -, -, e0, e1, -⟩ := idxmaps4 t
    exact (up2_rowBlock (fun (i j : Fin 4096) => sigm (∑ l, zg i l * zg j l)) (pt4 t) (e := ((cfg4.win 4).blk t).view.emb) e0 e1 (fun _ => rfl) (fun _ => rfl)).symm
  · have hi : (i 0).val < 4096 := (i 0).isLt
    have ht : (i 0).val / 256 < cfg4.N := by rw [show cfg4.N = 16 from N_4]; omega
    obtain ⟨-, -, -, -, -, -, -, -, e0, e1, -⟩ := idxmaps4 ⟨_, ht⟩
    refine ⟨⟨_, ht⟩, flush4_4 _, ?_⟩
    show i ∈ ((View.whole main_v10_0).slice (win4_4.rect ⟨_, ht⟩)).set
    rw [View.set_slice_whole, Rect.mem_set_unit]
    exact rowBlock_mem i rfl rfl e0 e1

theorem arrAt4_5 (c : Dev nD) (adj : Mat 4096 4096) (zi : Mat 4096 16) (h_adj : (V c main_arg1 : S4096x4096.Idx → EReal) = up2 adj) (h_zi : (V c main_v9_1 : S4096x16.Idx → EReal) = up2 zi) :
    (dat4 (F := Ideal) V c).arrAt 5 cfg4.N = up2 (mm adj zi) := by
  refine (dat4 (F := Ideal) V c).arrAt_eq_of_cover 5 _ (fun t _ => ?_) (fun i => ?_)
  · show (cfg4.win 5).cut (grid4.coords t) ((dat4 (F := Ideal) V c).after 5 t) = _
    rw [after4_5]
    unfold out4_5
    rw [View.canon_unit_zero hz]
    simp only [View.ld_unit_zero (S := S256x4096) hz, View.ld_unit_zero (S := S4096x16) hz]
    rw [blk4_0 V c adj h_adj t, blk4_3 V c zi h_zi t, k4pay4_up]
    obtain ⟨-, -, -, -, -, -, -, -, -, -, e0, e1, -⟩ := idxmaps4 t
    exact (up2_rowBlock (mm adj zi) (pt4 t) (e := ((cfg4.win 5).blk t).view.emb) e0 e1 (fun _ => rfl) (fun _ => rfl)).symm
  · have hi : (i 0).val < 4096 := (i 0).isLt
    have ht : (i 0).val / 256 < cfg4.N := by rw [show cfg4.N = 16 from N_4]; omega
    obtain ⟨-, -, -, -, -, -, -, -, -, -, e0, e1, -⟩ := idxmaps4 ⟨_, ht⟩
    refine ⟨⟨_, ht⟩, flush4_5 _, ?_⟩
    show i ∈ ((View.whole main_v10_1).slice (win4_5.rect ⟨_, ht⟩)).set
    rw [View.set_slice_whole, Rect.mem_set_unit]
    exact rowBlock_mem i rfl rfl e0 e1

theorem arrAt4_6 (c : Dev nD) (adj : Mat 4096 4096) (zg : Mat 4096 16) (h_adj : (V c main_arg1 : S4096x4096.Idx → EReal) = up2 adj) (h_zg : (V c main_v9_0 : S4096x16.Idx → EReal) = up2 zg) :
    (dat4 (F := Ideal) V c).arrAt 6 cfg4.N = up2 (cellOf (sqErr zg adj)) := by
  have hN : cfg4.N = 16 := N_4
  refine (dat4 (F := Ideal) V c).arrAt_eq_of_cover 6 (up2 (cellOf (sqErr zg adj))) (fun t hf => ?_) (fun i => ?_)
  · have h15 : t.val = 15 := by
      have h := (flush4_6 t).mp hf
      have := t.isLt
      omega
    show (cfg4.win 6).cut (grid4.coords t) ((dat4 (F := Ideal) V c).after 6 t) = _
    rw [after4_6, outsAt4_up V c adj zg h_adj h_zg t.val t.isLt, h15, accum_shareOf]
    rfl
  · have h15 : 15 < cfg4.N := by omega
    obtain ⟨-, -, -, -, -, -, -, -, -, -, -, -, e0, e1⟩ := idxmaps4 ⟨15, h15⟩
    refine ⟨⟨15, h15⟩, (flush4_6 _).mpr rfl, ?_⟩
    show i ∈ ((View.whole main_v10_2).slice (win4_6.rect ⟨15, h15⟩)).set
    rw [View.set_slice_whole, Rect.mem_set_unit]
    exact whole_mem i rfl rfl e0 e1

end Cert.KernelIdeal.Val

end
-- ==== Proof.Value.Region5.lean ====
import proofs.«156812_g12472585028273_cont_sun_m_131_10_alg».proof.Proof.Ideal.Region5
import proofs.«156812_g12472585028273_cont_sun_m_131_10_alg».proof.Proof.Real.MatMul
import proofs.«156812_g12472585028273_cont_sun_m_131_10_alg».proof.Proof.Value.AttendOps
import proofs.«156812_g12472585028273_cont_sun_m_131_10_alg».proof.Proof.Value.Blocks

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)
open Cert.Net Cert.Lift
open scoped BigOperators

variable (V : (c : Dev nD) → (b : Ref sig .tc) → Buf (Elt Ideal) ((c : Thread nD τ).loc b))

theorem k5pay2_up (l0 l1 l2 : ℝ) :
    k5_pay2 (F := Ideal) (up2 (cellOf l0)) (up2 (cellOf l1)) (up2 (cellOf l2)) = up2 (cellOf (lossK l0 l1 l2)) := by
  unfold k5_pay2
  simp only [shapeCast_self]
  rw [up2_eq_up, up2_eq_up, up2_eq_up, addf_up, addf_up, broadcast_inv_2p24_up, mulf_up]
  rfl

theorem k5pay5_up (z : Mat 4096 16) :
    k5_pay5 (F := Ideal) (up2 z)
      = shapeCast S4096x1 (up (fun j : S4096.Idx => ∑ e : Fin 16, z (j 0) e * z (j 0) e)) shapeCasts_S4096_S4096x1 := by
  unfold k5_pay5 k5_pay4
  simp only [shapeCast_self]
  rw [up2_eq_up, mulf_up]
  erw [multiReduction_add_single_up]
  rfl

theorem k5pay6_up (cl : Mat 10 16) :
    k5_pay6 (F := Ideal) (up2 cl)
      = shapeCast S10x1 (up (fun j : S10.Idx => ∑ e : Fin 16, cl (j 0) e * cl (j 0) e)) shapeCasts_S10_S10x1 := by
  unfold k5_pay6
  dsimp only
  rw [up2_eq_up, mulf_up]
  erw [multiReduction_add_single_up]
  rfl

theorem k5pay7_up (z : Mat 4096 16) (cl : Mat 10 16) :
    k5_pay7 (F := Ideal) (up2 cl) (up2 z)
      = up (fun i : S4096x10.Idx => 2 * ∑ e : Fin 16, z (i 0) e * cl (i 1) e) := by
  unfold k5_pay7 k5_pay4
  simp only [shapeCast_self]
  rw [matmulT_zero_up2 dot_S4096x16_S10x16_S4096x10_1_1_0_0_n_n _ rfl rfl rfl rfl rfl rfl z cl, up2_eq_up, broadcast_two_up, mulf_up]
  rfl

/-- The Student kernel's denominator is at least one and a row's sum of kernels is positive, so both divisions are real. -/
theorem assign5_up (z : Mat 4096 16) (cl : Mat 10 16) :
    k5_pay1 (F := Ideal) (k5_pay5 (up2 z)) (k5_pay6 (up2 cl)) (k5_pay7 (up2 cl) (up2 z)) = up2 (assignK z cl) := by
  rw [k5pay5_up, k5pay6_up, k5pay7_up]
  unfold k5_pay1
  dsimp only
  rw [Att.castCol, Att.bcastCol, subf_up, Att.castCol, Att.transposeCol, Att.bcastRow, addf_up, broadcast_one_up]
  rw [divf_up _ _ (fun _ => one_ne_zero)]
  rw [addf_up]
  rw [divf_up]
  swap
  · intro i
    obtain ⟨p, q, rfl⟩ : ∃ (p : Fin 4096) (q : Fin 10), i = ix2 p q := ⟨i 0, i 1, eq_ix2 i⟩
    exact (kernK_den_pos z cl p q).ne'
  erw [multiReduction_add_single_up]
  rw [Att.castCol, Att.bcastCol]
  rw [divf_up]
  swap
  · intro i
    obtain ⟨p, q, rfl⟩ : ∃ (p : Fin 4096) (q : Fin 10), i = ix2 p q := ⟨i 0, i 1, eq_ix2 i⟩
    exact (kernK_rowSum_pos z cl p).ne'
  refine (up_eq_up2 _).trans (congrArg up2 (funext fun p => funext fun q => ?_))
  rfl

theorem k5pay3_eq (v0 : Vec Ideal S10x16 .f32) (v1 : Vec Ideal S4096x16 .f32) :
    k5_pay3 v0 v1 = k5_pay1 (k5_pay5 v1) (k5_pay6 v0) (k5_pay7 v0 v1) := rfl

theorem read5_6 (t : Fin cfg5.N) (G : S4096x10.Idx → EReal) : ((cfg5.win 6).blk t).view.read (Elt Ideal) G = G :=
  read_whole G (e := ((cfg5.win 6).blk t).view.emb) rfl rfl (fun _ => rfl) (fun _ => rfl)
theorem read5_7 (t : Fin cfg5.N) (G : S4096x10.Idx → EReal) : ((cfg5.win 7).blk t).view.read (Elt Ideal) G = G :=
  read_whole G (e := ((cfg5.win 7).blk t).view.emb) rfl rfl (fun _ => rfl) (fun _ => rfl)
theorem read5_8 (t : Fin cfg5.N) (G : S1x1.Idx → EReal) : ((cfg5.win 8).blk t).view.read (Elt Ideal) G = G :=
  read_whole G (e := ((cfg5.win 8).blk t).view.emb) rfl rfl (fun _ => rfl) (fun _ => rfl)

theorem mem5_6 (t : Fin cfg5.N) (i : S4096x10.Idx) : i ∈ ((cfg5.win 6).blk t).view.set :=
  emb_whole (e := ((cfg5.win 6).blk t).view.emb) rfl rfl (fun _ => rfl) (fun _ => rfl) i ▸ ((cfg5.win 6).blk t).view.emb_mem_set i
theorem mem5_7 (t : Fin cfg5.N) (i : S4096x10.Idx) : i ∈ ((cfg5.win 7).blk t).view.set :=
  emb_whole (e := ((cfg5.win 7).blk t).view.emb) rfl rfl (fun _ => rfl) (fun _ => rfl) i ▸ ((cfg5.win 7).blk t).view.emb_mem_set i
theorem mem5_8 (t : Fin cfg5.N) (i : S1x1.Idx) : i ∈ ((cfg5.win 8).blk t).view.set :=
  emb_whole (e := ((cfg5.win 8).blk t).view.emb) rfl rfl (fun _ => rfl) (fun _ => rfl) i ▸ ((cfg5.win 8).blk t).view.emb_mem_set i

theorem iblk5_0_eq (c : Dev nD) (t : Fin cfg5.N) : iblk5 V c 0 t = (V c main_v10_1 : S4096x16.Idx → EReal) :=
  read_whole (V c main_v10_1 : S4096x16.Idx → EReal) (e := ((cfg5.win 0).blk t).view.emb) rfl rfl (fun _ => rfl) (fun _ => rfl)
theorem iblk5_1_eq (c : Dev nD) (t : Fin cfg5.N) : iblk5 V c 1 t = (V c main_v6_1 : S4096x16.Idx → EReal) :=
  read_whole (V c main_v6_1 : S4096x16.Idx → EReal) (e := ((cfg5.win 1).blk t).view.emb) rfl rfl (fun _ => rfl) (fun _ => rfl)
theorem iblk5_2_eq (c : Dev nD) (t : Fin cfg5.N) : iblk5 V c 2 t = (V c main_arg23 : S10x16.Idx → EReal) :=
  read_whole (V c main_arg23 : S10x16.Idx → EReal) (e := ((cfg5.win 2).blk t).view.emb) rfl rfl (fun _ => rfl) (fun _ => rfl)
theorem iblk5_3_eq (c : Dev nD) (t : Fin cfg5.N) : iblk5 V c 3 t = (V c main_v8_2 : S1x1.Idx → EReal) :=
  read_whole (V c main_v8_2 : S1x1.Idx → EReal) (e := ((cfg5.win 3).blk t).view.emb) rfl rfl (fun _ => rfl) (fun _ => rfl)
theorem iblk5_4_eq (c : Dev nD) (t : Fin cfg5.N) : iblk5 V c 4 t = (V c main_v9_2 : S1x1.Idx → EReal) :=
  read_whole (V c main_v9_2 : S1x1.Idx → EReal) (e := ((cfg5.win 4).blk t).view.emb) rfl rfl (fun _ => rfl) (fun _ => rfl)
theorem iblk5_5_eq (c : Dev nD) (t : Fin cfg5.N) : iblk5 V c 5 t = (V c main_v10_2 : S1x1.Idx → EReal) :=
  read_whole (V c main_v10_2 : S1x1.Idx → EReal) (e := ((cfg5.win 5).blk t).view.emb) rfl rfl (fun _ => rfl) (fun _ => rfl)

theorem arrAt5_6 (c : Dev nD) (zl : Mat 4096 16) (cl : Mat 10 16)
    (h_zl : (V c main_v10_1 : S4096x16.Idx → EReal) = up2 zl) (h_cl : (V c main_arg23 : S10x16.Idx → EReal) = up2 cl) :
    (dat5 (F := Ideal) V c).arrAt 6 cfg5.N = up2 (assignK zl cl) := by
  refine (dat5 V c).arrAt_eq_of_cover 6 _ (fun t _ => ?_) (fun i => ⟨t5_0, flush5_6 _, mem5_6 _ i⟩)
  show (cfg5.win 6).cut (grid5.coords t) ((dat5 V c).after 6 t) = _
  rw [after5_6, read5_6]
  unfold out5_6
  rw [View.canon_unit_zero hz]
  simp only [View.ld_unit_zero (S := S10x16) hz, View.ld_unit_zero (S := S4096x16) hz]
  rw [iblk5_0_eq, iblk5_2_eq, h_zl, h_cl]
  exact (k5pay3_eq _ _).trans (assign5_up zl cl)

theorem arrAt5_7 (c : Dev nD) (zae : Mat 4096 16) (cl : Mat 10 16)
    (h_zae : (V c main_v6_1 : S4096x16.Idx → EReal) = up2 zae) (h_cl : (V c main_arg23 : S10x16.Idx → EReal) = up2 cl) :
    (dat5 (F := Ideal) V c).arrAt 7 cfg5.N = up2 (assignK zae cl) := by
  refine (dat5 V c).arrAt_eq_of_cover 7 _ (fun t _ => ?_) (fun i => ⟨t5_0, flush5_7 _, mem5_7 _ i⟩)
  show (cfg5.win 7).cut (grid5.coords t) ((dat5 V c).after 7 t) = _
  rw [after5_7, read5_7]
  unfold out5_7
  rw [View.canon_unit_zero hz]
  simp only [View.ld_unit_zero (S := S10x16) hz, View.ld_unit_zero (S := S4096x16) hz]
  rw [iblk5_1_eq, iblk5_2_eq, h_zae, h_cl]
  exact assign5_up zae cl

theorem arrAt5_8 (c : Dev nD) (l0 l1 l2 : ℝ)
    (h_l0 : (V c main_v8_2 : S1x1.Idx → EReal) = up2 (cellOf l0)) (h_l1 : (V c main_v9_2 : S1x1.Idx → EReal) = up2 (cellOf l1))
    (h_l2 : (V c main_v10_2 : S1x1.Idx → EReal) = up2 (cellOf l2)) :
    (dat5 (F := Ideal) V c).arrAt 8 cfg5.N = up2 (cellOf (lossK l0 l1 l2)) := by
  refine (dat5 V c).arrAt_eq_of_cover 8 _ (fun t _ => ?_) (fun i => ⟨t5_0, flush5_8 _, mem5_8 _ i⟩)
  show (cfg5.win 8).cut (grid5.coords t) ((dat5 V c).after 8 t) = _
  rw [after5_8, read5_8]
  unfold out5_8
  rw [View.canon_unit_zero hz]
  simp only [View.ld_unit_zero (S := S1x1) hz]
  rw [iblk5_3_eq, iblk5_4_eq, iblk5_5_eq, h_l0, h_l1, h_l2]
  exact k5pay2_up l0 l1 l2

end Cert.KernelIdeal.Val

end
-- ==== Proof.Real.Net.lean ====
import proofs.«156812_g12472585028273_cont_sun_m_131_10_alg».proof.Proof.Real.Spec

namespace Cert.Net

structure Inputs where
  x : Mat 4096 512
  adj : Mat 4096 4096
  We1 : Mat 512 256
  be1 : Fin 256 → ℝ
  We2 : Mat 256 128
  be2 : Fin 128 → ℝ
  Wz : Mat 128 16
  bz : Fin 16 → ℝ
  Wd1 : Mat 16 128
  bd1 : Fin 128 → ℝ
  Wd2 : Mat 128 256
  bd2 : Fin 256 → ℝ
  Wxb : Mat 256 512
  bxb : Fin 512 → ℝ
  Wg1 : Mat 512 256
  as1 : Fin 256 → ℝ
  an1 : Fin 256 → ℝ
  Wg2 : Mat 256 128
  as2 : Fin 128 → ℝ
  an2 : Fin 128 → ℝ
  Wg3 : Mat 128 16
  as3 : Fin 16 → ℝ
  an3 : Fin 16 → ℝ
  cl : Mat 10 16

noncomputable def encH1 (I : Inputs) : Mat 4096 256 := reluM (addRow (mm I.x I.We1) I.be1)

noncomputable def encH2 (I : Inputs) : Mat 4096 128 := reluM (addRow (mm (encH1 I) I.We2) I.be2)

noncomputable def zAe (I : Inputs) : Mat 4096 16 := addRow (mm (encH2 I) I.Wz) I.bz

noncomputable def decH1 (I : Inputs) : Mat 4096 128 := reluM (addRow (mm (zAe I) I.Wd1) I.bd1)

noncomputable def decH2 (I : Inputs) : Mat 4096 256 := reluM (addRow (mm (decH1 I) I.Wd2) I.bd2)

noncomputable def xBar (I : Inputs) : Mat 4096 512 := addRow (mm (decH2 I) I.Wxb) I.bxb

def h1 (I : Inputs) : Mat 4096 256 := mm I.x I.Wg1

noncomputable def g1K (a neg : ℝ) (I : Inputs) : Mat 4096 256 :=
  attendK (scores a neg (h1 I) I.as1 I.an1 I.adj) (h1 I)

noncomputable def h2K (a neg : ℝ) (I : Inputs) : Mat 4096 128 :=
  mm (mixM (g1K a neg I) (encH1 I)) I.Wg2

noncomputable def g2K (a neg : ℝ) (I : Inputs) : Mat 4096 128 :=
  attendK (scores a neg (h2K a neg I) I.as2 I.an2 I.adj) (h2K a neg I)

noncomputable def h3K (a neg : ℝ) (I : Inputs) : Mat 4096 16 :=
  mm (mixM (g2K a neg I) (encH2 I)) I.Wg3

noncomputable def zgK (a neg : ℝ) (I : Inputs) : Mat 4096 16 :=
  attendK (scores a neg (h3K a neg I) I.as3 I.an3 I.adj) (h3K a neg I)

noncomputable def ziK (a neg : ℝ) (I : Inputs) : Mat 4096 16 := mixM (zgK a neg I) (zAe I)

noncomputable def zlK (a neg : ℝ) (I : Inputs) : Mat 4096 16 := mm I.adj (ziK a neg I)

noncomputable def ahatK (a neg : ℝ) (I : Inputs) : Mat 4096 4096 :=
  fun i j => sigm (∑ l, zgK a neg I i l * zgK a neg I j l)

noncomputable def qK (a neg : ℝ) (I : Inputs) : Mat 4096 10 := assignK (zlK a neg I) I.cl

noncomputable def q1K (I : Inputs) : Mat 4096 10 := assignK (zAe I) I.cl

noncomputable def totK (a neg : ℝ) (I : Inputs) : ℝ :=
  lossK (sqErr (g1K a neg I) I.adj) (sqErr (g2K a neg I) I.adj) (sqErr (zgK a neg I) I.adj)

noncomputable def g1R (a neg : ℝ) (I : Inputs) : Mat 4096 256 :=
  attendR (scores a neg (h1 I) I.as1 I.an1 I.adj) (h1 I)

noncomputable def h2R (a neg : ℝ) (I : Inputs) : Mat 4096 128 :=
  mm (mixM (g1R a neg I) (encH1 I)) I.Wg2

noncomputable def g2R (a neg : ℝ) (I : Inputs) : Mat 4096 128 :=
  attendR (scores a neg (h2R a neg I) I.as2 I.an2 I.adj) (h2R a neg I)

noncomputable def h3R (a neg : ℝ) (I : Inputs) : Mat 4096 16 :=
  mm (mixM (g2R a neg I) (encH2 I)) I.Wg3

noncomputable def zgR (a neg : ℝ) (I : Inputs) : Mat 4096 16 :=
  attendR (scores a neg (h3R a neg I) I.as3 I.an3 I.adj) (h3R a neg I)

noncomputable def ziR (a neg : ℝ) (I : Inputs) : Mat 4096 16 := mixM (zgR a neg I) (zAe I)

noncomputable def zlR (a neg : ℝ) (I : Inputs) : Mat 4096 16 := mm I.adj (ziR a neg I)

noncomputable def ahatR (a neg : ℝ) (I : Inputs) : Mat 4096 4096 :=
  fun i j => sigm (∑ l, zgR a neg I i l * zgR a neg I j l)

noncomputable def qR (a neg : ℝ) (I : Inputs) : Mat 4096 10 := assignR (zlR a neg I) I.cl

noncomputable def q1R (I : Inputs) : Mat 4096 10 := assignR (zAe I) I.cl

noncomputable def totR (a neg : ℝ) (I : Inputs) : ℝ :=
  lossR (sqErr (g1R a neg I) I.adj) (sqErr (g2R a neg I) I.adj) (sqErr (zgR a neg I) I.adj)

theorem g1_eq (a neg : ℝ) (I : Inputs) : g1K a neg I = g1R a neg I :=
  attend_eq _ _

theorem h2_eq (a neg : ℝ) (I : Inputs) : h2K a neg I = h2R a neg I := by
  unfold h2K h2R
  rw [g1_eq]

theorem g2_eq (a neg : ℝ) (I : Inputs) : g2K a neg I = g2R a neg I := by
  unfold g2K g2R
  rw [h2_eq]
  exact attend_eq _ _

theorem h3_eq (a neg : ℝ) (I : Inputs) : h3K a neg I = h3R a neg I := by
  unfold h3K h3R
  rw [g2_eq]

theorem zg_eq (a neg : ℝ) (I : Inputs) : zgK a neg I = zgR a neg I := by
  unfold zgK zgR
  rw [h3_eq]
  exact attend_eq _ _

theorem zi_eq (a neg : ℝ) (I : Inputs) : ziK a neg I = ziR a neg I := by
  unfold ziK ziR
  rw [zg_eq]

theorem ahat_eq (a neg : ℝ) (I : Inputs) : ahatK a neg I = ahatR a neg I := by
  unfold ahatK ahatR
  rw [zg_eq]

theorem zl_eq (a neg : ℝ) (I : Inputs) : zlK a neg I = zlR a neg I := by
  unfold zlK zlR
  rw [zi_eq]

theorem q_eq (a neg : ℝ) (I : Inputs) : qK a neg I = qR a neg I := by
  unfold qK qR
  rw [zl_eq]
  exact assign_eq _ _

theorem q1_eq (I : Inputs) : q1K I = q1R I :=
  assign_eq _ _

theorem tot_eq (a neg : ℝ) (I : Inputs) : totK a neg I = totR a neg I := by
  unfold totK totR
  rw [g1_eq, g2_eq, zg_eq]
  exact loss_eq _ _ _

end Cert.Net
-- ==== Proof.Value.Kernel.lean ====
import proofs.«156812_g12472585028273_cont_sun_m_131_10_alg».proof.Proof.Ideal.Chain
import proofs.«156812_g12472585028273_cont_sun_m_131_10_alg».proof.Proof.Value.HostEnds
import proofs.«156812_g12472585028273_cont_sun_m_131_10_alg».proof.Proof.Value.Region0
import proofs.«156812_g12472585028273_cont_sun_m_131_10_alg».proof.Proof.Value.Region1
import proofs.«156812_g12472585028273_cont_sun_m_131_10_alg».proof.Proof.Value.Region2
import proofs.«156812_g12472585028273_cont_sun_m_131_10_alg».proof.Proof.Value.Region3Rows
import proofs.«156812_g12472585028273_cont_sun_m_131_10_alg».proof.Proof.Value.Region3Cell
import proofs.«156812_g12472585028273_cont_sun_m_131_10_alg».proof.Proof.Value.Region4
import proofs.«156812_g12472585028273_cont_sun_m_131_10_alg».proof.Proof.Value.Region5
import proofs.«156812_g12472585028273_cont_sun_m_131_10_alg».proof.Proof.Real.Net
import proofs.«156812_g12472585028273_cont_sun_m_131_10_alg».proof.Proof.Real.Arr

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.Net
open scoped BigOperators

variable (m : (ℓ : Loc nD τ sig) → Buf (Elt Ideal) ℓ) (ρ : Dev nD → PrngReg) (I : Dev nD → Inputs)
  (hI : ∀ c : Dev nD,
      (m ((c.tc : Thread nD τ).loc main_arg0) : S4096x512.Idx → EReal) = up2 (I c).x
      ∧ (m ((c.tc : Thread nD τ).loc main_arg1) : S4096x4096.Idx → EReal) = up2 (I c).adj
      ∧ (m ((c.tc : Thread nD τ).loc main_arg2) : S512x256.Idx → EReal) = up2 (I c).We1
      ∧ (m ((c.tc : Thread nD τ).loc main_arg3) : S256.Idx → EReal) = up1 (I c).be1
      ∧ (m ((c.tc : Thread nD τ).loc main_arg4) : S256x128.Idx → EReal) = up2 (I c).We2
      ∧ (m ((c.tc : Thread nD τ).loc main_arg5) : S128.Idx → EReal) = up1 (I c).be2
      ∧ (m ((c.tc : Thread nD τ).loc main_arg6) : S128x16.Idx → EReal) = up2 (I c).Wz
      ∧ (m ((c.tc : Thread nD τ).loc main_arg7) : S16.Idx → EReal) = up1 (I c).bz
      ∧ (m ((c.tc : Thread nD τ).loc main_arg8) : S16x128.Idx → EReal) = up2 (I c).Wd1
      ∧ (m ((c.tc : Thread nD τ).loc main_arg9) : S128.Idx → EReal) = up1 (I c).bd1
      ∧ (m ((c.tc : Thread nD τ).loc main_arg10) : S128x256.Idx → EReal) = up2 (I c).Wd2
      ∧ (m ((c.tc : Thread nD τ).loc main_arg11) : S256.Idx → EReal) = up1 (I c).bd2
      ∧ (m ((c.tc : Thread nD τ).loc main_arg12) : S256x512.Idx → EReal) = up2 (I c).Wxb
      ∧ (m ((c.tc : Thread nD τ).loc main_arg13) : S512.Idx → EReal) = up1 (I c).bxb
      ∧ (m ((c.tc : Thread nD τ).loc main_arg14) : S512x256.Idx → EReal) = up2 (I c).Wg1
      ∧ (m ((c.tc : Thread nD τ).loc main_arg15) : S256x1.Idx → EReal) = up2 (colOf (I c).as1)
      ∧ (m ((c.tc : Thread nD τ).loc main_arg16) : S256x1.Idx → EReal) = up2 (colOf (I c).an1)
      ∧ (m ((c.tc : Thread nD τ).loc main_arg17) : S256x128.Idx → EReal) = up2 (I c).Wg2
      ∧ (m ((c.tc : Thread nD τ).loc main_arg18) : S128x1.Idx → EReal) = up2 (colOf (I c).as2)
      ∧ (m ((c.tc : Thread nD τ).loc main_arg19) : S128x1.Idx → EReal) = up2 (colOf (I c).an2)
      ∧ (m ((c.tc : Thread nD τ).loc main_arg20) : S128x16.Idx → EReal) = up2 (I c).Wg3
      ∧ (m ((c.tc : Thread nD τ).loc main_arg21) : S16x1.Idx → EReal) = up2 (colOf (I c).as3)
      ∧ (m ((c.tc : Thread nD τ).loc main_arg22) : S16x1.Idx → EReal) = up2 (colOf (I c).an3)
      ∧ (m ((c.tc : Thread nD τ).loc main_arg23) : S10x16.Idx → EReal) = up2 (I c).cl)
include hI

/-- Regions 0 and 1: their inputs are arguments and biases reshaped to one row, then region 0's outputs. -/
theorem values01 (c : Dev nD) :
    ((Rg.dat0 (F := Ideal) (Rg.V1 m ρ) c).arrAt 14 cfg0.N : S4096x512.Idx → EReal) = up2 (xBar (I c))
    ∧ ((Rg.dat0 (F := Ideal) (Rg.V1 m ρ) c).arrAt 15 cfg0.N : S4096x16.Idx → EReal) = up2 (zAe (I c))
    ∧ ((Rg.dat0 (F := Ideal) (Rg.V1 m ρ) c).arrAt 17 cfg0.N : S4096x128.Idx → EReal) = up2 (encH2 (I c))
    ∧ ((Rg.dat1 (F := Ideal) (Rg.V2 m ρ) c).arrAt 6 cfg1.N : S4096x256.Idx → EReal) = up2 (g1K slope negBig (I c))
    ∧ ((Rg.dat1 (F := Ideal) (Rg.V2 m ρ) c).arrAt 7 cfg1.N : S4096x128.Idx → EReal) = up2 (h2K slope negBig (I c)) := by
  obtain ⟨a0, a1, a2, a3, a4, a5, a6, a7, a8, a9, a10, a11, a12, a13, a14, a15, a16, a17, a18, a19, a20, a21, a22, a23⟩ := hI c
  have x0 := (Rg.V1_main_arg0 m ρ c).trans a0
  have w1 := (Rg.V1_main_arg2 m ρ c).trans a2
  have b1 := (Rg.V1_main_v0 m ρ c).trans (shapeCast_up1_row _ a3 _)
  have w2 := (Rg.V1_main_arg4 m ρ c).trans a4
  have b2 := (Rg.V1_main_v1 m ρ c).trans (shapeCast_up1_row _ a5 _)
  have w3 := (Rg.V1_main_arg6 m ρ c).trans a6
  have b3 := (Rg.V1_main_v2 m ρ c).trans (shapeCast_up1_row _ a7 _)
  have o18 : _ = up2 (h1 (I c)) := arrAt0_18 _ _ (Rg.V1 m ρ) c x0 ((Rg.V1_main_arg14 m ρ c).trans a14)
  have o16 : _ = up2 (encH1 (I c)) := arrAt0_16 _ _ _ (Rg.V1 m ρ) c x0 w1 b1
  have j1 := (Rg.V2_main_arg1 m ρ c).trans a1
  have j2 := (Rg.V2_main_v6_4 m ρ c).trans o18
  have j3 := (Rg.V2_main_arg15 m ρ c).trans a15
  have j4 := (Rg.V2_main_arg16 m ρ c).trans a16
  exact ⟨arrAt0_14 _ _ _ _ _ _ _ _ _ _ _ _ _ (Rg.V1 m ρ) c x0 w1 b1 w2 b2 w3 b3
      ((Rg.V1_main_arg8 m ρ c).trans a8) ((Rg.V1_main_v3 m ρ c).trans (shapeCast_up1_row _ a9 _))
      ((Rg.V1_main_arg10 m ρ c).trans a10) ((Rg.V1_main_v4 m ρ c).trans (shapeCast_up1_row _ a11 _))
      ((Rg.V1_main_arg12 m ρ c).trans a12) ((Rg.V1_main_v5 m ρ c).trans (shapeCast_up1_row _ a13 _)),
    arrAt0_15 _ _ _ _ _ _ _ (Rg.V1 m ρ) c x0 w1 b1 w2 b2 w3 b3,
    arrAt0_17 _ _ _ _ _ (Rg.V1 m ρ) c x0 w1 b1 w2 b2,
    value1_6 (Rg.V2 m ρ) c _ _ _ _ j1 j2 j3 j4,
    value1_7 (Rg.V2 m ρ) c _ _ _ _ j1 j2 j3 j4 _ _ ((Rg.V2_main_v6_2 m ρ c).trans o16) ((Rg.V2_main_arg17 m ρ c).trans a17)⟩

/-- Regions 2 and 3, on the outputs of regions 0 and 1. -/
theorem values23 (c : Dev nD) :
    ((Rg.dat2 (F := Ideal) (Rg.V3 m ρ) c).arrAt 10 cfg2.N : S1x1.Idx → EReal) = up2 (cellOf (sqErr (g1K slope negBig (I c)) (I c).adj))
    ∧ ((Rg.dat3 (F := Ideal) (Rg.V4 m ρ) c).arrAt 7 cfg3.N : S4096x16.Idx → EReal) = up2 (zgK slope negBig (I c))
    ∧ ((Rg.dat3 (F := Ideal) (Rg.V4 m ρ) c).arrAt 8 cfg3.N : S4096x16.Idx → EReal) = up2 (ziK slope negBig (I c))
    ∧ ((Rg.dat3 (F := Ideal) (Rg.V4 m ρ) c).arrAt 9 cfg3.N : S1x1.Idx → EReal) = up2 (cellOf (sqErr (g2K slope negBig (I c)) (I c).adj)) := by
  obtain ⟨a0, a1, a2, a3, a4, a5, a6, a7, a8, a9, a10, a11, a12, a13, a14, a15, a16, a17, a18, a19, a20, a21, a22, a23⟩ := hI c
  obtain ⟨-, o15, o17, p6, p7⟩ := values01 m ρ I hI c
  have k1 := (Rg.V3_main_arg1 m ρ c).trans a1
  have k2 := (Rg.V3_main_v7_1 m ρ c).trans p7
  have k3 := (Rg.V3_main_arg18 m ρ c).trans a18
  have k4 := (Rg.V3_main_arg19 m ρ c).trans a19
  have q8 : _ = up2 (g2K slope negBig (I c)) := arrAt2_8 (Rg.V3 m ρ) c (I c).adj (h2K slope negBig (I c)) (I c).as2 (I c).an2 k1 k2 k3 k4
  have q9 : _ = up2 (h3K slope negBig (I c)) := arrAt2_9 (Rg.V3 m ρ) c (I c).adj (h2K slope negBig (I c)) (I c).as2 (I c).an2 (encH2 (I c)) (I c).Wg3 k1 k2 k3 k4
    ((Rg.V3_main_v6_3 m ρ c).trans o17) ((Rg.V3_main_arg20 m ρ c).trans a20)
  have l1 := (Rg.V4_main_arg1 m ρ c).trans a1
  have l2 := (Rg.V4_main_v8_0 m ρ c).trans q8
  have l3 := (Rg.V4_main_v8_1 m ρ c).trans q9
  have l4 := (Rg.V4_main_arg21 m ρ c).trans a21
  have l5 := (Rg.V4_main_arg22 m ρ c).trans a22
  have l6 := (Rg.V4_main_v6_1 m ρ c).trans o15
  exact ⟨arrAt2_10 (Rg.V3 m ρ) c (I c).adj (g1K slope negBig (I c)) k1 ((Rg.V3_main_v7_0 m ρ c).trans p6),
    value3_7 (Rg.V4 m ρ) c (I c).adj (g2K slope negBig (I c)) (h3K slope negBig (I c)) (I c).as3 (I c).an3 (zAe (I c)) l1 l2 l3 l4 l5 l6,
    value3_8 (Rg.V4 m ρ) c (I c).adj (g2K slope negBig (I c)) (h3K slope negBig (I c)) (I c).as3 (I c).an3 (zAe (I c)) l1 l2 l3 l4 l5 l6,
    value3_9 (Rg.V4 m ρ) c (I c).adj (g2K slope negBig (I c)) (h3K slope negBig (I c)) (I c).as3 (I c).an3 (zAe (I c)) l1 l2 l3 l4 l5 l6⟩

/-- Region 4, on the outputs of region 3. -/
theorem values4 (c : Dev nD) :
    ((Rg.dat4 (F := Ideal) (Rg.V5 m ρ) c).arrAt 4 cfg4.N : S4096x4096.Idx → EReal) = up2 (ahatK slope negBig (I c))
    ∧ ((Rg.dat4 (F := Ideal) (Rg.V5 m ρ) c).arrAt 5 cfg4.N : S4096x16.Idx → EReal) = up2 (zlK slope negBig (I c))
    ∧ ((Rg.dat4 (F := Ideal) (Rg.V5 m ρ) c).arrAt 6 cfg4.N : S1x1.Idx → EReal) = up2 (cellOf (sqErr (zgK slope negBig (I c)) (I c).adj)) := by
  obtain ⟨-, s7, s8, -⟩ := values23 m ρ I hI c
  have u1 := (Rg.V5_main_arg1 m ρ c).trans (hI c).2.1
  have u2 := (Rg.V5_main_v9_0 m ρ c).trans s7
  exact ⟨arrAt4_4 (Rg.V5 m ρ) c (zgK slope negBig (I c)) u2,
    arrAt4_5 (Rg.V5 m ρ) c (I c).adj (ziK slope negBig (I c)) u1 ((Rg.V5_main_v9_1 m ρ c).trans s8),
    arrAt4_6 (Rg.V5 m ρ) c (I c).adj (zgK slope negBig (I c)) u1 u2⟩

/-- Region 5, on the outputs of regions 0, 2, 3 and 4. -/
theorem values5 (c : Dev nD) :
    ((Rg.dat5 (F := Ideal) (Rg.V6 m ρ) c).arrAt 6 cfg5.N : S4096x10.Idx → EReal) = up2 (qK slope negBig (I c))
    ∧ ((Rg.dat5 (F := Ideal) (Rg.V6 m ρ) c).arrAt 7 cfg5.N : S4096x10.Idx → EReal) = up2 (q1K (I c))
    ∧ ((Rg.dat5 (F := Ideal) (Rg.V6 m ρ) c).arrAt 8 cfg5.N : S1x1.Idx → EReal) = up2 (cellOf (totK slope negBig (I c))) := by
  obtain ⟨q10, -, -, s9⟩ := values23 m ρ I hI c
  obtain ⟨-, t5, t6⟩ := values4 m ρ I hI c
  have v1 := (Rg.V6_main_arg23 m ρ c).trans (hI c).2.2.2.2.2.2.2.2.2.2.2.2.2.2.2.2.2.2.2.2.2.2.2
  exact ⟨arrAt5_6 (Rg.V6 m ρ) c (zlK slope negBig (I c)) (I c).cl ((Rg.V6_main_v10_1 m ρ c).trans t5) v1,
    arrAt5_7 (Rg.V6 m ρ) c (zAe (I c)) (I c).cl ((Rg.V6_main_v6_1 m ρ c).trans (values01 m ρ I hI c).2.1) v1,
    arrAt5_8 (Rg.V6 m ρ) c (sqErr (g1K slope negBig (I c)) (I c).adj) (sqErr (g2K slope negBig (I c)) (I c).adj) (sqErr (zgK slope negBig (I c)) (I c).adj)
      ((Rg.V6_main_v8_2 m ρ c).trans q10) ((Rg.V6_main_v9_2 m ρ c).trans s9) ((Rg.V6_main_v10_2 m ρ c).trans t6)⟩

/-- The seven results and the arguments, read off the last boundary of the run. -/
theorem kernel_values :
    θ_run defs (onTc (τ := τ) (main (F := Ideal))) ⟨m, fun _ => 0, ρ⟩ (fun r => ∀ c : Dev nD,
      (r.2.mem ((c.tc : Thread nD τ).loc main_v6_0) : S4096x512.Idx → EReal) = up2 (xBar (I c))
      ∧ (r.2.mem ((c.tc : Thread nD τ).loc main_v10_0) : S4096x4096.Idx → EReal) = up2 (ahatK slope negBig (I c))
      ∧ (r.2.mem ((c.tc : Thread nD τ).loc main_v6_1) : S4096x16.Idx → EReal) = up2 (zAe (I c))
      ∧ (r.2.mem ((c.tc : Thread nD τ).loc main_v11_0) : S4096x10.Idx → EReal) = up2 (qK slope negBig (I c))
      ∧ (r.2.mem ((c.tc : Thread nD τ).loc main_v11_1) : S4096x10.Idx → EReal) = up2 (q1K (I c))
      ∧ (r.2.mem ((c.tc : Thread nD τ).loc main_v10_1) : S4096x16.Idx → EReal) = up2 (zlK slope negBig (I c))
      ∧ (r.2.mem ((c.tc : Thread nD τ).loc main_v12) : S_.Idx → EReal) = up0 (totK slope negBig (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ (Rg.mem_uc main_v6_0 (by decide))).trans ((Rg.W8_result0 m ρ c).trans (values01 m ρ I hI c).1),
     (h c _ (Rg.mem_uc main_v10_0 (by decide))).trans ((Rg.W8_result1 m ρ c).trans (values4 m ρ I hI c).1),
     (h c _ (Rg.mem_uc main_v6_1 (by decide))).trans ((Rg.W8_result2 m ρ c).trans (values01 m ρ I hI c).2.1),
     (h c _ (Rg.mem_uc main_v11_0 (by decide))).trans ((Rg.W8_result3 m ρ c).trans (values5 m ρ I hI c).1),
     (h c _ (Rg.mem_uc main_v11_1 (by decide))).trans ((Rg.W8_result4 m ρ c).trans (values5 m ρ I hI c).2.1),
     (h c _ (Rg.mem_uc main_v10_1 (by decide))).trans ((Rg.W8_result5 m ρ c).trans (values4 m ρ I hI c).2.1),
     (h c _ (Rg.mem_uc main_v12 (by decide))).trans ((Rg.W8_result6 m ρ c).trans (shapeCast_up2_cell _ (values5 m ρ I hI c).2.2 _)),
     (h c _ (Rg.mem_uc main_arg0 (by decide))).trans (Rg.W8_main_arg0 m ρ c),
     (h c _ (Rg.mem_uc main_arg1 (by decide))).trans (Rg.W8_main_arg1 m ρ c),
     (h c _ (Rg.mem_uc main_arg2 (by decide))).trans (Rg.W8_main_arg2 m ρ c),
     (h c _ (Rg.mem_uc main_arg3 (by decide))).trans (Rg.W8_main_arg3 m ρ c),
     (h c _ (Rg.mem_uc main_arg4 (by decide))).trans (Rg.W8_main_arg4 m ρ c),
     (h c _ (Rg.mem_uc main_arg5 (by decide))).trans (Rg.W8_main_arg5 m ρ c),
     (h c _ (Rg.mem_uc main_arg6 (by decide))).trans (Rg.W8_main_arg6 m ρ c),
     (h c _ (Rg.mem_uc main_arg7 (by decide))).trans (Rg.W8_main_arg7 m ρ c),
     (h c _ (Rg.mem_uc main_arg8 (by decide))).trans (Rg.W8_main_arg8 m ρ c),
     (h c _ (Rg.mem_uc main_arg9 (by decide))).trans (Rg.W8_main_arg9 m ρ c),
     (h c _ (Rg.mem_uc main_arg10 (by decide))).trans (Rg.W8_main_arg10 m ρ c),
     (h c _ (Rg.mem_uc main_arg11 (by decide))).trans (Rg.W8_main_arg11 m ρ c),
     (h c _ (Rg.mem_uc main_arg12 (by decide))).trans (Rg.W8_main_arg12 m ρ c),
     (h c _ (Rg.mem_uc main_arg13 (by decide))).trans (Rg.W8_main_arg13 m ρ c),
     (h c _ (Rg.mem_uc main_arg14 (by decide))).trans (Rg.W8_main_arg14 m ρ c),
     (h c _ (Rg.mem_uc main_arg15 (by decide))).trans (Rg.W8_main_arg15 m ρ c),
     (h c _ (Rg.mem_uc main_arg16 (by decide))).trans (Rg.W8_main_arg16 m ρ c),
     (h c _ (Rg.mem_uc main_arg17 (by decide))).trans (Rg.W8_main_arg17 m ρ c),
     (h c _ (Rg.mem_uc main_arg18 (by decide))).trans (Rg.W8_main_arg18 m ρ c),
     (h c _ (Rg.mem_uc main_arg19 (by decide))).trans (Rg.W8_main_arg19 m ρ c),
     (h c _ (Rg.mem_uc main_arg20 (by decide))).trans (Rg.W8_main_arg20 m ρ c),
     (h c _ (Rg.mem_uc main_arg21 (by decide))).trans (Rg.W8_main_arg21 m ρ c),
     (h c _ (Rg.mem_uc main_arg22 (by decide))).trans (Rg.W8_main_arg22 m ρ c),
     (h c _ (Rg.mem_uc main_arg23 (by decide))).trans (Rg.W8_main_arg23 m ρ c)⟩)
    (Rg.run_all m ρ)

end Cert.KernelIdeal.Val

end
-- ==== Proof.Ref.Run.lean ====
import proofs.«156812_g12472585028273_cont_sun_m_131_10_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsEnc : List (HloOp τ sig (Elt F)) :=
  [ StableHlo.binary main_arg0 main_arg2 main_v0 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    StableHlo.unary main_arg3 main_v1 (broadcastInDim S1x256 ![1] bcast_S256_S1x256_1),
    StableHlo.unary main_v1 main_v2 (broadcastInDim S4096x256 ![0, 1] bcast_S1x256_S4096x256_0_1),
    StableHlo.binary main_v0 main_v2 main_v3 (addf (s := S4096x256)),
    StableHlo.TRef.nullary main_call0.cst (constant S_ .f32 0x00000000#32),
    StableHlo.TRef.unary main_call0.cst main_call0.v0 (broadcastInDim S4096x256 ![] bcast_S_S4096x256),
    StableHlo.TRef.binary (.of main_v3 : StableHlo.TRef sig ⟨S4096x256, .f32⟩) main_call0.v0 main_call0.v1 maximumf,
    StableHlo.binary main_v4 main_arg4 main_v5 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg5 main_v6 (broadcastInDim S1x128 ![1] bcast_S128_S1x128_1),
    StableHlo.unary main_v6 main_v7 (broadcastInDim S4096x128 ![0, 1] bcast_S1x128_S4096x128_0_1),
    StableHlo.binary main_v5 main_v7 main_v8 (addf (s := S4096x128)),
    StableHlo.TRef.nullary main_call1.cst (constant S_ .f32 0x00000000#32),
    StableHlo.TRef.unary main_call1.cst main_call1.v0 (broadcastInDim S4096x128 ![] bcast_S_S4096x128),
    StableHlo.TRef.binary (.of main_v8 : StableHlo.TRef sig ⟨S4096x128, .f32⟩) main_call1.v0 main_call1.v1 maximumf,
    StableHlo.binary main_v9 main_arg6 main_v10 ((fun l r => Host.dotGeneral dot_S4096x128_S128x16_S4096x16_1_0_0_1_n_n none l r) : (⟨S4096x128, .f32⟩ : BufTy).Contents (Elt F) → (⟨S128x16, .f32⟩ : BufTy).Contents (Elt F) → (⟨S4096x16, .f32⟩ : BufTy).Contents (Elt F)),
    StableHlo.unary main_arg7 main_v11 (broadcastInDim S1x16 ![1] bcast_S16_S1x16_1),
    StableHlo.unary main_v11 main_v12 (broadcastInDim S4096x16 ![0, 1] bcast_S1x16_S4096x16_0_1),
    StableHlo.binary main_v10 main_v12 main_v13 (addf (s := S4096x16)),
    StableHlo.binary main_v13 main_arg8 main_v14 ((fun l r => Host.dotGeneral dot_S4096x16_S16x128_S4096x128_1_0_0_1_n_n none l r) : (⟨S4096x16, .f32⟩ : BufTy).Contents (Elt F) → (⟨S16x128, .f32⟩ : BufTy).Contents (Elt F) → (⟨S4096x128, .f32⟩ : BufTy).Contents (Elt F)),
    StableHlo.unary main_arg9 main_v15 (broadcastInDim S1x128 ![1] bcast_S128_S1x128_1),
    StableHlo.unary main_v15 main_v16 (broadcastInDim S4096x128 ![0, 1] bcast_S1x128_S4096x128_0_1),
    StableHlo.binary main_v14 main_v16 main_v17 (addf (s := S4096x128)),
    StableHlo.TRef.nullary main_call2.cst (constant S_ .f32 0x00000000#32),
    StableHlo.TRef.unary main_call2.cst main_call2.v0 (broadcastInDim S4096x128 ![] bcast_S_S4096x128),
    StableHlo.TRef.binary (.of main_v17 : StableHlo.TRef sig ⟨S4096x128, .f32⟩) main_call2.v0 main_call2.v1 maximumf,
    StableHlo.binary main_v18 main_arg10 main_v19 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    StableHlo.unary main_arg11 main_v20 (broadcastInDim S1x256 ![1] bcast_S256_S1x256_1),
    StableHlo.unary main_v20 main_v21 (broadcastInDim S4096x256 ![0, 1] bcast_S1x256_S4096x256_0_1),
    StableHlo.binary main_v19 main_v21 main_v22 (addf (s := S4096x256)),
    StableHlo.TRef.nullary main_call3.cst (constant S_ .f32 0x00000000#32),
    StableHlo.TRef.unary main_call3.cst main_call3.v0 (broadcastInDim S4096x256 ![] bcast_S_S4096x256),
    StableHlo.TRef.binary (.of main_v22 : StableHlo.TRef sig ⟨S4096x256, .f32⟩) main_call3.v0 main_call3.v1 maximumf,
    StableHlo.binary main_v23 main_arg12 main_v24 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    StableHlo.unary main_arg13 main_v25 (broadcastInDim S1x512 ![1] bcast_S512_S1x512_1),
    StableHlo.unary main_v25 main_v26 (broadcastInDim S4096x512 ![0, 1] bcast_S1x512_S4096x512_0_1),
    StableHlo.binary main_v24 main_v26 main_v27 (addf (s := S4096x512)) ]

abbrev opsGat1 : List (HloOp τ sig (Elt F)) :=
  [ StableHlo.binary main_arg0 main_arg14 main_v28 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    StableHlo.binary main_v28 main_arg15 main_v29 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    StableHlo.binary main_v28 main_arg16 main_v30 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    StableHlo.unary main_v30 main_v31 ((transpose S1x4096 [1, 0] · transposes_S4096x1_S1x4096_1_0) : (⟨S4096x1, .f32⟩ : BufTy).Contents (Elt F) → (⟨S1x4096, .f32⟩ : BufTy).Contents (Elt F)),
    StableHlo.unary main_v29 main_v32 (broadcastInDim S4096x4096 ![0, 1] bcast_S4096x1_S4096x4096_0_1),
    StableHlo.unary main_v31 main_v33 (broadcastInDim S4096x4096 ![0, 1] bcast_S1x4096_S4096x4096_0_1),
    StableHlo.binary main_v32 main_v33 main_v34 (addf (s := S4096x4096)),
    StableHlo.nullary main_cst (constant S_ .f32 0x00000000#32),
    StableHlo.unary main_cst main_v35 (broadcastInDim S4096x4096 ![] bcast_S_S4096x4096),
    StableHlo.binary main_v34 main_v35 main_v36 (cmpf (s := S4096x4096) .ogt),
    StableHlo.nullary main_cst_0 (constant S_ .f32 0x3E4CCCCD#32),
    StableHlo.unary main_cst_0 main_v37 (broadcastInDim S4096x4096 ![] bcast_S_S4096x4096),
    StableHlo.binary main_v37 main_v34 main_v38 (mulf (s := S4096x4096)),
    StableHlo.TRef.ternary (.of main_v36 : StableHlo.TRef sig ⟨S4096x4096, .i1⟩) (.of main_v34 : StableHlo.TRef sig ⟨S4096x4096, .f32⟩) (.of main_v38 : StableHlo.TRef sig ⟨S4096x4096, .f32⟩) main_call4.v0 select,
    StableHlo.nullary main_cst_1 (constant S_ .f32 0x00000000#32),
    StableHlo.unary main_cst_1 main_v40 (broadcastInDim S4096x4096 ![] bcast_S_S4096x4096),
    StableHlo.binary main_arg1 main_v40 main_v41 (cmpf (s := S4096x4096) .ogt),
    StableHlo.nullary main_cst_2 (constant S_ .f32 0xD9FFCB9E#32),
    StableHlo.TRef.unary (.of main_cst_2 : StableHlo.TRef sig ⟨S_, .f32⟩) main_call5.v0 (broadcastInDim S4096x4096 ![] bcast_S_S4096x4096),
    StableHlo.TRef.ternary (.of main_v41 : StableHlo.TRef sig ⟨S4096x4096, .i1⟩) (.of main_v39 : StableHlo.TRef sig ⟨S4096x4096, .f32⟩) main_call5.v0 main_call5.v1 select,
    StableHlo.nullary main_cst_3 (constant S_ .f32 0xFF800000#32),
    StableHlo.binary main_v42 main_cst_3 main_v43 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_4 (constant S_ .f32 0xFF800000#32),
    StableHlo.unary main_cst_4 main_v44 (broadcastInDim S4096 ![] bcast_S_S4096),
    StableHlo.binary main_v44 main_v43 main_v45 (maximumf (s := S4096)),
    StableHlo.unary main_v45 main_v46 (broadcastInDim S4096x1 ![0] bcast_S4096_S4096x1_0),
    StableHlo.unary main_v46 main_v47 (broadcastInDim S4096x4096 ![0, 1] bcast_S4096x1_S4096x4096_0_1),
    StableHlo.binary main_v42 main_v47 main_v48 (subf (s := S4096x4096)),
    StableHlo.unary main_v48 main_v49 (Host.exp (s := S4096x4096)),
    StableHlo.nullary main_cst_5 (constant S_ .f32 0x00000000#32),
    StableHlo.binary main_v49 main_cst_5 main_v50 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v50 main_v51 (broadcastInDim S4096x1 ![0] bcast_S4096_S4096x1_0),
    StableHlo.unary main_v51 main_v52 (broadcastInDim S4096x4096 ![0, 1] bcast_S4096x1_S4096x4096_0_1),
    StableHlo.binary main_v49 main_v52 main_v53 (Host.divf (s := S4096x4096)),
    StableHlo.binary main_v53 main_v28 main_v54 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    StableHlo.TRef.nullary main_call6.cst (constant S_ .f32 0x00000000#32),
    StableHlo.TRef.unary main_call6.cst main_call6.v0 (broadcastInDim S4096x256 ![] bcast_S_S4096x256),
    StableHlo.TRef.binary (.of main_v54 : StableHlo.TRef sig ⟨S4096x256, .f32⟩) main_call6.v0 main_call6.v1 (cmpf .ogt),
    StableHlo.TRef.nullary main_call6.cst_0 (constant S_ .f32 0x00000000#32),
    StableHlo.TRef.unary main_call6.cst_0 main_call6.v2 (broadcastInDim S4096x256 ![] bcast_S_S4096x256),
    StableHlo.TRef.binary (.of main_v54 : StableHlo.TRef sig ⟨S4096x256, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S4096x256 ![] bcast_S_S4096x256),
    StableHlo.TRef.ternary main_call6.v3 main_call6.call0.v1 (.of main_v54 : StableHlo.TRef sig ⟨S4096x256, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S4096x256 ![] bcast_S_S4096x256),
    StableHlo.TRef.binary main_call6.v6 main_call6.v5 main_call6.v7 mulf,
    StableHlo.TRef.ternary main_call6.v1 (.of main_v54 : StableHlo.TRef sig ⟨S4096x256, .f32⟩) main_call6.v7 main_call6.call1.v0 select,
    StableHlo.unary main_v55 main_v56 ((transpose S256x4096 [1, 0] · transposes_S4096x256_S256x4096_1_0) : (⟨S4096x256, .f32⟩ : BufTy).Contents (Elt F) → (⟨S256x4096, .f32⟩ : BufTy).Contents (Elt F)),
    StableHlo.binary main_v55 main_v56 main_v57 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.unary main_v57 main_v58 (Host.negf (s := S4096x4096)),
    StableHlo.unary main_v58 main_v59 (Host.exp (s := S4096x4096)),
    StableHlo.nullary main_cst_6 (constant S_ .f32 0x3F800000#32),
    StableHlo.unary main_cst_6 main_v60 (broadcastInDim S4096x4096 ![] bcast_S_S4096x4096),
    StableHlo.binary main_v60 main_v59 main_v61 (addf (s := S4096x4096)),
    StableHlo.nullary main_cst_7 (constant S_ .f32 0x3F800000#32),
    StableHlo.unary main_cst_7 main_v62 (broadcastInDim S4096x4096 ![] bcast_S_S4096x4096),
    StableHlo.binary main_v62 main_v61 main_v63 (Host.divf (s := S4096x4096)),
    StableHlo.binary main_v63 main_arg1 main_v64 (subf (s := S4096x4096)),
    StableHlo.binary main_v64 main_v64 main_v65 (mulf (s := S4096x4096)),
    StableHlo.nullary main_cst_8 (constant S_ .f32 0x00000000#32),
    StableHlo.binary main_v65 main_cst_8 main_v66 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_9 (constant S_ .f32 0x4B800000#32),
    StableHlo.binary main_v66 main_cst_9 main_v67 (Host.divf (s := S_)),
    StableHlo.nullary main_cst_10 (constant S_ .f32 0x3F000000#32),
    StableHlo.unary main_cst_10 main_v68 (broadcastInDim S4096x256 ![] bcast_S_S4096x256),
    StableHlo.binary main_v68 main_v55 main_v69 (mulf (s := S4096x256)),
    StableHlo.nullary main_cst_11 (constant S_ .f32 0x3F000000#32),
    StableHlo.unary main_cst_11 main_v70 (broadcastInDim S4096x256 ![] bcast_S_S4096x256),
    StableHlo.binary main_v70 main_v4 main_v71 (mulf (s := S4096x256)),
    StableHlo.binary main_v69 main_v71 main_v72 (addf (s := S4096x256)) ]

abbrev opsGat2 : List (HloOp τ sig (Elt F)) :=
  [ StableHlo.binary main_v72 main_arg17 main_v73 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.binary main_v73 main_arg18 main_v74 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.binary main_v73 main_arg19 main_v75 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.unary main_v75 main_v76 ((transpose S1x4096 [1, 0] · transposes_S4096x1_S1x4096_1_0) : (⟨S4096x1, .f32⟩ : BufTy).Contents (Elt F) → (⟨S1x4096, .f32⟩ : BufTy).Contents (Elt F)),
    StableHlo.unary main_v74 main_v77 (broadcastInDim S4096x4096 ![0, 1] bcast_S4096x1_S4096x4096_0_1),
    StableHlo.unary main_v76 main_v78 (broadcastInDim S4096x4096 ![0, 1] bcast_S1x4096_S4096x4096_0_1),
    StableHlo.binary main_v77 main_v78 main_v79 (addf (s := S4096x4096)),
    StableHlo.nullary main_cst_12 (constant S_ .f32 0x00000000#32),
    StableHlo.unary main_cst_12 main_v80 (broadcastInDim S4096x4096 ![] bcast_S_S4096x4096),
    StableHlo.binary main_v79 main_v80 main_v81 (cmpf (s := S4096x4096) .ogt),
    StableHlo.nullary main_cst_13 (constant S_ .f32 0x3E4CCCCD#32),
    StableHlo.unary main_cst_13 main_v82 (broadcastInDim S4096x4096 ![] bcast_S_S4096x4096),
    StableHlo.binary main_v82 main_v79 main_v83 (mulf (s := S4096x4096)),
    StableHlo.TRef.ternary (.of main_v81 : StableHlo.TRef sig ⟨S4096x4096, .i1⟩) (.of main_v79 : StableHlo.TRef sig ⟨S4096x4096, .f32⟩) (.of main_v83 : StableHlo.TRef sig ⟨S4096x4096, .f32⟩) main_call7.v0 select,
    StableHlo.nullary main_cst_14 (constant S_ .f32 0x00000000#32),
    StableHlo.unary main_cst_14 main_v85 (broadcastInDim S4096x4096 ![] bcast_S_S4096x4096),
    StableHlo.binary main_arg1 main_v85 main_v86 (cmpf (s := S4096x4096) .ogt),
    StableHlo.nullary main_cst_15 (constant S_ .f32 0xD9FFCB9E#32),
    StableHlo.TRef.unary (.of main_cst_15 : StableHlo.TRef sig ⟨S_, .f32⟩) main_call8.v0 (broadcastInDim S4096x4096 ![] bcast_S_S4096x4096),
    StableHlo.TRef.ternary (.of main_v86 : StableHlo.TRef sig ⟨S4096x4096, .i1⟩) (.of main_v84 : StableHlo.TRef sig ⟨S4096x4096, .f32⟩) main_call8.v0 main_call8.v1 select,
    StableHlo.nullary main_cst_16 (constant S_ .f32 0xFF800000#32),
    StableHlo.binary main_v87 main_cst_16 main_v88 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_17 (constant S_ .f32 0xFF800000#32),
    StableHlo.unary main_cst_17 main_v89 (broadcastInDim S4096 ![] bcast_S_S4096),
    StableHlo.binary main_v89 main_v88 main_v90 (maximumf (s := S4096)),
    StableHlo.unary main_v90 main_v91 (broadcastInDim S4096x1 ![0] bcast_S4096_S4096x1_0),
    StableHlo.unary main_v91 main_v92 (broadcastInDim S4096x4096 ![0, 1] bcast_S4096x1_S4096x4096_0_1),
    StableHlo.binary main_v87 main_v92 main_v93 (subf (s := S4096x4096)),
    StableHlo.unary main_v93 main_v94 (Host.exp (s := S4096x4096)),
    StableHlo.nullary main_cst_18 (constant S_ .f32 0x00000000#32),
    StableHlo.binary main_v94 main_cst_18 main_v95 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v95 main_v96 (broadcastInDim S4096x1 ![0] bcast_S4096_S4096x1_0),
    StableHlo.unary main_v96 main_v97 (broadcastInDim S4096x4096 ![0, 1] bcast_S4096x1_S4096x4096_0_1),
    StableHlo.binary main_v94 main_v97 main_v98 (Host.divf (s := S4096x4096)),
    StableHlo.binary main_v98 main_v73 main_v99 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.TRef.nullary main_call9.cst (constant S_ .f32 0x00000000#32),
    StableHlo.TRef.unary main_call9.cst main_call9.v0 (broadcastInDim S4096x128 ![] bcast_S_S4096x128),
    StableHlo.TRef.binary (.of main_v99 : StableHlo.TRef sig ⟨S4096x128, .f32⟩) main_call9.v0 main_call9.v1 (cmpf .ogt),
    StableHlo.TRef.nullary main_call9.cst_0 (constant S_ .f32 0x00000000#32),
    StableHlo.TRef.unary main_call9.cst_0 main_call9.v2 (broadcastInDim S4096x128 ![] bcast_S_S4096x128),
    StableHlo.TRef.binary (.of main_v99 : StableHlo.TRef sig ⟨S4096x128, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S4096x128 ![] bcast_S_S4096x128),
    StableHlo.TRef.ternary main_call9.v3 main_call9.call0.v1 (.of main_v99 : StableHlo.TRef sig ⟨S4096x128, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S4096x128 ![] bcast_S_S4096x128),
    StableHlo.TRef.binary main_call9.v6 main_call9.v5 main_call9.v7 mulf,
    StableHlo.TRef.ternary main_call9.v1 (.of main_v99 : StableHlo.TRef sig ⟨S4096x128, .f32⟩) main_call9.v7 main_call9.call1.v0 select,
    StableHlo.unary main_v100 main_v101 ((transpose S128x4096 [1, 0] · transposes_S4096x128_S128x4096_1_0) : (⟨S4096x128, .f32⟩ : BufTy).Contents (Elt F) → (⟨S128x4096, .f32⟩ : BufTy).Contents (Elt F)),
    StableHlo.binary main_v100 main_v101 main_v102 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.unary main_v102 main_v103 (Host.negf (s := S4096x4096)),
    StableHlo.unary main_v103 main_v104 (Host.exp (s := S4096x4096)),
    StableHlo.nullary main_cst_19 (constant S_ .f32 0x3F800000#32),
    StableHlo.unary main_cst_19 main_v105 (broadcastInDim S4096x4096 ![] bcast_S_S4096x4096),
    StableHlo.binary main_v105 main_v104 main_v106 (addf (s := S4096x4096)),
    StableHlo.nullary main_cst_20 (constant S_ .f32 0x3F800000#32),
    StableHlo.unary main_cst_20 main_v107 (broadcastInDim S4096x4096 ![] bcast_S_S4096x4096),
    StableHlo.binary main_v107 main_v106 main_v108 (Host.divf (s := S4096x4096)),
    StableHlo.binary main_v108 main_arg1 main_v109 (subf (s := S4096x4096)),
    StableHlo.binary main_v109 main_v109 main_v110 (mulf (s := S4096x4096)),
    StableHlo.nullary main_cst_21 (constant S_ .f32 0x00000000#32),
    StableHlo.binary main_v110 main_cst_21 main_v111 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_22 (constant S_ .f32 0x4B800000#32),
    StableHlo.binary main_v111 main_cst_22 main_v112 (Host.divf (s := S_)),
    StableHlo.nullary main_cst_23 (constant S_ .f32 0x3F000000#32),
    StableHlo.unary main_cst_23 main_v113 (broadcastInDim S4096x128 ![] bcast_S_S4096x128),
    StableHlo.binary main_v113 main_v100 main_v114 (mulf (s := S4096x128)),
    StableHlo.nullary main_cst_24 (constant S_ .f32 0x3F000000#32),
    StableHlo.unary main_cst_24 main_v115 (broadcastInDim S4096x128 ![] bcast_S_S4096x128),
    StableHlo.binary main_v115 main_v9 main_v116 (mulf (s := S4096x128)),
    StableHlo.binary main_v114 main_v116 main_v117 (addf (s := S4096x128)) ]

abbrev opsGat3 : List (HloOp τ sig (Elt F)) :=
  [ StableHlo.binary main_v117 main_arg20 main_v118 ((fun l r => Host.dotGeneral dot_S4096x128_S128x16_S4096x16_1_0_0_1_n_n none l r) : (⟨S4096x128, .f32⟩ : BufTy).Contents (Elt F) → (⟨S128x16, .f32⟩ : BufTy).Contents (Elt F) → (⟨S4096x16, .f32⟩ : BufTy).Contents (Elt F)),
    StableHlo.binary main_v118 main_arg21 main_v119 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.binary main_v118 main_arg22 main_v120 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.unary main_v120 main_v121 ((transpose S1x4096 [1, 0] · transposes_S4096x1_S1x4096_1_0) : (⟨S4096x1, .f32⟩ : BufTy).Contents (Elt F) → (⟨S1x4096, .f32⟩ : BufTy).Contents (Elt F)),
    StableHlo.unary main_v119 main_v122 (broadcastInDim S4096x4096 ![0, 1] bcast_S4096x1_S4096x4096_0_1),
    StableHlo.unary main_v121 main_v123 (broadcastInDim S4096x4096 ![0, 1] bcast_S1x4096_S4096x4096_0_1),
    StableHlo.binary main_v122 main_v123 main_v124 (addf (s := S4096x4096)),
    StableHlo.nullary main_cst_25 (constant S_ .f32 0x00000000#32),
    StableHlo.unary main_cst_25 main_v125 (broadcastInDim S4096x4096 ![] bcast_S_S4096x4096),
    StableHlo.binary main_v124 main_v125 main_v126 (cmpf (s := S4096x4096) .ogt),
    StableHlo.nullary main_cst_26 (constant S_ .f32 0x3E4CCCCD#32),
    StableHlo.unary main_cst_26 main_v127 (broadcastInDim S4096x4096 ![] bcast_S_S4096x4096),
    StableHlo.binary main_v127 main_v124 main_v128 (mulf (s := S4096x4096)),
    StableHlo.TRef.ternary (.of main_v126 : StableHlo.TRef sig ⟨S4096x4096, .i1⟩) (.of main_v124 : StableHlo.TRef sig ⟨S4096x4096, .f32⟩) (.of main_v128 : StableHlo.TRef sig ⟨S4096x4096, .f32⟩) main_call10.v0 select,
    StableHlo.nullary main_cst_27 (constant S_ .f32 0x00000000#32),
    StableHlo.unary main_cst_27 main_v130 (broadcastInDim S4096x4096 ![] bcast_S_S4096x4096),
    StableHlo.binary main_arg1 main_v130 main_v131 (cmpf (s := S4096x4096) .ogt),
    StableHlo.nullary main_cst_28 (constant S_ .f32 0xD9FFCB9E#32),
    StableHlo.TRef.unary (.of main_cst_28 : StableHlo.TRef sig ⟨S_, .f32⟩) main_call11.v0 (broadcastInDim S4096x4096 ![] bcast_S_S4096x4096),
    StableHlo.TRef.ternary (.of main_v131 : StableHlo.TRef sig ⟨S4096x4096, .i1⟩) (.of main_v129 : StableHlo.TRef sig ⟨S4096x4096, .f32⟩) main_call11.v0 main_call11.v1 select,
    StableHlo.nullary main_cst_29 (constant S_ .f32 0xFF800000#32),
    StableHlo.binary main_v132 main_cst_29 main_v133 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_30 (constant S_ .f32 0xFF800000#32),
    StableHlo.unary main_cst_30 main_v134 (broadcastInDim S4096 ![] bcast_S_S4096),
    StableHlo.binary main_v134 main_v133 main_v135 (maximumf (s := S4096)),
    StableHlo.unary main_v135 main_v136 (broadcastInDim S4096x1 ![0] bcast_S4096_S4096x1_0),
    StableHlo.unary main_v136 main_v137 (broadcastInDim S4096x4096 ![0, 1] bcast_S4096x1_S4096x4096_0_1),
    StableHlo.binary main_v132 main_v137 main_v138 (subf (s := S4096x4096)),
    StableHlo.unary main_v138 main_v139 (Host.exp (s := S4096x4096)),
    StableHlo.nullary main_cst_31 (constant S_ .f32 0x00000000#32),
    StableHlo.binary main_v139 main_cst_31 main_v140 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v140 main_v141 (broadcastInDim S4096x1 ![0] bcast_S4096_S4096x1_0),
    StableHlo.unary main_v141 main_v142 (broadcastInDim S4096x4096 ![0, 1] bcast_S4096x1_S4096x4096_0_1),
    StableHlo.binary main_v139 main_v142 main_v143 (Host.divf (s := S4096x4096)),
    StableHlo.binary main_v143 main_v118 main_v144 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    StableHlo.TRef.nullary main_call12.cst (constant S_ .f32 0x00000000#32),
    StableHlo.TRef.unary main_call12.cst main_call12.v0 (broadcastInDim S4096x16 ![] bcast_S_S4096x16),
    StableHlo.TRef.binary (.of main_v144 : StableHlo.TRef sig ⟨S4096x16, .f32⟩) main_call12.v0 main_call12.v1 (cmpf .ogt),
    StableHlo.TRef.nullary main_call12.cst_0 (constant S_ .f32 0x00000000#32),
    StableHlo.TRef.unary main_call12.cst_0 main_call12.v2 (broadcastInDim S4096x16 ![] bcast_S_S4096x16),
    StableHlo.TRef.binary (.of main_v144 : StableHlo.TRef sig ⟨S4096x16, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S4096x16 ![] bcast_S_S4096x16),
    StableHlo.TRef.ternary main_call12.v3 main_call12.call0.v1 (.of main_v144 : StableHlo.TRef sig ⟨S4096x16, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S4096x16 ![] bcast_S_S4096x16),
    StableHlo.TRef.binary main_call12.v6 main_call12.v5 main_call12.v7 mulf,
    StableHlo.TRef.ternary main_call12.v1 (.of main_v144 : StableHlo.TRef sig ⟨S4096x16, .f32⟩) main_call12.v7 main_call12.call1.v0 select,
    StableHlo.unary main_v145 main_v146 ((transpose S16x4096 [1, 0] · transposes_S4096x16_S16x4096_1_0) : (⟨S4096x16, .f32⟩ : BufTy).Contents (Elt F) → (⟨S16x4096, .f32⟩ : BufTy).Contents (Elt F)),
    StableHlo.binary main_v145 main_v146 main_v147 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    StableHlo.unary main_v147 main_v148 (Host.negf (s := S4096x4096)),
    StableHlo.unary main_v148 main_v149 (Host.exp (s := S4096x4096)),
    StableHlo.nullary main_cst_32 (constant S_ .f32 0x3F800000#32),
    StableHlo.unary main_cst_32 main_v150 (broadcastInDim S4096x4096 ![] bcast_S_S4096x4096),
    StableHlo.binary main_v150 main_v149 main_v151 (addf (s := S4096x4096)),
    StableHlo.nullary main_cst_33 (constant S_ .f32 0x3F800000#32),
    StableHlo.unary main_cst_33 main_v152 (broadcastInDim S4096x4096 ![] bcast_S_S4096x4096),
    StableHlo.binary main_v152 main_v151 main_v153 (Host.divf (s := S4096x4096)),
    StableHlo.binary main_v153 main_arg1 main_v154 (subf (s := S4096x4096)),
    StableHlo.binary main_v154 main_v154 main_v155 (mulf (s := S4096x4096)),
    StableHlo.nullary main_cst_34 (constant S_ .f32 0x00000000#32),
    StableHlo.binary main_v155 main_cst_34 main_v156 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_35 (constant S_ .f32 0x4B800000#32),
    StableHlo.binary main_v156 main_cst_35 main_v157 (Host.divf (s := S_)),
    StableHlo.nullary main_cst_36 (constant S_ .f32 0x3F000000#32),
    StableHlo.unary main_cst_36 main_v158 (broadcastInDim S4096x16 ![] bcast_S_S4096x16),
    StableHlo.binary main_v158 main_v145 main_v159 (mulf (s := S4096x16)),
    StableHlo.nullary main_cst_37 (constant S_ .f32 0x3F000000#32),
    StableHlo.unary main_cst_37 main_v160 (broadcastInDim S4096x16 ![] bcast_S_S4096x16),
    StableHlo.binary main_v160 main_v13 main_v161 (mulf (s := S4096x16)),
    StableHlo.binary main_v159 main_v161 main_v162 (addf (s := S4096x16)) ]

abbrev opsTail : List (HloOp τ sig (Elt F)) :=
  [ StableHlo.binary main_arg1 main_v162 main_v163 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    StableHlo.unary main_v145 main_v164 ((transpose S16x4096 [1, 0] · transposes_S4096x16_S16x4096_1_0) : (⟨S4096x16, .f32⟩ : BufTy).Contents (Elt F) → (⟨S16x4096, .f32⟩ : BufTy).Contents (Elt F)),
    StableHlo.binary main_v145 main_v164 main_v165 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    StableHlo.unary main_v165 main_v166 (Host.negf (s := S4096x4096)),
    StableHlo.unary main_v166 main_v167 (Host.exp (s := S4096x4096)),
    StableHlo.nullary main_cst_38 (constant S_ .f32 0x3F800000#32),
    StableHlo.unary main_cst_38 main_v168 (broadcastInDim S4096x4096 ![] bcast_S_S4096x4096),
    StableHlo.binary main_v168 main_v167 main_v169 (addf (s := S4096x4096)),
    StableHlo.nullary main_cst_39 (constant S_ .f32 0x3F800000#32),
    StableHlo.unary main_cst_39 main_v170 (broadcastInDim S4096x4096 ![] bcast_S_S4096x4096),
    StableHlo.binary main_v170 main_v169 main_v171 (Host.divf (s := S4096x4096)),
    StableHlo.unary main_v163 main_v172 (broadcastInDim S4096x1x16 ![0, 2] bcast_S4096x16_S4096x1x16_0_2),
    StableHlo.unary main_arg23 main_v173 (broadcastInDim S1x10x16 ![1, 2] bcast_S10x16_S1x10x16_1_2),
    StableHlo.unary main_v172 main_v174 (broadcastInDim S4096x10x16 ![0, 1, 2] bcast_S4096x1x16_S4096x10x16_0_1_2),
    StableHlo.unary main_v173 main_v175 (broadcastInDim S4096x10x16 ![0, 1, 2] bcast_S1x10x16_S4096x10x16_0_1_2),
    StableHlo.binary main_v174 main_v175 main_v176 (subf (s := S4096x10x16)),
    StableHlo.binary main_v176 main_v176 main_v177 (mulf (s := S4096x10x16)),
    StableHlo.nullary main_cst_40 (constant S_ .f32 0x00000000#32),
    StableHlo.binary main_v177 main_cst_40 main_v178 ((fun x v => Host.reduceAdd x v reducesTo_S4096x10x16_S4096x10_d2 h_S_) : (⟨S4096x10x16, .f32⟩ : BufTy).Contents (Elt F) → (⟨S_, .f32⟩ : BufTy).Contents (Elt F) → (⟨S4096x10, .f32⟩ : BufTy).Contents (Elt F)),
    StableHlo.nullary main_cst_41 (constant S_ .f32 0x3F800000#32),
    StableHlo.unary main_cst_41 main_v179 (broadcastInDim S4096x10 ![] bcast_S_S4096x10),
    StableHlo.binary main_v178 main_v179 main_v180 (Host.divf (s := S4096x10)),
    StableHlo.nullary main_cst_42 (constant S_ .f32 0x3F800000#32),
    StableHlo.unary main_cst_42 main_v181 (broadcastInDim S4096x10 ![] bcast_S_S4096x10),
    StableHlo.binary main_v181 main_v180 main_v182 (addf (s := S4096x10)),
    StableHlo.nullary main_cst_43 (constant S_ .f32 0x3F800000#32),
    StableHlo.unary main_cst_43 main_v183 (broadcastInDim S4096x10 ![] bcast_S_S4096x10),
    StableHlo.binary main_v183 main_v182 main_v184 (Host.divf (s := S4096x10)),
    StableHlo.nullary main_cst_44 (constant S_ .f32 0x3F800000#32),
    StableHlo.unary main_cst_44 main_v185 (broadcastInDim S4096x10 ![] bcast_S_S4096x10),
    StableHlo.binary main_v184 main_v185 main_v186 (Host.powf (s := S4096x10)),
    StableHlo.nullary main_cst_45 (constant S_ .f32 0x00000000#32),
    StableHlo.binary main_v186 main_cst_45 main_v187 ((fun x v => Host.reduceAdd x v reducesTo_S4096x10_S4096_d1 h_S_) : (⟨S4096x10, .f32⟩ : BufTy).Contents (Elt F) → (⟨S_, .f32⟩ : BufTy).Contents (Elt F) → (⟨S4096, .f32⟩ : BufTy).Contents (Elt F)),
    StableHlo.unary main_v187 main_v188 (broadcastInDim S4096x1 ![0] bcast_S4096_S4096x1_0),
    StableHlo.unary main_v188 main_v189 (broadcastInDim S4096x10 ![0, 1] bcast_S4096x1_S4096x10_0_1),
    StableHlo.binary main_v186 main_v189 main_v190 (Host.divf (s := S4096x10)),
    StableHlo.unary main_v13 main_v191 (broadcastInDim S4096x1x16 ![0, 2] bcast_S4096x16_S4096x1x16_0_2),
    StableHlo.unary main_arg23 main_v192 (broadcastInDim S1x10x16 ![1, 2] bcast_S10x16_S1x10x16_1_2),
    StableHlo.unary main_v191 main_v193 (broadcastInDim S4096x10x16 ![0, 1, 2] bcast_S4096x1x16_S4096x10x16_0_1_2),
    StableHlo.unary main_v192 main_v194 (broadcastInDim S4096x10x16 ![0, 1, 2] bcast_S1x10x16_S4096x10x16_0_1_2),
    StableHlo.binary main_v193 main_v194 main_v195 (subf (s := S4096x10x16)),
    StableHlo.binary main_v195 main_v195 main_v196 (mulf (s := S4096x10x16)),
    StableHlo.nullary main_cst_46 (constant S_ .f32 0x00000000#32),
    StableHlo.binary main_v196 main_cst_46 main_v197 ((fun x v => Host.reduceAdd x v reducesTo_S4096x10x16_S4096x10_d2 h_S_) : (⟨S4096x10x16, .f32⟩ : BufTy).Contents (Elt F) → (⟨S_, .f32⟩ : BufTy).Contents (Elt F) → (⟨S4096x10, .f32⟩ : BufTy).Contents (Elt F)),
    StableHlo.nullary main_cst_47 (constant S_ .f32 0x3F800000#32),
    StableHlo.unary main_cst_47 main_v198 (broadcastInDim S4096x10 ![] bcast_S_S4096x10),
    StableHlo.binary main_v197 main_v198 main_v199 (Host.divf (s := S4096x10)),
    StableHlo.nullary main_cst_48 (constant S_ .f32 0x3F800000#32),
    StableHlo.unary main_cst_48 main_v200 (broadcastInDim S4096x10 ![] bcast_S_S4096x10),
    StableHlo.binary main_v200 main_v199 main_v201 (addf (s := S4096x10)),
    StableHlo.nullary main_cst_49 (constant S_ .f32 0x3F800000#32),
    StableHlo.unary main_cst_49 main_v202 (broadcastInDim S4096x10 ![] bcast_S_S4096x10),
    StableHlo.binary main_v202 main_v201 main_v203 (Host.divf (s := S4096x10)),
    StableHlo.nullary main_cst_50 (constant S_ .f32 0x3F800000#32),
    StableHlo.unary main_cst_50 main_v204 (broadcastInDim S4096x10 ![] bcast_S_S4096x10),
    StableHlo.binary main_v203 main_v204 main_v205 (Host.powf (s := S4096x10)),
    StableHlo.nullary main_cst_51 (constant S_ .f32 0x00000000#32),
    StableHlo.binary main_v205 main_cst_51 main_v206 ((fun x v => Host.reduceAdd x v reducesTo_S4096x10_S4096_d1 h_S_) : (⟨S4096x10, .f32⟩ : BufTy).Contents (Elt F) → (⟨S_, .f32⟩ : BufTy).Contents (Elt F) → (⟨S4096, .f32⟩ : BufTy).Contents (Elt F)),
    StableHlo.unary main_v206 main_v207 (broadcastInDim S4096x1 ![0] bcast_S4096_S4096x1_0),
    StableHlo.unary main_v207 main_v208 (broadcastInDim S4096x10 ![0, 1] bcast_S4096x1_S4096x10_0_1),
    StableHlo.binary main_v205 main_v208 main_v209 (Host.divf (s := S4096x10)),
    StableHlo.binary main_v67 main_v112 main_v210 (addf (s := S_)),
    StableHlo.binary main_v210 main_v157 main_v211 (addf (s := S_)) ]

abbrev ops : List (HloOp τ sig (Elt F)) := opsEnc ++ opsGat1 ++ opsGat2 ++ opsGat3 ++ opsTail

theorem ops_sub : (ops : List (HloOp τ sig (Elt F))).Forall fun op => op.bufs ⊆ tcRefs τ sig := by
  simp only [ops, List.forall_append, List.Forall, ↓nullary_bufs_sub, ↓unary_bufs_sub, ↓binary_bufs_sub, ↓ternary_bufs_sub, and_self]

theorem ops_fresh : ∀ op ∈ (ops : List (HloOp τ sig (Elt F))), op.fresh = ∅ :=
  List.forall_iff_forall_mem.mp (by repeat' first | apply And.intro | exact rfl)

theorem after_ops (V : Valuation τ sig (Elt F)) :
    after ops V = after opsTail (after opsGat3 (after opsGat2 (after opsGat1 (after opsEnc V)))) := by
  simp only [ops, StableHlo.after_append]

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
set_option maxHeartbeats 4000000 in
theorem main_eq (c : Dev nD) : main (F := F) c = seq ops := rfl

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- If the operations of a line write, in order, exactly the references of `W`, every other reference keeps its contents. -/
theorem kept_of_writes {l : List (HloOp τ sig (Elt F))} {W : List (Ref sig .tc)}
    (h : l.map HloOp.writes = W.map fun r => ({Proc.devRef .tc r} : Finset (DevRef τ sig)))
    (V : Valuation τ sig (Elt F)) {r : Ref sig .tc} (hr : r ∉ W) :
    after l V (Proc.devRef .tc r) = V (Proc.devRef .tc r) :=
  after_of_forall_not_mem l V fun op hop hb => by
    obtain ⟨y, hy, he⟩ := List.mem_map.mp (h ▸ List.mem_map_of_mem (f := HloOp.writes) hop)
    exact hr (Proc.devRef_injective _ (Finset.mem_singleton.mp (he ▸ hb)) ▸ hy)

abbrev opsEnc_W : List (Ref sig .tc) :=
  [ main_v0, main_v1, main_v2, main_v3, main_call0_cst, main_call0_v0, main_v4, main_v5, main_v6, main_v7,
    main_v8, main_call1_cst, main_call1_v0, main_v9, main_v10, main_v11, main_v12, main_v13, main_v14, main_v15,
    main_v16, main_v17, main_call2_cst, main_call2_v0, main_v18, main_v19, main_v20, main_v21, main_v22, main_call3_cst,
    main_call3_v0, main_v23, main_v24, main_v25, main_v26, main_v27 ]

theorem opsEnc_kept (V : Valuation τ sig (Elt F)) {r : Ref sig .tc} (h : r ∉ opsEnc_W) :
    after opsEnc V (Proc.devRef .tc r) = V (Proc.devRef .tc r) :=
  kept_of_writes rfl V h

abbrev opsGat1_W : List (Ref sig .tc) :=
  [ main_v28, main_v29, main_v30, main_v31, main_v32, main_v33, main_v34, main_cst, main_v35, main_v36,
    main_cst_0, main_v37, main_v38, main_v39, main_cst_1, main_v40, main_v41, main_cst_2, main_call5_v0, main_v42,
    main_cst_3, main_v43, main_cst_4, main_v44, main_v45, main_v46, main_v47, main_v48, main_v49, main_cst_5,
    main_v50, main_v51, main_v52, main_v53, main_v54, main_call6_cst, main_call6_v0, main_call6_v1, main_call6_cst_0, main_call6_v2,
    main_call6_v3, main_call6_cst_1, main_call6_call0_v0, main_call6_call0_v1, main_call6_v4, main_call6_v5, main_call6_cst_2, main_call6_v6, main_call6_v7, main_v55,
    main_v56, main_v57, main_v58, main_v59, main_cst_6, main_v60, main_v61, main_cst_7, main_v62, main_v63,
    main_v64, main_v65, main_cst_8, main_v66, main_cst_9, main_v67, main_cst_10, main_v68, main_v69, main_cst_11,
    main_v70, main_v71, main_v72 ]

theorem opsGat1_kept (V : Valuation τ sig (Elt F)) {r : Ref sig .tc} (h : r ∉ opsGat1_W) :
    after opsGat1 V (Proc.devRef .tc r) = V (Proc.devRef .tc r) :=
  kept_of_writes rfl V h

abbrev opsGat2_W : List (Ref sig .tc) :=
  [ main_v73, main_v74, main_v75, main_v76, main_v77, main_v78, main_v79, main_cst_12, main_v80, main_v81,
    main_cst_13, main_v82, main_v83, main_v84, main_cst_14, main_v85, main_v86, main_cst_15, main_call8_v0, main_v87,
    main_cst_16, main_v88, main_cst_17, main_v89, main_v90, main_v91, main_v92, main_v93, main_v94, main_cst_18,
    main_v95, main_v96, main_v97, main_v98, main_v99, main_call9_cst, main_call9_v0, main_call9_v1, main_call9_cst_0, main_call9_v2,
    main_call9_v3, main_call9_cst_1, main_call9_call0_v0, main_call9_call0_v1, main_call9_v4, main_call9_v5, main_call9_cst_2, main_call9_v6, main_call9_v7, main_v100,
    main_v101, main_v102, main_v103, main_v104, main_cst_19, main_v105, main_v106, main_cst_20, main_v107, main_v108,
    main_v109, main_v110, main_cst_21, main_v111, main_cst_22, main_v112, main_cst_23, main_v113, main_v114, main_cst_24,
    main_v115, main_v116, main_v117 ]

theorem opsGat2_kept (V : Valuation τ sig (Elt F)) {r : Ref sig .tc} (h : r ∉ opsGat2_W) :
    after opsGat2 V (Proc.devRef .tc r) = V (Proc.devRef .tc r) :=
  kept_of_writes rfl V h

abbrev opsGat3_W : List (Ref sig .tc) :=
  [ main_v118, main_v119, main_v120, main_v121, main_v122, main_v123, main_v124, main_cst_25, main_v125, main_v126,
    main_cst_26, main_v127, main_v128, main_v129, main_cst_27, main_v130, main_v131, main_cst_28, main_call11_v0, main_v132,
    main_cst_29, main_v133, main_cst_30, main_v134, main_v135, main_v136, main_v137, main_v138, main_v139, main_cst_31,
    main_v140, main_v141, main_v142, main_v143, main_v144, main_call12_cst, main_call12_v0, main_call12_v1, main_call12_cst_0, main_call12_v2,
    main_call12_v3, main_call12_cst_1, main_call12_call0_v0, main_call12_call0_v1, main_call12_v4, main_call12_v5, main_call12_cst_2, main_call12_v6, main_call12_v7, main_v145,
    main_v146, main_v147, main_v148, main_v149, main_cst_32, main_v150, main_v151, main_cst_33, main_v152, main_v153,
    main_v154, main_v155, main_cst_34, main_v156, main_cst_35, main_v157, main_cst_36, main_v158, main_v159, main_cst_37,
    main_v160, main_v161, main_v162 ]

theorem opsGat3_kept (V : Valuation τ sig (Elt F)) {r : Ref sig .tc} (h : r ∉ opsGat3_W) :
    after opsGat3 V (Proc.devRef .tc r) = V (Proc.devRef .tc r) :=
  kept_of_writes rfl V h

abbrev opsTail_W : List (Ref sig .tc) :=
  [ main_v163, main_v164, main_v165, main_v166, main_v167, main_cst_38, main_v168, main_v169, main_cst_39, main_v170,
    main_v171, main_v172, main_v173, main_v174, main_v175, main_v176, main_v177, main_cst_40, main_v178, main_cst_41,
    main_v179, main_v180, main_cst_42, main_v181, main_v182, main_cst_43, main_v183, main_v184, main_cst_44, main_v185,
    main_v186, main_cst_45, main_v187, main_v188, main_v189, main_v190, main_v191, main_v192, main_v193, main_v194,
    main_v195, main_v196, main_cst_46, main_v197, main_cst_47, main_v198, main_v199, main_cst_48, main_v200, main_v201,
    main_cst_49, main_v202, main_v203, main_cst_50, main_v204, main_v205, main_cst_51, main_v206, main_v207, main_v208,
    main_v209, main_v210, main_v211 ]

theorem opsTail_kept (V : Valuation τ sig (Elt F)) {r : Ref sig .tc} (h : r ∉ opsTail_W) :
    after opsTail V (Proc.devRef .tc r) = V (Proc.devRef .tc r) :=
  kept_of_writes rfl V h

theorem kept (V : Valuation τ sig (Elt F)) {r : Ref sig .tc}
    (h : r ∉ opsEnc_W ∧ r ∉ opsGat1_W ∧ r ∉ opsGat2_W ∧ r ∉ opsGat3_W ∧ r ∉ opsTail_W) :
    after ops V (Proc.devRef .tc r) = V (Proc.devRef .tc r) := by
  rw [after_ops, opsTail_kept _ h.2.2.2.2, opsGat3_kept _ h.2.2.2.1, opsGat2_kept _ h.2.2.1, opsGat1_kept _ h.2.1, opsEnc_kept _ h.1]

theorem after_ops_of_enc (V : Valuation τ sig (Elt F)) {r : Ref sig .tc}
    (h : r ∉ opsGat1_W ∧ r ∉ opsGat2_W ∧ r ∉ opsGat3_W ∧ r ∉ opsTail_W) :
    after ops V (Proc.devRef .tc r) = after opsEnc V (Proc.devRef .tc r) := by
  rw [after_ops, opsTail_kept _ h.2.2.2, opsGat3_kept _ h.2.2.1, opsGat2_kept _ h.2.1, opsGat1_kept _ h.1]

end Cert.ReferenceIdeal.RefRun

end
-- ==== Proof.Ref.ReadEnc.lean ====
import proofs.«156812_g12472585028273_cont_sun_m_131_10_alg».proof.Proof.Ref.Run
import proofs.«156812_g12472585028273_cont_sun_m_131_10_alg».proof.Proof.Real.Net
import proofs.«156812_g12472585028273_cont_sun_m_131_10_alg».proof.Proof.Real.Arr
import proofs.«156812_g12472585028273_cont_sun_m_131_10_alg».proof.Proof.Real.Lift
import Idealize.ShloMosaic.Lib.StableHlo.Run
import Idealize.ShloMosaic.Lib.Pipeline.Value
import Idealize.ShloMosaic.Lib.ValueIdx
import Idealize.ShloMosaic.Lib.StackMember
import Idealize.ShloMosaic.PureOps.Ideal.Laws

set_option maxRecDepth 4096

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net
open scoped BigOperators

theorem dotPlain_up2 {M K N : Nat} (prec : Option ContractPrecision) (a : Mat M K) (b : Mat K N) :
    Host.dotGeneral (F := Ideal) (φ₁ := .f32) (φ₂ := .f32) (DotDims.plain M K N) prec (up2 a) (up2 b) = up2 (mm a b) := by
  funext i
  obtain ⟨p, q, rfl⟩ : ∃ (p : Fin M) (q : Fin N), i = ix2 p q := ⟨i 0, i 1, eq_ix2 i⟩
  rw [StackMember.dotGeneral_plain_apply]
  simp only [up2_apply, ← EReal.coe_mul]
  exact Cert.Lift.coe_sum Finset.univ fun c => a p c * b c q

theorem dot_up2 {M K N : Nat} (d : DotDims ⟨2, ![M, K]⟩ ⟨2, ![K, N]⟩ ⟨2, ![M, N]⟩) (hd : d = DotDims.plain M K N)
    (prec : Option ContractPrecision) (a : Mat M K) (b : Mat K N) :
    Host.dotGeneral (F := Ideal) (φ₁ := .f32) (φ₂ := .f32) d prec (up2 a) (up2 b) = up2 (mm a b) :=
  hd ▸ dotPlain_up2 prec a b

private theorem lastAxis {n : Nat} (q : Fin n) : q.val = if n = 1 then 0 else q.val := by
  have := q.isLt
  split <;> omega

theorem bcast_row_up {n : Nat} (h₁ : (⟨1, ![n]⟩ : Shape).BroadcastsInDim ⟨2, ![1, n]⟩ ![1]) (v : Fin n → ℝ) :
    broadcastInDim ⟨2, ![1, n]⟩ ![1] h₁ (up1 v) = up2 (rowOf v) := by
  funext i
  obtain ⟨u, q, rfl⟩ : ∃ (u : Fin 1) (q : Fin n), i = ix2 u q := ⟨i 0, i 1, eq_ix2 i⟩
  refine (broadcastInDim_apply ![1] h₁ (up1 v) (ix2 u q) (ix1 q) ?_).trans rfl
  intro a
  match a with
  | ⟨0, _⟩ => exact lastAxis q

theorem bcast_rows_up {m n : Nat} (h₂ : (⟨2, ![1, n]⟩ : Shape).BroadcastsInDim ⟨2, ![m, n]⟩ ![0, 1]) (r : Mat 1 n) :
    broadcastInDim ⟨2, ![m, n]⟩ ![0, 1] h₂ (up2 r) = up2 (fun _ q => r 0 q) := by
  funext i
  obtain ⟨p, q, rfl⟩ : ∃ (p : Fin m) (q : Fin n), i = ix2 p q := ⟨i 0, i 1, eq_ix2 i⟩
  refine (broadcastInDim_apply ![0, 1] h₂ (up2 r) (ix2 p q) (ix2 (0 : Fin 1) q) ?_).trans rfl
  intro a
  match a with
  | ⟨0, _⟩ => rfl
  | ⟨1, _⟩ => exact lastAxis q

theorem addf_up2 {m n : Nat} (a b : Mat m n) :
    addf (F := Ideal) (φ := .f32) (up2 a) (up2 b) = up2 (fun p q => a p q + b p q) := by
  funext i
  exact (EReal.coe_add _ _).symm

def dense {M K N : Nat} (h₁ : (⟨1, ![N]⟩ : Shape).BroadcastsInDim ⟨2, ![1, N]⟩ ![1])
    (h₂ : (⟨2, ![1, N]⟩ : Shape).BroadcastsInDim ⟨2, ![M, N]⟩ ![0, 1])
    (a : (⟨2, ![M, K]⟩ : Shape).Idx → EReal) (w : (⟨2, ![K, N]⟩ : Shape).Idx → EReal) (b : (⟨1, ![N]⟩ : Shape).Idx → EReal) :
    (⟨2, ![M, N]⟩ : Shape).Idx → EReal :=
  addf (F := Ideal) (φ := .f32)
    (Host.dotGeneral (F := Ideal) (φ₁ := .f32) (φ₂ := .f32) (DotDims.plain M K N) none a w)
    (broadcastInDim ⟨2, ![M, N]⟩ ![0, 1] h₂ (broadcastInDim ⟨2, ![1, N]⟩ ![1] h₁ b))

theorem dense_up2 {M K N : Nat} (h₁ : (⟨1, ![N]⟩ : Shape).BroadcastsInDim ⟨2, ![1, N]⟩ ![1])
    (h₂ : (⟨2, ![1, N]⟩ : Shape).BroadcastsInDim ⟨2, ![M, N]⟩ ![0, 1]) (a : Mat M K) (w : Mat K N) (b : Fin N → ℝ) :
    dense h₁ h₂ (up2 a) (up2 w) (up1 b) = up2 (addRow (mm a w) b) := by
  unfold dense
  rw [dotPlain_up2, bcast_row_up, bcast_rows_up, addf_up2]
  rfl

def reluT {M N : Nat} (hb : (⟨0, ![]⟩ : Shape).BroadcastsInDim ⟨2, ![M, N]⟩ ![])
    (x : (⟨2, ![M, N]⟩ : Shape).Idx → EReal) : (⟨2, ![M, N]⟩ : Shape).Idx → EReal :=
  maximumf (F := Ideal) (φ := .f32) x
    (broadcastInDim ⟨2, ![M, N]⟩ ![] hb (constant (F := Ideal) ⟨0, ![]⟩ .f32 0x00000000#32))

theorem reluT_up2 {M N : Nat} (hb : (⟨0, ![]⟩ : Shape).BroadcastsInDim ⟨2, ![M, N]⟩ ![]) (x : Mat M N) :
    reluT hb (up2 x) = up2 (reluM x) := by
  funext i
  show max ((x (i 0) (i 1) : ℝ) : EReal) (Ideal.ofBits .f32 0x00000000#32) = ((max (x (i 0) (i 1)) 0 : ℝ) : EReal)
  rw [Cert.Lift.ofBits_zero]
  exact (Cert.Lift.coe_max _ _).symm

variable (V : Valuation τ sig (Elt Ideal)) (I : Inputs)

def tEh1 : (⟨2, ![4096, 256]⟩ : Shape).Idx → EReal :=
  reluT (M := 4096) (N := 256) bcast_S_S4096x256 (dense (M := 4096) (K := 512) (N := 256) bcast_S256_S1x256_1 bcast_S1x256_S4096x256_0_1 (V (Proc.devRef .tc main_arg0)) (V (Proc.devRef .tc main_arg2)) (V (Proc.devRef .tc main_arg3)))

def tEh2 : (⟨2, ![4096, 128]⟩ : Shape).Idx → EReal :=
  reluT (M := 4096) (N := 128) bcast_S_S4096x128 (dense (M := 4096) (K := 256) (N := 128) bcast_S128_S1x128_1 bcast_S1x128_S4096x128_0_1 (tEh1 V) (V (Proc.devRef .tc main_arg4)) (V (Proc.devRef .tc main_arg5)))

def tZae : (⟨2, ![4096, 16]⟩ : Shape).Idx → EReal :=
  dense (M := 4096) (K := 128) (N := 16) bcast_S16_S1x16_1 bcast_S1x16_S4096x16_0_1 (tEh2 V) (V (Proc.devRef .tc main_arg6)) (V (Proc.devRef .tc main_arg7))

def tDh1 : (⟨2, ![4096, 128]⟩ : Shape).Idx → EReal :=
  reluT (M := 4096) (N := 128) bcast_S_S4096x128 (dense (M := 4096) (K := 16) (N := 128) bcast_S128_S1x128_1 bcast_S1x128_S4096x128_0_1 (tZae V) (V (Proc.devRef .tc main_arg8)) (V (Proc.devRef .tc main_arg9)))

def tDh2 : (⟨2, ![4096, 256]⟩ : Shape).Idx → EReal :=
  reluT (M := 4096) (N := 256) bcast_S_S4096x256 (dense (M := 4096) (K := 128) (N := 256) bcast_S256_S1x256_1 bcast_S1x256_S4096x256_0_1 (tDh1 V) (V (Proc.devRef .tc main_arg10)) (V (Proc.devRef .tc main_arg11)))

def tXbar : (⟨2, ![4096, 512]⟩ : Shape).Idx → EReal :=
  dense (M := 4096) (K := 256) (N := 512) bcast_S512_S1x512_1 bcast_S1x512_S4096x512_0_1 (tDh2 V) (V (Proc.devRef .tc main_arg12)) (V (Proc.devRef .tc main_arg13))

structure ArgsAre : Prop where
  a0 : (V (Proc.devRef .tc main_arg0) : S4096x512.Idx → EReal) = up2 I.x
  a1 : (V (Proc.devRef .tc main_arg1) : S4096x4096.Idx → EReal) = up2 I.adj
  a2 : (V (Proc.devRef .tc main_arg2) : S512x256.Idx → EReal) = up2 I.We1
  a3 : (V (Proc.devRef .tc main_arg3) : S256.Idx → EReal) = up1 I.be1
  a4 : (V (Proc.devRef .tc main_arg4) : S256x128.Idx → EReal) = up2 I.We2
  a5 : (V (Proc.devRef .tc main_arg5) : S128.Idx → EReal) = up1 I.be2
  a6 : (V (Proc.devRef .tc main_arg6) : S128x16.Idx → EReal) = up2 I.Wz
  a7 : (V (Proc.devRef .tc main_arg7) : S16.Idx → EReal) = up1 I.bz
  a8 : (V (Proc.devRef .tc main_arg8) : S16x128.Idx → EReal) = up2 I.Wd1
  a9 : (V (Proc.devRef .tc main_arg9) : S128.Idx → EReal) = up1 I.bd1
  a10 : (V (Proc.devRef .tc main_arg10) : S128x256.Idx → EReal) = up2 I.Wd2
  a11 : (V (Proc.devRef .tc main_arg11) : S256.Idx → EReal) = up1 I.bd2
  a12 : (V (Proc.devRef .tc main_arg12) : S256x512.Idx → EReal) = up2 I.Wxb
  a13 : (V (Proc.devRef .tc main_arg13) : S512.Idx → EReal) = up1 I.bxb
  a14 : (V (Proc.devRef .tc main_arg14) : S512x256.Idx → EReal) = up2 I.Wg1
  a15 : (V (Proc.devRef .tc main_arg15) : S256x1.Idx → EReal) = up2 (colOf I.as1)
  a16 : (V (Proc.devRef .tc main_arg16) : S256x1.Idx → EReal) = up2 (colOf I.an1)
  a17 : (V (Proc.devRef .tc main_arg17) : S256x128.Idx → EReal) = up2 I.Wg2
  a18 : (V (Proc.devRef .tc main_arg18) : S128x1.Idx → EReal) = up2 (colOf I.as2)
  a19 : (V (Proc.devRef .tc main_arg19) : S128x1.Idx → EReal) = up2 (colOf I.an2)
  a20 : (V (Proc.devRef .tc main_arg20) : S128x16.Idx → EReal) = up2 I.Wg3
  a21 : (V (Proc.devRef .tc main_arg21) : S16x1.Idx → EReal) = up2 (colOf I.as3)
  a22 : (V (Proc.devRef .tc main_arg22) : S16x1.Idx → EReal) = up2 (colOf I.an3)
  a23 : (V (Proc.devRef .tc main_arg23) : S10x16.Idx → EReal) = up2 I.cl

variable {V I} (h : ArgsAre V I)
include h

theorem tEh1_val : tEh1 V = up2 (encH1 I) := by
  rw [tEh1, h.a0, h.a2, h.a3, dense_up2, reluT_up2, encH1]

theorem tEh2_val : tEh2 V = up2 (encH2 I) := by
  rw [tEh2, tEh1_val h, h.a4, h.a5, dense_up2, reluT_up2, encH2]

theorem tZae_val : tZae V = up2 (zAe I) := by
  rw [tZae, tEh2_val h, h.a6, h.a7, dense_up2, zAe]

theorem tDh1_val : tDh1 V = up2 (decH1 I) := by
  rw [tDh1, tZae_val h, h.a8, h.a9, dense_up2, reluT_up2, decH1]

theorem tDh2_val : tDh2 V = up2 (decH2 I) := by
  rw [tDh2, tDh1_val h, h.a10, h.a11, dense_up2, reluT_up2, decH2]

theorem tXbar_val : tXbar V = up2 (xBar I) := by
  rw [tXbar, tDh2_val h, h.a12, h.a13, dense_up2, xBar]

theorem enc_main_v4 :
    (StableHlo.after (opsEnc (F := Ideal)) V (Proc.devRef .tc main_v4) : S4096x256.Idx → EReal) = up2 (encH1 I) := by
  refine Eq.trans ?_ (tEh1_val h)
  dsimp only [opsEnc]
  after_results_simp
  rfl

theorem enc_main_v9 :
    (StableHlo.after (opsEnc (F := Ideal)) V (Proc.devRef .tc main_v9) : S4096x128.Idx → EReal) = up2 (encH2 I) := by
  refine Eq.trans ?_ (tEh2_val h)
  dsimp only [opsEnc]
  after_results_simp
  rfl

theorem enc_main_v13 :
    (StableHlo.after (opsEnc (F := Ideal)) V (Proc.devRef .tc main_v13) : S4096x16.Idx → EReal) = up2 (zAe I) := by
  refine Eq.trans ?_ (tZae_val h)
  dsimp only [opsEnc]
  after_results_simp
  rfl

theorem enc_main_v27 :
    (StableHlo.after (opsEnc (F := Ideal)) V (Proc.devRef .tc main_v27) : S4096x512.Idx → EReal) = up2 (xBar I) := by
  refine Eq.trans ?_ (tXbar_val h)
  dsimp only [opsEnc]
  after_results_simp
  rfl

end Cert.ReferenceIdeal.RefRead

end
-- ==== Proof.Ref.ReadGat1.lean ====
import proofs.«156812_g12472585028273_cont_sun_m_131_10_alg».proof.Proof.Ref.Run
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import proofs.«156812_g12472585028273_cont_sun_m_131_10_alg».proof.Proof.Ref.ReadEnc
import Idealize.ShloMosaic.Lib.StableHlo.Run
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net Cert.Lift
open scoped BigOperators

namespace Gat

theorem transpose_up2 {m n : Nat} (h : (⟨2, ![m, n]⟩ : Shape).Transposes [1, 0] ⟨2, ![n, m]⟩) (A : Mat m n) :
    transpose ⟨2, ![n, m]⟩ [1, 0] (up2 A) h = up2 (fun p q => A q p) := by
  funext i
  obtain ⟨p, q, rfl⟩ : ∃ (p : Fin n) (q : Fin m), i = ix2 p q := ⟨i 0, i 1, eq_ix2 i⟩
  exact (transpose_ix2_apply _ h p q).trans rfl

theorem bsrc {n : Nat} (p : Fin n) : p.val = if n = 1 then 0 else p.val := by
  have := p.isLt
  split <;> omega

theorem bcast_cols_up {n m : Nat} (h : (⟨2, ![n, 1]⟩ : Shape).BroadcastsInDim ⟨2, ![n, m]⟩ ![0, 1]) (c : Mat n 1) :
    broadcastInDim ⟨2, ![n, m]⟩ ![0, 1] h (up2 c) = up2 (fun p _ => c p 0) := by
  funext i
  obtain ⟨p, q, rfl⟩ : ∃ (p : Fin n) (q : Fin m), i = ix2 p q := ⟨i 0, i 1, eq_ix2 i⟩
  refine (broadcastInDim_apply ![0, 1] h (up2 c) (ix2 p q) (ix2 p (0 : Fin 1)) ?_).trans rfl
  intro a
  match a with
  | ⟨0, _⟩ => exact bsrc p
  | ⟨1, _⟩ => rfl

theorem bcast_vec_col_up {n : Nat} (h : (⟨1, ![n]⟩ : Shape).BroadcastsInDim ⟨2, ![n, 1]⟩ ![0]) (v : Fin n → ℝ) :
    broadcastInDim ⟨2, ![n, 1]⟩ ![0] h (up1 v) = up2 (colOf v) := by
  funext i
  obtain ⟨p, u, rfl⟩ : ∃ (p : Fin n) (u : Fin 1), i = ix2 p u := ⟨i 0, i 1, eq_ix2 i⟩
  refine (broadcastInDim_apply ![0] h (up1 v) (ix2 p u) (ix1 p) ?_).trans rfl
  intro a
  match a with
  | ⟨0, _⟩ => exact bsrc p

theorem rowMax_up {n m : Nat} [NeZero m] {u : Shape} (h' : (⟨2, ![n, m]⟩ : Shape).ReducesTo [1] ⟨1, ![n]⟩)
    (h : (⟨2, ![n, m]⟩ : Shape).Reduces [1] ⟨1, ![n]⟩) (hu : 0 < u.numel) (A : Mat n m) :
    Host.reduce (FloatOps.maximumf (F := Ideal) (φ := .f32)) (up2 A) (constant u .f32 0xFF800000#32) h' hu
      = up1 (rowMax A) := by
  have hpos : 0 < (⟨2, ![n, m]⟩ : Shape).size (1 : Fin 2) := Nat.pos_of_ne_zero (NeZero.ne m)
  rw [up2_eq_up, hostReduce_max_single_negInf_up _ h' h hu hpos, up_eq_up1]
  rfl

theorem rowSum_up {n m : Nat} {u : Shape} (h' : (⟨2, ![n, m]⟩ : Shape).ReducesTo [1] ⟨1, ![n]⟩)
    (h : (⟨2, ![n, m]⟩ : Shape).Reduces [1] ⟨1, ![n]⟩) (hu : 0 < u.numel) (A : Mat n m) :
    Host.reduceAdd (F := Ideal) (φ := .f32) (up2 A) (constant u .f32 0x00000000#32) h' hu
      = up1 (fun i => ∑ k, A i k) := by
  rw [up2_eq_up, hostReduceAdd_single_zero_up _ h' h hu, up_eq_up1]
  rfl

/-- A word of the format broadcast over a shape. -/
abbrev kT {S : Shape} (hz : (⟨0, ![]⟩ : Shape).BroadcastsInDim S ![]) (w : BitVec 32) : S.Idx → EReal :=
  broadcastInDim S ![] hz (constant (F := Ideal) ⟨0, ![]⟩ .f32 w)

theorem kT_eq {S : Shape} (hz : (⟨0, ![]⟩ : Shape).BroadcastsInDim S ![]) (w : BitVec 32) :
    kT hz w = constant (F := Ideal) S .f32 w := rfl

theorem kT_up {S : Shape} {hz : (⟨0, ![]⟩ : Shape).BroadcastsInDim S ![]} {w : BitVec 32} {r : ℝ}
    (h : Ideal.ofBits .f32 w = (r : EReal)) : kT hz w = up (fun _ => r) :=
  constant_up h

/-- The score sums `sᵢ + tⱼ` with `s = h · aS`, `t = h · aN`. -/
def sumST {N d : Nat} (dS : DotDims ⟨2, ![N, d]⟩ ⟨2, ![d, 1]⟩ ⟨2, ![N, 1]⟩)
    (hT : (⟨2, ![N, 1]⟩ : Shape).Transposes [1, 0] ⟨2, ![1, N]⟩)
    (hC : (⟨2, ![N, 1]⟩ : Shape).BroadcastsInDim ⟨2, ![N, N]⟩ ![0, 1])
    (hR : (⟨2, ![1, N]⟩ : Shape).BroadcastsInDim ⟨2, ![N, N]⟩ ![0, 1])
    (h : (⟨2, ![N, d]⟩ : Shape).Idx → EReal) (aS aN : (⟨2, ![d, 1]⟩ : Shape).Idx → EReal) :
    (⟨2, ![N, N]⟩ : Shape).Idx → EReal :=
  addf (F := Ideal) (φ := .f32)
    (broadcastInDim ⟨2, ![N, N]⟩ ![0, 1] hC
      (Host.dotGeneral (F := Ideal) (φ₁ := .f32) (φ₂ := .f32) dS none h aS))
    (broadcastInDim ⟨2, ![N, N]⟩ ![0, 1] hR
      (transpose ⟨2, ![1, N]⟩ [1, 0] (Host.dotGeneral (F := Ideal) (φ₁ := .f32) (φ₂ := .f32) dS none h aN) hT))

theorem sumST_up2 {N d : Nat} (dS : DotDims ⟨2, ![N, d]⟩ ⟨2, ![d, 1]⟩ ⟨2, ![N, 1]⟩) (hd : dS = DotDims.plain N d 1)
    (hT : (⟨2, ![N, 1]⟩ : Shape).Transposes [1, 0] ⟨2, ![1, N]⟩)
    (hC : (⟨2, ![N, 1]⟩ : Shape).BroadcastsInDim ⟨2, ![N, N]⟩ ![0, 1])
    (hR : (⟨2, ![1, N]⟩ : Shape).BroadcastsInDim ⟨2, ![N, N]⟩ ![0, 1])
    (H : Mat N d) (a b : Fin d → ℝ) :
    sumST dS hT hC hR (up2 H) (up2 (colOf a)) (up2 (colOf b))
      = up2 (fun i j => (∑ l, H i l * a l) + (∑ l, H j l * b l)) := by
  unfold sumST
  rw [dot_up2 dS hd none H (colOf a), dot_up2 dS hd none H (colOf b), transpose_up2, bcast_cols_up, bcast_rows_up,
    addf_up2]
  rfl

section Pointwise

variable {n m : Nat} (hz : (⟨0, ![]⟩ : Shape).BroadcastsInDim ⟨2, ![n, m]⟩ ![])

/-- The leaky rectifier of the scores where the adjacency is positive, the mask word elsewhere. -/
def maskT (E A : (⟨2, ![n, m]⟩ : Shape).Idx → EReal) : (⟨2, ![n, m]⟩ : Shape).Idx → EReal :=
  select (cmpf (F := Ideal) (φ := .f32) .ogt A (kT hz 0x00000000#32))
    (select (cmpf (F := Ideal) (φ := .f32) .ogt E (kT hz 0x00000000#32)) E
      (mulf (F := Ideal) (φ := .f32) (kT hz 0x3E4CCCCD#32) E))
    (kT hz 0xD9FFCB9E#32)

theorem maskT_up2 (E A : Mat n m) :
    maskT hz (up2 E) (up2 A) = up2 (fun p q => if 0 < A p q then leaky slope (E p q) else negBig) := by
  unfold maskT
  rw [kT_up ofBits_zero, kT_up ofBits_slope, kT_up ofBits_mask, up2_eq_up, up2_eq_up, mulf_up, select_ogt_up,
    select_ogt_up]
  rfl

/-- The exponential linear unit: the value where positive, else one times the exponential-less-one of the value. -/
def eluT (X : (⟨2, ![n, m]⟩ : Shape).Idx → EReal) : (⟨2, ![n, m]⟩ : Shape).Idx → EReal :=
  select (cmpf (F := Ideal) (φ := .f32) .ogt X (kT hz 0x00000000#32)) X
    (mulf (F := Ideal) (φ := .f32) (kT hz 0x3F800000#32)
      (Host.expm1 (F := Ideal) (φ := .f32)
        (select (cmpf (F := Ideal) (φ := .f32) .ogt X (kT hz 0x00000000#32)) (kT hz 0x00000000#32) X)))

theorem eluT_up2 (Y : Mat n m) : eluT hz (up2 Y) = up2 (fun p q => elu (Y p q)) := by
  unfold eluT
  rw [kT_up ofBits_zero, kT_up ofBits_one, up2_eq_up, select_ogt_up, hostExpm1_up, mulf_up, select_ogt_up]
  exact congrArg up (funext fun i => eluR_eq (Y (i 0) (i 1)))

/-- The even mixture: each array times one half, added. -/
def mixT (G E : (⟨2, ![n, m]⟩ : Shape).Idx → EReal) : (⟨2, ![n, m]⟩ : Shape).Idx → EReal :=
  addf (F := Ideal) (φ := .f32) (mulf (F := Ideal) (φ := .f32) (kT hz 0x3F000000#32) G)
    (mulf (F := Ideal) (φ := .f32) (kT hz 0x3F000000#32) E)

theorem mixT_up2 (G E : Mat n m) : mixT hz (up2 G) (up2 E) = up2 (mixM G E) := by
  unfold mixT
  rw [kT_up ofBits_half, up2_eq_up, up2_eq_up, mulf_up, mulf_up, addf_up]
  rfl

end Pointwise

section Softmax

variable {n m : Nat} (hM : (⟨2, ![n, m]⟩ : Shape).ReducesTo [1] ⟨1, ![n]⟩) (hu : 0 < (⟨0, ![]⟩ : Shape).numel)
  (h1 : (⟨0, ![]⟩ : Shape).BroadcastsInDim ⟨1, ![n]⟩ ![])
  (hV : (⟨1, ![n]⟩ : Shape).BroadcastsInDim ⟨2, ![n, 1]⟩ ![0])
  (hC : (⟨2, ![n, 1]⟩ : Shape).BroadcastsInDim ⟨2, ![n, m]⟩ ![0, 1])

/-- The exponentials of the entries less their row's maximum. -/
def expT (X : (⟨2, ![n, m]⟩ : Shape).Idx → EReal) : (⟨2, ![n, m]⟩ : Shape).Idx → EReal :=
  Host.exp (F := Ideal) (φ := .f32) (subf (F := Ideal) (φ := .f32) X
    (broadcastInDim ⟨2, ![n, m]⟩ ![0, 1] hC (broadcastInDim ⟨2, ![n, 1]⟩ ![0] hV
      (maximumf (F := Ideal) (φ := .f32) (kT h1 0xFF800000#32)
        (Host.reduce (FloatOps.maximumf (F := Ideal) (φ := .f32)) X
          (constant (F := Ideal) ⟨0, ![]⟩ .f32 0xFF800000#32) hM hu)))))

theorem expT_up2 [NeZero m] (hM' : (⟨2, ![n, m]⟩ : Shape).Reduces [1] ⟨1, ![n]⟩) (A : Mat n m) :
    expT hM hu h1 hV hC (up2 A) = up2 (fun i k => Real.exp (A i k - rowMax A i)) := by
  unfold expT
  rw [rowMax_up hM hM' hu A, kT_eq, maximumf_constant_negInf_left, bcast_vec_col_up, bcast_cols_up, up2_eq_up,
    up2_eq_up, subf_up, hostExp_up]
  rfl

/-- The row softmax: every shifted exponential over its row's sum. -/
def softT (X : (⟨2, ![n, m]⟩ : Shape).Idx → EReal) : (⟨2, ![n, m]⟩ : Shape).Idx → EReal :=
  Host.divf (F := Ideal) (φ := .f32) (expT hM hu h1 hV hC X)
    (broadcastInDim ⟨2, ![n, m]⟩ ![0, 1] hC (broadcastInDim ⟨2, ![n, 1]⟩ ![0] hV
      (Host.reduceAdd (F := Ideal) (φ := .f32) (expT hM hu h1 hV hC X)
        (constant (F := Ideal) ⟨0, ![]⟩ .f32 0x00000000#32) hM hu)))

theorem softT_up2 [NeZero m] (hM' : (⟨2, ![n, m]⟩ : Shape).Reduces [1] ⟨1, ![n]⟩) (A : Mat n m) :
    softT hM hu h1 hV hC (up2 A)
      = up2 (fun i k => Real.exp (A i k - rowMax A i) / ∑ k', Real.exp (A i k' - rowMax A i)) := by
  unfold softT
  rw [expT_up2 hM hu h1 hV hC hM' A, rowSum_up hM hM' hu, bcast_vec_col_up, bcast_cols_up, up2_eq_up, up2_eq_up]
  refine (hostDivf_up _ _ (fun i => ?_)).trans rfl
  exact (rowSum_pos A (i 0)).ne'

end Softmax

section Loss

variable {N d : Nat} (hTg : (⟨2, ![N, d]⟩ : Shape).Transposes [1, 0] ⟨2, ![d, N]⟩)
  (dG : DotDims ⟨2, ![N, d]⟩ ⟨2, ![d, N]⟩ ⟨2, ![N, N]⟩) (hz : (⟨0, ![]⟩ : Shape).BroadcastsInDim ⟨2, ![N, N]⟩ ![])
  (hA : (⟨2, ![N, N]⟩ : Shape).ReducesTo [0, 1] ⟨0, ![]⟩) (hu : 0 < (⟨0, ![]⟩ : Shape).numel)

/-- The logistic of the Gram matrix, as one over one plus the exponential of the negation, less the adjacency. -/
def recT (g : (⟨2, ![N, d]⟩ : Shape).Idx → EReal) (adj : (⟨2, ![N, N]⟩ : Shape).Idx → EReal) :
    (⟨2, ![N, N]⟩ : Shape).Idx → EReal :=
  subf (F := Ideal) (φ := .f32)
    (Host.divf (F := Ideal) (φ := .f32) (kT hz 0x3F800000#32)
      (addf (F := Ideal) (φ := .f32) (kT hz 0x3F800000#32)
        (Host.exp (F := Ideal) (φ := .f32) (Host.negf (F := Ideal) (φ := .f32)
          (Host.dotGeneral (F := Ideal) (φ₁ := .f32) (φ₂ := .f32) dG none g (transpose ⟨2, ![d, N]⟩ [1, 0] g hTg))))))
    adj

/-- The structure loss: the squares of that difference summed over all entries, over `16777216`. -/
def lossT (g : (⟨2, ![N, d]⟩ : Shape).Idx → EReal) (adj : (⟨2, ![N, N]⟩ : Shape).Idx → EReal) :
    (⟨0, ![]⟩ : Shape).Idx → EReal :=
  Host.divf (F := Ideal) (φ := .f32)
    (Host.reduceAdd (F := Ideal) (φ := .f32)
      (mulf (F := Ideal) (φ := .f32) (recT hTg dG hz g adj) (recT hTg dG hz g adj))
      (constant (F := Ideal) ⟨0, ![]⟩ .f32 0x00000000#32) hA hu)
    (constant (F := Ideal) ⟨0, ![]⟩ .f32 0x4B800000#32)

theorem lossT_up2 (hdG : dG = DotDims.plain N d N) (Gm : Mat N d) (A : Mat N N) :
    lossT hTg dG hz hA hu (up2 Gm) (up2 A) = up0 (sqErr Gm A / 16777216) := by
  unfold lossT recT
  rw [transpose_up2, dot_up2 dG hdG none Gm _, kT_up ofBits_one, constant_2p24_up, up2_eq_up, up2_eq_up,
    hostLogisticExpansion_up _ _ _ rfl rfl, subf_up, mulf_up, hostReduceAdd_total_zero_up _ hA (fun b => b.elim0) hu,
    hostDivf_up]
  · funext i
    show ((_ : ℝ) : EReal) = ((sqErr Gm A / 16777216 : ℝ) : EReal)
    rw [sum_idx2]
    rfl
  · intro i
    norm_num

end Loss

section Layer

variable {N k d : Nat} (dH : DotDims ⟨2, ![N, k]⟩ ⟨2, ![k, d]⟩ ⟨2, ![N, d]⟩)
  (dS : DotDims ⟨2, ![N, d]⟩ ⟨2, ![d, 1]⟩ ⟨2, ![N, 1]⟩)
  (hT : (⟨2, ![N, 1]⟩ : Shape).Transposes [1, 0] ⟨2, ![1, N]⟩)
  (hC : (⟨2, ![N, 1]⟩ : Shape).BroadcastsInDim ⟨2, ![N, N]⟩ ![0, 1])
  (hR : (⟨2, ![1, N]⟩ : Shape).BroadcastsInDim ⟨2, ![N, N]⟩ ![0, 1])
  (hz : (⟨0, ![]⟩ : Shape).BroadcastsInDim ⟨2, ![N, N]⟩ ![])
  (hM : (⟨2, ![N, N]⟩ : Shape).ReducesTo [1] ⟨1, ![N]⟩) (hu : 0 < (⟨0, ![]⟩ : Shape).numel)
  (h1 : (⟨0, ![]⟩ : Shape).BroadcastsInDim ⟨1, ![N]⟩ ![])
  (hV : (⟨1, ![N]⟩ : Shape).BroadcastsInDim ⟨2, ![N, 1]⟩ ![0])
  (dA : DotDims ⟨2, ![N, N]⟩ ⟨2, ![N, d]⟩ ⟨2, ![N, d]⟩)
  (hzd : (⟨0, ![]⟩ : Shape).BroadcastsInDim ⟨2, ![N, d]⟩ ![])

/-- One attention layer's output: the unit of the softmax of the masked scores times the projected features. -/
def outT (x : (⟨2, ![N, k]⟩ : Shape).Idx → EReal) (W : (⟨2, ![k, d]⟩ : Shape).Idx → EReal)
    (aS aN : (⟨2, ![d, 1]⟩ : Shape).Idx → EReal) (adj : (⟨2, ![N, N]⟩ : Shape).Idx → EReal) :
    (⟨2, ![N, d]⟩ : Shape).Idx → EReal :=
  eluT hzd (Host.dotGeneral (F := Ideal) (φ₁ := .f32) (φ₂ := .f32) dA none
    (softT hM hu h1 hV hC (maskT hz
      (sumST dS hT hC hR (Host.dotGeneral (F := Ideal) (φ₁ := .f32) (φ₂ := .f32) dH none x W) aS aN) adj))
    (Host.dotGeneral (F := Ideal) (φ₁ := .f32) (φ₂ := .f32) dH none x W))

variable {dH dS hT hC hR hz hM hu h1 hV dA hzd}

theorem outT_up2 [NeZero N] (hdH : dH = DotDims.plain N k d) (hdS : dS = DotDims.plain N d 1)
    (hdA : dA = DotDims.plain N N d) (hM' : (⟨2, ![N, N]⟩ : Shape).Reduces [1] ⟨1, ![N]⟩)
    (X : Mat N k) (W : Mat k d) (a b : Fin d → ℝ) (A : Mat N N) :
    outT dH dS hT hC hR hz hM hu h1 hV dA hzd (up2 X) (up2 W) (up2 (colOf a)) (up2 (colOf b)) (up2 A)
      = up2 (attendR (scores slope negBig (mm X W) a b A) (mm X W)) := by
  unfold outT
  rw [dot_up2 dH hdH, sumST_up2 dS hdS, maskT_up2, softT_up2 hM hu h1 hV hC hM', dot_up2 dA hdA, eluT_up2]
  rfl

end Layer

end Gat

open Gat

variable (V : Valuation τ sig (Elt Ideal))

def gat1T : (⟨2, ![4096, 256]⟩ : Shape).Idx → EReal :=
  outT (N := 4096) (k := 512) (d := 256) dot_S4096x512_S512x256_S4096x256_1_0_0_1_n_n
    dot_S4096x256_S256x1_S4096x1_1_0_0_1_n_n transposes_S4096x1_S1x4096_1_0 bcast_S4096x1_S4096x4096_0_1
    bcast_S1x4096_S4096x4096_0_1 bcast_S_S4096x4096 reducesTo_S4096x4096_S4096_d1 h_S_ bcast_S_S4096
    bcast_S4096_S4096x1_0 dot_S4096x4096_S4096x256_S4096x256_1_0_0_1_n_n bcast_S_S4096x256
    (V (Proc.devRef .tc main_arg0)) (V (Proc.devRef .tc main_arg14)) (V (Proc.devRef .tc main_arg15))
    (V (Proc.devRef .tc main_arg16)) (V (Proc.devRef .tc main_arg1))

set_option maxRecDepth 8192 in
theorem gat1_readG :
    (StableHlo.after (opsGat1 (F := Ideal)) V (Proc.devRef .tc main_v55) : S4096x256.Idx → EReal)
      = gat1T V := by
  dsimp only [opsGat1]
  after_results_simp
  rfl

set_option maxRecDepth 8192 in
theorem gat1_readL :
    (StableHlo.after (opsGat1 (F := Ideal)) V (Proc.devRef .tc main_v67) : S_.Idx → EReal)
      = lossT (N := 4096) (d := 256) transposes_S4096x256_S256x4096_1_0 dot_S4096x256_S256x4096_S4096x4096_1_0_0_1_n_n
        bcast_S_S4096x4096 reducesTo_S4096x4096_S_d0_1 h_S_ (gat1T V) (V (Proc.devRef .tc main_arg1)) := by
  dsimp only [opsGat1]
  after_results_simp
  rfl

set_option maxRecDepth 8192 in
theorem gat1_readM :
    (StableHlo.after (opsGat1 (F := Ideal)) V (Proc.devRef .tc main_v72) : S4096x256.Idx → EReal)
      = mixT (n := 4096) (m := 256) bcast_S_S4096x256 (gat1T V) (V (Proc.devRef .tc main_v4)) := by
  dsimp only [opsGat1]
  after_results_simp
  rfl

variable (x : Mat 4096 512) (Wg1 : Mat 512 256) (as1 an1 : Fin 256 → ℝ) (adj : Mat 4096 4096) (eh1 : Mat 4096 256)
  (h0 : (V (Proc.devRef .tc main_arg0) : S4096x512.Idx → EReal) = up2 x)
  (h14 : (V (Proc.devRef .tc main_arg14) : S512x256.Idx → EReal) = up2 Wg1)
  (h15 : (V (Proc.devRef .tc main_arg15) : S256x1.Idx → EReal) = up2 (colOf as1))
  (h16 : (V (Proc.devRef .tc main_arg16) : S256x1.Idx → EReal) = up2 (colOf an1))
  (h1 : (V (Proc.devRef .tc main_arg1) : S4096x4096.Idx → EReal) = up2 adj)
include h0 h14 h15 h16 h1

theorem gat1T_val : gat1T V = up2 (attendR (scores slope negBig (mm x Wg1) as1 an1 adj) (mm x Wg1)) := by
  unfold gat1T
  rw [h0, h14, h15, h16, h1]
  exact outT_up2 rfl rfl rfl (by decide) x Wg1 as1 an1 adj

theorem gat1_main_v55 :
    (StableHlo.after (opsGat1 (F := Ideal)) V (Proc.devRef .tc main_v55) : S4096x256.Idx → EReal)
      = up2 (attendR (scores slope negBig (mm x Wg1) as1 an1 adj) (mm x Wg1)) :=
  (gat1_readG V).trans (gat1T_val V x Wg1 as1 an1 adj h0 h14 h15 h16 h1)

theorem gat1_main_v67 :
    (StableHlo.after (opsGat1 (F := Ideal)) V (Proc.devRef .tc main_v67) : S_.Idx → EReal)
      = up0 (sqErr (attendR (scores slope negBig (mm x Wg1) as1 an1 adj) (mm x Wg1)) adj / 16777216) :=
  (gat1_readL V).trans (by
    rw [gat1T_val V x Wg1 as1 an1 adj h0 h14 h15 h16 h1, h1]
    exact lossT_up2 _ _ _ _ _ rfl _ _)

theorem gat1_main_v72
    (h4 : (V (Proc.devRef .tc main_v4) : S4096x256.Idx → EReal) = up2 eh1) :
    (StableHlo.after (opsGat1 (F := Ideal)) V (Proc.devRef .tc main_v72) : S4096x256.Idx → EReal)
      = up2 (mixM (attendR (scores slope negBig (mm x Wg1) as1 an1 adj) (mm x Wg1)) eh1) :=
  (gat1_readM V).trans (by
    rw [gat1T_val V x Wg1 as1 an1 adj h0 h14 h15 h16 h1, h4]
    exact mixT_up2 _ _ _)

end Cert.ReferenceIdeal.RefRead

end
-- ==== Proof.Ref.ReadGat2.lean ====
import proofs.«156812_g12472585028273_cont_sun_m_131_10_alg».proof.Proof.Ref.ReadGat1

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net Gat

variable (V : Valuation τ sig (Elt Ideal))

def gat2T : (⟨2, ![4096, 128]⟩ : Shape).Idx → EReal :=
  outT (N := 4096) (k := 256) (d := 128) dot_S4096x256_S256x128_S4096x128_1_0_0_1_n_n
    dot_S4096x128_S128x1_S4096x1_1_0_0_1_n_n transposes_S4096x1_S1x4096_1_0 bcast_S4096x1_S4096x4096_0_1
    bcast_S1x4096_S4096x4096_0_1 bcast_S_S4096x4096 reducesTo_S4096x4096_S4096_d1 h_S_ bcast_S_S4096
    bcast_S4096_S4096x1_0 dot_S4096x4096_S4096x128_S4096x128_1_0_0_1_n_n bcast_S_S4096x128
    (V (Proc.devRef .tc main_v72)) (V (Proc.devRef .tc main_arg17)) (V (Proc.devRef .tc main_arg18))
    (V (Proc.devRef .tc main_arg19)) (V (Proc.devRef .tc main_arg1))

set_option maxRecDepth 8192 in
theorem gat2_readG :
    (StableHlo.after (opsGat2 (F := Ideal)) V (Proc.devRef .tc main_v100) : S4096x128.Idx → EReal)
      = gat2T V := by
  dsimp only [opsGat2]
  after_results_simp
  rfl

set_option maxRecDepth 8192 in
theorem gat2_readL :
    (StableHlo.after (opsGat2 (F := Ideal)) V (Proc.devRef .tc main_v112) : S_.Idx → EReal)
      = lossT (N := 4096) (d := 128) transposes_S4096x128_S128x4096_1_0 dot_S4096x128_S128x4096_S4096x4096_1_0_0_1_n_n
        bcast_S_S4096x4096 reducesTo_S4096x4096_S_d0_1 h_S_ (gat2T V) (V (Proc.devRef .tc main_arg1)) := by
  dsimp only [opsGat2]
  after_results_simp
  rfl

set_option maxRecDepth 8192 in
theorem gat2_readM :
    (StableHlo.after (opsGat2 (F := Ideal)) V (Proc.devRef .tc main_v117) : S4096x128.Idx → EReal)
      = mixT (n := 4096) (m := 128) bcast_S_S4096x128 (gat2T V) (V (Proc.devRef .tc main_v9)) := by
  dsimp only [opsGat2]
  after_results_simp
  rfl

variable (xin : Mat 4096 256) (Wg2 : Mat 256 128) (as2 an2 : Fin 128 → ℝ) (adj : Mat 4096 4096) (eh2 : Mat 4096 128)

structure Gat2Inputs : Prop where
  hx : (V (Proc.devRef .tc main_v72) : S4096x256.Idx → EReal) = up2 xin
  hW : (V (Proc.devRef .tc main_arg17) : S256x128.Idx → EReal) = up2 Wg2
  hS : (V (Proc.devRef .tc main_arg18) : S128x1.Idx → EReal) = up2 (colOf as2)
  hN : (V (Proc.devRef .tc main_arg19) : S128x1.Idx → EReal) = up2 (colOf an2)
  hA : (V (Proc.devRef .tc main_arg1) : S4096x4096.Idx → EReal) = up2 adj
  hE : (V (Proc.devRef .tc main_v9) : S4096x128.Idx → EReal) = up2 eh2

variable {V xin Wg2 as2 an2 adj eh2} (H : Gat2Inputs V xin Wg2 as2 an2 adj eh2)
include H

theorem gat2T_val : gat2T V = up2 (attendR (scores slope negBig (mm xin Wg2) as2 an2 adj) (mm xin Wg2)) := by
  unfold gat2T
  rw [H.hx, H.hW, H.hS, H.hN, H.hA]
  exact outT_up2 rfl rfl rfl (by decide) xin Wg2 as2 an2 adj

theorem gat2_g : (StableHlo.after (opsGat2 (F := Ideal)) V (Proc.devRef .tc main_v100) : S4096x128.Idx → EReal)
    = up2 (attendR (scores slope negBig (mm xin Wg2) as2 an2 adj) (mm xin Wg2)) :=
  (gat2_readG V).trans (gat2T_val H)

theorem gat2_loss : (StableHlo.after (opsGat2 (F := Ideal)) V (Proc.devRef .tc main_v112) : S_.Idx → EReal)
    = up0 (sqErr (attendR (scores slope negBig (mm xin Wg2) as2 an2 adj) (mm xin Wg2)) adj / 16777216) :=
  (gat2_readL V).trans (by
    rw [gat2T_val H, H.hA]
    exact lossT_up2 _ _ _ _ _ rfl _ _)

theorem gat2_mix : (StableHlo.after (opsGat2 (F := Ideal)) V (Proc.devRef .tc main_v117) : S4096x128.Idx → EReal)
    = up2 (mixM (attendR (scores slope negBig (mm xin Wg2) as2 an2 adj) (mm xin Wg2)) eh2) :=
  (gat2_readM V).trans (by
    rw [gat2T_val H, H.hE]
    exact mixT_up2 _ _ _)

end Cert.ReferenceIdeal.RefRead

end
-- ==== Proof.Ref.ReadGat3.lean ====
import proofs.«156812_g12472585028273_cont_sun_m_131_10_alg».proof.Proof.Ref.ReadGat1

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net Gat

def gat3T (V : Valuation τ sig (Elt Ideal)) : (⟨2, ![4096, 16]⟩ : Shape).Idx → EReal :=
  outT (N := 4096) (k := 128) (d := 16) dot_S4096x128_S128x16_S4096x16_1_0_0_1_n_n
    dot_S4096x16_S16x1_S4096x1_1_0_0_1_n_n transposes_S4096x1_S1x4096_1_0 bcast_S4096x1_S4096x4096_0_1
    bcast_S1x4096_S4096x4096_0_1 bcast_S_S4096x4096 reducesTo_S4096x4096_S4096_d1 h_S_ bcast_S_S4096
    bcast_S4096_S4096x1_0 dot_S4096x4096_S4096x16_S4096x16_1_0_0_1_n_n bcast_S_S4096x16
    (V (Proc.devRef .tc main_v117)) (V (Proc.devRef .tc main_arg20)) (V (Proc.devRef .tc main_arg21))
    (V (Proc.devRef .tc main_arg22)) (V (Proc.devRef .tc main_arg1))

set_option maxRecDepth 8192 in
theorem gat3_readG (V : Valuation τ sig (Elt Ideal)) :
    (StableHlo.after (opsGat3 (F := Ideal)) V (Proc.devRef .tc main_v145) : S4096x16.Idx → EReal)
      = gat3T V := by
  dsimp only [opsGat3]
  after_results_simp
  rfl

set_option maxRecDepth 8192 in
theorem gat3_readL (V : Valuation τ sig (Elt Ideal)) :
    (StableHlo.after (opsGat3 (F := Ideal)) V (Proc.devRef .tc main_v157) : S_.Idx → EReal)
      = lossT (N := 4096) (d := 16) transposes_S4096x16_S16x4096_1_0 dot_S4096x16_S16x4096_S4096x4096_1_0_0_1_n_n
        bcast_S_S4096x4096 reducesTo_S4096x4096_S_d0_1 h_S_ (gat3T V) (V (Proc.devRef .tc main_arg1)) := by
  dsimp only [opsGat3]
  after_results_simp
  rfl

set_option maxRecDepth 8192 in
theorem gat3_readM (V : Valuation τ sig (Elt Ideal)) :
    (StableHlo.after (opsGat3 (F := Ideal)) V (Proc.devRef .tc main_v162) : S4096x16.Idx → EReal)
      = mixT (n := 4096) (m := 16) bcast_S_S4096x16 (gat3T V) (V (Proc.devRef .tc main_v13)) := by
  dsimp only [opsGat3]
  after_results_simp
  rfl

variable (xin : Mat 4096 128) (Wg3 : Mat 128 16) (as3 an3 : Fin 16 → ℝ) (adj : Mat 4096 4096) (zae : Mat 4096 16)
  (V : Valuation τ sig (Elt Ideal))
  (hx : (V (Proc.devRef .tc main_v117) : S4096x128.Idx → EReal) = up2 xin)
  (hW : (V (Proc.devRef .tc main_arg20) : S128x16.Idx → EReal) = up2 Wg3)
  (hs : (V (Proc.devRef .tc main_arg21) : S16x1.Idx → EReal) = up2 (colOf as3))
  (hn : (V (Proc.devRef .tc main_arg22) : S16x1.Idx → EReal) = up2 (colOf an3))
  (hadj : (V (Proc.devRef .tc main_arg1) : S4096x4096.Idx → EReal) = up2 adj)
  (hz : (V (Proc.devRef .tc main_v13) : S4096x16.Idx → EReal) = up2 zae)
include hx hW hs hn hadj hz

theorem gat3T_val : gat3T V = up2 (attendR (scores slope negBig (mm xin Wg3) as3 an3 adj) (mm xin Wg3)) := by
  unfold gat3T
  rw [hx, hW, hs, hn, hadj]
  exact outT_up2 rfl rfl rfl (by decide) xin Wg3 as3 an3 adj

theorem gat3_main_v145 :
    (StableHlo.after (opsGat3 (F := Ideal)) V (Proc.devRef .tc main_v145) : S4096x16.Idx → EReal)
      = up2 (attendR (scores slope negBig (mm xin Wg3) as3 an3 adj) (mm xin Wg3)) :=
  (gat3_readG V).trans (gat3T_val xin Wg3 as3 an3 adj zae V hx hW hs hn hadj hz)

theorem gat3_main_v157 :
    (StableHlo.after (opsGat3 (F := Ideal)) V (Proc.devRef .tc main_v157) : S_.Idx → EReal)
      = up0 (sqErr (attendR (scores slope negBig (mm xin Wg3) as3 an3 adj) (mm xin Wg3)) adj / 16777216) :=
  (gat3_readL V).trans (by
    rw [gat3T_val xin Wg3 as3 an3 adj zae V hx hW hs hn hadj hz, hadj]
    exact lossT_up2 _ _ _ _ _ rfl _ _)

theorem gat3_main_v162 :
    (StableHlo.after (opsGat3 (F := Ideal)) V (Proc.devRef .tc main_v162) : S4096x16.Idx → EReal)
      = up2 (mixM (attendR (scores slope negBig (mm xin Wg3) as3 an3 adj) (mm xin Wg3)) zae) :=
  (gat3_readM V).trans (by
    rw [gat3T_val xin Wg3 as3 an3 adj zae V hx hW hs hn hadj hz, hz]
    exact mixT_up2 _ _ _)

end Cert.ReferenceIdeal.RefRead

end
-- ==== Proof.Ref.ReadTail.lean ====
import proofs.«156812_g12472585028273_cont_sun_m_131_10_alg».proof.Proof.Ref.Run
import proofs.«156812_g12472585028273_cont_sun_m_131_10_alg».proof.Proof.Ref.ReadEnc
import proofs.«156812_g12472585028273_cont_sun_m_131_10_alg».proof.Proof.Real.Spec
import proofs.«156812_g12472585028273_cont_sun_m_131_10_alg».proof.Proof.Real.Arr
import proofs.«156812_g12472585028273_cont_sun_m_131_10_alg».proof.Proof.Real.Lift
import Idealize.ShloMosaic.Lib.StableHlo.Run
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 4096

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net
open scoped BigOperators

theorem transpose_up2 {a b : Nat} (M : Mat a b) (h : (⟨2, ![a, b]⟩ : Shape).Transposes [1, 0] ⟨2, ![b, a]⟩) :
    transpose ⟨2, ![b, a]⟩ [1, 0] (up2 M) h = up2 (fun j i => M i j) := by
  funext i
  obtain ⟨p, q, rfl⟩ : ∃ (p : Fin b) (q : Fin a), i = ix2 p q := ⟨i 0, i 1, eq_ix2 i⟩
  rw [transpose_ix2_apply]
  rfl

def one4096 : S4096x4096.Idx → EReal :=
  broadcastInDim S4096x4096 ![] bcast_S_S4096x4096 (constant (F := Ideal) S_ .f32 0x3F800000#32)

def one10 : S4096x10.Idx → EReal :=
  broadcastInDim S4096x10 ![] bcast_S_S4096x10 (constant (F := Ideal) S_ .f32 0x3F800000#32)

def gramOf (x : S4096x16.Idx → EReal) : S4096x4096.Idx → EReal :=
  Host.dotGeneral (F := Ideal) (φ₁ := .f32) (φ₂ := .f32) dot_S4096x16_S16x4096_S4096x4096_1_0_0_1_n_n none x
    (transpose S16x4096 [1, 0] x transposes_S4096x16_S16x4096_1_0)

def logisticOf (g : S4096x4096.Idx → EReal) : S4096x4096.Idx → EReal :=
  Host.divf (F := Ideal) (φ := .f32) one4096
    (addf (F := Ideal) (φ := .f32) one4096 (Host.exp (F := Ideal) (φ := .f32) (Host.negf (F := Ideal) (φ := .f32) g)))

def diffOf (Z : S4096x16.Idx → EReal) (C : S10x16.Idx → EReal) : S4096x10x16.Idx → EReal :=
  subf (F := Ideal) (φ := .f32)
    (broadcastInDim S4096x10x16 ![0, 1, 2] bcast_S4096x1x16_S4096x10x16_0_1_2
      (broadcastInDim S4096x1x16 ![0, 2] bcast_S4096x16_S4096x1x16_0_2 Z))
    (broadcastInDim S4096x10x16 ![0, 1, 2] bcast_S1x10x16_S4096x10x16_0_1_2
      (broadcastInDim S1x10x16 ![1, 2] bcast_S10x16_S1x10x16_1_2 C))

def dist2Of (Z : S4096x16.Idx → EReal) (C : S10x16.Idx → EReal) : S4096x10.Idx → EReal :=
  Host.reduceAdd (F := Ideal) (φ := .f32) (mulf (F := Ideal) (φ := .f32) (diffOf Z C) (diffOf Z C))
    (constant (F := Ideal) S_ .f32 0x00000000#32) reducesTo_S4096x10x16_S4096x10_d2 h_S_

def kernOf (Z : S4096x16.Idx → EReal) (C : S10x16.Idx → EReal) : S4096x10.Idx → EReal :=
  Host.powf (F := Ideal) (φ := .f32)
    (Host.divf (F := Ideal) (φ := .f32) one10
      (addf (F := Ideal) (φ := .f32) one10 (Host.divf (F := Ideal) (φ := .f32) (dist2Of Z C) one10)))
    one10

def assignOf (Z : S4096x16.Idx → EReal) (C : S10x16.Idx → EReal) : S4096x10.Idx → EReal :=
  Host.divf (F := Ideal) (φ := .f32) (kernOf Z C)
    (broadcastInDim S4096x10 ![0, 1] bcast_S4096x1_S4096x10_0_1
      (broadcastInDim S4096x1 ![0] bcast_S4096_S4096x1_0
        (Host.reduceAdd (F := Ideal) (φ := .f32) (kernOf Z C) (constant (F := Ideal) S_ .f32 0x00000000#32)
          reducesTo_S4096x10_S4096_d1 h_S_)))

theorem one4096_eq : one4096 = Cert.Lift.up (fun _ => (1 : ℝ)) := by
  unfold one4096
  rw [Cert.Lift.broadcastInDim_constant]
  exact Cert.Lift.constant_one_up

theorem one10_eq : one10 = up2 (fun (_ : Fin 4096) (_ : Fin 10) => (1 : ℝ)) := by
  unfold one10
  rw [Cert.Lift.broadcastInDim_constant]
  exact Cert.Lift.constant_one_up

theorem gramOf_up2 (zg : Mat 4096 16) : gramOf (up2 zg) = up2 (fun i j => ∑ l, zg i l * zg j l) := by
  unfold gramOf
  rw [transpose_up2]
  exact dot_up2 _ rfl none zg (fun l j => zg j l)

/-- 1 + exp t ≠ 0 since exp t > 0. -/
theorem logisticOf_up2 (g : Mat 4096 4096) : logisticOf (up2 g) = up2 (fun i j => sigm (g i j)) := by
  unfold logisticOf
  rw [Cert.Lift.up2_eq_up]
  exact Cert.Lift.hostLogisticExpansion_up _ one4096 one4096 one4096_eq one4096_eq

theorem bcastZ_up (z : Mat 4096 16) :
    broadcastInDim S4096x10x16 ![0, 1, 2] bcast_S4096x1x16_S4096x10x16_0_1_2
        (broadcastInDim S4096x1x16 ![0, 2] bcast_S4096x16_S4096x1x16_0_2 (up2 z))
      = Cert.Lift.up (fun j : S4096x10x16.Idx => z (j 0) (j 2)) := by
  funext j
  obtain ⟨p, q, e, rfl⟩ : ∃ (p : Fin 4096) (q : Fin 10) (e : Fin 16), j = ix3 p q e := ⟨j 0, j 1, j 2, eq_ix3 j⟩
  exact (broadcastInDim_apply _ _ _ (ix3 p q e) (ix3 p (0 : Fin 1) e) (by intro a; fin_cases a <;> rfl)).trans
    ((broadcastInDim_apply _ _ _ (ix3 p (0 : Fin 1) e) (ix2 p e) (by intro a; fin_cases a <;> rfl)).trans rfl)

theorem bcastC_up (cl : Mat 10 16) :
    broadcastInDim S4096x10x16 ![0, 1, 2] bcast_S1x10x16_S4096x10x16_0_1_2
        (broadcastInDim S1x10x16 ![1, 2] bcast_S10x16_S1x10x16_1_2 (up2 cl))
      = Cert.Lift.up (fun j : S4096x10x16.Idx => cl (j 1) (j 2)) := by
  funext j
  obtain ⟨p, q, e, rfl⟩ : ∃ (p : Fin 4096) (q : Fin 10) (e : Fin 16), j = ix3 p q e := ⟨j 0, j 1, j 2, eq_ix3 j⟩
  exact (broadcastInDim_apply _ _ _ (ix3 p q e) (ix3 (0 : Fin 1) q e) (by intro a; fin_cases a <;> rfl)).trans
    ((broadcastInDim_apply _ _ _ (ix3 (0 : Fin 1) q e) (ix2 q e) (by intro a; fin_cases a <;> rfl)).trans rfl)

theorem bcastCol_up1 (f : Fin 4096 → ℝ) :
    broadcastInDim S4096x10 ![0, 1] bcast_S4096x1_S4096x10_0_1
        (broadcastInDim S4096x1 ![0] bcast_S4096_S4096x1_0 (up1 f))
      = up2 (fun (p : Fin 4096) (_ : Fin 10) => f p) := by
  funext i
  obtain ⟨p, q, rfl⟩ : ∃ (p : Fin 4096) (q : Fin 10), i = ix2 p q := ⟨i 0, i 1, eq_ix2 i⟩
  exact (broadcastInDim_apply _ _ _ (ix2 p q) (ix2 p (0 : Fin 1)) (by intro a; fin_cases a <;> rfl)).trans
    ((broadcastInDim_apply _ _ _ (ix2 p (0 : Fin 1)) (ix1 p) (by intro a; fin_cases a <;> rfl)).trans rfl)

theorem hostDivf_up2 {m n : Nat} (a b : Mat m n) (hb : ∀ p q, b p q ≠ 0) :
    Host.divf (F := Ideal) (φ := .f32) (up2 a) (up2 b) = up2 (fun p q => a p q / b p q) := by
  rw [Cert.Lift.up2_eq_up, Cert.Lift.up2_eq_up]
  exact Cert.Lift.hostDivf_up _ _ (fun i => hb (i 0) (i 1))

theorem dist2Of_up2 (z : Mat 4096 16) (cl : Mat 10 16) : dist2Of (up2 z) (up2 cl) = up2 (dist2R z cl) := by
  unfold dist2Of diffOf
  rw [bcastZ_up, bcastC_up, Cert.Lift.subf_up, Cert.Lift.mulf_up,
    Cert.Lift.hostReduceAdd_single_zero_up _ reducesTo_S4096x10x16_S4096x10_d2
      (by decide : S4096x10x16.Reduces [2] S4096x10) h_S_]
  funext i
  obtain ⟨p, q, rfl⟩ : ∃ (p : Fin 4096) (q : Fin 10), i = ix2 p q := ⟨i 0, i 1, eq_ix2 i⟩
  rfl

theorem rowSum_up2 (K : Mat 4096 10) :
    Host.reduceAdd (F := Ideal) (φ := .f32) (up2 K) (constant (F := Ideal) S_ .f32 0x00000000#32)
        reducesTo_S4096x10_S4096_d1 h_S_
      = up1 (fun p => ∑ k, K p k) := by
  rw [Cert.Lift.up2_eq_up,
    Cert.Lift.hostReduceAdd_single_zero_up _ reducesTo_S4096x10_S4096_d1
      (by decide : S4096x10.Reduces [1] S4096) h_S_]
  funext i
  obtain ⟨p, rfl⟩ : ∃ p : Fin 4096, i = ix1 p := ⟨i 0, eq_ix1 i⟩
  rfl

/-- 1 + Σ (difference)² ≠ 0, and t ^ 1 = t. -/
theorem kernOf_up2 (z : Mat 4096 16) (cl : Mat 10 16) : kernOf (up2 z) (up2 cl) = up2 (kernR z cl) := by
  unfold kernOf
  rw [dist2Of_up2, one10_eq, hostDivf_up2 _ _ (fun _ _ => one_ne_zero), addf_up2,
    hostDivf_up2 _ _ (fun p q => (kernR_den_pos z cl p q).ne'), Cert.Lift.up2_eq_up,
    Cert.Lift.hostPowf_one_up _ (up2 fun (_ : Fin 4096) (_ : Fin 10) => (1 : ℝ)) rfl]
  funext i
  show ((1 / (1 + dist2R z cl (i 0) (i 1) / 1) : ℝ) : EReal)
    = ((Real.rpow (1 / (1 + dist2R z cl (i 0) (i 1) / 1)) 1 : ℝ) : EReal)
  rw [Real.rpow_eq_pow, Real.rpow_one]

/-- Each row of the kernel sums to a positive number. -/
theorem assignOf_up2 (z : Mat 4096 16) (cl : Mat 10 16) : assignOf (up2 z) (up2 cl) = up2 (assignR z cl) := by
  unfold assignOf
  rw [kernOf_up2, rowSum_up2, bcastCol_up1, hostDivf_up2 _ _ (fun p _ => (kernR_rowSum_pos z cl p).ne')]
  rfl

variable {V : Valuation τ sig (Elt Ideal)} {adj : Mat 4096 4096} {zi zg zae : Mat 4096 16} {cl : Mat 10 16} {m0 m1 m2 : ℝ}

theorem tail_main_v163
    (hadj : (V (Proc.devRef .tc main_arg1) : S4096x4096.Idx → EReal) = up2 adj)
    (hzi : (V (Proc.devRef .tc main_v162) : S4096x16.Idx → EReal) = up2 zi) :
    (StableHlo.after (opsTail (F := Ideal)) V (Proc.devRef .tc main_v163) : S4096x16.Idx → EReal) = up2 (mm adj zi) := by
  rw [← dot_up2 dot_S4096x4096_S4096x16_S4096x16_1_0_0_1_n_n rfl none adj zi, ← hadj, ← hzi]
  dsimp only [opsTail]
  after_results_simp <;> rfl

theorem tail_main_v171 (hzg : (V (Proc.devRef .tc main_v145) : S4096x16.Idx → EReal) = up2 zg) :
    (StableHlo.after (opsTail (F := Ideal)) V (Proc.devRef .tc main_v171) : S4096x4096.Idx → EReal)
      = up2 (fun i j => sigm (∑ l, zg i l * zg j l)) := by
  rw [← logisticOf_up2, ← gramOf_up2, ← hzg]
  dsimp only [opsTail]
  after_results_simp <;> rfl

theorem tail_main_v190
    (hadj : (V (Proc.devRef .tc main_arg1) : S4096x4096.Idx → EReal) = up2 adj)
    (hzi : (V (Proc.devRef .tc main_v162) : S4096x16.Idx → EReal) = up2 zi)
    (hcl : (V (Proc.devRef .tc main_arg23) : S10x16.Idx → EReal) = up2 cl) :
    (StableHlo.after (opsTail (F := Ideal)) V (Proc.devRef .tc main_v190) : S4096x10.Idx → EReal)
      = up2 (assignR (mm adj zi) cl) := by
  rw [← assignOf_up2, ← dot_up2 dot_S4096x4096_S4096x16_S4096x16_1_0_0_1_n_n rfl none adj zi, ← hadj, ← hzi, ← hcl]
  dsimp only [opsTail]
  after_results_simp <;> rfl

theorem tail_main_v209
    (hzae : (V (Proc.devRef .tc main_v13) : S4096x16.Idx → EReal) = up2 zae)
    (hcl : (V (Proc.devRef .tc main_arg23) : S10x16.Idx → EReal) = up2 cl) :
    (StableHlo.after (opsTail (F := Ideal)) V (Proc.devRef .tc main_v209) : S4096x10.Idx → EReal)
      = up2 (assignR zae cl) := by
  rw [← assignOf_up2, ← hzae, ← hcl]
  dsimp only [opsTail]
  after_results_simp <;> rfl

theorem tail_main_v211
    (h0 : (V (Proc.devRef .tc main_v67) : S_.Idx → EReal) = up0 m0)
    (h1 : (V (Proc.devRef .tc main_v112) : S_.Idx → EReal) = up0 m1)
    (h2 : (V (Proc.devRef .tc main_v157) : S_.Idx → EReal) = up0 m2) :
    (StableHlo.after (opsTail (F := Ideal)) V (Proc.devRef .tc main_v211) : S_.Idx → EReal)
      = up0 ((m0 + m1) + m2) := by
  refine Eq.trans ?_ (show addf (F := Ideal) (φ := .f32) (addf (F := Ideal) (φ := .f32) (up0 m0) (up0 m1)) (up0 m2) = _ by
    rw [Cert.Lift.up0_eq_up, Cert.Lift.up0_eq_up, Cert.Lift.up0_eq_up, Cert.Lift.addf_up, Cert.Lift.addf_up]; rfl)
  rw [← h0, ← h1, ← h2]
  dsimp only [opsTail]
  after_results_simp <;> rfl

end Cert.ReferenceIdeal.RefRead

end
-- ==== Proof.Ref.Assemble.lean ====
import proofs.«156812_g12472585028273_cont_sun_m_131_10_alg».proof.Proof.Ref.Run
import proofs.«156812_g12472585028273_cont_sun_m_131_10_alg».proof.Proof.Ref.ReadEnc
import proofs.«156812_g12472585028273_cont_sun_m_131_10_alg».proof.Proof.Ref.ReadGat1
import proofs.«156812_g12472585028273_cont_sun_m_131_10_alg».proof.Proof.Ref.ReadGat2
import proofs.«156812_g12472585028273_cont_sun_m_131_10_alg».proof.Proof.Ref.ReadGat3
import proofs.«156812_g12472585028273_cont_sun_m_131_10_alg».proof.Proof.Ref.ReadTail
import proofs.«156812_g12472585028273_cont_sun_m_131_10_alg».proof.Proof.Real.Net
import proofs.«156812_g12472585028273_cont_sun_m_131_10_alg».proof.Proof.Real.Arr
import Idealize.ShloMosaic.Lib.StableHlo.Run

set_option maxRecDepth 4096

noncomputable section

namespace Cert.ReferenceIdeal.RefRead

open Idealize.ShloMosaic Idealize.ShloMosaic.ValueIdx Idealize.SL.Sem
open Cert.ReferenceIdeal Cert.ReferenceIdeal.Gen Cert.ReferenceIdeal.RefRun
open Cert.Net
open scoped BigOperators

variable (V0 : Valuation τ sig (Elt Ideal))

abbrev W1 : Valuation τ sig (Elt Ideal) := StableHlo.after (opsEnc (F := Ideal)) V0
abbrev W2 : Valuation τ sig (Elt Ideal) := StableHlo.after (opsGat1 (F := Ideal)) (W1 V0)
abbrev W3 : Valuation τ sig (Elt Ideal) := StableHlo.after (opsGat2 (F := Ideal)) (W2 V0)
abbrev W4 : Valuation τ sig (Elt Ideal) := StableHlo.after (opsGat3 (F := Ideal)) (W3 V0)

/-- A reference the first four stages do not write holds before each later stage what it held at the start. -/
theorem W_arg (r : Ref sig .tc) (h : r ∉ opsEnc_W ∧ r ∉ opsGat1_W ∧ r ∉ opsGat2_W ∧ r ∉ opsGat3_W) :
    W1 V0 (Proc.devRef .tc r) = V0 (Proc.devRef .tc r) ∧ W2 V0 (Proc.devRef .tc r) = V0 (Proc.devRef .tc r)
      ∧ W3 V0 (Proc.devRef .tc r) = V0 (Proc.devRef .tc r) ∧ W4 V0 (Proc.devRef .tc r) = V0 (Proc.devRef .tc r) := by
  have a := opsEnc_kept V0 h.1
  have b := (opsGat1_kept (W1 V0) h.2.1).trans a
  have c := (opsGat2_kept (W2 V0) h.2.2.1).trans b
  exact ⟨a, b, c, (opsGat3_kept (W3 V0) h.2.2.2).trans c⟩

theorem device_values {I : Inputs} (h : ArgsAre V0 I) :
    (StableHlo.after (ops (F := Ideal)) V0 (Proc.devRef .tc main_v27) : S4096x512.Idx → EReal) = up2 (xBar I)
    ∧ (StableHlo.after (ops (F := Ideal)) V0 (Proc.devRef .tc main_v171) : S4096x4096.Idx → EReal) = up2 (ahatR slope negBig I)
    ∧ (StableHlo.after (ops (F := Ideal)) V0 (Proc.devRef .tc main_v13) : S4096x16.Idx → EReal) = up2 (zAe I)
    ∧ (StableHlo.after (ops (F := Ideal)) V0 (Proc.devRef .tc main_v190) : S4096x10.Idx → EReal) = up2 (qR slope negBig I)
    ∧ (StableHlo.after (ops (F := Ideal)) V0 (Proc.devRef .tc main_v209) : S4096x10.Idx → EReal) = up2 (q1R I)
    ∧ (StableHlo.after (ops (F := Ideal)) V0 (Proc.devRef .tc main_v163) : S4096x16.Idx → EReal) = up2 (zlR slope negBig I)
    ∧ (StableHlo.after (ops (F := Ideal)) V0 (Proc.devRef .tc main_v211) : S_.Idx → EReal) = up0 (totR slope negBig I) := by
  have e13 : (W1 V0 (Proc.devRef .tc main_v13) : S4096x16.Idx → EReal) = up2 (zAe I) := enc_main_v13 h
  have adj := W_arg V0 main_arg1 (by decide)
  have hadj1 := adj.1.trans h.a1
  have hx1 := (W_arg V0 main_arg0 (by decide)).1.trans h.a0
  have hW1 := (W_arg V0 main_arg14 (by decide)).1.trans h.a14
  have hs1 := (W_arg V0 main_arg15 (by decide)).1.trans h.a15
  have hn1 := (W_arg V0 main_arg16 (by decide)).1.trans h.a16
  have g1 : (W2 V0 (Proc.devRef .tc main_v55) : S4096x256.Idx → EReal) = up2 (g1R slope negBig I) :=
    gat1_main_v55 (V := W1 V0) (x := I.x) (Wg1 := I.Wg1) (as1 := I.as1) (an1 := I.an1) (adj := I.adj) hx1 hW1 hs1 hn1 hadj1
  have l1 : (W2 V0 (Proc.devRef .tc main_v67) : S_.Idx → EReal) = up0 (sqErr (g1R slope negBig I) I.adj / 16777216) :=
    gat1_main_v67 (V := W1 V0) (x := I.x) (Wg1 := I.Wg1) (as1 := I.as1) (an1 := I.an1) (adj := I.adj) hx1 hW1 hs1 hn1 hadj1
  have x2 : (W2 V0 (Proc.devRef .tc main_v72) : S4096x256.Idx → EReal) = up2 (mixM (g1R slope negBig I) (encH1 I)) :=
    gat1_main_v72 (V := W1 V0) (x := I.x) (Wg1 := I.Wg1) (as1 := I.as1) (an1 := I.an1) (adj := I.adj) (eh1 := encH1 I) hx1 hW1 hs1 hn1 hadj1 (enc_main_v4 h)
  have H2 : Gat2Inputs (W2 V0) (mixM (g1R slope negBig I) (encH1 I)) I.Wg2 I.as2 I.an2 I.adj (encH2 I) :=
    ⟨x2, (W_arg V0 main_arg17 (by decide)).2.1.trans h.a17, (W_arg V0 main_arg18 (by decide)).2.1.trans h.a18,
      (W_arg V0 main_arg19 (by decide)).2.1.trans h.a19, adj.2.1.trans h.a1, (opsGat1_kept (W1 V0) (by decide)).trans (enc_main_v9 h)⟩
  have g2 : (W3 V0 (Proc.devRef .tc main_v100) : S4096x128.Idx → EReal) = up2 (g2R slope negBig I) := gat2_g H2
  have l2 : (W3 V0 (Proc.devRef .tc main_v112) : S_.Idx → EReal) = up0 (sqErr (g2R slope negBig I) I.adj / 16777216) := gat2_loss H2
  have x3 : (W3 V0 (Proc.devRef .tc main_v117) : S4096x128.Idx → EReal) = up2 (mixM (g2R slope negBig I) (encH2 I)) := gat2_mix H2
  have hW3 := (W_arg V0 main_arg20 (by decide)).2.2.1.trans h.a20
  have hs3 := (W_arg V0 main_arg21 (by decide)).2.2.1.trans h.a21
  have hn3 := (W_arg V0 main_arg22 (by decide)).2.2.1.trans h.a22
  have hadj3 := adj.2.2.1.trans h.a1
  have e13' := (opsGat2_kept (W2 V0) (by decide)).trans ((opsGat1_kept (W1 V0) (by decide)).trans e13)
  have g3 : (W4 V0 (Proc.devRef .tc main_v145) : S4096x16.Idx → EReal) = up2 (zgR slope negBig I) :=
    gat3_main_v145 (xin := mixM (g2R slope negBig I) (encH2 I)) (Wg3 := I.Wg3) (as3 := I.as3) (an3 := I.an3) (adj := I.adj) (zae := zAe I) (V := W3 V0) x3 hW3 hs3 hn3 hadj3 e13'
  have l3 : (W4 V0 (Proc.devRef .tc main_v157) : S_.Idx → EReal) = up0 (sqErr (zgR slope negBig I) I.adj / 16777216) :=
    gat3_main_v157 (xin := mixM (g2R slope negBig I) (encH2 I)) (Wg3 := I.Wg3) (as3 := I.as3) (an3 := I.an3) (adj := I.adj) (zae := zAe I) (V := W3 V0) x3 hW3 hs3 hn3 hadj3 e13'
  have x4 : (W4 V0 (Proc.devRef .tc main_v162) : S4096x16.Idx → EReal) = up2 (ziR slope negBig I) :=
    gat3_main_v162 (xin := mixM (g2R slope negBig I) (encH2 I)) (Wg3 := I.Wg3) (as3 := I.as3) (an3 := I.an3) (adj := I.adj) (zae := zAe I) (V := W3 V0) x3 hW3 hs3 hn3 hadj3 e13'
  have hadj4 := adj.2.2.2.trans h.a1
  have hcl := (W_arg V0 main_arg23 (by decide)).2.2.2.trans h.a23
  have hops := after_ops V0
  exact ⟨(after_ops_of_enc V0 (by decide)).trans (enc_main_v27 h),
    (congrFun hops _).trans (tail_main_v171 g3),
    (after_ops_of_enc V0 (by decide)).trans e13,
    (congrFun hops _).trans (tail_main_v190 hadj4 x4 hcl),
    (congrFun hops _).trans (tail_main_v209 ((opsGat3_kept (W3 V0) (by decide)).trans e13') hcl),
    (congrFun hops _).trans (tail_main_v163 hadj4 x4),
    (congrFun hops _).trans (tail_main_v211 ((opsGat3_kept (W3 V0) (by decide)).trans ((opsGat2_kept (W2 V0) (by decide)).trans l1))
      ((opsGat3_kept (W3 V0) (by decide)).trans l2) l3)⟩

theorem ref_values (m' : (ℓ : Loc nD τ sig) → Buf (Elt Ideal) ℓ) (ρ' : Dev nD → PrngReg) (I : Dev nD → Inputs)
    (hI : ∀ c : Dev nD,
      (m' ((c.tc : Thread nD τ).loc main_arg0) : S4096x512.Idx → EReal) = up2 (I c).x
      ∧ (m' ((c.tc : Thread nD τ).loc main_arg1) : S4096x4096.Idx → EReal) = up2 (I c).adj
      ∧ (m' ((c.tc : Thread nD τ).loc main_arg2) : S512x256.Idx → EReal) = up2 (I c).We1
      ∧ (m' ((c.tc : Thread nD τ).loc main_arg3) : S256.Idx → EReal) = up1 (I c).be1
      ∧ (m' ((c.tc : Thread nD τ).loc main_arg4) : S256x128.Idx → EReal) = up2 (I c).We2
      ∧ (m' ((c.tc : Thread nD τ).loc main_arg5) : S128.Idx → EReal) = up1 (I c).be2
      ∧ (m' ((c.tc : Thread nD τ).loc main_arg6) : S128x16.Idx → EReal) = up2 (I c).Wz
      ∧ (m' ((c.tc : Thread nD τ).loc main_arg7) : S16.Idx → EReal) = up1 (I c).bz
      ∧ (m' ((c.tc : Thread nD τ).loc main_arg8) : S16x128.Idx → EReal) = up2 (I c).Wd1
      ∧ (m' ((c.tc : Thread nD τ).loc main_arg9) : S128.Idx → EReal) = up1 (I c).bd1
      ∧ (m' ((c.tc : Thread nD τ).loc main_arg10) : S128x256.Idx → EReal) = up2 (I c).Wd2
      ∧ (m' ((c.tc : Thread nD τ).loc main_arg11) : S256.Idx → EReal) = up1 (I c).bd2
      ∧ (m' ((c.tc : Thread nD τ).loc main_arg12) : S256x512.Idx → EReal) = up2 (I c).Wxb
      ∧ (m' ((c.tc : Thread nD τ).loc main_arg13) : S512.Idx → EReal) = up1 (I c).bxb
      ∧ (m' ((c.tc : Thread nD τ).loc main_arg14) : S512x256.Idx → EReal) = up2 (I c).Wg1
      ∧ (m' ((c.tc : Thread nD τ).loc main_arg15) : S256x1.Idx → EReal) = up2 (colOf (I c).as1)
      ∧ (m' ((c.tc : Thread nD τ).loc main_arg16) : S256x1.Idx → EReal) = up2 (colOf (I c).an1)
      ∧ (m' ((c.tc : Thread nD τ).loc main_arg17) : S256x128.Idx → EReal) = up2 (I c).Wg2
      ∧ (m' ((c.tc : Thread nD τ).loc main_arg18) : S128x1.Idx → EReal) = up2 (colOf (I c).as2)
      ∧ (m' ((c.tc : Thread nD τ).loc main_arg19) : S128x1.Idx → EReal) = up2 (colOf (I c).an2)
      ∧ (m' ((c.tc : Thread nD τ).loc main_arg20) : S128x16.Idx → EReal) = up2 (I c).Wg3
      ∧ (m' ((c.tc : Thread nD τ).loc main_arg21) : S16x1.Idx → EReal) = up2 (colOf (I c).as3)
      ∧ (m' ((c.tc : Thread nD τ).loc main_arg22) : S16x1.Idx → EReal) = up2 (colOf (I c).an3)
      ∧ (m' ((c.tc : Thread nD τ).loc main_arg23) : S10x16.Idx → EReal) = up2 (I c).cl) :
    θ_run (defs (F := Ideal)) (onTc (τ := τ) (main (F := Ideal))) ⟨m', fun _ => 0, ρ'⟩ fun r => ∀ c : Dev nD,
      (r.2.mem ((c.tc : Thread nD τ).loc main_v27) : S4096x512.Idx → EReal) = up2 (xBar (I c))
      ∧ (r.2.mem ((c.tc : Thread nD τ).loc main_v171) : S4096x4096.Idx → EReal) = up2 (ahatR slope negBig (I c))
      ∧ (r.2.mem ((c.tc : Thread nD τ).loc main_v13) : S4096x16.Idx → EReal) = up2 (zAe (I c))
      ∧ (r.2.mem ((c.tc : Thread nD τ).loc main_v190) : S4096x10.Idx → EReal) = up2 (qR slope negBig (I c))
      ∧ (r.2.mem ((c.tc : Thread nD τ).loc main_v209) : S4096x10.Idx → EReal) = up2 (q1R (I c))
      ∧ (r.2.mem ((c.tc : Thread nD τ).loc main_v163) : S4096x16.Idx → EReal) = up2 (zlR slope negBig (I c))
      ∧ (r.2.mem ((c.tc : Thread nD τ).loc main_v211) : S_.Idx → EReal) = up0 (totR slope negBig (I c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23) := by
  refine (θ_run defs _ _).mono (fun r h c => ?_) (run_after m' ρ')
  obtain ⟨h0, h1, h2, h3, h4, h5, h6, h7, h8, h9, h10, h11, h12, h13, h14, h15, h16, h17, h18, h19, h20, h21, h22, h23⟩ := hI c
  obtain ⟨d0, d1, d2, d3, d4, d5, d6⟩ := device_values (StableHlo.launchContents m' c) (I := I c) ⟨h0, h1, h2, h3, h4, h5, h6, h7, h8, h9, h10, h11, h12, h13, h14, h15, h16, h17, h18, h19, h20, h21, h22, h23⟩
  refine ⟨(h c main_v27).trans d0, (h c main_v171).trans d1, (h c main_v13).trans d2, (h c main_v190).trans d3,
    (h c main_v209).trans d4, (h c main_v163).trans d5, (h c main_v211).trans d6, ?_⟩
  repeat' apply And.intro
  all_goals exact (h c _).trans (kept _ (by decide))

theorem frame_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => by
    repeat' apply And.intro
    all_goals exact (h c _).trans (kept _ (by decide))) (run_after m g)

end Cert.ReferenceIdeal.RefRead

end
-- ==== Proof.Real.Finite.lean ====
import proofs.«156812_g12472585028273_cont_sun_m_131_10_alg».proof.Pre_finite_inputs
import proofs.«156812_g12472585028273_cont_sun_m_131_10_alg».proof.Proof.Gen.Pre_finite_inputs
import Idealize.ShloMosaic.Lib.ReduceAll
import Idealize.ShloMosaic.PureOps.Ideal

noncomputable section

namespace Cert.FiniteIn

open Idealize.ShloMosaic Cert.Pre_finite_inputs

instance : Subsingleton S_.Idx := ⟨fun a b => funext fun d => d.elim0⟩

theorem ofBool_eq_one {b : Bool} : BitVec.ofBool b = 1#1 ↔ b = true := by cases b <;> decide

theorem inf_word : Ideal.ofBits .f32 0x7F800000#32 = (⊤ : EReal) := by simp [Ideal.ofBits, Ideal.ieee]

theorem coe_of_abs_lt_top {ι : Type} (x : ι → EReal) (h : ∀ i, max (x i) (-(x i)) < ⊤) :
    ∃ r : ι → ℝ, x = fun i => ((r i : ℝ) : EReal) := by
  refine ⟨fun i => (x i).toReal, funext fun i => (EReal.coe_toReal ?_ ?_).symm⟩
  · exact ne_of_lt (lt_of_le_of_lt (le_max_left _ _) (h i))
  · intro hb
    have hlt := lt_of_le_of_lt (le_max_right _ _) (h i)
    rw [hb, EReal.neg_bot] at hlt
    exact lt_irrefl _ hlt

theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu (fun a => a.elim0) = 1#1) :
    ∃ r : s.Idx → ℝ, x = fun i => ((r i : ℝ) : EReal) := by
  refine coe_of_abs_lt_top x fun i => ?_
  have hi := Host.reduce_andi_all _ _ hr hu _ e i
  have hc : Ideal.cmp .olt (max (x i) (-(x i))) (Ideal.ofBits .f32 0x7F800000#32) = 1#1 := hi
  rw [inf_word] at hc
  simpa [Ideal.cmp, ofBool_eq_one] using hc

theorem andi_at {s : Shape} {w : Nat} (a b : IVec s w) (i : s.Idx) : andi a b i = IntOp.andi (a i) (b i) := rfl

theorem real_of_pre [Cert.Pre_finite_inputs.Facts]
    (x0 : FVec Ideal S4096x512 .f32) (x1 : FVec Ideal S4096x4096 .f32) (x2 : FVec Ideal S512x256 .f32) (x3 : FVec Ideal S256 .f32) (x4 : FVec Ideal S256x128 .f32) (x5 : FVec Ideal S128 .f32) (x6 : FVec Ideal S128x16 .f32) (x7 : FVec Ideal S16 .f32) (x8 : FVec Ideal S16x128 .f32) (x9 : FVec Ideal S128 .f32) (x10 : FVec Ideal S128x256 .f32) (x11 : FVec Ideal S256 .f32) (x12 : FVec Ideal S256x512 .f32) (x13 : FVec Ideal S512 .f32) (x14 : FVec Ideal S512x256 .f32) (x15 : FVec Ideal S256x1 .f32) (x16 : FVec Ideal S256x1 .f32) (x17 : FVec Ideal S256x128 .f32) (x18 : FVec Ideal S128x1 .f32) (x19 : FVec Ideal S128x1 .f32) (x20 : FVec Ideal S128x16 .f32) (x21 : FVec Ideal S16x1 .f32) (x22 : FVec Ideal S16x1 .f32) (x23 : FVec Ideal S10x16 .f32)
    (h : Cert.Pre_finite_inputs.fn (F := Ideal) x0 x1 x2 x3 x4 x5 x6 x7 x8 x9 x10 x11 x12 x13 x14 x15 x16 x17 x18 x19 x20 x21 x22 x23 = (fun _ => 1#1)) :
    (∃ r0 : S4096x512.Idx → ℝ, x0 = fun i => ((r0 i : ℝ) : EReal))
    ∧ (∃ r1 : S4096x4096.Idx → ℝ, x1 = fun i => ((r1 i : ℝ) : EReal))
    ∧ (∃ r2 : S512x256.Idx → ℝ, x2 = fun i => ((r2 i : ℝ) : EReal))
    ∧ (∃ r3 : S256.Idx → ℝ, x3 = fun i => ((r3 i : ℝ) : EReal))
    ∧ (∃ r4 : S256x128.Idx → ℝ, x4 = fun i => ((r4 i : ℝ) : EReal))
    ∧ (∃ r5 : S128.Idx → ℝ, x5 = fun i => ((r5 i : ℝ) : EReal))
    ∧ (∃ r6 : S128x16.Idx → ℝ, x6 = fun i => ((r6 i : ℝ) : EReal))
    ∧ (∃ r7 : S16.Idx → ℝ, x7 = fun i => ((r7 i : ℝ) : EReal))
    ∧ (∃ r8 : S16x128.Idx → ℝ, x8 = fun i => ((r8 i : ℝ) : EReal))
    ∧ (∃ r9 : S128.Idx → ℝ, x9 = fun i => ((r9 i : ℝ) : EReal))
    ∧ (∃ r10 : S128x256.Idx → ℝ, x10 = fun i => ((r10 i : ℝ) : EReal))
    ∧ (∃ r11 : S256.Idx → ℝ, x11 = fun i => ((r11 i : ℝ) : EReal))
    ∧ (∃ r12 : S256x512.Idx → ℝ, x12 = fun i => ((r12 i : ℝ) : EReal))
    ∧ (∃ r13 : S512.Idx → ℝ, x13 = fun i => ((r13 i : ℝ) : EReal))
    ∧ (∃ r14 : S512x256.Idx → ℝ, x14 = fun i => ((r14 i : ℝ) : EReal))
    ∧ (∃ r15 : S256x1.Idx → ℝ, x15 = fun i => ((r15 i : ℝ) : EReal))
    ∧ (∃ r16 : S256x1.Idx → ℝ, x16 = fun i => ((r16 i : ℝ) : EReal))
    ∧ (∃ r17 : S256x128.Idx → ℝ, x17 = fun i => ((r17 i : ℝ) : EReal))
    ∧ (∃ r18 : S128x1.Idx → ℝ, x18 = fun i => ((r18 i : ℝ) : EReal))
    ∧ (∃ r19 : S128x1.Idx → ℝ, x19 = fun i => ((r19 i : ℝ) : EReal))
    ∧ (∃ r20 : S128x16.Idx → ℝ, x20 = fun i => ((r20 i : ℝ) : EReal))
    ∧ (∃ r21 : S16x1.Idx → ℝ, x21 = fun i => ((r21 i : ℝ) : EReal))
    ∧ (∃ r22 : S16x1.Idx → ℝ, x22 = fun i => ((r22 i : ℝ) : EReal))
    ∧ (∃ r23 : S10x16.Idx → ℝ, x23 = fun i => ((r23 i : ℝ) : EReal)) := by
  have h0 := congrFun h (fun a => a.elim0)
  dsimp only [fn, fn_part1, fn_part2, fn_part3, fn_part4, fn_part5, fn_part6] at h0
  simp only [andi_at, IntOp.andi_eq_one, and_assoc] at h0
  obtain ⟨h_0, h_1, h_2, h_3, h_4, h_5, h_6, h_7, h_8, h_9, h_10, h_11, h_12, h_13, h_14, h_15, h_16, h_17, h_18, h_19, h_20, h_21, h_22, h_23⟩ := h0
  exact ⟨real_of_all _ _ _ x0 h_0,
    real_of_all _ _ _ x1 h_1,
    real_of_all _ _ _ x2 h_2,
    real_of_all _ _ _ x3 h_3,
    real_of_all _ _ _ x4 h_4,
    real_of_all _ _ _ x5 h_5,
    real_of_all _ _ _ x6 h_6,
    real_of_all _ _ _ x7 h_7,
    real_of_all _ _ _ x8 h_8,
    real_of_all _ _ _ x9 h_9,
    real_of_all _ _ _ x10 h_10,
    real_of_all _ _ _ x11 h_11,
    real_of_all _ _ _ x12 h_12,
    real_of_all _ _ _ x13 h_13,
    real_of_all _ _ _ x14 h_14,
    real_of_all _ _ _ x15 h_15,
    real_of_all _ _ _ x16 h_16,
    real_of_all _ _ _ x17 h_17,
    real_of_all _ _ _ x18 h_18,
    real_of_all _ _ _ x19 h_19,
    real_of_all _ _ _ x20 h_20,
    real_of_all _ _ _ x21 h_21,
    real_of_all _ _ _ x22 h_22,
    real_of_all _ _ _ x23 h_23⟩

end Cert.FiniteIn

end
-- ==== Proof.Real.InputsOf.lean ====
import proofs.«156812_g12472585028273_cont_sun_m_131_10_alg».proof.Proof.Real.Finite
import proofs.«156812_g12472585028273_cont_sun_m_131_10_alg».proof.Proof.Real.Net
import proofs.«156812_g12472585028273_cont_sun_m_131_10_alg».proof.Proof.Real.Lift

noncomputable section

namespace Cert.Net

open Idealize.ShloMosaic Idealize.ShloMosaic.ValueIdx Cert.Pre_finite_inputs Cert.Lift

theorem mat_eq_colOf {d : Nat} (M : Fin d → Fin 1 → ℝ) : M = colOf (fun l => M l 0) := by
  funext l q
  have hq : q = 0 := Subsingleton.elim _ _
  rw [hq]
  rfl

theorem exists_inputs [Cert.Pre_finite_inputs.Facts]
    (x0 : FVec Ideal S4096x512 .f32) (x1 : FVec Ideal S4096x4096 .f32) (x2 : FVec Ideal S512x256 .f32) (x3 : FVec Ideal S256 .f32) (x4 : FVec Ideal S256x128 .f32) (x5 : FVec Ideal S128 .f32) (x6 : FVec Ideal S128x16 .f32) (x7 : FVec Ideal S16 .f32) (x8 : FVec Ideal S16x128 .f32) (x9 : FVec Ideal S128 .f32) (x10 : FVec Ideal S128x256 .f32) (x11 : FVec Ideal S256 .f32) (x12 : FVec Ideal S256x512 .f32) (x13 : FVec Ideal S512 .f32) (x14 : FVec Ideal S512x256 .f32) (x15 : FVec Ideal S256x1 .f32) (x16 : FVec Ideal S256x1 .f32) (x17 : FVec Ideal S256x128 .f32) (x18 : FVec Ideal S128x1 .f32) (x19 : FVec Ideal S128x1 .f32) (x20 : FVec Ideal S128x16 .f32) (x21 : FVec Ideal S16x1 .f32) (x22 : FVec Ideal S16x1 .f32) (x23 : FVec Ideal S10x16 .f32)
    (h : Cert.Pre_finite_inputs.fn (F := Ideal) x0 x1 x2 x3 x4 x5 x6 x7 x8 x9 x10 x11 x12 x13 x14 x15 x16 x17 x18 x19 x20 x21 x22 x23 = (fun _ => 1#1)) :
    ∃ I : Inputs,
      (x0 : S4096x512.Idx → EReal) = up2 I.x
      ∧ (x1 : S4096x4096.Idx → EReal) = up2 I.adj
      ∧ (x2 : S512x256.Idx → EReal) = up2 I.We1
      ∧ (x3 : S256.Idx → EReal) = up1 I.be1
      ∧ (x4 : S256x128.Idx → EReal) = up2 I.We2
      ∧ (x5 : S128.Idx → EReal) = up1 I.be2
      ∧ (x6 : S128x16.Idx → EReal) = up2 I.Wz
      ∧ (x7 : S16.Idx → EReal) = up1 I.bz
      ∧ (x8 : S16x128.Idx → EReal) = up2 I.Wd1
      ∧ (x9 : S128.Idx → EReal) = up1 I.bd1
      ∧ (x10 : S128x256.Idx → EReal) = up2 I.Wd2
      ∧ (x11 : S256.Idx → EReal) = up1 I.bd2
      ∧ (x12 : S256x512.Idx → EReal) = up2 I.Wxb
      ∧ (x13 : S512.Idx → EReal) = up1 I.bxb
      ∧ (x14 : S512x256.Idx → EReal) = up2 I.Wg1
      ∧ (x15 : S256x1.Idx → EReal) = up2 (colOf I.as1)
      ∧ (x16 : S256x1.Idx → EReal) = up2 (colOf I.an1)
      ∧ (x17 : S256x128.Idx → EReal) = up2 I.Wg2
      ∧ (x18 : S128x1.Idx → EReal) = up2 (colOf I.as2)
      ∧ (x19 : S128x1.Idx → EReal) = up2 (colOf I.an2)
      ∧ (x20 : S128x16.Idx → EReal) = up2 I.Wg3
      ∧ (x21 : S16x1.Idx → EReal) = up2 (colOf I.as3)
      ∧ (x22 : S16x1.Idx → EReal) = up2 (colOf I.an3)
      ∧ (x23 : S10x16.Idx → EReal) = up2 I.cl := by
  obtain ⟨⟨r0, rfl⟩, ⟨r1, rfl⟩, ⟨r2, rfl⟩, ⟨r3, rfl⟩, ⟨r4, rfl⟩, ⟨r5, rfl⟩, ⟨r6, rfl⟩, ⟨r7, rfl⟩, ⟨r8, rfl⟩, ⟨r9, rfl⟩, ⟨r10, rfl⟩, ⟨r11, rfl⟩, ⟨r12, rfl⟩, ⟨r13, rfl⟩, ⟨r14, rfl⟩, ⟨r15, rfl⟩, ⟨r16, rfl⟩, ⟨r17, rfl⟩, ⟨r18, rfl⟩, ⟨r19, rfl⟩, ⟨r20, rfl⟩, ⟨r21, rfl⟩, ⟨r22, rfl⟩, ⟨r23, rfl⟩⟩ :=
    Cert.FiniteIn.real_of_pre x0 x1 x2 x3 x4 x5 x6 x7 x8 x9 x10 x11 x12 x13 x14 x15 x16 x17 x18 x19 x20 x21 x22 x23 h
  exact ⟨⟨_, _, _, _, _, _, _, _, _, _, _, _, _, _, _, _, _, _, _, _, _, _, _, _⟩,
    up_eq_up2 r0, up_eq_up2 r1, up_eq_up2 r2, up_eq_up1 r3, up_eq_up2 r4, up_eq_up1 r5, up_eq_up2 r6, up_eq_up1 r7, up_eq_up2 r8, up_eq_up1 r9, up_eq_up2 r10, up_eq_up1 r11, up_eq_up2 r12, up_eq_up1 r13, up_eq_up2 r14, (up_eq_up2 r15).trans (congrArg up2 (mat_eq_colOf _)), (up_eq_up2 r16).trans (congrArg up2 (mat_eq_colOf _)), up_eq_up2 r17, (up_eq_up2 r18).trans (congrArg up2 (mat_eq_colOf _)), (up_eq_up2 r19).trans (congrArg up2 (mat_eq_colOf _)), up_eq_up2 r20, (up_eq_up2 r21).trans (congrArg up2 (mat_eq_colOf _)), (up_eq_up2 r22).trans (congrArg up2 (mat_eq_colOf _)), up_eq_up2 r23⟩

end Cert.Net

end
-- ==== Proof.lean ====
import proofs.«156812_g12472585028273_cont_sun_m_131_10_alg».proof.Defs
import proofs.«156812_g12472585028273_cont_sun_m_131_10_alg».proof.Proof.Gen.Kernel
import proofs.«156812_g12472585028273_cont_sun_m_131_10_alg».proof.Proof.Gen.KernelIdeal
import proofs.«156812_g12472585028273_cont_sun_m_131_10_alg».proof.Proof.Gen.ReferenceIdeal
import proofs.«156812_g12472585028273_cont_sun_m_131_10_alg».proof.Proof.Gen.Pre_finite_inputs
import proofs.«156812_g12472585028273_cont_sun_m_131_10_alg».proof.Proof.Ideal.Chain
import proofs.«156812_g12472585028273_cont_sun_m_131_10_alg».proof.Proof.Bits.Chain
import proofs.«156812_g12472585028273_cont_sun_m_131_10_alg».proof.Proof.Value.Kernel
import proofs.«156812_g12472585028273_cont_sun_m_131_10_alg».proof.Proof.Ref.Assemble
import proofs.«156812_g12472585028273_cont_sun_m_131_10_alg».proof.Proof.Real.InputsOf
import Idealize.ShloMosaic.Adequacy
import Idealize.ShloMosaic.Init

noncomputable section

namespace Cert.Proof

open Idealize.ShloMosaic Idealize.SL.Sem Cert.Net

theorem frame_kernel : Cert.frame_Kernel := fun m ρ _ => Cert.Kernel.Rg.frame m ρ

theorem frame_kernelIdeal : Cert.frame_KernelIdeal := fun m ρ _ => Cert.KernelIdeal.Rg.frame m ρ

theorem frame_reference : Cert.frame_ReferenceIdeal := fun m ρ _ => Cert.ReferenceIdeal.RefRead.frame_ref m ρ

theorem preserves : Cert.preserves_Kernel_KernelIdeal := trivial

/-- Under the precondition every input is an array of reals, and both programs end at the coercions of one real-valued network;
    its two spellings differ by three identities of the real field: a softmax row divided by its positive sum before or after the
    product with the features, one sum scaled by `2⁻²⁴` or three means, a squared distance expanded or as a sum of squared differences. -/
theorem algebraic : Cert.algebraic_KernelIdeal_ReferenceIdeal := by
  intro m ρ m' ρ' hpre hagree
  have hex : ∀ c : Dev Cert.KernelIdeal.nD, ∃ I : Cert.Net.Inputs, _ :=
    fun c => Cert.Net.exists_inputs _ _ _ _ _ _ _ _ _ _ _ _ _ _ _ _ _ _ _ _ _ _ _ _ (hpre c)
  choose I hI using hex
  refine ⟨fun c => up2 (xBar (I c)), fun c => up2 (ahatK slope negBig (I c)), fun c => up2 (zAe (I c)),
    fun c => up2 (qK slope negBig (I c)), fun c => up2 (q1K (I c)), fun c => up2 (zlK slope negBig (I c)),
    fun c => up0 (totK slope negBig (I c)),
    Cert.KernelIdeal.Val.kernel_values m ρ I hI, ?_⟩
  refine (θ_run _ _ _).mono (fun r h c => ?_) (Cert.ReferenceIdeal.RefRead.ref_values m' ρ' I fun c => by simp only [hagree c]; exact hI c)
  simp only [Cert.Net.ahat_eq, Cert.Net.q_eq, Cert.Net.q1_eq, Cert.Net.zl_eq, Cert.Net.tot_eq]
  exact h c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
